-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v226)) (v1 : (c : Dev Cert.KernelIdeal.nD) → Buf (Elt Ideal) ((c.tc : Thread Cert.KernelIdeal.nD Cert.KernelIdeal.τ).loc Cert.KernelIdeal.main_v230)) (v2 : (c : Dev Cert.KernelIdeal.nD) → Buf (Elt Ideal) ((c.tc : Thread Cert.KernelIdeal.nD Cert.KernelIdeal.τ).loc Cert.KernelIdeal.main_v10_0)) (v3 : (c : Dev Cert.KernelIdeal.nD) → Buf (Elt Ideal) ((c.tc : Thread Cert.KernelIdeal.nD Cert.KernelIdeal.τ).loc Cert.KernelIdeal.main_v10_2)) (v4 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v226) = v0 c
          ∧ r.2.mem ((c.tc : Thread Cert.KernelIdeal.nD Cert.KernelIdeal.τ).loc Cert.KernelIdeal.main_v230) = v1 c
          ∧ r.2.mem ((c.tc : Thread Cert.KernelIdeal.nD Cert.KernelIdeal.τ).loc Cert.KernelIdeal.main_v10_0) = v2 c
          ∧ r.2.mem ((c.tc : Thread Cert.KernelIdeal.nD Cert.KernelIdeal.τ).loc Cert.KernelIdeal.main_v10_2) = v3 c
          ∧ r.2.mem ((c.tc : Thread Cert.KernelIdeal.nD Cert.KernelIdeal.τ).loc Cert.KernelIdeal.main_v10_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v773) = v0 c
          ∧ r.2.mem ((c.tc : Thread Cert.ReferenceIdeal.nD Cert.ReferenceIdeal.τ).loc Cert.ReferenceIdeal.main_v777) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v558) = v3 c
          ∧ r.2.mem ((c.tc : Thread Cert.ReferenceIdeal.nD Cert.ReferenceIdeal.τ).loc Cert.ReferenceIdeal.main_v554) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10x8x16 : Shape := ⟨3, ![10, 8, 16]⟩
abbrev S10x8 : Shape := ⟨2, ![10, 8]⟩
abbrev S8x16 : Shape := ⟨2, ![8, 16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S10x8x16 : S_.BroadcastsInDim S10x8x16 (![] : Fin 0 → Fin S10x8x16.rank)
  reducesTo_S10x8x16_S_d0_1_2 : S10x8x16.ReducesTo [0, 1, 2] S_
  bcast_S_S10x8 : S_.BroadcastsInDim S10x8 (![] : Fin 0 → Fin S10x8.rank)
  reducesTo_S10x8_S_d0_1 : S10x8.ReducesTo [0, 1] S_
  bcast_S_S8x16 : S_.BroadcastsInDim S8x16 (![] : Fin 0 → Fin S8x16.rank)
  reducesTo_S8x16_S_d0_1 : S8x16.ReducesTo [0, 1] S_

variable [Facts]

def fn_part4 {F : FTy → Type} [FloatOps F] (main_arg15 : FVec F S8x16 .f32) (main_arg16 : FVec F S8x16 .f32) (main_v63 : IVec S_ 1) (main_v67 : IVec S_ 1) : IVec S_ 1 :=
  let main_v68 : IVec S_ 1 := andi main_v63 main_v67
  let main_v69 : FVec F S8x16 .f32 := Host.absf main_arg15
  let main_cst_26 : FVec F S_ .f32 := constant S_ .f32 0x7F800000#32
  let main_v70 : FVec F S8x16 .f32 := broadcastInDim S8x16 ![] bcast_S_S8x16 main_cst_26
  let main_v71 : IVec S8x16 1 := cmpf .olt main_v69 main_v70
  let main_c_27 : IVec S_ 1 := constantI S_ 1 1#1
  let main_v72 : IVec S_ 1 := (fun x v => Host.reduce IntOp.andi x v reducesTo_S8x16_S_d0_1 h_S_) main_v71 main_c_27
  let main_v73 : IVec S_ 1 := andi main_v68 main_v72
  let main_v74 : FVec F S8x16 .f32 := Host.absf main_arg16
  let main_cst_28 : FVec F S_ .f32 := constant S_ .f32 0x7F800000#32
  let main_v75 : FVec F S8x16 .f32 := broadcastInDim S8x16 ![] bcast_S_S8x16 main_cst_28
  let main_v76 : IVec S8x16 1 := cmpf .olt main_v74 main_v75
  let main_c_29 : IVec S_ 1 := constantI S_ 1 1#1
  let main_v77 : IVec S_ 1 := (fun x v => Host.reduce IntOp.andi x v reducesTo_S8x16_S_d0_1 h_S_) main_v76 main_c_29
  let main_v78 : IVec S_ 1 := andi main_v73 main_v77
  main_v78

def fn_part3 {F : FTy → Type} [FloatOps F] (main_arg12 : FVec F S10x8x16 .f32) (main_arg13 : FVec F S10x8 .f32) (main_arg14 : FVec F S10x8 .f32) (main_arg15 : FVec F S8x16 .f32) (main_arg16 : FVec F S8x16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S10x8x16 .f32 := Host.absf main_arg12
  let main_cst_20 : FVec F S_ .f32 := constant S_ .f32 0x7F800000#32
  let main_v55 : FVec F S10x8x16 .f32 := broadcastInDim S10x8x16 ![] bcast_S_S10x8x16 main_cst_20
  let main_v56 : IVec S10x8x16 1 := cmpf .olt main_v54 main_v55
  let main_c_21 : IVec S_ 1 := constantI S_ 1 1#1
  let main_v57 : IVec S_ 1 := (fun x v => Host.reduce IntOp.andi x v reducesTo_S10x8x16_S_d0_1_2 h_S_) main_v56 main_c_21
  let main_v58 : IVec S_ 1 := andi main_v53 main_v57
  let main_v59 : FVec F S10x8 .f32 := Host.absf main_arg13
  let main_cst_22 : FVec F S_ .f32 := constant S_ .f32 0x7F800000#32
  let main_v60 : FVec F S10x8 .f32 := broadcastInDim S10x8 ![] bcast_S_S10x8 main_cst_22
  let main_v61 : IVec S10x8 1 := cmpf .olt main_v59 main_v60
  let main_c_23 : IVec S_ 1 := constantI S_ 1 1#1
  let main_v62 : IVec S_ 1 := (fun x v => Host.reduce IntOp.andi x v reducesTo_S10x8_S_d0_1 h_S_) main_v61 main_c_23
  let main_v63 : IVec S_ 1 := andi main_v58 main_v62
  let main_v64 : FVec F S10x8 .f32 := Host.absf main_arg14
  let main_cst_24 : FVec F S_ .f32 := constant S_ .f32 0x7F800000#32
  let main_v65 : FVec F S10x8 .f32 := broadcastInDim S10x8 ![] bcast_S_S10x8 main_cst_24
  let main_v66 : IVec S10x8 1 := cmpf .olt main_v64 main_v65
  let main_c_25 : IVec S_ 1 := constantI S_ 1 1#1
  let main_v67 : IVec S_ 1 := (fun x v => Host.reduce IntOp.andi x v reducesTo_S10x8_S_d0_1 h_S_) main_v66 main_c_25
  fn_part4 (F := F) main_arg15 main_arg16 main_v63 main_v67

def fn_part2 {F : FTy → Type} [FloatOps F] (main_arg8 : FVec F S64 .f32) (main_arg9 : FVec F S64 .f32) (main_arg10 : FVec F S64x16 .f32) (main_arg11 : FVec F S16 .f32) (main_arg12 : FVec F S10x8x16 .f32) (main_arg13 : FVec F S10x8 .f32) (main_arg14 : FVec F S10x8 .f32) (main_arg15 : FVec F S8x16 .f32) (main_arg16 : FVec F S8x16 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x16 .f32 := Host.absf main_arg10
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_arg15 main_arg16 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x16 .f32) (main_arg11 : FVec F S16 .f32) (main_arg12 : FVec F S10x8x16 .f32) (main_arg13 : FVec F S10x8 .f32) (main_arg14 : FVec F S10x8 .f32) (main_arg15 : FVec F S8x16 .f32) (main_arg16 : FVec F S8x16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x256 .f32) (main_arg1 : IVec S2x3200000 32) (main_arg2 : FVec F S256x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x16 .f32) (main_arg11 : FVec F S16 .f32) (main_arg12 : FVec F S10x8x16 .f32) (main_arg13 : FVec F S10x8 .f32) (main_arg14 : FVec F S10x8 .f32) (main_arg15 : FVec F S8x16 .f32) (main_arg16 : FVec F S8x16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10x8x16 : Shape := ⟨3, ![10, 8, 16]⟩
abbrev S10x8 : Shape := ⟨2, ![10, 8]⟩
abbrev S8x16 : Shape := ⟨2, ![8, 16]⟩
abbrev S100000x64 : Shape := ⟨2, ![100000, 64]⟩
abbrev S2000x256 : Shape := ⟨2, ![2000, 256]⟩
abbrev S2000x64 : Shape := ⟨2, ![2000, 64]⟩
abbrev S1x64 : Shape := ⟨2, ![1, 64]⟩
abbrev S_ : Shape := ⟨0, ![]⟩
abbrev S100000x16 : Shape := ⟨2, ![100000, 16]⟩
abbrev S100000x8 : Shape := ⟨2, ![100000, 8]⟩
abbrev S400x64 : Shape := ⟨2, ![400, 64]⟩
abbrev S400x16 : Shape := ⟨2, ![400, 16]⟩
abbrev S400x8 : Shape := ⟨2, ![400, 8]⟩
abbrev S1x16 : Shape := ⟨2, ![1, 16]⟩
abbrev S400x1x16 : Shape := ⟨3, ![400, 1, 16]⟩
abbrev S400x8x16 : Shape := ⟨3, ![400, 8, 16]⟩
abbrev S1x8 : Shape := ⟨2, ![1, 8]⟩
abbrev S8 : Shape := ⟨1, ![8]⟩
abbrev S1x8x1 : Shape := ⟨3, ![1, 8, 1]⟩
abbrev S1x8x16 : Shape := ⟨3, ![1, 8, 16]⟩
abbrev S400x8x1 : Shape := ⟨3, ![400, 8, 1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x8 : Shape := ⟨2, ![3300000, 8]⟩
abbrev S100000x1 : Shape := ⟨2, ![100000, 1]⟩

abbrev nBuf : Space → Nat
  | .hbm => 362
  | .vmem => 35
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x16, .f32⟩
  | 11 => ⟨S16, .f32⟩
  | 12 => ⟨S10x8x16, .f32⟩
  | 13 => ⟨S10x8, .f32⟩
  | 14 => ⟨S10x8, .f32⟩
  | 15 => ⟨S8x16, .f32⟩
  | 16 => ⟨S8x16, .f32⟩
  | 17 => ⟨S100000x64, .f32⟩
  | 18 => ⟨S_, .f32⟩
  | 19 => ⟨S64, .f32⟩
  | 20 => ⟨S_, .f32⟩
  | 21 => ⟨S64, .f32⟩
  | 22 => ⟨S64, .f32⟩
  | 23 => ⟨S_, .i32⟩
  | 24 => ⟨S_, .f32⟩
  | 25 => ⟨S64, .f32⟩
  | 26 => ⟨S1x64, .f32⟩
  | 27 => ⟨S_, .f32⟩
  | 28 => ⟨S1x64, .f32⟩
  | 29 => ⟨S1x64, .f32⟩
  | 30 => ⟨S100000x64, .f32⟩
  | 31 => ⟨S100000x64, .f32⟩
  | 32 => ⟨S100000x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S100000x16, .f32⟩
  | 76 => ⟨S100000x8, .f32⟩
  | 77 => ⟨S100000x8, .f32⟩
  | 78 => ⟨S100000, .i32⟩
  | 79 => ⟨S1x3200000, .i32⟩
  | 80 => ⟨S3200000, .i32⟩
  | 81 => ⟨S3300000, .i32⟩
  | 82 => ⟨S1x3200000, .i32⟩
  | 83 => ⟨S3200000, .i32⟩
  | 84 => ⟨S3300000, .i32⟩
  | 85 => ⟨S_, .f32⟩
  | 86 => ⟨S3300000, .f32⟩
  | 87 => ⟨S_, .f32⟩
  | 88 => ⟨S100000, .f32⟩
  | 89 => ⟨S3300000x1, .i32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000, .f32⟩
  | 120 => ⟨S3300000, .f32⟩
  | 121 => ⟨S3300000x1, .f32⟩
  | 122 => ⟨S_, .i32⟩
  | 123 => ⟨S3300000, .i32⟩
  | 124 => ⟨S3300000, .i1⟩
  | 125 => ⟨S_, .i32⟩
  | 126 => ⟨S3300000, .i32⟩
  | 127 => ⟨S3300000, .i32⟩
  | _ => ⟨S100000x256, .f32⟩

abbrev hbmTy0_1 (i : Nat) : BufTy := match i % 128 with
  | 0 => ⟨S3300000, .i32⟩
  | 1 => ⟨S3300000x1, .i32⟩
  | 2 => ⟨S3300000x8, .f32⟩
  | 3 => ⟨S3300000x8, .f32⟩
  | 4 => ⟨S3300000x8, .f32⟩
  | 5 => ⟨S_, .f32⟩
  | 6 => ⟨S100000x8, .f32⟩
  | 7 => ⟨S3300000x1, .i32⟩
  | 8 => ⟨S100000x8, .f32⟩
  | 9 => ⟨S_, .f32⟩
  | 10 => ⟨S100000x8, .f32⟩
  | 11 => ⟨S100000x8, .f32⟩
  | 12 => ⟨S_, .f32⟩
  | 13 => ⟨S100000x8, .f32⟩
  | 14 => ⟨S100000x8, .f32⟩
  | 15 => ⟨S100000x8, .f32⟩
  | 16 => ⟨S3300000x1, .f32⟩
  | 17 => ⟨S_, .i32⟩
  | 18 => ⟨S3300000, .i32⟩
  | 19 => ⟨S3300000, .i1⟩
  | 20 => ⟨S_, .i32⟩
  | 21 => ⟨S3300000, .i32⟩
  | 22 => ⟨S3300000, .i32⟩
  | 23 => ⟨S3300000, .i32⟩
  | 24 => ⟨S3300000x1, .i32⟩
  | 25 => ⟨S3300000x8, .f32⟩
  | 26 => ⟨S3300000x8, .f32⟩
  | 27 => ⟨S3300000x8, .f32⟩
  | 28 => ⟨S_, .f32⟩
  | 29 => ⟨S100000x8, .f32⟩
  | 30 => ⟨S3300000x1, .i32⟩
  | 31 => ⟨S100000x8, .f32⟩
  | 32 => ⟨S_, .f32⟩
  | 33 => ⟨S100000x8, .f32⟩
  | 34 => ⟨S100000x8, .f32⟩
  | 35 => ⟨S_, .f32⟩
  | 36 => ⟨S100000x8, .f32⟩
  | 37 => ⟨S100000x8, .f32⟩
  | 38 => ⟨S100000x8, .f32⟩
  | 39 => ⟨S3300000x1, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000x8, .f32⟩
  | 49 => ⟨S3300000x8, .f32⟩
  | 50 => ⟨S3300000x8, .f32⟩
  | 51 => ⟨S_, .f32⟩
  | 52 => ⟨S100000x8, .f32⟩
  | 53 => ⟨S3300000x1, .i32⟩
  | 54 => ⟨S100000x8, .f32⟩
  | 55 => ⟨S_, .f32⟩
  | 56 => ⟨S100000x8, .f32⟩
  | 57 => ⟨S100000x8, .f32⟩
  | 58 => ⟨S_, .f32⟩
  | 59 => ⟨S100000x8, .f32⟩
  | 60 => ⟨S100000x8, .f32⟩
  | 61 => ⟨S100000x8, .f32⟩
  | 62 => ⟨S3300000x1, .f32⟩
  | 63 => ⟨S_, .i32⟩
  | 64 => ⟨S3300000, .i32⟩
  | 65 => ⟨S3300000, .i1⟩
  | 66 => ⟨S_, .i32⟩
  | 67 => ⟨S3300000, .i32⟩
  | 68 => ⟨S3300000, .i32⟩
  | 69 => ⟨S3300000, .i32⟩
  | 70 => ⟨S3300000x1, .i32⟩
  | 71 => ⟨S3300000x8, .f32⟩
  | 72 => ⟨S3300000x8, .f32⟩
  | 73 => ⟨S3300000x8, .f32⟩
  | 74 => ⟨S_, .f32⟩
  | 75 => ⟨S100000x8, .f32⟩
  | 76 => ⟨S3300000x1, .i32⟩
  | 77 => ⟨S100000x8, .f32⟩
  | 78 => ⟨S_, .f32⟩
  | 79 => ⟨S100000x8, .f32⟩
  | 80 => ⟨S100000x8, .f32⟩
  | 81 => ⟨S_, .f32⟩
  | 82 => ⟨S100000x8, .f32⟩
  | 83 => ⟨S100000x8, .f32⟩
  | 84 => ⟨S100000x8, .f32⟩
  | 85 => ⟨S3300000x1, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000x8, .f32⟩
  | 95 => ⟨S3300000x8, .f32⟩
  | 96 => ⟨S3300000x8, .f32⟩
  | 97 => ⟨S_, .f32⟩
  | 98 => ⟨S100000x8, .f32⟩
  | 99 => ⟨S3300000x1, .i32⟩
  | 100 => ⟨S100000x8, .f32⟩
  | 101 => ⟨S_, .f32⟩
  | 102 => ⟨S100000x8, .f32⟩
  | 103 => ⟨S100000x8, .f32⟩
  | 104 => ⟨S_, .f32⟩
  | 105 => ⟨S100000x8, .f32⟩
  | 106 => ⟨S100000x8, .f32⟩
  | 107 => ⟨S100000x8, .f32⟩
  | 108 => ⟨S3300000x1, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x8, .f32⟩
  | 118 => ⟨S3300000x8, .f32⟩
  | 119 => ⟨S3300000x8, .f32⟩
  | 120 => ⟨S_, .f32⟩
  | 121 => ⟨S100000x8, .f32⟩
  | 122 => ⟨S3300000x1, .i32⟩
  | 123 => ⟨S100000x8, .f32⟩
  | 124 => ⟨S_, .f32⟩
  | 125 => ⟨S100000x8, .f32⟩
  | 126 => ⟨S100000x8, .f32⟩
  | 127 => ⟨S_, .f32⟩
  | _ => ⟨S100000x256, .f32⟩

abbrev hbmTy0_2 (i : Nat) : BufTy := match i % 128 with
  | 0 => ⟨S100000x8, .f32⟩
  | 1 => ⟨S100000x8, .f32⟩
  | 2 => ⟨S100000x8, .f32⟩
  | 3 => ⟨S3300000x1, .f32⟩
  | 4 => ⟨S_, .i32⟩
  | 5 => ⟨S3300000, .i32⟩
  | 6 => ⟨S3300000, .i1⟩
  | 7 => ⟨S_, .i32⟩
  | 8 => ⟨S3300000, .i32⟩
  | 9 => ⟨S3300000, .i32⟩
  | 10 => ⟨S3300000, .i32⟩
  | 11 => ⟨S3300000x1, .i32⟩
  | 12 => ⟨S3300000x8, .f32⟩
  | 13 => ⟨S3300000x8, .f32⟩
  | 14 => ⟨S3300000x8, .f32⟩
  | 15 => ⟨S_, .f32⟩
  | 16 => ⟨S100000x8, .f32⟩
  | 17 => ⟨S3300000x1, .i32⟩
  | 18 => ⟨S100000x8, .f32⟩
  | 19 => ⟨S_, .f32⟩
  | 20 => ⟨S100000x8, .f32⟩
  | 21 => ⟨S100000x8, .f32⟩
  | 22 => ⟨S_, .f32⟩
  | 23 => ⟨S100000x8, .f32⟩
  | 24 => ⟨S100000x8, .f32⟩
  | 25 => ⟨S100000x8, .f32⟩
  | 26 => ⟨S3300000x1, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000x8, .f32⟩
  | 36 => ⟨S3300000x8, .f32⟩
  | 37 => ⟨S3300000x8, .f32⟩
  | 38 => ⟨S_, .f32⟩
  | 39 => ⟨S100000x8, .f32⟩
  | 40 => ⟨S3300000x1, .i32⟩
  | 41 => ⟨S100000x8, .f32⟩
  | 42 => ⟨S_, .f32⟩
  | 43 => ⟨S100000x8, .f32⟩
  | 44 => ⟨S100000x8, .f32⟩
  | 45 => ⟨S_, .f32⟩
  | 46 => ⟨S100000x8, .f32⟩
  | 47 => ⟨S100000x8, .f32⟩
  | 48 => ⟨S100000x8, .f32⟩
  | 49 => ⟨S3300000x1, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x8, .f32⟩
  | 59 => ⟨S3300000x8, .f32⟩
  | 60 => ⟨S3300000x8, .f32⟩
  | 61 => ⟨S_, .f32⟩
  | 62 => ⟨S100000x8, .f32⟩
  | 63 => ⟨S3300000x1, .i32⟩
  | 64 => ⟨S100000x8, .f32⟩
  | 65 => ⟨S_, .f32⟩
  | 66 => ⟨S100000x8, .f32⟩
  | 67 => ⟨S100000x8, .f32⟩
  | 68 => ⟨S_, .f32⟩
  | 69 => ⟨S100000x8, .f32⟩
  | 70 => ⟨S100000x8, .f32⟩
  | 71 => ⟨S100000x8, .f32⟩
  | 72 => ⟨S3300000x1, .f32⟩
  | 73 => ⟨S_, .i32⟩
  | 74 => ⟨S3300000, .i32⟩
  | 75 => ⟨S3300000, .i1⟩
  | 76 => ⟨S_, .i32⟩
  | 77 => ⟨S3300000, .i32⟩
  | 78 => ⟨S3300000, .i32⟩
  | 79 => ⟨S3300000, .i32⟩
  | 80 => ⟨S3300000x1, .i32⟩
  | 81 => ⟨S3300000x8, .f32⟩
  | 82 => ⟨S3300000x8, .f32⟩
  | 83 => ⟨S3300000x8, .f32⟩
  | 84 => ⟨S_, .f32⟩
  | 85 => ⟨S100000x8, .f32⟩
  | 86 => ⟨S3300000x1, .i32⟩
  | 87 => ⟨S100000x8, .f32⟩
  | 88 => ⟨S_, .f32⟩
  | 89 => ⟨S100000x8, .f32⟩
  | 90 => ⟨S100000x8, .f32⟩
  | 91 => ⟨S_, .f32⟩
  | 92 => ⟨S100000x8, .f32⟩
  | 93 => ⟨S100000x8, .f32⟩
  | 94 => ⟨S100000x8, .f32⟩
  | 95 => ⟨S_, .f32⟩
  | 96 => ⟨S100000x8, .f32⟩
  | 97 => ⟨S100000x8, .f32⟩
  | 98 => ⟨S_, .f32⟩
  | 99 => ⟨S100000x8, .f32⟩
  | 100 => ⟨S100000x8, .f32⟩
  | 101 => ⟨S_, .f32⟩
  | 102 => ⟨S100000, .f32⟩
  | 103 => ⟨S100000x1, .f32⟩
  | 104 => ⟨S100000x8, .f32⟩
  | 105 => ⟨S100000x8, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64, .f32⟩
  | .local _ .vmem, ⟨9, _⟩ => ⟨S64, .f32⟩
  | .local _ .vmem, ⟨10, _⟩ => ⟨S64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S2000x64, .f32⟩
  | .local _ .vmem, ⟨15, _⟩ => ⟨S2000x64, .f32⟩
  | .local _ .vmem, ⟨16, _⟩ => ⟨S400x64, .f32⟩
  | .local _ .vmem, ⟨17, _⟩ => ⟨S400x64, .f32⟩
  | .local _ .vmem, ⟨18, _⟩ => ⟨S64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S64x16, .f32⟩
  | .local _ .vmem, ⟨23, _⟩ => ⟨S16, .f32⟩
  | .local _ .vmem, ⟨24, _⟩ => ⟨S10x8x16, .f32⟩
  | .local _ .vmem, ⟨25, _⟩ => ⟨S10x8, .f32⟩
  | .local _ .vmem, ⟨26, _⟩ => ⟨S10x8, .f32⟩
  | .local _ .vmem, ⟨27, _⟩ => ⟨S8x16, .f32⟩
  | .local _ .vmem, ⟨28, _⟩ => ⟨S8x16, .f32⟩
  | .local _ .vmem, ⟨29, _⟩ => ⟨S400x16, .f32⟩
  | .local _ .vmem, ⟨30, _⟩ => ⟨S400x16, .f32⟩
  | .local _ .vmem, ⟨31, _⟩ => ⟨S400x8, .f32⟩
  | .local _ .vmem, ⟨32, _⟩ => ⟨S400x8, .f32⟩
  | .local _ .vmem, ⟨33, _⟩ => ⟨S400x8, .f32⟩
  | .local _ .vmem, ⟨34, _⟩ => ⟨S400x8, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v4 : Ref sig .tc := ⟨.hbm, 45, rfl⟩
abbrev main_v5 : Ref sig .tc := ⟨.hbm, 46, rfl⟩
abbrev main_cst_1 : Ref sig .tc := ⟨.hbm, 47, rfl⟩
abbrev main_v6 : Ref sig .tc := ⟨.hbm, 48, rfl⟩
abbrev main_cst_2 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_cst_2 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_cst_3 : Ref sig .tc := ⟨.hbm, 69, rfl⟩
abbrev main_call1_v12 : Ref sig .tc := ⟨.hbm, 70, rfl⟩
abbrev main_call1_cst_4 : Ref sig .tc := ⟨.hbm, 71, rfl⟩
abbrev main_call1_call0_v0 : Ref sig .tc := ⟨.hbm, 72, rfl⟩
abbrev main_call1_call0_v1 : Ref sig .tc := ⟨.hbm, 73, rfl⟩
abbrev main_v9 : Ref sig .tc := ⟨.hbm, 74, rfl⟩
abbrev main_v10_0 : Ref sig .tc := ⟨.hbm, 75, rfl⟩
abbrev main_v10_1 : Ref sig .tc := ⟨.hbm, 76, rfl⟩
abbrev main_v10_2 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_cst_4 : Ref sig .tc := ⟨.hbm, 85, rfl⟩
abbrev main_v18 : Ref sig .tc := ⟨.hbm, 86, rfl⟩
abbrev main_cst_5 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_cst_6 : Ref sig .tc := ⟨.hbm, 91, rfl⟩
abbrev main_v22 : Ref sig .tc := ⟨.hbm, 92, rfl⟩
abbrev main_v23 : Ref sig .tc := ⟨.hbm, 93, rfl⟩
abbrev main_cst_7 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_cst_8 : Ref sig .tc := ⟨.hbm, 98, rfl⟩
abbrev main_call2_v0 : Ref sig .tc := ⟨.hbm, 99, rfl⟩
abbrev main_call2_v1 : Ref sig .tc := ⟨.hbm, 100, rfl⟩
abbrev main_v27 : Ref sig .tc := ⟨.hbm, 101, rfl⟩
abbrev main_c_9 : Ref sig .tc := ⟨.hbm, 102, rfl⟩
abbrev main_v28 : Ref sig .tc := ⟨.hbm, 103, rfl⟩
abbrev main_v29 : Ref sig .tc := ⟨.hbm, 104, rfl⟩
abbrev main_c_10 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_c_11 : Ref sig .tc := ⟨.hbm, 111, rfl⟩
abbrev main_v35 : Ref sig .tc := ⟨.hbm, 112, rfl⟩
abbrev main_v36 : Ref sig .tc := ⟨.hbm, 113, rfl⟩
abbrev main_c_12 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_c_13 : Ref sig .tc := ⟨.hbm, 122, rfl⟩
abbrev main_v44 : Ref sig .tc := ⟨.hbm, 123, rfl⟩
abbrev main_v45 : Ref sig .tc := ⟨.hbm, 124, rfl⟩
abbrev main_c_14 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_cst_15 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_cst_16 : Ref sig .tc := ⟨.hbm, 137, rfl⟩
abbrev main_v56 : Ref sig .tc := ⟨.hbm, 138, rfl⟩
abbrev main_v57 : Ref sig .tc := ⟨.hbm, 139, rfl⟩
abbrev main_cst_17 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_c_18 : Ref sig .tc := ⟨.hbm, 145, rfl⟩
abbrev main_v62 : Ref sig .tc := ⟨.hbm, 146, rfl⟩
abbrev main_v63 : Ref sig .tc := ⟨.hbm, 147, rfl⟩
abbrev main_c_19 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_cst_20 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_cst_21 : Ref sig .tc := ⟨.hbm, 160, rfl⟩
abbrev main_v74 : Ref sig .tc := ⟨.hbm, 161, rfl⟩
abbrev main_v75 : Ref sig .tc := ⟨.hbm, 162, rfl⟩
abbrev main_cst_22 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_c_23 : Ref sig .tc := ⟨.hbm, 168, rfl⟩
abbrev main_v80 : Ref sig .tc := ⟨.hbm, 169, rfl⟩
abbrev main_v81 : Ref sig .tc := ⟨.hbm, 170, rfl⟩
abbrev main_c_24 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_cst_25 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_cst_26 : Ref sig .tc := ⟨.hbm, 183, rfl⟩
abbrev main_v92 : Ref sig .tc := ⟨.hbm, 184, rfl⟩
abbrev main_v93 : Ref sig .tc := ⟨.hbm, 185, rfl⟩
abbrev main_cst_27 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_c_28 : Ref sig .tc := ⟨.hbm, 191, rfl⟩
abbrev main_v98 : Ref sig .tc := ⟨.hbm, 192, rfl⟩
abbrev main_v99 : Ref sig .tc := ⟨.hbm, 193, rfl⟩
abbrev main_c_29 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_cst_30 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_cst_31 : Ref sig .tc := ⟨.hbm, 206, rfl⟩
abbrev main_v110 : Ref sig .tc := ⟨.hbm, 207, rfl⟩
abbrev main_v111 : Ref sig .tc := ⟨.hbm, 208, rfl⟩
abbrev main_cst_32 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_c_33 : Ref sig .tc := ⟨.hbm, 214, rfl⟩
abbrev main_v116 : Ref sig .tc := ⟨.hbm, 215, rfl⟩
abbrev main_v117 : Ref sig .tc := ⟨.hbm, 216, rfl⟩
abbrev main_c_34 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_cst_35 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_cst_36 : Ref sig .tc := ⟨.hbm, 229, rfl⟩
abbrev main_v128 : Ref sig .tc := ⟨.hbm, 230, rfl⟩
abbrev main_v129 : Ref sig .tc := ⟨.hbm, 231, rfl⟩
abbrev main_cst_37 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_c_38 : Ref sig .tc := ⟨.hbm, 237, rfl⟩
abbrev main_v134 : Ref sig .tc := ⟨.hbm, 238, rfl⟩
abbrev main_v135 : Ref sig .tc := ⟨.hbm, 239, rfl⟩
abbrev main_c_39 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_cst_40 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_cst_41 : Ref sig .tc := ⟨.hbm, 252, rfl⟩
abbrev main_v146 : Ref sig .tc := ⟨.hbm, 253, rfl⟩
abbrev main_v147 : Ref sig .tc := ⟨.hbm, 254, rfl⟩
abbrev main_cst_42 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_c_43 : Ref sig .tc := ⟨.hbm, 260, rfl⟩
abbrev main_v152 : Ref sig .tc := ⟨.hbm, 261, rfl⟩
abbrev main_v153 : Ref sig .tc := ⟨.hbm, 262, rfl⟩
abbrev main_c_44 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_cst_45 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_cst_46 : Ref sig .tc := ⟨.hbm, 275, rfl⟩
abbrev main_v164 : Ref sig .tc := ⟨.hbm, 276, rfl⟩
abbrev main_v165 : Ref sig .tc := ⟨.hbm, 277, rfl⟩
abbrev main_cst_47 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_c_48 : Ref sig .tc := ⟨.hbm, 283, rfl⟩
abbrev main_v170 : Ref sig .tc := ⟨.hbm, 284, rfl⟩
abbrev main_v171 : Ref sig .tc := ⟨.hbm, 285, rfl⟩
abbrev main_c_49 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_50 : Ref sig .tc := ⟨.hbm, 294, rfl⟩
abbrev main_v179 : Ref sig .tc := ⟨.hbm, 295, rfl⟩
abbrev main_v180 : Ref sig .tc := ⟨.hbm, 296, rfl⟩
abbrev main_v181 : Ref sig .tc := ⟨.hbm, 297, rfl⟩
abbrev main_cst_51 : Ref sig .tc := ⟨.hbm, 298, rfl⟩
abbrev main_v182 : Ref sig .tc := ⟨.hbm, 299, rfl⟩
abbrev main_v183 : Ref sig .tc := ⟨.hbm, 300, rfl⟩
abbrev main_cst_52 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_c_53 : Ref sig .tc := ⟨.hbm, 306, rfl⟩
abbrev main_v188 : Ref sig .tc := ⟨.hbm, 307, rfl⟩
abbrev main_v189 : Ref sig .tc := ⟨.hbm, 308, rfl⟩
abbrev main_c_54 : Ref sig .tc := ⟨.hbm, 309, rfl⟩
abbrev main_v190 : Ref sig .tc := ⟨.hbm, 310, rfl⟩
abbrev main_v191 : Ref sig .tc := ⟨.hbm, 311, rfl⟩
abbrev main_v192 : Ref sig .tc := ⟨.hbm, 312, rfl⟩
abbrev main_v193 : Ref sig .tc := ⟨.hbm, 313, rfl⟩
abbrev main_v194 : Ref sig .tc := ⟨.hbm, 314, rfl⟩
abbrev main_v195 : Ref sig .tc := ⟨.hbm, 315, rfl⟩
abbrev main_v196 : Ref sig .tc := ⟨.hbm, 316, rfl⟩
abbrev main_cst_55 : Ref sig .tc := ⟨.hbm, 317, rfl⟩
abbrev main_v197 : Ref sig .tc := ⟨.hbm, 318, rfl⟩
abbrev main_v198 : Ref sig .tc := ⟨.hbm, 319, rfl⟩
abbrev main_v199 : Ref sig .tc := ⟨.hbm, 320, rfl⟩
abbrev main_cst_56 : Ref sig .tc := ⟨.hbm, 321, rfl⟩
abbrev main_v200 : Ref sig .tc := ⟨.hbm, 322, rfl⟩
abbrev main_v201 : Ref sig .tc := ⟨.hbm, 323, rfl⟩
abbrev main_cst_57 : Ref sig .tc := ⟨.hbm, 324, rfl⟩
abbrev main_v202 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_c_58 : Ref sig .tc := ⟨.hbm, 329, rfl⟩
abbrev main_v206 : Ref sig .tc := ⟨.hbm, 330, rfl⟩
abbrev main_v207 : Ref sig .tc := ⟨.hbm, 331, rfl⟩
abbrev main_c_59 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_v212 : Ref sig .tc := ⟨.hbm, 337, rfl⟩
abbrev main_v213 : Ref sig .tc := ⟨.hbm, 338, rfl⟩
abbrev main_v214 : Ref sig .tc := ⟨.hbm, 339, rfl⟩
abbrev main_cst_60 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩
abbrev main_cst_61 : Ref sig .tc := ⟨.hbm, 344, rfl⟩
abbrev main_v218 : Ref sig .tc := ⟨.hbm, 345, rfl⟩
abbrev main_v219 : Ref sig .tc := ⟨.hbm, 346, rfl⟩
abbrev main_cst_62 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_cst_63 : Ref sig .tc := ⟨.hbm, 351, rfl⟩
abbrev main_v223 : Ref sig .tc := ⟨.hbm, 352, rfl⟩
abbrev main_v224 : Ref sig .tc := ⟨.hbm, 353, rfl⟩
abbrev main_cst_64 : Ref sig .tc := ⟨.hbm, 354, rfl⟩
abbrev main_v225 : Ref sig .tc := ⟨.hbm, 355, rfl⟩
abbrev main_v226 : Ref sig .tc := ⟨.hbm, 356, rfl⟩
abbrev main_cst_65 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg12_1 : Ref sig .tc := ⟨.vmem, 30, rfl⟩
abbrev cc2_stg13_0 : Ref sig .tc := ⟨.vmem, 31, rfl⟩
abbrev cc2_stg13_1 : Ref sig .tc := ⟨.vmem, 32, rfl⟩
abbrev cc2_stg14_0 : Ref sig .tc := ⟨.vmem, 33, rfl⟩
abbrev cc2_stg14_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem12_0 : DmaSem sig := 29
abbrev cc2_sem12_1 : DmaSem sig := 30
abbrev cc2_sem13_0 : DmaSem sig := 31
abbrev cc2_sem13_1 : DmaSem sig := 32
abbrev cc2_sem14_0 : DmaSem sig := 33
abbrev cc2_sem14_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S10x8x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S10x8 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S10x8 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S8x16 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S8x16 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S400x16 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S400x8 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S400x8 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S2000x64_S2000x64 : S2000x64.ShapeCasts S2000x64
  shapeCasts_S64_S64 : S64.ShapeCasts S64
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  h_S400x64 : 0 < S400x64.numel
  shapeCasts_S400x64_S400x64 : S400x64.ShapeCasts S400x64
  broadcasts_S1x64_S400x64 : S1x64.Broadcasts S400x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S400x16 : S1x16.Broadcasts S400x16
  shapeCasts_S400x16_S400x1x16 : S400x16.ShapeCasts S400x1x16
  shapeCasts_S400x1x16_S400x1x16 : S400x1x16.ShapeCasts S400x1x16
  broadcasts_S400x1x16_S400x8x16 : S400x1x16.Broadcasts S400x8x16
  inb_S10x8_S1x8_9_0 : ∀ a, (![9, 0] : Fin 2 → Nat) a + S1x8.size a ≤ S10x8.size a
  h_S1x8 : 0 < S1x8.numel
  shapeCasts_S1x8_S8 : S1x8.ShapeCasts S8
  shapeCasts_S8_S1x8x1 : S8.ShapeCasts S1x8x1
  inb_S10x8x16_S1x8x16_9_0_0 : ∀ a, (![9, 0, 0] : Fin 3 → Nat) a + S1x8x16.size a ≤ S10x8x16.size a
  h_S1x8x16 : 0 < S1x8x16.numel
  shapeCasts_S1x8x16_S8x16 : S1x8x16.ShapeCasts S8x16
  shapeCasts_S8x16_S1x8x16 : S8x16.ShapeCasts S1x8x16
  broadcasts_S1x8x16_S400x8x16 : S1x8x16.Broadcasts S400x8x16
  reduces_S400x8x16_S400x8 : S400x8x16.Reduces [2] S400x8
  shapeCasts_S400x8_S400x8x1 : S400x8.ShapeCasts S400x8x1
  broadcasts_S1x8x1_S400x8x1 : S1x8x1.Broadcasts S400x8x1
  broadcasts_S400x8x1_S400x8x16 : S400x8x1.Broadcasts S400x8x16
  shapeCasts_S400x8x1_S400x8 : S400x8x1.ShapeCasts S400x8
  inb_S10x8_S1x8_8_0 : ∀ a, (![8, 0] : Fin 2 → Nat) a + S1x8.size a ≤ S10x8.size a
  inb_S10x8x16_S1x8x16_8_0_0 : ∀ a, (![8, 0, 0] : Fin 3 → Nat) a + S1x8x16.size a ≤ S10x8x16.size a
  inb_S10x8_S1x8_7_0 : ∀ a, (![7, 0] : Fin 2 → Nat) a + S1x8.size a ≤ S10x8.size a
  inb_S10x8x16_S1x8x16_7_0_0 : ∀ a, (![7, 0, 0] : Fin 3 → Nat) a + S1x8x16.size a ≤ S10x8x16.size a
  inb_S10x8_S1x8_6_0 : ∀ a, (![6, 0] : Fin 2 → Nat) a + S1x8.size a ≤ S10x8.size a
  inb_S10x8x16_S1x8x16_6_0_0 : ∀ a, (![6, 0, 0] : Fin 3 → Nat) a + S1x8x16.size a ≤ S10x8x16.size a
  inb_S10x8_S1x8_5_0 : ∀ a, (![5, 0] : Fin 2 → Nat) a + S1x8.size a ≤ S10x8.size a
  inb_S10x8x16_S1x8x16_5_0_0 : ∀ a, (![5, 0, 0] : Fin 3 → Nat) a + S1x8x16.size a ≤ S10x8x16.size a
  inb_S10x8_S1x8_4_0 : ∀ a, (![4, 0] : Fin 2 → Nat) a + S1x8.size a ≤ S10x8.size a
  inb_S10x8x16_S1x8x16_4_0_0 : ∀ a, (![4, 0, 0] : Fin 3 → Nat) a + S1x8x16.size a ≤ S10x8x16.size a
  inb_S10x8_S1x8_3_0 : ∀ a, (![3, 0] : Fin 2 → Nat) a + S1x8.size a ≤ S10x8.size a
  inb_S10x8x16_S1x8x16_3_0_0 : ∀ a, (![3, 0, 0] : Fin 3 → Nat) a + S1x8x16.size a ≤ S10x8x16.size a
  inb_S10x8_S1x8_2_0 : ∀ a, (![2, 0] : Fin 2 → Nat) a + S1x8.size a ≤ S10x8.size a
  inb_S10x8x16_S1x8x16_2_0_0 : ∀ a, (![2, 0, 0] : Fin 3 → Nat) a + S1x8x16.size a ≤ S10x8x16.size a
  inb_S10x8_S1x8_1_0 : ∀ a, (![1, 0] : Fin 2 → Nat) a + S1x8.size a ≤ S10x8.size a
  inb_S10x8x16_S1x8x16_1_0_0 : ∀ a, (![1, 0, 0] : Fin 3 → Nat) a + S1x8x16.size a ≤ S10x8x16.size a
  inb_S10x8_S1x8_0_0 : ∀ a, (![0, 0] : Fin 2 → Nat) a + S1x8.size a ≤ S10x8.size a
  inb_S10x8x16_S1x8x16_0_0_0 : ∀ a, (![0, 0, 0] : Fin 3 → Nat) a + S1x8x16.size a ≤ S10x8x16.size a
  inb_S8x16_S8x16_0_0 : ∀ a, (![0, 0] : Fin 2 → Nat) a + S8x16.size a ≤ S8x16.size a
  h_S8x16 : 0 < S8x16.numel
  reduces_S8x16_S8 : S8x16.Reduces [1] S8
  shapeCasts_S8_S1x8 : S8.ShapeCasts S1x8
  broadcasts_S1x8_S400x8 : S1x8.Broadcasts S400x8
  inb_S400x16_S400x16_0_0 : ∀ a, (![0, 0] : Fin 2 → Nat) a + S400x16.size a ≤ S400x16.size a
  h_S400x16 : 0 < S400x16.numel
  inb_S400x8_S400x8_0_0 : ∀ a, (![0, 0] : Fin 2 → Nat) a + S400x8.size a ≤ S400x8.size a
  h_S400x8 : 0 < S400x8.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  reducesTo_S100000x8_S100000_d1 : S100000x8.ReducesTo [1] S100000
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  dot_S2000x256_S256x64_S2000x64_1_0_0_1_n_n_wf : DotDims.WF S2000x256 S256x64 S2000x64 [1] [0] [0] [1] [] []
  dot_S2000x64_S64x64_S2000x64_1_0_0_1_n_n_wf : DotDims.WF S2000x64 S64x64 S2000x64 [1] [0] [0] [1] [] []
  dot_S400x64_S64x16_S400x16_1_0_0_1_n_n_wf : DotDims.WF S400x64 S64x16 S400x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x64.size a ≤ S100000x64.size a
  hwx2_0 : ∀ i : grid2.Coords, EltTy.bits .f32 = 32 ∨ (Rect.block (s := S100000x64) S400x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x16.size a ≤ S64x16.size a
  hwx2_5 : ∀ i : grid2.Coords, EltTy.bits .f32 = 32 ∨ (Rect.block (s := S64x16) S64x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16.size a ≤ S16.size a
  hwx2_6 : ∀ i : grid2.Coords, EltTy.bits .f32 = 32 ∨ (Rect.block (s := S16) S16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S10x8x16.size a ≤ S10x8x16.size a
  hwx2_7 : ∀ i : grid2.Coords, EltTy.bits .f32 = 32 ∨ (Rect.block (s := S10x8x16) S10x8x16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S10x8.size a ≤ S10x8.size a
  hwx2_8 : ∀ i : grid2.Coords, EltTy.bits .f32 = 32 ∨ (Rect.block (s := S10x8) S10x8.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S10x8.size a ≤ S10x8.size a
  hwx2_9 : ∀ i : grid2.Coords, EltTy.bits .f32 = 32 ∨ (Rect.block (s := S10x8) S10x8.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S8x16.size a ≤ S8x16.size a
  hwx2_10 : ∀ i : grid2.Coords, EltTy.bits .f32 = 32 ∨ (Rect.block (s := S8x16) S8x16.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S8x16.size a ≤ S8x16.size a
  hwx2_11 : ∀ i : grid2.Coords, EltTy.bits .f32 = 32 ∨ (Rect.block (s := S8x16) S8x16.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S400x16.size a ≤ S100000x16.size a
  hwx2_12 : ∀ i : grid2.Coords, EltTy.bits .f32 = 32 ∨ (Rect.block (s := S100000x16) S400x16.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S400x8.size a ≤ S100000x8.size a
  hwx2_13 : ∀ i : grid2.Coords, EltTy.bits .f32 = 32 ∨ (Rect.block (s := S100000x8) S400x8.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S400x8.size a ≤ S100000x8.size a
  hwx2_14 : ∀ i : grid2.Coords, EltTy.bits .f32 = 32 ∨ (Rect.block (s := S100000x8) S400x8.size (cc2_transform_14 i) (hinb2_14 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v5) S400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S10x8x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg13) S10x8.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg14) S10x8.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg15) S8x16.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg16) S8x16.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v10_0) S400x16.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v10_1) S400x8.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v10_2) S400x8.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10x8x16 : Shape := ⟨3, ![10, 8, 16]⟩
abbrev S10x8 : Shape := ⟨2, ![10, 8]⟩
abbrev S8x16 : Shape := ⟨2, ![8, 16]⟩
abbrev S100000x64 : Shape := ⟨2, ![100000, 64]⟩
abbrev S1x64 : Shape := ⟨2, ![1, 64]⟩
abbrev S_ : Shape := ⟨0, ![]⟩
abbrev S100000x16 : Shape := ⟨2, ![100000, 16]⟩
abbrev S1x16 : Shape := ⟨2, ![1, 16]⟩
abbrev S100000x1x16 : Shape := ⟨3, ![100000, 1, 16]⟩
abbrev S100000x8x16 : Shape := ⟨3, ![100000, 8, 16]⟩
abbrev S100000x8 : Shape := ⟨2, ![100000, 8]⟩
abbrev S1x8 : Shape := ⟨2, ![1, 8]⟩
abbrev S8 : Shape := ⟨1, ![8]⟩
abbrev S1x8x1 : Shape := ⟨3, ![1, 8, 1]⟩
abbrev S1x8x16 : Shape := ⟨3, ![1, 8, 16]⟩
abbrev S100000x8x1 : Shape := ⟨3, ![100000, 8, 1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S3300000x8 : Shape := ⟨2, ![3300000, 8]⟩
abbrev S100000x1 : Shape := ⟨2, ![100000, 1]⟩

abbrev nBuf : Space → Nat
  | .hbm => 1267
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x16, .f32⟩
  | 11 => ⟨S16, .f32⟩
  | 12 => ⟨S10x8x16, .f32⟩
  | 13 => ⟨S10x8, .f32⟩
  | 14 => ⟨S10x8, .f32⟩
  | 15 => ⟨S8x16, .f32⟩
  | 16 => ⟨S8x16, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S64, .f32⟩
  | 57 => ⟨S64, .f32⟩
  | 58 => ⟨S64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S64, .f32⟩
  | 74 => ⟨S_, .f32⟩
  | 75 => ⟨S64, .f32⟩
  | 76 => ⟨S64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S100000x64, .f32⟩
  | 85 => ⟨S100000x64, .f32⟩
  | 86 => ⟨S100000x64, .f32⟩
  | 87 => ⟨S_, .f32⟩
  | 88 => ⟨S_, .f32⟩
  | 89 => ⟨S_, .f32⟩
  | 90 => ⟨S_, .f32⟩
  | 91 => ⟨S64, .f32⟩
  | 92 => ⟨S64, .f32⟩
  | 93 => ⟨S64, .f32⟩
  | 94 => ⟨S_, .f32⟩
  | 95 => ⟨S_, .i1⟩
  | 96 => ⟨S_, .f32⟩
  | 97 => ⟨S_, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S_, .f32⟩
  | 107 => ⟨S64, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x16, .f32⟩
  | 120 => ⟨S1x16, .f32⟩
  | 121 => ⟨S100000x16, .f32⟩
  | 122 => ⟨S100000x16, .f32⟩
  | 123 => ⟨S100000x1x16, .f32⟩
  | 124 => ⟨S100000x8x16, .f32⟩
  | 125 => ⟨S_, .f32⟩
  | 126 => ⟨S100000x8, .f32⟩
  | 127 => ⟨S1x8, .f32⟩
  | _ => ⟨S100000x256, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S8, .f32⟩
  | 5 => ⟨S8, .f32⟩
  | 6 => ⟨S8, .i1⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S8, .f32⟩
  | 14 => ⟨S8, .f32⟩
  | 15 => ⟨S1x8x1, .f32⟩
  | 16 => ⟨S1x8x1, .f32⟩
  | 17 => ⟨S1x8, .f32⟩
  | 18 => ⟨S8, .f32⟩
  | 19 => ⟨S_, .f32⟩
  | 20 => ⟨S8, .f32⟩
  | 21 => ⟨S8, .f32⟩
  | 22 => ⟨S8, .f32⟩
  | 23 => ⟨S8, .f32⟩
  | 24 => ⟨S8, .i1⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S8, .f32⟩
  | 32 => ⟨S8, .f32⟩
  | 33 => ⟨S1x8x1, .f32⟩
  | 34 => ⟨S1x8x1, .f32⟩
  | 35 => ⟨S1x8x16, .f32⟩
  | 36 => ⟨S8x16, .f32⟩
  | 37 => ⟨S1x8x16, .f32⟩
  | 38 => ⟨S100000x8x16, .f32⟩
  | 39 => ⟨S100000x8x16, .f32⟩
  | 40 => ⟨S100000x8x16, .f32⟩
  | 41 => ⟨S_, .f32⟩
  | 42 => ⟨S100000x8, .f32⟩
  | 43 => ⟨S100000x8x1, .f32⟩
  | 44 => ⟨S100000x8x1, .f32⟩
  | 45 => ⟨S_, .f32⟩
  | 46 => ⟨S100000x8x1, .f32⟩
  | 47 => ⟨S100000x8x1, .f32⟩
  | 48 => ⟨S100000x8x1, .f32⟩
  | 49 => ⟨S100000x8x1, .f32⟩
  | 50 => ⟨S_, .f32⟩
  | 51 => ⟨S100000x8x1, .f32⟩
  | 52 => ⟨S100000x8x1, .f32⟩
  | 53 => ⟨S100000x8x1, .f32⟩
  | 54 => ⟨S100000x8x1, .f32⟩
  | 55 => ⟨S100000x8x16, .f32⟩
  | 56 => ⟨S100000x8x16, .f32⟩
  | 57 => ⟨S100000x8x16, .f32⟩
  | 58 => ⟨S100000x8x1, .f32⟩
  | 59 => ⟨S100000x8x1, .f32⟩
  | 60 => ⟨S100000x8x1, .f32⟩
  | 61 => ⟨S_, .f32⟩
  | 62 => ⟨S100000x8x1, .f32⟩
  | 63 => ⟨S100000x8x1, .f32⟩
  | 64 => ⟨S100000x8x1, .f32⟩
  | 65 => ⟨S100000x8x1, .f32⟩
  | 66 => ⟨S100000x8x1, .f32⟩
  | 67 => ⟨S100000x8, .f32⟩
  | 68 => ⟨S_, .f32⟩
  | 69 => ⟨S100000x8, .f32⟩
  | 70 => ⟨S100000x8, .f32⟩
  | 71 => ⟨S100000x8, .f32⟩
  | 72 => ⟨S100000x8x1, .f32⟩
  | 73 => ⟨S100000x8x1, .f32⟩
  | 74 => ⟨S100000x8x1, .f32⟩
  | 75 => ⟨S100000x8x1, .f32⟩
  | 76 => ⟨S100000x8x1, .f32⟩
  | 77 => ⟨S100000x8x1, .f32⟩
  | 78 => ⟨S100000x8x1, .f32⟩
  | 79 => ⟨S100000x8, .f32⟩
  | 80 => ⟨S100000x8, .f32⟩
  | 81 => ⟨S1x8, .f32⟩
  | 82 => ⟨S8, .f32⟩
  | 83 => ⟨S_, .f32⟩
  | 84 => ⟨S8, .f32⟩
  | 85 => ⟨S8, .f32⟩
  | 86 => ⟨S8, .f32⟩
  | 87 => ⟨S8, .f32⟩
  | 88 => ⟨S8, .i1⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S8, .f32⟩
  | 96 => ⟨S8, .f32⟩
  | 97 => ⟨S1x8x1, .f32⟩
  | 98 => ⟨S1x8x1, .f32⟩
  | 99 => ⟨S1x8, .f32⟩
  | 100 => ⟨S8, .f32⟩
  | 101 => ⟨S_, .f32⟩
  | 102 => ⟨S8, .f32⟩
  | 103 => ⟨S8, .f32⟩
  | 104 => ⟨S8, .f32⟩
  | 105 => ⟨S8, .f32⟩
  | 106 => ⟨S8, .i1⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S8, .f32⟩
  | 114 => ⟨S8, .f32⟩
  | 115 => ⟨S1x8x1, .f32⟩
  | 116 => ⟨S1x8x1, .f32⟩
  | 117 => ⟨S1x8x16, .f32⟩
  | 118 => ⟨S8x16, .f32⟩
  | 119 => ⟨S1x8x16, .f32⟩
  | 120 => ⟨S100000x8x16, .f32⟩
  | 121 => ⟨S100000x8x16, .f32⟩
  | 122 => ⟨S100000x8x16, .f32⟩
  | 123 => ⟨S_, .f32⟩
  | 124 => ⟨S100000x8, .f32⟩
  | 125 => ⟨S100000x8x1, .f32⟩
  | 126 => ⟨S100000x8x1, .f32⟩
  | 127 => ⟨S_, .f32⟩
  | _ => ⟨S100000x256, .f32⟩

abbrev hbmTy0_2 (i : Nat) : BufTy := match i % 128 with
  | 0 => ⟨S100000x8x1, .f32⟩
  | 1 => ⟨S100000x8x1, .f32⟩
  | 2 => ⟨S100000x8x1, .f32⟩
  | 3 => ⟨S100000x8x1, .f32⟩
  | 4 => ⟨S_, .f32⟩
  | 5 => ⟨S100000x8x1, .f32⟩
  | 6 => ⟨S100000x8x1, .f32⟩
  | 7 => ⟨S100000x8x1, .f32⟩
  | 8 => ⟨S100000x8x1, .f32⟩
  | 9 => ⟨S100000x8x16, .f32⟩
  | 10 => ⟨S100000x8x16, .f32⟩
  | 11 => ⟨S100000x8x16, .f32⟩
  | 12 => ⟨S100000x8x1, .f32⟩
  | 13 => ⟨S100000x8x1, .f32⟩
  | 14 => ⟨S100000x8x1, .f32⟩
  | 15 => ⟨S_, .f32⟩
  | 16 => ⟨S100000x8x1, .f32⟩
  | 17 => ⟨S100000x8x1, .f32⟩
  | 18 => ⟨S100000x8x1, .f32⟩
  | 19 => ⟨S100000x8x1, .f32⟩
  | 20 => ⟨S100000x8x1, .f32⟩
  | 21 => ⟨S100000x8, .f32⟩
  | 22 => ⟨S_, .f32⟩
  | 23 => ⟨S100000x8, .f32⟩
  | 24 => ⟨S100000x8, .f32⟩
  | 25 => ⟨S100000x8, .f32⟩
  | 26 => ⟨S100000x8x1, .f32⟩
  | 27 => ⟨S100000x8x1, .f32⟩
  | 28 => ⟨S100000x8x1, .f32⟩
  | 29 => ⟨S100000x8x1, .f32⟩
  | 30 => ⟨S100000x8x1, .f32⟩
  | 31 => ⟨S100000x8x1, .f32⟩
  | 32 => ⟨S100000x8x1, .f32⟩
  | 33 => ⟨S100000x8, .f32⟩
  | 34 => ⟨S100000x8, .f32⟩
  | 35 => ⟨S1x8, .f32⟩
  | 36 => ⟨S8, .f32⟩
  | 37 => ⟨S_, .f32⟩
  | 38 => ⟨S8, .f32⟩
  | 39 => ⟨S8, .f32⟩
  | 40 => ⟨S8, .f32⟩
  | 41 => ⟨S8, .f32⟩
  | 42 => ⟨S8, .i1⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S8, .f32⟩
  | 50 => ⟨S8, .f32⟩
  | 51 => ⟨S1x8x1, .f32⟩
  | 52 => ⟨S1x8x1, .f32⟩
  | 53 => ⟨S1x8, .f32⟩
  | 54 => ⟨S8, .f32⟩
  | 55 => ⟨S_, .f32⟩
  | 56 => ⟨S8, .f32⟩
  | 57 => ⟨S8, .f32⟩
  | 58 => ⟨S8, .f32⟩
  | 59 => ⟨S8, .f32⟩
  | 60 => ⟨S8, .i1⟩
  | 61 => ⟨S8, .f32⟩
  | 62 => ⟨S8, .f32⟩
  | 63 => ⟨S8, .f32⟩
  | 64 => ⟨S8, .f32⟩
  | 65 => ⟨S8, .f32⟩
  | 66 => ⟨S8, .f32⟩
  | 67 => ⟨S8, .f32⟩
  | 68 => ⟨S8, .f32⟩
  | 69 => ⟨S1x8x1, .f32⟩
  | 70 => ⟨S1x8x1, .f32⟩
  | 71 => ⟨S1x8x16, .f32⟩
  | 72 => ⟨S8x16, .f32⟩
  | 73 => ⟨S1x8x16, .f32⟩
  | 74 => ⟨S100000x8x16, .f32⟩
  | 75 => ⟨S100000x8x16, .f32⟩
  | 76 => ⟨S100000x8x16, .f32⟩
  | 77 => ⟨S_, .f32⟩
  | 78 => ⟨S100000x8, .f32⟩
  | 79 => ⟨S100000x8x1, .f32⟩
  | 80 => ⟨S100000x8x1, .f32⟩
  | 81 => ⟨S_, .f32⟩
  | 82 => ⟨S100000x8x1, .f32⟩
  | 83 => ⟨S100000x8x1, .f32⟩
  | 84 => ⟨S100000x8x1, .f32⟩
  | 85 => ⟨S100000x8x1, .f32⟩
  | 86 => ⟨S_, .f32⟩
  | 87 => ⟨S100000x8x1, .f32⟩
  | 88 => ⟨S100000x8x1, .f32⟩
  | 89 => ⟨S100000x8x1, .f32⟩
  | 90 => ⟨S100000x8x1, .f32⟩
  | 91 => ⟨S100000x8x16, .f32⟩
  | 92 => ⟨S100000x8x16, .f32⟩
  | 93 => ⟨S100000x8x16, .f32⟩
  | 94 => ⟨S100000x8x1, .f32⟩
  | 95 => ⟨S100000x8x1, .f32⟩
  | 96 => ⟨S100000x8x1, .f32⟩
  | 97 => ⟨S_, .f32⟩
  | 98 => ⟨S100000x8x1, .f32⟩
  | 99 => ⟨S100000x8x1, .f32⟩
  | 100 => ⟨S100000x8x1, .f32⟩
  | 101 => ⟨S100000x8x1, .f32⟩
  | 102 => ⟨S100000x8x1, .f32⟩
  | 103 => ⟨S100000x8, .f32⟩
  | 104 => ⟨S_, .f32⟩
  | 105 => ⟨S100000x8, .f32⟩
  | 106 => ⟨S100000x8, .f32⟩
  | 107 => ⟨S100000x8, .f32⟩
  | 108 => ⟨S100000x8x1, .f32⟩
  | 109 => ⟨S100000x8x1, .f32⟩
  | 110 => ⟨S100000x8x1, .f32⟩
  | 111 => ⟨S100000x8x1, .f32⟩
  | 112 => ⟨S100000x8x1, .f32⟩
  | 113 => ⟨S100000x8x1, .f32⟩
  | 114 => ⟨S100000x8x1, .f32⟩
  | 115 => ⟨S100000x8, .f32⟩
  | 116 => ⟨S100000x8, .f32⟩
  | 117 => ⟨S1x8, .f32⟩
  | 118 => ⟨S8, .f32⟩
  | 119 => ⟨S_, .f32⟩
  | 120 => ⟨S8, .f32⟩
  | 121 => ⟨S8, .f32⟩
  | 122 => ⟨S8, .f32⟩
  | 123 => ⟨S8, .f32⟩
  | 124 => ⟨S8, .i1⟩
  | 125 => ⟨S8, .f32⟩
  | 126 => ⟨S8, .f32⟩
  | 127 => ⟨S8, .f32⟩
  | _ => ⟨S100000x256, .f32⟩

abbrev hbmTy0_3 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S1x8x1, .f32⟩
  | 6 => ⟨S1x8x1, .f32⟩
  | 7 => ⟨S1x8, .f32⟩
  | 8 => ⟨S8, .f32⟩
  | 9 => ⟨S_, .f32⟩
  | 10 => ⟨S8, .f32⟩
  | 11 => ⟨S8, .f32⟩
  | 12 => ⟨S8, .f32⟩
  | 13 => ⟨S8, .f32⟩
  | 14 => ⟨S8, .i1⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S8, .f32⟩
  | 23 => ⟨S1x8x1, .f32⟩
  | 24 => ⟨S1x8x1, .f32⟩
  | 25 => ⟨S1x8x16, .f32⟩
  | 26 => ⟨S8x16, .f32⟩
  | 27 => ⟨S1x8x16, .f32⟩
  | 28 => ⟨S100000x8x16, .f32⟩
  | 29 => ⟨S100000x8x16, .f32⟩
  | 30 => ⟨S100000x8x16, .f32⟩
  | 31 => ⟨S_, .f32⟩
  | 32 => ⟨S100000x8, .f32⟩
  | 33 => ⟨S100000x8x1, .f32⟩
  | 34 => ⟨S100000x8x1, .f32⟩
  | 35 => ⟨S_, .f32⟩
  | 36 => ⟨S100000x8x1, .f32⟩
  | 37 => ⟨S100000x8x1, .f32⟩
  | 38 => ⟨S100000x8x1, .f32⟩
  | 39 => ⟨S100000x8x1, .f32⟩
  | 40 => ⟨S_, .f32⟩
  | 41 => ⟨S100000x8x1, .f32⟩
  | 42 => ⟨S100000x8x1, .f32⟩
  | 43 => ⟨S100000x8x1, .f32⟩
  | 44 => ⟨S100000x8x1, .f32⟩
  | 45 => ⟨S100000x8x16, .f32⟩
  | 46 => ⟨S100000x8x16, .f32⟩
  | 47 => ⟨S100000x8x16, .f32⟩
  | 48 => ⟨S100000x8x1, .f32⟩
  | 49 => ⟨S100000x8x1, .f32⟩
  | 50 => ⟨S100000x8x1, .f32⟩
  | 51 => ⟨S_, .f32⟩
  | 52 => ⟨S100000x8x1, .f32⟩
  | 53 => ⟨S100000x8x1, .f32⟩
  | 54 => ⟨S100000x8x1, .f32⟩
  | 55 => ⟨S100000x8x1, .f32⟩
  | 56 => ⟨S100000x8x1, .f32⟩
  | 57 => ⟨S100000x8, .f32⟩
  | 58 => ⟨S_, .f32⟩
  | 59 => ⟨S100000x8, .f32⟩
  | 60 => ⟨S100000x8, .f32⟩
  | 61 => ⟨S100000x8, .f32⟩
  | 62 => ⟨S100000x8x1, .f32⟩
  | 63 => ⟨S100000x8x1, .f32⟩
  | 64 => ⟨S100000x8x1, .f32⟩
  | 65 => ⟨S100000x8x1, .f32⟩
  | 66 => ⟨S100000x8x1, .f32⟩
  | 67 => ⟨S100000x8x1, .f32⟩
  | 68 => ⟨S100000x8x1, .f32⟩
  | 69 => ⟨S100000x8, .f32⟩
  | 70 => ⟨S100000x8, .f32⟩
  | 71 => ⟨S1x8, .f32⟩
  | 72 => ⟨S8, .f32⟩
  | 73 => ⟨S_, .f32⟩
  | 74 => ⟨S8, .f32⟩
  | 75 => ⟨S8, .f32⟩
  | 76 => ⟨S8, .f32⟩
  | 77 => ⟨S8, .f32⟩
  | 78 => ⟨S8, .i1⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S8, .f32⟩
  | 87 => ⟨S1x8x1, .f32⟩
  | 88 => ⟨S1x8x1, .f32⟩
  | 89 => ⟨S1x8, .f32⟩
  | 90 => ⟨S8, .f32⟩
  | 91 => ⟨S_, .f32⟩
  | 92 => ⟨S8, .f32⟩
  | 93 => ⟨S8, .f32⟩
  | 94 => ⟨S8, .f32⟩
  | 95 => ⟨S8, .f32⟩
  | 96 => ⟨S8, .i1⟩
  | 97 => ⟨S8, .f32⟩
  | 98 => ⟨S8, .f32⟩
  | 99 => ⟨S8, .f32⟩
  | 100 => ⟨S8, .f32⟩
  | 101 => ⟨S8, .f32⟩
  | 102 => ⟨S8, .f32⟩
  | 103 => ⟨S8, .f32⟩
  | 104 => ⟨S8, .f32⟩
  | 105 => ⟨S1x8x1, .f32⟩
  | 106 => ⟨S1x8x1, .f32⟩
  | 107 => ⟨S1x8x16, .f32⟩
  | 108 => ⟨S8x16, .f32⟩
  | 109 => ⟨S1x8x16, .f32⟩
  | 110 => ⟨S100000x8x16, .f32⟩
  | 111 => ⟨S100000x8x16, .f32⟩
  | 112 => ⟨S100000x8x16, .f32⟩
  | 113 => ⟨S_, .f32⟩
  | 114 => ⟨S100000x8, .f32⟩
  | 115 => ⟨S100000x8x1, .f32⟩
  | 116 => ⟨S100000x8x1, .f32⟩
  | 117 => ⟨S_, .f32⟩
  | 118 => ⟨S100000x8x1, .f32⟩
  | 119 => ⟨S100000x8x1, .f32⟩
  | 120 => ⟨S100000x8x1, .f32⟩
  | 121 => ⟨S100000x8x1, .f32⟩
  | 122 => ⟨S_, .f32⟩
  | 123 => ⟨S100000x8x1, .f32⟩
  | 124 => ⟨S100000x8x1, .f32⟩
  | 125 => ⟨S100000x8x1, .f32⟩
  | 126 => ⟨S100000x8x1, .f32⟩
  | 127 => ⟨S100000x8x16, .f32⟩
  | _ => ⟨S100000x256, .f32⟩

abbrev hbmTy0_4 (i : Nat) : BufTy := match i % 128 with
  | 0 => ⟨S100000x8x16, .f32⟩
  | 1 => ⟨S100000x8x16, .f32⟩
  | 2 => ⟨S100000x8x1, .f32⟩
  | 3 => ⟨S100000x8x1, .f32⟩
  | 4 => ⟨S100000x8x1, .f32⟩
  | 5 => ⟨S_, .f32⟩
  | 6 => ⟨S100000x8x1, .f32⟩
  | 7 => ⟨S100000x8x1, .f32⟩
  | 8 => ⟨S100000x8x1, .f32⟩
  | 9 => ⟨S100000x8x1, .f32⟩
  | 10 => ⟨S100000x8x1, .f32⟩
  | 11 => ⟨S100000x8, .f32⟩
  | 12 => ⟨S_, .f32⟩
  | 13 => ⟨S100000x8, .f32⟩
  | 14 => ⟨S100000x8, .f32⟩
  | 15 => ⟨S100000x8, .f32⟩
  | 16 => ⟨S100000x8x1, .f32⟩
  | 17 => ⟨S100000x8x1, .f32⟩
  | 18 => ⟨S100000x8x1, .f32⟩
  | 19 => ⟨S100000x8x1, .f32⟩
  | 20 => ⟨S100000x8x1, .f32⟩
  | 21 => ⟨S100000x8x1, .f32⟩
  | 22 => ⟨S100000x8x1, .f32⟩
  | 23 => ⟨S100000x8, .f32⟩
  | 24 => ⟨S100000x8, .f32⟩
  | 25 => ⟨S1x8, .f32⟩
  | 26 => ⟨S8, .f32⟩
  | 27 => ⟨S_, .f32⟩
  | 28 => ⟨S8, .f32⟩
  | 29 => ⟨S8, .f32⟩
  | 30 => ⟨S8, .f32⟩
  | 31 => ⟨S8, .f32⟩
  | 32 => ⟨S8, .i1⟩
  | 33 => ⟨S8, .f32⟩
  | 34 => ⟨S8, .f32⟩
  | 35 => ⟨S8, .f32⟩
  | 36 => ⟨S8, .f32⟩
  | 37 => ⟨S8, .f32⟩
  | 38 => ⟨S8, .f32⟩
  | 39 => ⟨S8, .f32⟩
  | 40 => ⟨S8, .f32⟩
  | 41 => ⟨S1x8x1, .f32⟩
  | 42 => ⟨S1x8x1, .f32⟩
  | 43 => ⟨S1x8, .f32⟩
  | 44 => ⟨S8, .f32⟩
  | 45 => ⟨S_, .f32⟩
  | 46 => ⟨S8, .f32⟩
  | 47 => ⟨S8, .f32⟩
  | 48 => ⟨S8, .f32⟩
  | 49 => ⟨S8, .f32⟩
  | 50 => ⟨S8, .i1⟩
  | 51 => ⟨S8, .f32⟩
  | 52 => ⟨S8, .f32⟩
  | 53 => ⟨S8, .f32⟩
  | 54 => ⟨S8, .f32⟩
  | 55 => ⟨S8, .f32⟩
  | 56 => ⟨S8, .f32⟩
  | 57 => ⟨S8, .f32⟩
  | 58 => ⟨S8, .f32⟩
  | 59 => ⟨S1x8x1, .f32⟩
  | 60 => ⟨S1x8x1, .f32⟩
  | 61 => ⟨S1x8x16, .f32⟩
  | 62 => ⟨S8x16, .f32⟩
  | 63 => ⟨S1x8x16, .f32⟩
  | 64 => ⟨S100000x8x16, .f32⟩
  | 65 => ⟨S100000x8x16, .f32⟩
  | 66 => ⟨S100000x8x16, .f32⟩
  | 67 => ⟨S_, .f32⟩
  | 68 => ⟨S100000x8, .f32⟩
  | 69 => ⟨S100000x8x1, .f32⟩
  | 70 => ⟨S100000x8x1, .f32⟩
  | 71 => ⟨S_, .f32⟩
  | 72 => ⟨S100000x8x1, .f32⟩
  | 73 => ⟨S100000x8x1, .f32⟩
  | 74 => ⟨S100000x8x1, .f32⟩
  | 75 => ⟨S100000x8x1, .f32⟩
  | 76 => ⟨S_, .f32⟩
  | 77 => ⟨S100000x8x1, .f32⟩
  | 78 => ⟨S100000x8x1, .f32⟩
  | 79 => ⟨S100000x8x1, .f32⟩
  | 80 => ⟨S100000x8x1, .f32⟩
  | 81 => ⟨S100000x8x16, .f32⟩
  | 82 => ⟨S100000x8x16, .f32⟩
  | 83 => ⟨S100000x8x16, .f32⟩
  | 84 => ⟨S100000x8x1, .f32⟩
  | 85 => ⟨S100000x8x1, .f32⟩
  | 86 => ⟨S100000x8x1, .f32⟩
  | 87 => ⟨S_, .f32⟩
  | 88 => ⟨S100000x8x1, .f32⟩
  | 89 => ⟨S100000x8x1, .f32⟩
  | 90 => ⟨S100000x8x1, .f32⟩
  | 91 => ⟨S100000x8x1, .f32⟩
  | 92 => ⟨S100000x8x1, .f32⟩
  | 93 => ⟨S100000x8, .f32⟩
  | 94 => ⟨S_, .f32⟩
  | 95 => ⟨S100000x8, .f32⟩
  | 96 => ⟨S100000x8, .f32⟩
  | 97 => ⟨S100000x8, .f32⟩
  | 98 => ⟨S100000x8x1, .f32⟩
  | 99 => ⟨S100000x8x1, .f32⟩
  | 100 => ⟨S100000x8x1, .f32⟩
  | 101 => ⟨S100000x8x1, .f32⟩
  | 102 => ⟨S100000x8x1, .f32⟩
  | 103 => ⟨S100000x8x1, .f32⟩
  | 104 => ⟨S100000x8x1, .f32⟩
  | 105 => ⟨S100000x8, .f32⟩
  | 106 => ⟨S100000x8, .f32⟩
  | 107 => ⟨S1x8, .f32⟩
  | 108 => ⟨S8, .f32⟩
  | 109 => ⟨S_, .f32⟩
  | 110 => ⟨S8, .f32⟩
  | 111 => ⟨S8, .f32⟩
  | 112 => ⟨S8, .f32⟩
  | 113 => ⟨S8, .f32⟩
  | 114 => ⟨S8, .i1⟩
  | 115 => ⟨S8, .f32⟩
  | 116 => ⟨S8, .f32⟩
  | 117 => ⟨S8, .f32⟩
  | 118 => ⟨S8, .f32⟩
  | 119 => ⟨S8, .f32⟩
  | 120 => ⟨S8, .f32⟩
  | 121 => ⟨S8, .f32⟩
  | 122 => ⟨S8, .f32⟩
  | 123 => ⟨S1x8x1, .f32⟩
  | 124 => ⟨S1x8x1, .f32⟩
  | 125 => ⟨S1x8, .f32⟩
  | 126 => ⟨S8, .f32⟩
  | 127 => ⟨S_, .f32⟩
  | _ => ⟨S100000x256, .f32⟩

abbrev hbmTy0_5 (i : Nat) : BufTy := match i % 128 with
  | 0 => ⟨S8, .f32⟩
  | 1 => ⟨S8, .f32⟩
  | 2 => ⟨S8, .f32⟩
  | 3 => ⟨S8, .f32⟩
  | 4 => ⟨S8, .i1⟩
  | 5 => ⟨S8, .f32⟩
  | 6 => ⟨S8, .f32⟩
  | 7 => ⟨S8, .f32⟩
  | 8 => ⟨S8, .f32⟩
  | 9 => ⟨S8, .f32⟩
  | 10 => ⟨S8, .f32⟩
  | 11 => ⟨S8, .f32⟩
  | 12 => ⟨S8, .f32⟩
  | 13 => ⟨S1x8x1, .f32⟩
  | 14 => ⟨S1x8x1, .f32⟩
  | 15 => ⟨S1x8x16, .f32⟩
  | 16 => ⟨S8x16, .f32⟩
  | 17 => ⟨S1x8x16, .f32⟩
  | 18 => ⟨S100000x8x16, .f32⟩
  | 19 => ⟨S100000x8x16, .f32⟩
  | 20 => ⟨S100000x8x16, .f32⟩
  | 21 => ⟨S_, .f32⟩
  | 22 => ⟨S100000x8, .f32⟩
  | 23 => ⟨S100000x8x1, .f32⟩
  | 24 => ⟨S100000x8x1, .f32⟩
  | 25 => ⟨S_, .f32⟩
  | 26 => ⟨S100000x8x1, .f32⟩
  | 27 => ⟨S100000x8x1, .f32⟩
  | 28 => ⟨S100000x8x1, .f32⟩
  | 29 => ⟨S100000x8x1, .f32⟩
  | 30 => ⟨S_, .f32⟩
  | 31 => ⟨S100000x8x1, .f32⟩
  | 32 => ⟨S100000x8x1, .f32⟩
  | 33 => ⟨S100000x8x1, .f32⟩
  | 34 => ⟨S100000x8x1, .f32⟩
  | 35 => ⟨S100000x8x16, .f32⟩
  | 36 => ⟨S100000x8x16, .f32⟩
  | 37 => ⟨S100000x8x16, .f32⟩
  | 38 => ⟨S100000x8x1, .f32⟩
  | 39 => ⟨S100000x8x1, .f32⟩
  | 40 => ⟨S100000x8x1, .f32⟩
  | 41 => ⟨S_, .f32⟩
  | 42 => ⟨S100000x8x1, .f32⟩
  | 43 => ⟨S100000x8x1, .f32⟩
  | 44 => ⟨S100000x8x1, .f32⟩
  | 45 => ⟨S100000x8x1, .f32⟩
  | 46 => ⟨S100000x8x1, .f32⟩
  | 47 => ⟨S100000x8, .f32⟩
  | 48 => ⟨S_, .f32⟩
  | 49 => ⟨S100000x8, .f32⟩
  | 50 => ⟨S100000x8, .f32⟩
  | 51 => ⟨S100000x8, .f32⟩
  | 52 => ⟨S100000x8x1, .f32⟩
  | 53 => ⟨S100000x8x1, .f32⟩
  | 54 => ⟨S100000x8x1, .f32⟩
  | 55 => ⟨S100000x8x1, .f32⟩
  | 56 => ⟨S100000x8x1, .f32⟩
  | 57 => ⟨S100000x8x1, .f32⟩
  | 58 => ⟨S100000x8x1, .f32⟩
  | 59 => ⟨S100000x8, .f32⟩
  | 60 => ⟨S100000x8, .f32⟩
  | 61 => ⟨S1x8, .f32⟩
  | 62 => ⟨S8, .f32⟩
  | 63 => ⟨S_, .f32⟩
  | 64 => ⟨S8, .f32⟩
  | 65 => ⟨S8, .f32⟩
  | 66 => ⟨S8, .f32⟩
  | 67 => ⟨S8, .f32⟩
  | 68 => ⟨S8, .i1⟩
  | 69 => ⟨S8, .f32⟩
  | 70 => ⟨S8, .f32⟩
  | 71 => ⟨S8, .f32⟩
  | 72 => ⟨S8, .f32⟩
  | 73 => ⟨S8, .f32⟩
  | 74 => ⟨S8, .f32⟩
  | 75 => ⟨S8, .f32⟩
  | 76 => ⟨S8, .f32⟩
  | 77 => ⟨S1x8x1, .f32⟩
  | 78 => ⟨S1x8x1, .f32⟩
  | 79 => ⟨S1x8, .f32⟩
  | 80 => ⟨S8, .f32⟩
  | 81 => ⟨S_, .f32⟩
  | 82 => ⟨S8, .f32⟩
  | 83 => ⟨S8, .f32⟩
  | 84 => ⟨S8, .f32⟩
  | 85 => ⟨S8, .f32⟩
  | 86 => ⟨S8, .i1⟩
  | 87 => ⟨S8, .f32⟩
  | 88 => ⟨S8, .f32⟩
  | 89 => ⟨S8, .f32⟩
  | 90 => ⟨S8, .f32⟩
  | 91 => ⟨S8, .f32⟩
  | 92 => ⟨S8, .f32⟩
  | 93 => ⟨S8, .f32⟩
  | 94 => ⟨S8, .f32⟩
  | 95 => ⟨S1x8x1, .f32⟩
  | 96 => ⟨S1x8x1, .f32⟩
  | 97 => ⟨S1x8x16, .f32⟩
  | 98 => ⟨S8x16, .f32⟩
  | 99 => ⟨S1x8x16, .f32⟩
  | 100 => ⟨S100000x8x16, .f32⟩
  | 101 => ⟨S100000x8x16, .f32⟩
  | 102 => ⟨S100000x8x16, .f32⟩
  | 103 => ⟨S_, .f32⟩
  | 104 => ⟨S100000x8, .f32⟩
  | 105 => ⟨S100000x8x1, .f32⟩
  | 106 => ⟨S100000x8x1, .f32⟩
  | 107 => ⟨S_, .f32⟩
  | 108 => ⟨S100000x8x1, .f32⟩
  | 109 => ⟨S100000x8x1, .f32⟩
  | 110 => ⟨S100000x8x1, .f32⟩
  | 111 => ⟨S100000x8x1, .f32⟩
  | 112 => ⟨S_, .f32⟩
  | 113 => ⟨S100000x8x1, .f32⟩
  | 114 => ⟨S100000x8x1, .f32⟩
  | 115 => ⟨S100000x8x1, .f32⟩
  | 116 => ⟨S100000x8x1, .f32⟩
  | 117 => ⟨S100000x8x16, .f32⟩
  | 118 => ⟨S100000x8x16, .f32⟩
  | 119 => ⟨S100000x8x16, .f32⟩
  | 120 => ⟨S100000x8x1, .f32⟩
  | 121 => ⟨S100000x8x1, .f32⟩
  | 122 => ⟨S100000x8x1, .f32⟩
  | 123 => ⟨S_, .f32⟩
  | 124 => ⟨S100000x8x1, .f32⟩
  | 125 => ⟨S100000x8x1, .f32⟩
  | 126 => ⟨S100000x8x1, .f32⟩
  | 127 => ⟨S100000x8x1, .f32⟩
  | _ => ⟨S100000x256, .f32⟩

abbrev hbmTy0_6 (i : Nat) : BufTy := match i % 128 with
  | 0 => ⟨S100000x8x1, .f32⟩
  | 1 => ⟨S100000x8, .f32⟩
  | 2 => ⟨S_, .f32⟩
  | 3 => ⟨S100000x8, .f32⟩
  | 4 => ⟨S100000x8, .f32⟩
  | 5 => ⟨S100000x8, .f32⟩
  | 6 => ⟨S100000x8x1, .f32⟩
  | 7 => ⟨S100000x8x1, .f32⟩
  | 8 => ⟨S100000x8x1, .f32⟩
  | 9 => ⟨S100000x8x1, .f32⟩
  | 10 => ⟨S100000x8x1, .f32⟩
  | 11 => ⟨S100000x8x1, .f32⟩
  | 12 => ⟨S100000x8x1, .f32⟩
  | 13 => ⟨S100000x8, .f32⟩
  | 14 => ⟨S100000x8, .f32⟩
  | 15 => ⟨S1x8, .f32⟩
  | 16 => ⟨S8, .f32⟩
  | 17 => ⟨S_, .f32⟩
  | 18 => ⟨S8, .f32⟩
  | 19 => ⟨S8, .f32⟩
  | 20 => ⟨S8, .f32⟩
  | 21 => ⟨S8, .f32⟩
  | 22 => ⟨S8, .i1⟩
  | 23 => ⟨S8, .f32⟩
  | 24 => ⟨S8, .f32⟩
  | 25 => ⟨S8, .f32⟩
  | 26 => ⟨S8, .f32⟩
  | 27 => ⟨S8, .f32⟩
  | 28 => ⟨S8, .f32⟩
  | 29 => ⟨S8, .f32⟩
  | 30 => ⟨S8, .f32⟩
  | 31 => ⟨S1x8x1, .f32⟩
  | 32 => ⟨S1x8x1, .f32⟩
  | 33 => ⟨S1x8, .f32⟩
  | 34 => ⟨S8, .f32⟩
  | 35 => ⟨S_, .f32⟩
  | 36 => ⟨S8, .f32⟩
  | 37 => ⟨S8, .f32⟩
  | 38 => ⟨S8, .f32⟩
  | 39 => ⟨S8, .f32⟩
  | 40 => ⟨S8, .i1⟩
  | 41 => ⟨S8, .f32⟩
  | 42 => ⟨S8, .f32⟩
  | 43 => ⟨S8, .f32⟩
  | 44 => ⟨S8, .f32⟩
  | 45 => ⟨S8, .f32⟩
  | 46 => ⟨S8, .f32⟩
  | 47 => ⟨S8, .f32⟩
  | 48 => ⟨S8, .f32⟩
  | 49 => ⟨S1x8x1, .f32⟩
  | 50 => ⟨S1x8x1, .f32⟩
  | 51 => ⟨S1x8x16, .f32⟩
  | 52 => ⟨S8x16, .f32⟩
  | 53 => ⟨S1x8x16, .f32⟩
  | 54 => ⟨S100000x8x16, .f32⟩
  | 55 => ⟨S100000x8x16, .f32⟩
  | 56 => ⟨S100000x8x16, .f32⟩
  | 57 => ⟨S_, .f32⟩
  | 58 => ⟨S100000x8, .f32⟩
  | 59 => ⟨S100000x8x1, .f32⟩
  | 60 => ⟨S100000x8x1, .f32⟩
  | 61 => ⟨S_, .f32⟩
  | 62 => ⟨S100000x8x1, .f32⟩
  | 63 => ⟨S100000x8x1, .f32⟩
  | 64 => ⟨S100000x8x1, .f32⟩
  | 65 => ⟨S100000x8x1, .f32⟩
  | 66 => ⟨S_, .f32⟩
  | 67 => ⟨S100000x8x1, .f32⟩
  | 68 => ⟨S100000x8x1, .f32⟩
  | 69 => ⟨S100000x8x1, .f32⟩
  | 70 => ⟨S100000x8x1, .f32⟩
  | 71 => ⟨S100000x8x16, .f32⟩
  | 72 => ⟨S100000x8x16, .f32⟩
  | 73 => ⟨S100000x8x16, .f32⟩
  | 74 => ⟨S100000x8x1, .f32⟩
  | 75 => ⟨S100000x8x1, .f32⟩
  | 76 => ⟨S100000x8x1, .f32⟩
  | 77 => ⟨S_, .f32⟩
  | 78 => ⟨S100000x8x1, .f32⟩
  | 79 => ⟨S100000x8x1, .f32⟩
  | 80 => ⟨S100000x8x1, .f32⟩
  | 81 => ⟨S100000x8x1, .f32⟩
  | 82 => ⟨S100000x8x1, .f32⟩
  | 83 => ⟨S100000x8, .f32⟩
  | 84 => ⟨S_, .f32⟩
  | 85 => ⟨S100000x8, .f32⟩
  | 86 => ⟨S100000x8, .f32⟩
  | 87 => ⟨S100000x8, .f32⟩
  | 88 => ⟨S100000x8x1, .f32⟩
  | 89 => ⟨S100000x8x1, .f32⟩
  | 90 => ⟨S100000x8x1, .f32⟩
  | 91 => ⟨S100000x8x1, .f32⟩
  | 92 => ⟨S100000x8x1, .f32⟩
  | 93 => ⟨S100000x8x1, .f32⟩
  | 94 => ⟨S100000x8x1, .f32⟩
  | 95 => ⟨S100000x8, .f32⟩
  | 96 => ⟨S100000x8, .f32⟩
  | 97 => ⟨S1x8, .f32⟩
  | 98 => ⟨S8, .f32⟩
  | 99 => ⟨S_, .f32⟩
  | 100 => ⟨S8, .f32⟩
  | 101 => ⟨S8, .f32⟩
  | 102 => ⟨S8, .f32⟩
  | 103 => ⟨S8, .f32⟩
  | 104 => ⟨S8, .i1⟩
  | 105 => ⟨S8, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8, .f32⟩
  | 113 => ⟨S1x8x1, .f32⟩
  | 114 => ⟨S1x8x1, .f32⟩
  | 115 => ⟨S1x8, .f32⟩
  | 116 => ⟨S8, .f32⟩
  | 117 => ⟨S_, .f32⟩
  | 118 => ⟨S8, .f32⟩
  | 119 => ⟨S8, .f32⟩
  | 120 => ⟨S8, .f32⟩
  | 121 => ⟨S8, .f32⟩
  | 122 => ⟨S8, .i1⟩
  | 123 => ⟨S8, .f32⟩
  | 124 => ⟨S8, .f32⟩
  | 125 => ⟨S8, .f32⟩
  | 126 => ⟨S8, .f32⟩
  | 127 => ⟨S8, .f32⟩
  | _ => ⟨S100000x256, .f32⟩

abbrev hbmTy0_7 (i : Nat) : BufTy := match i % 128 with
  | 0 => ⟨S8, .f32⟩
  | 1 => ⟨S8, .f32⟩
  | 2 => ⟨S8, .f32⟩
  | 3 => ⟨S1x8x1, .f32⟩
  | 4 => ⟨S1x8x1, .f32⟩
  | 5 => ⟨S1x8x16, .f32⟩
  | 6 => ⟨S8x16, .f32⟩
  | 7 => ⟨S1x8x16, .f32⟩
  | 8 => ⟨S100000x8x16, .f32⟩
  | 9 => ⟨S100000x8x16, .f32⟩
  | 10 => ⟨S100000x8x16, .f32⟩
  | 11 => ⟨S_, .f32⟩
  | 12 => ⟨S100000x8, .f32⟩
  | 13 => ⟨S100000x8x1, .f32⟩
  | 14 => ⟨S100000x8x1, .f32⟩
  | 15 => ⟨S_, .f32⟩
  | 16 => ⟨S100000x8x1, .f32⟩
  | 17 => ⟨S100000x8x1, .f32⟩
  | 18 => ⟨S100000x8x1, .f32⟩
  | 19 => ⟨S100000x8x1, .f32⟩
  | 20 => ⟨S_, .f32⟩
  | 21 => ⟨S100000x8x1, .f32⟩
  | 22 => ⟨S100000x8x1, .f32⟩
  | 23 => ⟨S100000x8x1, .f32⟩
  | 24 => ⟨S100000x8x1, .f32⟩
  | 25 => ⟨S100000x8x16, .f32⟩
  | 26 => ⟨S100000x8x16, .f32⟩
  | 27 => ⟨S100000x8x16, .f32⟩
  | 28 => ⟨S100000x8x1, .f32⟩
  | 29 => ⟨S100000x8x1, .f32⟩
  | 30 => ⟨S100000x8x1, .f32⟩
  | 31 => ⟨S_, .f32⟩
  | 32 => ⟨S100000x8x1, .f32⟩
  | 33 => ⟨S100000x8x1, .f32⟩
  | 34 => ⟨S100000x8x1, .f32⟩
  | 35 => ⟨S100000x8x1, .f32⟩
  | 36 => ⟨S100000x8x1, .f32⟩
  | 37 => ⟨S100000x8, .f32⟩
  | 38 => ⟨S_, .f32⟩
  | 39 => ⟨S100000x8, .f32⟩
  | 40 => ⟨S100000x8, .f32⟩
  | 41 => ⟨S100000x8, .f32⟩
  | 42 => ⟨S100000x8x1, .f32⟩
  | 43 => ⟨S100000x8x1, .f32⟩
  | 44 => ⟨S100000x8x1, .f32⟩
  | 45 => ⟨S100000x8x1, .f32⟩
  | 46 => ⟨S100000x8x1, .f32⟩
  | 47 => ⟨S100000x8x1, .f32⟩
  | 48 => ⟨S100000x8x1, .f32⟩
  | 49 => ⟨S100000x8, .f32⟩
  | 50 => ⟨S100000x8, .f32⟩
  | 51 => ⟨S8x16, .f32⟩
  | 52 => ⟨S_, .f32⟩
  | 53 => ⟨S8, .f32⟩
  | 54 => ⟨S1x8, .f32⟩
  | 55 => ⟨S_, .f32⟩
  | 56 => ⟨S1x8, .f32⟩
  | 57 => ⟨S1x8, .f32⟩
  | 58 => ⟨S_, .f32⟩
  | 59 => ⟨S1x8, .f32⟩
  | 60 => ⟨S1x8, .f32⟩
  | 61 => ⟨S1x8x16, .f32⟩
  | 62 => ⟨S100000x8x16, .f32⟩
  | 63 => ⟨S100000x8x16, .f32⟩
  | 64 => ⟨S100000x8x16, .f32⟩
  | 65 => ⟨S1x8x16, .f32⟩
  | 66 => ⟨S100000x8x16, .f32⟩
  | 67 => ⟨S100000x8x16, .f32⟩
  | 68 => ⟨S_, .f32⟩
  | 69 => ⟨S100000x8, .f32⟩
  | 70 => ⟨S_, .f32⟩
  | 71 => ⟨S100000x8, .f32⟩
  | 72 => ⟨S100000x8, .f32⟩
  | 73 => ⟨S100000x8, .f32⟩
  | 74 => ⟨S100000x8, .f32⟩
  | 75 => ⟨S100000x8, .f32⟩
  | 76 => ⟨S_, .f32⟩
  | 77 => ⟨S100000x8, .f32⟩
  | 78 => ⟨S100000x8, .f32⟩
  | 79 => ⟨S_, .f32⟩
  | 80 => ⟨S_, .f32⟩
  | 81 => ⟨S_, .f32⟩
  | 82 => ⟨S100000x8, .f32⟩
  | 83 => ⟨S100000x8, .f32⟩
  | 84 => ⟨S_, .f32⟩
  | 85 => ⟨S100000x8, .f32⟩
  | 86 => ⟨S100000x8, .f32⟩
  | 87 => ⟨S100000x8, .f32⟩
  | 88 => ⟨S100000, .i32⟩
  | 89 => ⟨S1x3200000, .i32⟩
  | 90 => ⟨S3200000, .i32⟩
  | 91 => ⟨S3300000, .i32⟩
  | 92 => ⟨S1x3200000, .i32⟩
  | 93 => ⟨S3200000, .i32⟩
  | 94 => ⟨S3300000, .i32⟩
  | 95 => ⟨S_, .f32⟩
  | 96 => ⟨S3300000, .f32⟩
  | 97 => ⟨S_, .f32⟩
  | 98 => ⟨S100000, .f32⟩
  | 99 => ⟨S3300000x1, .i32⟩
  | 100 => ⟨S100000, .f32⟩
  | 101 => ⟨S_, .f32⟩
  | 102 => ⟨S100000, .f32⟩
  | 103 => ⟨S100000, .i1⟩
  | 104 => ⟨S_, .f32⟩
  | 105 => ⟨S100000, .f32⟩
  | 106 => ⟨S100000, .f32⟩
  | 107 => ⟨S_, .f32⟩
  | 108 => ⟨S_, .f32⟩
  | 109 => ⟨S100000, .f32⟩
  | 110 => ⟨S100000, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S100000x256, .f32⟩

abbrev hbmTy0_8 (i : Nat) : BufTy := match i % 128 with
  | 0 => ⟨S3300000, .f32⟩
  | 1 => ⟨S3300000, .f32⟩
  | 2 => ⟨S3300000x1, .f32⟩
  | 3 => ⟨S_, .i32⟩
  | 4 => ⟨S3300000, .i32⟩
  | 5 => ⟨S3300000, .i1⟩
  | 6 => ⟨S_, .i32⟩
  | 7 => ⟨S3300000, .i32⟩
  | 8 => ⟨S3300000, .i32⟩
  | 9 => ⟨S3300000, .i32⟩
  | 10 => ⟨S3300000x1, .i32⟩
  | 11 => ⟨S3300000x8, .f32⟩
  | 12 => ⟨S3300000x8, .f32⟩
  | 13 => ⟨S3300000x8, .f32⟩
  | 14 => ⟨S_, .f32⟩
  | 15 => ⟨S100000x8, .f32⟩
  | 16 => ⟨S3300000x1, .i32⟩
  | 17 => ⟨S100000x8, .f32⟩
  | 18 => ⟨S_, .f32⟩
  | 19 => ⟨S100000x8, .f32⟩
  | 20 => ⟨S100000x8, .f32⟩
  | 21 => ⟨S_, .f32⟩
  | 22 => ⟨S100000x8, .f32⟩
  | 23 => ⟨S100000x8, .f32⟩
  | 24 => ⟨S100000x8, .f32⟩
  | 25 => ⟨S3300000x1, .f32⟩
  | 26 => ⟨S_, .i32⟩
  | 27 => ⟨S3300000, .i32⟩
  | 28 => ⟨S3300000, .i1⟩
  | 29 => ⟨S_, .i32⟩
  | 30 => ⟨S3300000, .i32⟩
  | 31 => ⟨S3300000, .i32⟩
  | 32 => ⟨S3300000, .i32⟩
  | 33 => ⟨S3300000x1, .i32⟩
  | 34 => ⟨S3300000x8, .f32⟩
  | 35 => ⟨S3300000x8, .f32⟩
  | 36 => ⟨S3300000x8, .f32⟩
  | 37 => ⟨S_, .f32⟩
  | 38 => ⟨S100000x8, .f32⟩
  | 39 => ⟨S3300000x1, .i32⟩
  | 40 => ⟨S100000x8, .f32⟩
  | 41 => ⟨S_, .f32⟩
  | 42 => ⟨S100000x8, .f32⟩
  | 43 => ⟨S100000x8, .f32⟩
  | 44 => ⟨S_, .f32⟩
  | 45 => ⟨S100000x8, .f32⟩
  | 46 => ⟨S100000x8, .f32⟩
  | 47 => ⟨S100000x8, .f32⟩
  | 48 => ⟨S3300000x1, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x8, .f32⟩
  | 58 => ⟨S3300000x8, .f32⟩
  | 59 => ⟨S3300000x8, .f32⟩
  | 60 => ⟨S_, .f32⟩
  | 61 => ⟨S100000x8, .f32⟩
  | 62 => ⟨S3300000x1, .i32⟩
  | 63 => ⟨S100000x8, .f32⟩
  | 64 => ⟨S_, .f32⟩
  | 65 => ⟨S100000x8, .f32⟩
  | 66 => ⟨S100000x8, .f32⟩
  | 67 => ⟨S_, .f32⟩
  | 68 => ⟨S100000x8, .f32⟩
  | 69 => ⟨S100000x8, .f32⟩
  | 70 => ⟨S100000x8, .f32⟩
  | 71 => ⟨S3300000x1, .f32⟩
  | 72 => ⟨S_, .i32⟩
  | 73 => ⟨S3300000, .i32⟩
  | 74 => ⟨S3300000, .i1⟩
  | 75 => ⟨S_, .i32⟩
  | 76 => ⟨S3300000, .i32⟩
  | 77 => ⟨S3300000, .i32⟩
  | 78 => ⟨S3300000, .i32⟩
  | 79 => ⟨S3300000x1, .i32⟩
  | 80 => ⟨S3300000x8, .f32⟩
  | 81 => ⟨S3300000x8, .f32⟩
  | 82 => ⟨S3300000x8, .f32⟩
  | 83 => ⟨S_, .f32⟩
  | 84 => ⟨S100000x8, .f32⟩
  | 85 => ⟨S3300000x1, .i32⟩
  | 86 => ⟨S100000x8, .f32⟩
  | 87 => ⟨S_, .f32⟩
  | 88 => ⟨S100000x8, .f32⟩
  | 89 => ⟨S100000x8, .f32⟩
  | 90 => ⟨S_, .f32⟩
  | 91 => ⟨S100000x8, .f32⟩
  | 92 => ⟨S100000x8, .f32⟩
  | 93 => ⟨S100000x8, .f32⟩
  | 94 => ⟨S3300000x1, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000x8, .f32⟩
  | 104 => ⟨S3300000x8, .f32⟩
  | 105 => ⟨S3300000x8, .f32⟩
  | 106 => ⟨S_, .f32⟩
  | 107 => ⟨S100000x8, .f32⟩
  | 108 => ⟨S3300000x1, .i32⟩
  | 109 => ⟨S100000x8, .f32⟩
  | 110 => ⟨S_, .f32⟩
  | 111 => ⟨S100000x8, .f32⟩
  | 112 => ⟨S100000x8, .f32⟩
  | 113 => ⟨S_, .f32⟩
  | 114 => ⟨S100000x8, .f32⟩
  | 115 => ⟨S100000x8, .f32⟩
  | 116 => ⟨S100000x8, .f32⟩
  | 117 => ⟨S3300000x1, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000x8, .f32⟩
  | 127 => ⟨S3300000x8, .f32⟩
  | _ => ⟨S100000x256, .f32⟩

abbrev hbmTy0_9 (i : Nat) : BufTy := match i % 128 with
  | 0 => ⟨S3300000x8, .f32⟩
  | 1 => ⟨S_, .f32⟩
  | 2 => ⟨S100000x8, .f32⟩
  | 3 => ⟨S3300000x1, .i32⟩
  | 4 => ⟨S100000x8, .f32⟩
  | 5 => ⟨S_, .f32⟩
  | 6 => ⟨S100000x8, .f32⟩
  | 7 => ⟨S100000x8, .f32⟩
  | 8 => ⟨S_, .f32⟩
  | 9 => ⟨S100000x8, .f32⟩
  | 10 => ⟨S100000x8, .f32⟩
  | 11 => ⟨S100000x8, .f32⟩
  | 12 => ⟨S3300000x1, .f32⟩
  | 13 => ⟨S_, .i32⟩
  | 14 => ⟨S3300000, .i32⟩
  | 15 => ⟨S3300000, .i1⟩
  | 16 => ⟨S_, .i32⟩
  | 17 => ⟨S3300000, .i32⟩
  | 18 => ⟨S3300000, .i32⟩
  | 19 => ⟨S3300000, .i32⟩
  | 20 => ⟨S3300000x1, .i32⟩
  | 21 => ⟨S3300000x8, .f32⟩
  | 22 => ⟨S3300000x8, .f32⟩
  | 23 => ⟨S3300000x8, .f32⟩
  | 24 => ⟨S_, .f32⟩
  | 25 => ⟨S100000x8, .f32⟩
  | 26 => ⟨S3300000x1, .i32⟩
  | 27 => ⟨S100000x8, .f32⟩
  | 28 => ⟨S_, .f32⟩
  | 29 => ⟨S100000x8, .f32⟩
  | 30 => ⟨S100000x8, .f32⟩
  | 31 => ⟨S_, .f32⟩
  | 32 => ⟨S100000x8, .f32⟩
  | 33 => ⟨S100000x8, .f32⟩
  | 34 => ⟨S100000x8, .f32⟩
  | 35 => ⟨S3300000x1, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000x8, .f32⟩
  | 45 => ⟨S3300000x8, .f32⟩
  | 46 => ⟨S3300000x8, .f32⟩
  | 47 => ⟨S_, .f32⟩
  | 48 => ⟨S100000x8, .f32⟩
  | 49 => ⟨S3300000x1, .i32⟩
  | 50 => ⟨S100000x8, .f32⟩
  | 51 => ⟨S_, .f32⟩
  | 52 => ⟨S100000x8, .f32⟩
  | 53 => ⟨S100000x8, .f32⟩
  | 54 => ⟨S_, .f32⟩
  | 55 => ⟨S100000x8, .f32⟩
  | 56 => ⟨S100000x8, .f32⟩
  | 57 => ⟨S100000x8, .f32⟩
  | 58 => ⟨S3300000x1, .f32⟩
  | 59 => ⟨S_, .i32⟩
  | 60 => ⟨S3300000, .i32⟩
  | 61 => ⟨S3300000, .i1⟩
  | 62 => ⟨S_, .i32⟩
  | 63 => ⟨S3300000, .i32⟩
  | 64 => ⟨S3300000, .i32⟩
  | 65 => ⟨S3300000, .i32⟩
  | 66 => ⟨S3300000x1, .i32⟩
  | 67 => ⟨S3300000x8, .f32⟩
  | 68 => ⟨S3300000x8, .f32⟩
  | 69 => ⟨S3300000x8, .f32⟩
  | 70 => ⟨S_, .f32⟩
  | 71 => ⟨S100000x8, .f32⟩
  | 72 => ⟨S3300000x1, .i32⟩
  | 73 => ⟨S100000x8, .f32⟩
  | 74 => ⟨S_, .f32⟩
  | 75 => ⟨S100000x8, .f32⟩
  | 76 => ⟨S100000x8, .f32⟩
  | 77 => ⟨S_, .f32⟩
  | 78 => ⟨S100000x8, .f32⟩
  | 79 => ⟨S100000x8, .f32⟩
  | 80 => ⟨S100000x8, .f32⟩
  | 81 => ⟨S3300000x1, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000x8, .f32⟩
  | 91 => ⟨S3300000x8, .f32⟩
  | 92 => ⟨S3300000x8, .f32⟩
  | 93 => ⟨S_, .f32⟩
  | 94 => ⟨S100000x8, .f32⟩
  | 95 => ⟨S3300000x1, .i32⟩
  | 96 => ⟨S100000x8, .f32⟩
  | 97 => ⟨S_, .f32⟩
  | 98 => ⟨S100000x8, .f32⟩
  | 99 => ⟨S100000x8, .f32⟩
  | 100 => ⟨S_, .f32⟩
  | 101 => ⟨S100000x8, .f32⟩
  | 102 => ⟨S100000x8, .f32⟩
  | 103 => ⟨S100000x8, .f32⟩
  | 104 => ⟨S_, .f32⟩
  | 105 => ⟨S100000x8, .f32⟩
  | 106 => ⟨S100000x8, .f32⟩
  | 107 => ⟨S_, .f32⟩
  | 108 => ⟨S100000x8, .f32⟩
  | 109 => ⟨S100000x8, .f32⟩
  | 110 => ⟨S_, .f32⟩
  | 111 => ⟨S100000, .f32⟩
  | 112 => ⟨S100000x1, .f32⟩
  | 113 => ⟨S100000x8, .f32⟩
  | 114 => ⟨S100000x8, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst_1 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_call1_cst : Ref sig .tc := ⟨.hbm, 65, rfl⟩
abbrev main_call1_v0 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_2 : Ref sig .tc := ⟨.hbm, 72, rfl⟩
abbrev main_v28 : Ref sig .tc := ⟨.hbm, 73, rfl⟩
abbrev main_cst_3 : Ref sig .tc := ⟨.hbm, 74, rfl⟩
abbrev main_v29 : Ref sig .tc := ⟨.hbm, 75, rfl⟩
abbrev main_v30 : Ref sig .tc := ⟨.hbm, 76, rfl⟩
abbrev main_c_4 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_cst_3 : Ref sig .tc := ⟨.hbm, 94, rfl⟩
abbrev main_call2_v12 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_cst_5 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_call3_cst : Ref sig .tc := ⟨.hbm, 116, rfl⟩
abbrev main_call3_v0 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_cst_6 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_call4_cst : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_v7 : Ref sig .tc := ⟨.hbm, 137, rfl⟩
abbrev main_call4_v8 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_call5_cst : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_call6_v0 : Ref sig .tc := ⟨.hbm, 168, rfl⟩
abbrev main_call6_cst : Ref sig .tc := ⟨.hbm, 169, rfl⟩
abbrev main_call6_v1 : Ref sig .tc := ⟨.hbm, 170, rfl⟩
abbrev main_call6_v2 : Ref sig .tc := ⟨.hbm, 171, rfl⟩
abbrev main_v70 : Ref sig .tc := ⟨.hbm, 172, rfl⟩
abbrev main_cst_7 : Ref sig .tc := ⟨.hbm, 173, rfl⟩
abbrev main_v71 : Ref sig .tc := ⟨.hbm, 174, rfl⟩
abbrev main_v72 : Ref sig .tc := ⟨.hbm, 175, rfl⟩
abbrev main_v73 : Ref sig .tc := ⟨.hbm, 176, rfl⟩
abbrev main_v74 : Ref sig .tc := ⟨.hbm, 177, rfl⟩
abbrev main_cst_8 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_cst_9 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_cst_10 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_call7_cst : Ref sig .tc := ⟨.hbm, 211, rfl⟩
abbrev main_call7_v0 : Ref sig .tc := ⟨.hbm, 212, rfl⟩
abbrev main_call7_v1 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_call7_v5 : Ref sig .tc := ⟨.hbm, 217, rfl⟩
abbrev main_call7_v6 : Ref sig .tc := ⟨.hbm, 218, rfl⟩
abbrev main_call7_v7 : Ref sig .tc := ⟨.hbm, 219, rfl⟩
abbrev main_call7_v8 : Ref sig .tc := ⟨.hbm, 220, rfl⟩
abbrev main_call7_v9 : Ref sig .tc := ⟨.hbm, 221, rfl⟩
abbrev main_call7_v10 : Ref sig .tc := ⟨.hbm, 222, rfl⟩
abbrev main_call7_v11 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_call8_cst : Ref sig .tc := ⟨.hbm, 229, rfl⟩
abbrev main_call8_v0 : Ref sig .tc := ⟨.hbm, 230, rfl⟩
abbrev main_call8_v1 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_call8_v5 : Ref sig .tc := ⟨.hbm, 235, rfl⟩
abbrev main_call8_v6 : Ref sig .tc := ⟨.hbm, 236, rfl⟩
abbrev main_call8_v7 : Ref sig .tc := ⟨.hbm, 237, rfl⟩
abbrev main_call8_v8 : Ref sig .tc := ⟨.hbm, 238, rfl⟩
abbrev main_call8_v9 : Ref sig .tc := ⟨.hbm, 239, rfl⟩
abbrev main_call8_v10 : Ref sig .tc := ⟨.hbm, 240, rfl⟩
abbrev main_call8_v11 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_v113 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_call9_v0 : Ref sig .tc := ⟨.hbm, 250, rfl⟩
abbrev main_call9_cst : Ref sig .tc := ⟨.hbm, 251, rfl⟩
abbrev main_call9_v1 : Ref sig .tc := ⟨.hbm, 252, rfl⟩
abbrev main_call9_v2 : Ref sig .tc := ⟨.hbm, 253, rfl⟩
abbrev main_v118 : Ref sig .tc := ⟨.hbm, 254, rfl⟩
abbrev main_cst_11 : Ref sig .tc := ⟨.hbm, 255, rfl⟩
abbrev main_v119 : Ref sig .tc := ⟨.hbm, 256, rfl⟩
abbrev main_v120 : Ref sig .tc := ⟨.hbm, 257, rfl⟩
abbrev main_v121 : Ref sig .tc := ⟨.hbm, 258, rfl⟩
abbrev main_v122 : Ref sig .tc := ⟨.hbm, 259, rfl⟩
abbrev main_cst_12 : Ref sig .tc := ⟨.hbm, 260, rfl⟩
abbrev main_v123 : Ref sig .tc := ⟨.hbm, 261, rfl⟩
abbrev main_v124 : Ref sig .tc := ⟨.hbm, 262, rfl⟩
abbrev main_v125 : Ref sig .tc := ⟨.hbm, 263, rfl⟩
abbrev main_v126 : Ref sig .tc := ⟨.hbm, 264, rfl⟩
abbrev main_v127 : Ref sig .tc := ⟨.hbm, 265, rfl⟩
abbrev main_v128 : Ref sig .tc := ⟨.hbm, 266, rfl⟩
abbrev main_v129 : Ref sig .tc := ⟨.hbm, 267, rfl⟩
abbrev main_v130 : Ref sig .tc := ⟨.hbm, 268, rfl⟩
abbrev main_v131 : Ref sig .tc := ⟨.hbm, 269, rfl⟩
abbrev main_v132 : Ref sig .tc := ⟨.hbm, 270, rfl⟩
abbrev main_cst_13 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_v136 : Ref sig .tc := ⟨.hbm, 275, rfl⟩
abbrev main_v137 : Ref sig .tc := ⟨.hbm, 276, rfl⟩
abbrev main_v138 : Ref sig .tc := ⟨.hbm, 277, rfl⟩
abbrev main_cst_14 : Ref sig .tc := ⟨.hbm, 278, rfl⟩
abbrev main_v139 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_v146 : Ref sig .tc := ⟨.hbm, 286, rfl⟩
abbrev main_v147 : Ref sig .tc := ⟨.hbm, 287, rfl⟩
abbrev main_v148 : Ref sig .tc := ⟨.hbm, 288, rfl⟩
abbrev main_v149 : Ref sig .tc := ⟨.hbm, 289, rfl⟩
abbrev main_v150 : Ref sig .tc := ⟨.hbm, 290, rfl⟩
abbrev main_v151 : Ref sig .tc := ⟨.hbm, 291, rfl⟩
abbrev main_v152 : Ref sig .tc := ⟨.hbm, 292, rfl⟩
abbrev main_call10_cst : Ref sig .tc := ⟨.hbm, 293, rfl⟩
abbrev main_call10_v0 : Ref sig .tc := ⟨.hbm, 294, rfl⟩
abbrev main_call10_v1 : Ref sig .tc := ⟨.hbm, 295, rfl⟩
abbrev main_call10_v2 : Ref sig .tc := ⟨.hbm, 296, rfl⟩
abbrev main_call10_v3 : Ref sig .tc := ⟨.hbm, 297, rfl⟩
abbrev main_call10_v4 : Ref sig .tc := ⟨.hbm, 298, rfl⟩
abbrev main_call10_v5 : Ref sig .tc := ⟨.hbm, 299, rfl⟩
abbrev main_call10_v6 : Ref sig .tc := ⟨.hbm, 300, rfl⟩
abbrev main_call10_v7 : Ref sig .tc := ⟨.hbm, 301, rfl⟩
abbrev main_call10_v8 : Ref sig .tc := ⟨.hbm, 302, rfl⟩
abbrev main_call10_v9 : Ref sig .tc := ⟨.hbm, 303, rfl⟩
abbrev main_call10_v10 : Ref sig .tc := ⟨.hbm, 304, rfl⟩
abbrev main_call10_v11 : Ref sig .tc := ⟨.hbm, 305, rfl⟩
abbrev main_v153 : Ref sig .tc := ⟨.hbm, 306, rfl⟩
abbrev main_v154 : Ref sig .tc := ⟨.hbm, 307, rfl⟩
abbrev main_v155 : Ref sig .tc := ⟨.hbm, 308, rfl⟩
abbrev main_v156 : Ref sig .tc := ⟨.hbm, 309, rfl⟩
abbrev main_v157 : Ref sig .tc := ⟨.hbm, 310, rfl⟩
abbrev main_call11_cst : Ref sig .tc := ⟨.hbm, 311, rfl⟩
abbrev main_call11_v0 : Ref sig .tc := ⟨.hbm, 312, rfl⟩
abbrev main_call11_v1 : Ref sig .tc := ⟨.hbm, 313, rfl⟩
abbrev main_call11_v2 : Ref sig .tc := ⟨.hbm, 314, rfl⟩
abbrev main_call11_v3 : Ref sig .tc := ⟨.hbm, 315, rfl⟩
abbrev main_call11_v4 : Ref sig .tc := ⟨.hbm, 316, rfl⟩
abbrev main_call11_v5 : Ref sig .tc := ⟨.hbm, 317, rfl⟩
abbrev main_call11_v6 : Ref sig .tc := ⟨.hbm, 318, rfl⟩
abbrev main_call11_v7 : Ref sig .tc := ⟨.hbm, 319, rfl⟩
abbrev main_call11_v8 : Ref sig .tc := ⟨.hbm, 320, rfl⟩
abbrev main_call11_v9 : Ref sig .tc := ⟨.hbm, 321, rfl⟩
abbrev main_call11_v10 : Ref sig .tc := ⟨.hbm, 322, rfl⟩
abbrev main_call11_v11 : Ref sig .tc := ⟨.hbm, 323, rfl⟩
abbrev main_v158 : Ref sig .tc := ⟨.hbm, 324, rfl⟩
abbrev main_v159 : Ref sig .tc := ⟨.hbm, 325, rfl⟩
abbrev main_v160 : Ref sig .tc := ⟨.hbm, 326, rfl⟩
abbrev main_v161 : Ref sig .tc := ⟨.hbm, 327, rfl⟩
abbrev main_v162 : Ref sig .tc := ⟨.hbm, 328, rfl⟩
abbrev main_v163 : Ref sig .tc := ⟨.hbm, 329, rfl⟩
abbrev main_v164 : Ref sig .tc := ⟨.hbm, 330, rfl⟩
abbrev main_v165 : Ref sig .tc := ⟨.hbm, 331, rfl⟩
abbrev main_call12_v0 : Ref sig .tc := ⟨.hbm, 332, rfl⟩
abbrev main_call12_cst : Ref sig .tc := ⟨.hbm, 333, rfl⟩
abbrev main_call12_v1 : Ref sig .tc := ⟨.hbm, 334, rfl⟩
abbrev main_call12_v2 : Ref sig .tc := ⟨.hbm, 335, rfl⟩
abbrev main_v166 : Ref sig .tc := ⟨.hbm, 336, rfl⟩
abbrev main_cst_15 : Ref sig .tc := ⟨.hbm, 337, rfl⟩
abbrev main_v167 : Ref sig .tc := ⟨.hbm, 338, rfl⟩
abbrev main_v168 : Ref sig .tc := ⟨.hbm, 339, rfl⟩
abbrev main_v169 : Ref sig .tc := ⟨.hbm, 340, rfl⟩
abbrev main_v170 : Ref sig .tc := ⟨.hbm, 341, rfl⟩
abbrev main_cst_16 : Ref sig .tc := ⟨.hbm, 342, rfl⟩
abbrev main_v171 : Ref sig .tc := ⟨.hbm, 343, rfl⟩
abbrev main_v172 : Ref sig .tc := ⟨.hbm, 344, rfl⟩
abbrev main_v173 : Ref sig .tc := ⟨.hbm, 345, rfl⟩
abbrev main_v174 : Ref sig .tc := ⟨.hbm, 346, rfl⟩
abbrev main_v175 : Ref sig .tc := ⟨.hbm, 347, rfl⟩
abbrev main_v176 : Ref sig .tc := ⟨.hbm, 348, rfl⟩
abbrev main_v177 : Ref sig .tc := ⟨.hbm, 349, rfl⟩
abbrev main_v178 : Ref sig .tc := ⟨.hbm, 350, rfl⟩
abbrev main_v179 : Ref sig .tc := ⟨.hbm, 351, rfl⟩
abbrev main_v180 : Ref sig .tc := ⟨.hbm, 352, rfl⟩
abbrev main_cst_17 : Ref sig .tc := ⟨.hbm, 353, rfl⟩
abbrev main_v181 : Ref sig .tc := ⟨.hbm, 354, rfl⟩
abbrev main_v182 : Ref sig .tc := ⟨.hbm, 355, rfl⟩
abbrev main_v183 : Ref sig .tc := ⟨.hbm, 356, rfl⟩
abbrev main_v184 : Ref sig .tc := ⟨.hbm, 357, rfl⟩
abbrev main_v185 : Ref sig .tc := ⟨.hbm, 358, rfl⟩
abbrev main_v186 : Ref sig .tc := ⟨.hbm, 359, rfl⟩
abbrev main_cst_18 : Ref sig .tc := ⟨.hbm, 360, rfl⟩
abbrev main_v187 : Ref sig .tc := ⟨.hbm, 361, rfl⟩
abbrev main_v188 : Ref sig .tc := ⟨.hbm, 362, rfl⟩
abbrev main_v189 : Ref sig .tc := ⟨.hbm, 363, rfl⟩
abbrev main_v190 : Ref sig .tc := ⟨.hbm, 364, rfl⟩
abbrev main_v191 : Ref sig .tc := ⟨.hbm, 365, rfl⟩
abbrev main_v192 : Ref sig .tc := ⟨.hbm, 366, rfl⟩
abbrev main_v193 : Ref sig .tc := ⟨.hbm, 367, rfl⟩
abbrev main_v194 : Ref sig .tc := ⟨.hbm, 368, rfl⟩
abbrev main_v195 : Ref sig .tc := ⟨.hbm, 369, rfl⟩
abbrev main_v196 : Ref sig .tc := ⟨.hbm, 370, rfl⟩
abbrev main_v197 : Ref sig .tc := ⟨.hbm, 371, rfl⟩
abbrev main_v198 : Ref sig .tc := ⟨.hbm, 372, rfl⟩
abbrev main_v199 : Ref sig .tc := ⟨.hbm, 373, rfl⟩
abbrev main_v200 : Ref sig .tc := ⟨.hbm, 374, rfl⟩
abbrev main_call13_cst : Ref sig .tc := ⟨.hbm, 375, rfl⟩
abbrev main_call13_v0 : Ref sig .tc := ⟨.hbm, 376, rfl⟩
abbrev main_call13_v1 : Ref sig .tc := ⟨.hbm, 377, rfl⟩
abbrev main_call13_v2 : Ref sig .tc := ⟨.hbm, 378, rfl⟩
abbrev main_call13_v3 : Ref sig .tc := ⟨.hbm, 379, rfl⟩
abbrev main_call13_v4 : Ref sig .tc := ⟨.hbm, 380, rfl⟩
abbrev main_call13_v5 : Ref sig .tc := ⟨.hbm, 381, rfl⟩
abbrev main_call13_v6 : Ref sig .tc := ⟨.hbm, 382, rfl⟩
abbrev main_call13_v7 : Ref sig .tc := ⟨.hbm, 383, rfl⟩
abbrev main_call13_v8 : Ref sig .tc := ⟨.hbm, 384, rfl⟩
abbrev main_call13_v9 : Ref sig .tc := ⟨.hbm, 385, rfl⟩
abbrev main_call13_v10 : Ref sig .tc := ⟨.hbm, 386, rfl⟩
abbrev main_call13_v11 : Ref sig .tc := ⟨.hbm, 387, rfl⟩
abbrev main_v201 : Ref sig .tc := ⟨.hbm, 388, rfl⟩
abbrev main_v202 : Ref sig .tc := ⟨.hbm, 389, rfl⟩
abbrev main_v203 : Ref sig .tc := ⟨.hbm, 390, rfl⟩
abbrev main_v204 : Ref sig .tc := ⟨.hbm, 391, rfl⟩
abbrev main_v205 : Ref sig .tc := ⟨.hbm, 392, rfl⟩
abbrev main_call14_cst : Ref sig .tc := ⟨.hbm, 393, rfl⟩
abbrev main_call14_v0 : Ref sig .tc := ⟨.hbm, 394, rfl⟩
abbrev main_call14_v1 : Ref sig .tc := ⟨.hbm, 395, rfl⟩
abbrev main_call14_v2 : Ref sig .tc := ⟨.hbm, 396, rfl⟩
abbrev main_call14_v3 : Ref sig .tc := ⟨.hbm, 397, rfl⟩
abbrev main_call14_v4 : Ref sig .tc := ⟨.hbm, 398, rfl⟩
abbrev main_call14_v5 : Ref sig .tc := ⟨.hbm, 399, rfl⟩
abbrev main_call14_v6 : Ref sig .tc := ⟨.hbm, 400, rfl⟩
abbrev main_call14_v7 : Ref sig .tc := ⟨.hbm, 401, rfl⟩
abbrev main_call14_v8 : Ref sig .tc := ⟨.hbm, 402, rfl⟩
abbrev main_call14_v9 : Ref sig .tc := ⟨.hbm, 403, rfl⟩
abbrev main_call14_v10 : Ref sig .tc := ⟨.hbm, 404, rfl⟩
abbrev main_call14_v11 : Ref sig .tc := ⟨.hbm, 405, rfl⟩
abbrev main_v206 : Ref sig .tc := ⟨.hbm, 406, rfl⟩
abbrev main_v207 : Ref sig .tc := ⟨.hbm, 407, rfl⟩
abbrev main_v208 : Ref sig .tc := ⟨.hbm, 408, rfl⟩
abbrev main_v209 : Ref sig .tc := ⟨.hbm, 409, rfl⟩
abbrev main_v210 : Ref sig .tc := ⟨.hbm, 410, rfl⟩
abbrev main_v211 : Ref sig .tc := ⟨.hbm, 411, rfl⟩
abbrev main_v212 : Ref sig .tc := ⟨.hbm, 412, rfl⟩
abbrev main_v213 : Ref sig .tc := ⟨.hbm, 413, rfl⟩
abbrev main_call15_v0 : Ref sig .tc := ⟨.hbm, 414, rfl⟩
abbrev main_call15_cst : Ref sig .tc := ⟨.hbm, 415, rfl⟩
abbrev main_call15_v1 : Ref sig .tc := ⟨.hbm, 416, rfl⟩
abbrev main_call15_v2 : Ref sig .tc := ⟨.hbm, 417, rfl⟩
abbrev main_v214 : Ref sig .tc := ⟨.hbm, 418, rfl⟩
abbrev main_cst_19 : Ref sig .tc := ⟨.hbm, 419, rfl⟩
abbrev main_v215 : Ref sig .tc := ⟨.hbm, 420, rfl⟩
abbrev main_v216 : Ref sig .tc := ⟨.hbm, 421, rfl⟩
abbrev main_v217 : Ref sig .tc := ⟨.hbm, 422, rfl⟩
abbrev main_v218 : Ref sig .tc := ⟨.hbm, 423, rfl⟩
abbrev main_cst_20 : Ref sig .tc := ⟨.hbm, 424, rfl⟩
abbrev main_v219 : Ref sig .tc := ⟨.hbm, 425, rfl⟩
abbrev main_v220 : Ref sig .tc := ⟨.hbm, 426, rfl⟩
abbrev main_v221 : Ref sig .tc := ⟨.hbm, 427, rfl⟩
abbrev main_v222 : Ref sig .tc := ⟨.hbm, 428, rfl⟩
abbrev main_v223 : Ref sig .tc := ⟨.hbm, 429, rfl⟩
abbrev main_v224 : Ref sig .tc := ⟨.hbm, 430, rfl⟩
abbrev main_v225 : Ref sig .tc := ⟨.hbm, 431, rfl⟩
abbrev main_v226 : Ref sig .tc := ⟨.hbm, 432, rfl⟩
abbrev main_v227 : Ref sig .tc := ⟨.hbm, 433, rfl⟩
abbrev main_v228 : Ref sig .tc := ⟨.hbm, 434, rfl⟩
abbrev main_cst_21 : Ref sig .tc := ⟨.hbm, 435, rfl⟩
abbrev main_v229 : Ref sig .tc := ⟨.hbm, 436, rfl⟩
abbrev main_v230 : Ref sig .tc := ⟨.hbm, 437, rfl⟩
abbrev main_v231 : Ref sig .tc := ⟨.hbm, 438, rfl⟩
abbrev main_v232 : Ref sig .tc := ⟨.hbm, 439, rfl⟩
abbrev main_v233 : Ref sig .tc := ⟨.hbm, 440, rfl⟩
abbrev main_v234 : Ref sig .tc := ⟨.hbm, 441, rfl⟩
abbrev main_cst_22 : Ref sig .tc := ⟨.hbm, 442, rfl⟩
abbrev main_v235 : Ref sig .tc := ⟨.hbm, 443, rfl⟩
abbrev main_v236 : Ref sig .tc := ⟨.hbm, 444, rfl⟩
abbrev main_v237 : Ref sig .tc := ⟨.hbm, 445, rfl⟩
abbrev main_v238 : Ref sig .tc := ⟨.hbm, 446, rfl⟩
abbrev main_v239 : Ref sig .tc := ⟨.hbm, 447, rfl⟩
abbrev main_v240 : Ref sig .tc := ⟨.hbm, 448, rfl⟩
abbrev main_v241 : Ref sig .tc := ⟨.hbm, 449, rfl⟩
abbrev main_v242 : Ref sig .tc := ⟨.hbm, 450, rfl⟩
abbrev main_v243 : Ref sig .tc := ⟨.hbm, 451, rfl⟩
abbrev main_v244 : Ref sig .tc := ⟨.hbm, 452, rfl⟩
abbrev main_v245 : Ref sig .tc := ⟨.hbm, 453, rfl⟩
abbrev main_v246 : Ref sig .tc := ⟨.hbm, 454, rfl⟩
abbrev main_v247 : Ref sig .tc := ⟨.hbm, 455, rfl⟩
abbrev main_v248 : Ref sig .tc := ⟨.hbm, 456, rfl⟩
abbrev main_call16_cst : Ref sig .tc := ⟨.hbm, 457, rfl⟩
abbrev main_call16_v0 : Ref sig .tc := ⟨.hbm, 458, rfl⟩
abbrev main_call16_v1 : Ref sig .tc := ⟨.hbm, 459, rfl⟩
abbrev main_call16_v2 : Ref sig .tc := ⟨.hbm, 460, rfl⟩
abbrev main_call16_v3 : Ref sig .tc := ⟨.hbm, 461, rfl⟩
abbrev main_call16_v4 : Ref sig .tc := ⟨.hbm, 462, rfl⟩
abbrev main_call16_v5 : Ref sig .tc := ⟨.hbm, 463, rfl⟩
abbrev main_call16_v6 : Ref sig .tc := ⟨.hbm, 464, rfl⟩
abbrev main_call16_v7 : Ref sig .tc := ⟨.hbm, 465, rfl⟩
abbrev main_call16_v8 : Ref sig .tc := ⟨.hbm, 466, rfl⟩
abbrev main_call16_v9 : Ref sig .tc := ⟨.hbm, 467, rfl⟩
abbrev main_call16_v10 : Ref sig .tc := ⟨.hbm, 468, rfl⟩
abbrev main_call16_v11 : Ref sig .tc := ⟨.hbm, 469, rfl⟩
abbrev main_v249 : Ref sig .tc := ⟨.hbm, 470, rfl⟩
abbrev main_v250 : Ref sig .tc := ⟨.hbm, 471, rfl⟩
abbrev main_v251 : Ref sig .tc := ⟨.hbm, 472, rfl⟩
abbrev main_v252 : Ref sig .tc := ⟨.hbm, 473, rfl⟩
abbrev main_v253 : Ref sig .tc := ⟨.hbm, 474, rfl⟩
abbrev main_call17_cst : Ref sig .tc := ⟨.hbm, 475, rfl⟩
abbrev main_call17_v0 : Ref sig .tc := ⟨.hbm, 476, rfl⟩
abbrev main_call17_v1 : Ref sig .tc := ⟨.hbm, 477, rfl⟩
abbrev main_call17_v2 : Ref sig .tc := ⟨.hbm, 478, rfl⟩
abbrev main_call17_v3 : Ref sig .tc := ⟨.hbm, 479, rfl⟩
abbrev main_call17_v4 : Ref sig .tc := ⟨.hbm, 480, rfl⟩
abbrev main_call17_v5 : Ref sig .tc := ⟨.hbm, 481, rfl⟩
abbrev main_call17_v6 : Ref sig .tc := ⟨.hbm, 482, rfl⟩
abbrev main_call17_v7 : Ref sig .tc := ⟨.hbm, 483, rfl⟩
abbrev main_call17_v8 : Ref sig .tc := ⟨.hbm, 484, rfl⟩
abbrev main_call17_v9 : Ref sig .tc := ⟨.hbm, 485, rfl⟩
abbrev main_call17_v10 : Ref sig .tc := ⟨.hbm, 486, rfl⟩
abbrev main_call17_v11 : Ref sig .tc := ⟨.hbm, 487, rfl⟩
abbrev main_v254 : Ref sig .tc := ⟨.hbm, 488, rfl⟩
abbrev main_v255 : Ref sig .tc := ⟨.hbm, 489, rfl⟩
abbrev main_v256 : Ref sig .tc := ⟨.hbm, 490, rfl⟩
abbrev main_v257 : Ref sig .tc := ⟨.hbm, 491, rfl⟩
abbrev main_v258 : Ref sig .tc := ⟨.hbm, 492, rfl⟩
abbrev main_v259 : Ref sig .tc := ⟨.hbm, 493, rfl⟩
abbrev main_v260 : Ref sig .tc := ⟨.hbm, 494, rfl⟩
abbrev main_v261 : Ref sig .tc := ⟨.hbm, 495, rfl⟩
abbrev main_call18_v0 : Ref sig .tc := ⟨.hbm, 496, rfl⟩
abbrev main_call18_cst : Ref sig .tc := ⟨.hbm, 497, rfl⟩
abbrev main_call18_v1 : Ref sig .tc := ⟨.hbm, 498, rfl⟩
abbrev main_call18_v2 : Ref sig .tc := ⟨.hbm, 499, rfl⟩
abbrev main_v262 : Ref sig .tc := ⟨.hbm, 500, rfl⟩
abbrev main_cst_23 : Ref sig .tc := ⟨.hbm, 501, rfl⟩
abbrev main_v263 : Ref sig .tc := ⟨.hbm, 502, rfl⟩
abbrev main_v264 : Ref sig .tc := ⟨.hbm, 503, rfl⟩
abbrev main_v265 : Ref sig .tc := ⟨.hbm, 504, rfl⟩
abbrev main_v266 : Ref sig .tc := ⟨.hbm, 505, rfl⟩
abbrev main_cst_24 : Ref sig .tc := ⟨.hbm, 506, rfl⟩
abbrev main_v267 : Ref sig .tc := ⟨.hbm, 507, rfl⟩
abbrev main_v268 : Ref sig .tc := ⟨.hbm, 508, rfl⟩
abbrev main_v269 : Ref sig .tc := ⟨.hbm, 509, rfl⟩
abbrev main_v270 : Ref sig .tc := ⟨.hbm, 510, rfl⟩
abbrev main_v271 : Ref sig .tc := ⟨.hbm, 511, rfl⟩
abbrev main_v272 : Ref sig .tc := ⟨.hbm, 512, rfl⟩
abbrev main_v273 : Ref sig .tc := ⟨.hbm, 513, rfl⟩
abbrev main_v274 : Ref sig .tc := ⟨.hbm, 514, rfl⟩
abbrev main_v275 : Ref sig .tc := ⟨.hbm, 515, rfl⟩
abbrev main_v276 : Ref sig .tc := ⟨.hbm, 516, rfl⟩
abbrev main_cst_25 : Ref sig .tc := ⟨.hbm, 517, rfl⟩
abbrev main_v277 : Ref sig .tc := ⟨.hbm, 518, rfl⟩
abbrev main_v278 : Ref sig .tc := ⟨.hbm, 519, rfl⟩
abbrev main_v279 : Ref sig .tc := ⟨.hbm, 520, rfl⟩
abbrev main_v280 : Ref sig .tc := ⟨.hbm, 521, rfl⟩
abbrev main_v281 : Ref sig .tc := ⟨.hbm, 522, rfl⟩
abbrev main_v282 : Ref sig .tc := ⟨.hbm, 523, rfl⟩
abbrev main_cst_26 : Ref sig .tc := ⟨.hbm, 524, rfl⟩
abbrev main_v283 : Ref sig .tc := ⟨.hbm, 525, rfl⟩
abbrev main_v284 : Ref sig .tc := ⟨.hbm, 526, rfl⟩
abbrev main_v285 : Ref sig .tc := ⟨.hbm, 527, rfl⟩
abbrev main_v286 : Ref sig .tc := ⟨.hbm, 528, rfl⟩
abbrev main_v287 : Ref sig .tc := ⟨.hbm, 529, rfl⟩
abbrev main_v288 : Ref sig .tc := ⟨.hbm, 530, rfl⟩
abbrev main_v289 : Ref sig .tc := ⟨.hbm, 531, rfl⟩
abbrev main_v290 : Ref sig .tc := ⟨.hbm, 532, rfl⟩
abbrev main_v291 : Ref sig .tc := ⟨.hbm, 533, rfl⟩
abbrev main_v292 : Ref sig .tc := ⟨.hbm, 534, rfl⟩
abbrev main_v293 : Ref sig .tc := ⟨.hbm, 535, rfl⟩
abbrev main_v294 : Ref sig .tc := ⟨.hbm, 536, rfl⟩
abbrev main_v295 : Ref sig .tc := ⟨.hbm, 537, rfl⟩
abbrev main_v296 : Ref sig .tc := ⟨.hbm, 538, rfl⟩
abbrev main_call19_cst : Ref sig .tc := ⟨.hbm, 539, rfl⟩
abbrev main_call19_v0 : Ref sig .tc := ⟨.hbm, 540, rfl⟩
abbrev main_call19_v1 : Ref sig .tc := ⟨.hbm, 541, rfl⟩
abbrev main_call19_v2 : Ref sig .tc := ⟨.hbm, 542, rfl⟩
abbrev main_call19_v3 : Ref sig .tc := ⟨.hbm, 543, rfl⟩
abbrev main_call19_v4 : Ref sig .tc := ⟨.hbm, 544, rfl⟩
abbrev main_call19_v5 : Ref sig .tc := ⟨.hbm, 545, rfl⟩
abbrev main_call19_v6 : Ref sig .tc := ⟨.hbm, 546, rfl⟩
abbrev main_call19_v7 : Ref sig .tc := ⟨.hbm, 547, rfl⟩
abbrev main_call19_v8 : Ref sig .tc := ⟨.hbm, 548, rfl⟩
abbrev main_call19_v9 : Ref sig .tc := ⟨.hbm, 549, rfl⟩
abbrev main_call19_v10 : Ref sig .tc := ⟨.hbm, 550, rfl⟩
abbrev main_call19_v11 : Ref sig .tc := ⟨.hbm, 551, rfl⟩
abbrev main_v297 : Ref sig .tc := ⟨.hbm, 552, rfl⟩
abbrev main_v298 : Ref sig .tc := ⟨.hbm, 553, rfl⟩
abbrev main_v299 : Ref sig .tc := ⟨.hbm, 554, rfl⟩
abbrev main_v300 : Ref sig .tc := ⟨.hbm, 555, rfl⟩
abbrev main_v301 : Ref sig .tc := ⟨.hbm, 556, rfl⟩
abbrev main_call20_cst : Ref sig .tc := ⟨.hbm, 557, rfl⟩
abbrev main_call20_v0 : Ref sig .tc := ⟨.hbm, 558, rfl⟩
abbrev main_call20_v1 : Ref sig .tc := ⟨.hbm, 559, rfl⟩
abbrev main_call20_v2 : Ref sig .tc := ⟨.hbm, 560, rfl⟩
abbrev main_call20_v3 : Ref sig .tc := ⟨.hbm, 561, rfl⟩
abbrev main_call20_v4 : Ref sig .tc := ⟨.hbm, 562, rfl⟩
abbrev main_call20_v5 : Ref sig .tc := ⟨.hbm, 563, rfl⟩
abbrev main_call20_v6 : Ref sig .tc := ⟨.hbm, 564, rfl⟩
abbrev main_call20_v7 : Ref sig .tc := ⟨.hbm, 565, rfl⟩
abbrev main_call20_v8 : Ref sig .tc := ⟨.hbm, 566, rfl⟩
abbrev main_call20_v9 : Ref sig .tc := ⟨.hbm, 567, rfl⟩
abbrev main_call20_v10 : Ref sig .tc := ⟨.hbm, 568, rfl⟩
abbrev main_call20_v11 : Ref sig .tc := ⟨.hbm, 569, rfl⟩
abbrev main_v302 : Ref sig .tc := ⟨.hbm, 570, rfl⟩
abbrev main_v303 : Ref sig .tc := ⟨.hbm, 571, rfl⟩
abbrev main_v304 : Ref sig .tc := ⟨.hbm, 572, rfl⟩
abbrev main_v305 : Ref sig .tc := ⟨.hbm, 573, rfl⟩
abbrev main_v306 : Ref sig .tc := ⟨.hbm, 574, rfl⟩
abbrev main_v307 : Ref sig .tc := ⟨.hbm, 575, rfl⟩
abbrev main_v308 : Ref sig .tc := ⟨.hbm, 576, rfl⟩
abbrev main_v309 : Ref sig .tc := ⟨.hbm, 577, rfl⟩
abbrev main_call21_v0 : Ref sig .tc := ⟨.hbm, 578, rfl⟩
abbrev main_call21_cst : Ref sig .tc := ⟨.hbm, 579, rfl⟩
abbrev main_call21_v1 : Ref sig .tc := ⟨.hbm, 580, rfl⟩
abbrev main_call21_v2 : Ref sig .tc := ⟨.hbm, 581, rfl⟩
abbrev main_v310 : Ref sig .tc := ⟨.hbm, 582, rfl⟩
abbrev main_cst_27 : Ref sig .tc := ⟨.hbm, 583, rfl⟩
abbrev main_v311 : Ref sig .tc := ⟨.hbm, 584, rfl⟩
abbrev main_v312 : Ref sig .tc := ⟨.hbm, 585, rfl⟩
abbrev main_v313 : Ref sig .tc := ⟨.hbm, 586, rfl⟩
abbrev main_v314 : Ref sig .tc := ⟨.hbm, 587, rfl⟩
abbrev main_cst_28 : Ref sig .tc := ⟨.hbm, 588, rfl⟩
abbrev main_v315 : Ref sig .tc := ⟨.hbm, 589, rfl⟩
abbrev main_v316 : Ref sig .tc := ⟨.hbm, 590, rfl⟩
abbrev main_v317 : Ref sig .tc := ⟨.hbm, 591, rfl⟩
abbrev main_v318 : Ref sig .tc := ⟨.hbm, 592, rfl⟩
abbrev main_v319 : Ref sig .tc := ⟨.hbm, 593, rfl⟩
abbrev main_v320 : Ref sig .tc := ⟨.hbm, 594, rfl⟩
abbrev main_v321 : Ref sig .tc := ⟨.hbm, 595, rfl⟩
abbrev main_v322 : Ref sig .tc := ⟨.hbm, 596, rfl⟩
abbrev main_v323 : Ref sig .tc := ⟨.hbm, 597, rfl⟩
abbrev main_v324 : Ref sig .tc := ⟨.hbm, 598, rfl⟩
abbrev main_cst_29 : Ref sig .tc := ⟨.hbm, 599, rfl⟩
abbrev main_v325 : Ref sig .tc := ⟨.hbm, 600, rfl⟩
abbrev main_v326 : Ref sig .tc := ⟨.hbm, 601, rfl⟩
abbrev main_v327 : Ref sig .tc := ⟨.hbm, 602, rfl⟩
abbrev main_v328 : Ref sig .tc := ⟨.hbm, 603, rfl⟩
abbrev main_v329 : Ref sig .tc := ⟨.hbm, 604, rfl⟩
abbrev main_v330 : Ref sig .tc := ⟨.hbm, 605, rfl⟩
abbrev main_cst_30 : Ref sig .tc := ⟨.hbm, 606, rfl⟩
abbrev main_v331 : Ref sig .tc := ⟨.hbm, 607, rfl⟩
abbrev main_v332 : Ref sig .tc := ⟨.hbm, 608, rfl⟩
abbrev main_v333 : Ref sig .tc := ⟨.hbm, 609, rfl⟩
abbrev main_v334 : Ref sig .tc := ⟨.hbm, 610, rfl⟩
abbrev main_v335 : Ref sig .tc := ⟨.hbm, 611, rfl⟩
abbrev main_v336 : Ref sig .tc := ⟨.hbm, 612, rfl⟩
abbrev main_v337 : Ref sig .tc := ⟨.hbm, 613, rfl⟩
abbrev main_v338 : Ref sig .tc := ⟨.hbm, 614, rfl⟩
abbrev main_v339 : Ref sig .tc := ⟨.hbm, 615, rfl⟩
abbrev main_v340 : Ref sig .tc := ⟨.hbm, 616, rfl⟩
abbrev main_v341 : Ref sig .tc := ⟨.hbm, 617, rfl⟩
abbrev main_v342 : Ref sig .tc := ⟨.hbm, 618, rfl⟩
abbrev main_v343 : Ref sig .tc := ⟨.hbm, 619, rfl⟩
abbrev main_v344 : Ref sig .tc := ⟨.hbm, 620, rfl⟩
abbrev main_call22_cst : Ref sig .tc := ⟨.hbm, 621, rfl⟩
abbrev main_call22_v0 : Ref sig .tc := ⟨.hbm, 622, rfl⟩
abbrev main_call22_v1 : Ref sig .tc := ⟨.hbm, 623, rfl⟩
abbrev main_call22_v2 : Ref sig .tc := ⟨.hbm, 624, rfl⟩
abbrev main_call22_v3 : Ref sig .tc := ⟨.hbm, 625, rfl⟩
abbrev main_call22_v4 : Ref sig .tc := ⟨.hbm, 626, rfl⟩
abbrev main_call22_v5 : Ref sig .tc := ⟨.hbm, 627, rfl⟩
abbrev main_call22_v6 : Ref sig .tc := ⟨.hbm, 628, rfl⟩
abbrev main_call22_v7 : Ref sig .tc := ⟨.hbm, 629, rfl⟩
abbrev main_call22_v8 : Ref sig .tc := ⟨.hbm, 630, rfl⟩
abbrev main_call22_v9 : Ref sig .tc := ⟨.hbm, 631, rfl⟩
abbrev main_call22_v10 : Ref sig .tc := ⟨.hbm, 632, rfl⟩
abbrev main_call22_v11 : Ref sig .tc := ⟨.hbm, 633, rfl⟩
abbrev main_v345 : Ref sig .tc := ⟨.hbm, 634, rfl⟩
abbrev main_v346 : Ref sig .tc := ⟨.hbm, 635, rfl⟩
abbrev main_v347 : Ref sig .tc := ⟨.hbm, 636, rfl⟩
abbrev main_v348 : Ref sig .tc := ⟨.hbm, 637, rfl⟩
abbrev main_v349 : Ref sig .tc := ⟨.hbm, 638, rfl⟩
abbrev main_call23_cst : Ref sig .tc := ⟨.hbm, 639, rfl⟩
abbrev main_call23_v0 : Ref sig .tc := ⟨.hbm, 640, rfl⟩
abbrev main_call23_v1 : Ref sig .tc := ⟨.hbm, 641, rfl⟩
abbrev main_call23_v2 : Ref sig .tc := ⟨.hbm, 642, rfl⟩
abbrev main_call23_v3 : Ref sig .tc := ⟨.hbm, 643, rfl⟩
abbrev main_call23_v4 : Ref sig .tc := ⟨.hbm, 644, rfl⟩
abbrev main_call23_v5 : Ref sig .tc := ⟨.hbm, 645, rfl⟩
abbrev main_call23_v6 : Ref sig .tc := ⟨.hbm, 646, rfl⟩
abbrev main_call23_v7 : Ref sig .tc := ⟨.hbm, 647, rfl⟩
abbrev main_call23_v8 : Ref sig .tc := ⟨.hbm, 648, rfl⟩
abbrev main_call23_v9 : Ref sig .tc := ⟨.hbm, 649, rfl⟩
abbrev main_call23_v10 : Ref sig .tc := ⟨.hbm, 650, rfl⟩
abbrev main_call23_v11 : Ref sig .tc := ⟨.hbm, 651, rfl⟩
abbrev main_v350 : Ref sig .tc := ⟨.hbm, 652, rfl⟩
abbrev main_v351 : Ref sig .tc := ⟨.hbm, 653, rfl⟩
abbrev main_v352 : Ref sig .tc := ⟨.hbm, 654, rfl⟩
abbrev main_v353 : Ref sig .tc := ⟨.hbm, 655, rfl⟩
abbrev main_v354 : Ref sig .tc := ⟨.hbm, 656, rfl⟩
abbrev main_v355 : Ref sig .tc := ⟨.hbm, 657, rfl⟩
abbrev main_v356 : Ref sig .tc := ⟨.hbm, 658, rfl⟩
abbrev main_v357 : Ref sig .tc := ⟨.hbm, 659, rfl⟩
abbrev main_call24_v0 : Ref sig .tc := ⟨.hbm, 660, rfl⟩
abbrev main_call24_cst : Ref sig .tc := ⟨.hbm, 661, rfl⟩
abbrev main_call24_v1 : Ref sig .tc := ⟨.hbm, 662, rfl⟩
abbrev main_call24_v2 : Ref sig .tc := ⟨.hbm, 663, rfl⟩
abbrev main_v358 : Ref sig .tc := ⟨.hbm, 664, rfl⟩
abbrev main_cst_31 : Ref sig .tc := ⟨.hbm, 665, rfl⟩
abbrev main_v359 : Ref sig .tc := ⟨.hbm, 666, rfl⟩
abbrev main_v360 : Ref sig .tc := ⟨.hbm, 667, rfl⟩
abbrev main_v361 : Ref sig .tc := ⟨.hbm, 668, rfl⟩
abbrev main_v362 : Ref sig .tc := ⟨.hbm, 669, rfl⟩
abbrev main_cst_32 : Ref sig .tc := ⟨.hbm, 670, rfl⟩
abbrev main_v363 : Ref sig .tc := ⟨.hbm, 671, rfl⟩
abbrev main_v364 : Ref sig .tc := ⟨.hbm, 672, rfl⟩
abbrev main_v365 : Ref sig .tc := ⟨.hbm, 673, rfl⟩
abbrev main_v366 : Ref sig .tc := ⟨.hbm, 674, rfl⟩
abbrev main_v367 : Ref sig .tc := ⟨.hbm, 675, rfl⟩
abbrev main_v368 : Ref sig .tc := ⟨.hbm, 676, rfl⟩
abbrev main_v369 : Ref sig .tc := ⟨.hbm, 677, rfl⟩
abbrev main_v370 : Ref sig .tc := ⟨.hbm, 678, rfl⟩
abbrev main_v371 : Ref sig .tc := ⟨.hbm, 679, rfl⟩
abbrev main_v372 : Ref sig .tc := ⟨.hbm, 680, rfl⟩
abbrev main_cst_33 : Ref sig .tc := ⟨.hbm, 681, rfl⟩
abbrev main_v373 : Ref sig .tc := ⟨.hbm, 682, rfl⟩
abbrev main_v374 : Ref sig .tc := ⟨.hbm, 683, rfl⟩
abbrev main_v375 : Ref sig .tc := ⟨.hbm, 684, rfl⟩
abbrev main_v376 : Ref sig .tc := ⟨.hbm, 685, rfl⟩
abbrev main_v377 : Ref sig .tc := ⟨.hbm, 686, rfl⟩
abbrev main_v378 : Ref sig .tc := ⟨.hbm, 687, rfl⟩
abbrev main_cst_34 : Ref sig .tc := ⟨.hbm, 688, rfl⟩
abbrev main_v379 : Ref sig .tc := ⟨.hbm, 689, rfl⟩
abbrev main_v380 : Ref sig .tc := ⟨.hbm, 690, rfl⟩
abbrev main_v381 : Ref sig .tc := ⟨.hbm, 691, rfl⟩
abbrev main_v382 : Ref sig .tc := ⟨.hbm, 692, rfl⟩
abbrev main_v383 : Ref sig .tc := ⟨.hbm, 693, rfl⟩
abbrev main_v384 : Ref sig .tc := ⟨.hbm, 694, rfl⟩
abbrev main_v385 : Ref sig .tc := ⟨.hbm, 695, rfl⟩
abbrev main_v386 : Ref sig .tc := ⟨.hbm, 696, rfl⟩
abbrev main_v387 : Ref sig .tc := ⟨.hbm, 697, rfl⟩
abbrev main_v388 : Ref sig .tc := ⟨.hbm, 698, rfl⟩
abbrev main_v389 : Ref sig .tc := ⟨.hbm, 699, rfl⟩
abbrev main_v390 : Ref sig .tc := ⟨.hbm, 700, rfl⟩
abbrev main_v391 : Ref sig .tc := ⟨.hbm, 701, rfl⟩
abbrev main_v392 : Ref sig .tc := ⟨.hbm, 702, rfl⟩
abbrev main_call25_cst : Ref sig .tc := ⟨.hbm, 703, rfl⟩
abbrev main_call25_v0 : Ref sig .tc := ⟨.hbm, 704, rfl⟩
abbrev main_call25_v1 : Ref sig .tc := ⟨.hbm, 705, rfl⟩
abbrev main_call25_v2 : Ref sig .tc := ⟨.hbm, 706, rfl⟩
abbrev main_call25_v3 : Ref sig .tc := ⟨.hbm, 707, rfl⟩
abbrev main_call25_v4 : Ref sig .tc := ⟨.hbm, 708, rfl⟩
abbrev main_call25_v5 : Ref sig .tc := ⟨.hbm, 709, rfl⟩
abbrev main_call25_v6 : Ref sig .tc := ⟨.hbm, 710, rfl⟩
abbrev main_call25_v7 : Ref sig .tc := ⟨.hbm, 711, rfl⟩
abbrev main_call25_v8 : Ref sig .tc := ⟨.hbm, 712, rfl⟩
abbrev main_call25_v9 : Ref sig .tc := ⟨.hbm, 713, rfl⟩
abbrev main_call25_v10 : Ref sig .tc := ⟨.hbm, 714, rfl⟩
abbrev main_call25_v11 : Ref sig .tc := ⟨.hbm, 715, rfl⟩
abbrev main_v393 : Ref sig .tc := ⟨.hbm, 716, rfl⟩
abbrev main_v394 : Ref sig .tc := ⟨.hbm, 717, rfl⟩
abbrev main_v395 : Ref sig .tc := ⟨.hbm, 718, rfl⟩
abbrev main_v396 : Ref sig .tc := ⟨.hbm, 719, rfl⟩
abbrev main_v397 : Ref sig .tc := ⟨.hbm, 720, rfl⟩
abbrev main_call26_cst : Ref sig .tc := ⟨.hbm, 721, rfl⟩
abbrev main_call26_v0 : Ref sig .tc := ⟨.hbm, 722, rfl⟩
abbrev main_call26_v1 : Ref sig .tc := ⟨.hbm, 723, rfl⟩
abbrev main_call26_v2 : Ref sig .tc := ⟨.hbm, 724, rfl⟩
abbrev main_call26_v3 : Ref sig .tc := ⟨.hbm, 725, rfl⟩
abbrev main_call26_v4 : Ref sig .tc := ⟨.hbm, 726, rfl⟩
abbrev main_call26_v5 : Ref sig .tc := ⟨.hbm, 727, rfl⟩
abbrev main_call26_v6 : Ref sig .tc := ⟨.hbm, 728, rfl⟩
abbrev main_call26_v7 : Ref sig .tc := ⟨.hbm, 729, rfl⟩
abbrev main_call26_v8 : Ref sig .tc := ⟨.hbm, 730, rfl⟩
abbrev main_call26_v9 : Ref sig .tc := ⟨.hbm, 731, rfl⟩
abbrev main_call26_v10 : Ref sig .tc := ⟨.hbm, 732, rfl⟩
abbrev main_call26_v11 : Ref sig .tc := ⟨.hbm, 733, rfl⟩
abbrev main_v398 : Ref sig .tc := ⟨.hbm, 734, rfl⟩
abbrev main_v399 : Ref sig .tc := ⟨.hbm, 735, rfl⟩
abbrev main_v400 : Ref sig .tc := ⟨.hbm, 736, rfl⟩
abbrev main_v401 : Ref sig .tc := ⟨.hbm, 737, rfl⟩
abbrev main_v402 : Ref sig .tc := ⟨.hbm, 738, rfl⟩
abbrev main_v403 : Ref sig .tc := ⟨.hbm, 739, rfl⟩
abbrev main_v404 : Ref sig .tc := ⟨.hbm, 740, rfl⟩
abbrev main_v405 : Ref sig .tc := ⟨.hbm, 741, rfl⟩
abbrev main_call27_v0 : Ref sig .tc := ⟨.hbm, 742, rfl⟩
abbrev main_call27_cst : Ref sig .tc := ⟨.hbm, 743, rfl⟩
abbrev main_call27_v1 : Ref sig .tc := ⟨.hbm, 744, rfl⟩
abbrev main_call27_v2 : Ref sig .tc := ⟨.hbm, 745, rfl⟩
abbrev main_v406 : Ref sig .tc := ⟨.hbm, 746, rfl⟩
abbrev main_cst_35 : Ref sig .tc := ⟨.hbm, 747, rfl⟩
abbrev main_v407 : Ref sig .tc := ⟨.hbm, 748, rfl⟩
abbrev main_v408 : Ref sig .tc := ⟨.hbm, 749, rfl⟩
abbrev main_v409 : Ref sig .tc := ⟨.hbm, 750, rfl⟩
abbrev main_v410 : Ref sig .tc := ⟨.hbm, 751, rfl⟩
abbrev main_cst_36 : Ref sig .tc := ⟨.hbm, 752, rfl⟩
abbrev main_v411 : Ref sig .tc := ⟨.hbm, 753, rfl⟩
abbrev main_v412 : Ref sig .tc := ⟨.hbm, 754, rfl⟩
abbrev main_v413 : Ref sig .tc := ⟨.hbm, 755, rfl⟩
abbrev main_v414 : Ref sig .tc := ⟨.hbm, 756, rfl⟩
abbrev main_v415 : Ref sig .tc := ⟨.hbm, 757, rfl⟩
abbrev main_v416 : Ref sig .tc := ⟨.hbm, 758, rfl⟩
abbrev main_v417 : Ref sig .tc := ⟨.hbm, 759, rfl⟩
abbrev main_v418 : Ref sig .tc := ⟨.hbm, 760, rfl⟩
abbrev main_v419 : Ref sig .tc := ⟨.hbm, 761, rfl⟩
abbrev main_v420 : Ref sig .tc := ⟨.hbm, 762, rfl⟩
abbrev main_cst_37 : Ref sig .tc := ⟨.hbm, 763, rfl⟩
abbrev main_v421 : Ref sig .tc := ⟨.hbm, 764, rfl⟩
abbrev main_v422 : Ref sig .tc := ⟨.hbm, 765, rfl⟩
abbrev main_v423 : Ref sig .tc := ⟨.hbm, 766, rfl⟩
abbrev main_v424 : Ref sig .tc := ⟨.hbm, 767, rfl⟩
abbrev main_v425 : Ref sig .tc := ⟨.hbm, 768, rfl⟩
abbrev main_v426 : Ref sig .tc := ⟨.hbm, 769, rfl⟩
abbrev main_cst_38 : Ref sig .tc := ⟨.hbm, 770, rfl⟩
abbrev main_v427 : Ref sig .tc := ⟨.hbm, 771, rfl⟩
abbrev main_v428 : Ref sig .tc := ⟨.hbm, 772, rfl⟩
abbrev main_v429 : Ref sig .tc := ⟨.hbm, 773, rfl⟩
abbrev main_v430 : Ref sig .tc := ⟨.hbm, 774, rfl⟩
abbrev main_v431 : Ref sig .tc := ⟨.hbm, 775, rfl⟩
abbrev main_v432 : Ref sig .tc := ⟨.hbm, 776, rfl⟩
abbrev main_v433 : Ref sig .tc := ⟨.hbm, 777, rfl⟩
abbrev main_v434 : Ref sig .tc := ⟨.hbm, 778, rfl⟩
abbrev main_v435 : Ref sig .tc := ⟨.hbm, 779, rfl⟩
abbrev main_v436 : Ref sig .tc := ⟨.hbm, 780, rfl⟩
abbrev main_v437 : Ref sig .tc := ⟨.hbm, 781, rfl⟩
abbrev main_v438 : Ref sig .tc := ⟨.hbm, 782, rfl⟩
abbrev main_v439 : Ref sig .tc := ⟨.hbm, 783, rfl⟩
abbrev main_v440 : Ref sig .tc := ⟨.hbm, 784, rfl⟩
abbrev main_call28_cst : Ref sig .tc := ⟨.hbm, 785, rfl⟩
abbrev main_call28_v0 : Ref sig .tc := ⟨.hbm, 786, rfl⟩
abbrev main_call28_v1 : Ref sig .tc := ⟨.hbm, 787, rfl⟩
abbrev main_call28_v2 : Ref sig .tc := ⟨.hbm, 788, rfl⟩
abbrev main_call28_v3 : Ref sig .tc := ⟨.hbm, 789, rfl⟩
abbrev main_call28_v4 : Ref sig .tc := ⟨.hbm, 790, rfl⟩
abbrev main_call28_v5 : Ref sig .tc := ⟨.hbm, 791, rfl⟩
abbrev main_call28_v6 : Ref sig .tc := ⟨.hbm, 792, rfl⟩
abbrev main_call28_v7 : Ref sig .tc := ⟨.hbm, 793, rfl⟩
abbrev main_call28_v8 : Ref sig .tc := ⟨.hbm, 794, rfl⟩
abbrev main_call28_v9 : Ref sig .tc := ⟨.hbm, 795, rfl⟩
abbrev main_call28_v10 : Ref sig .tc := ⟨.hbm, 796, rfl⟩
abbrev main_call28_v11 : Ref sig .tc := ⟨.hbm, 797, rfl⟩
abbrev main_v441 : Ref sig .tc := ⟨.hbm, 798, rfl⟩
abbrev main_v442 : Ref sig .tc := ⟨.hbm, 799, rfl⟩
abbrev main_v443 : Ref sig .tc := ⟨.hbm, 800, rfl⟩
abbrev main_v444 : Ref sig .tc := ⟨.hbm, 801, rfl⟩
abbrev main_v445 : Ref sig .tc := ⟨.hbm, 802, rfl⟩
abbrev main_call29_cst : Ref sig .tc := ⟨.hbm, 803, rfl⟩
abbrev main_call29_v0 : Ref sig .tc := ⟨.hbm, 804, rfl⟩
abbrev main_call29_v1 : Ref sig .tc := ⟨.hbm, 805, rfl⟩
abbrev main_call29_v2 : Ref sig .tc := ⟨.hbm, 806, rfl⟩
abbrev main_call29_v3 : Ref sig .tc := ⟨.hbm, 807, rfl⟩
abbrev main_call29_v4 : Ref sig .tc := ⟨.hbm, 808, rfl⟩
abbrev main_call29_v5 : Ref sig .tc := ⟨.hbm, 809, rfl⟩
abbrev main_call29_v6 : Ref sig .tc := ⟨.hbm, 810, rfl⟩
abbrev main_call29_v7 : Ref sig .tc := ⟨.hbm, 811, rfl⟩
abbrev main_call29_v8 : Ref sig .tc := ⟨.hbm, 812, rfl⟩
abbrev main_call29_v9 : Ref sig .tc := ⟨.hbm, 813, rfl⟩
abbrev main_call29_v10 : Ref sig .tc := ⟨.hbm, 814, rfl⟩
abbrev main_call29_v11 : Ref sig .tc := ⟨.hbm, 815, rfl⟩
abbrev main_v446 : Ref sig .tc := ⟨.hbm, 816, rfl⟩
abbrev main_v447 : Ref sig .tc := ⟨.hbm, 817, rfl⟩
abbrev main_v448 : Ref sig .tc := ⟨.hbm, 818, rfl⟩
abbrev main_v449 : Ref sig .tc := ⟨.hbm, 819, rfl⟩
abbrev main_v450 : Ref sig .tc := ⟨.hbm, 820, rfl⟩
abbrev main_v451 : Ref sig .tc := ⟨.hbm, 821, rfl⟩
abbrev main_v452 : Ref sig .tc := ⟨.hbm, 822, rfl⟩
abbrev main_v453 : Ref sig .tc := ⟨.hbm, 823, rfl⟩
abbrev main_call30_v0 : Ref sig .tc := ⟨.hbm, 824, rfl⟩
abbrev main_call30_cst : Ref sig .tc := ⟨.hbm, 825, rfl⟩
abbrev main_call30_v1 : Ref sig .tc := ⟨.hbm, 826, rfl⟩
abbrev main_call30_v2 : Ref sig .tc := ⟨.hbm, 827, rfl⟩
abbrev main_v454 : Ref sig .tc := ⟨.hbm, 828, rfl⟩
abbrev main_cst_39 : Ref sig .tc := ⟨.hbm, 829, rfl⟩
abbrev main_v455 : Ref sig .tc := ⟨.hbm, 830, rfl⟩
abbrev main_v456 : Ref sig .tc := ⟨.hbm, 831, rfl⟩
abbrev main_v457 : Ref sig .tc := ⟨.hbm, 832, rfl⟩
abbrev main_v458 : Ref sig .tc := ⟨.hbm, 833, rfl⟩
abbrev main_cst_40 : Ref sig .tc := ⟨.hbm, 834, rfl⟩
abbrev main_v459 : Ref sig .tc := ⟨.hbm, 835, rfl⟩
abbrev main_v460 : Ref sig .tc := ⟨.hbm, 836, rfl⟩
abbrev main_v461 : Ref sig .tc := ⟨.hbm, 837, rfl⟩
abbrev main_v462 : Ref sig .tc := ⟨.hbm, 838, rfl⟩
abbrev main_v463 : Ref sig .tc := ⟨.hbm, 839, rfl⟩
abbrev main_v464 : Ref sig .tc := ⟨.hbm, 840, rfl⟩
abbrev main_v465 : Ref sig .tc := ⟨.hbm, 841, rfl⟩
abbrev main_v466 : Ref sig .tc := ⟨.hbm, 842, rfl⟩
abbrev main_v467 : Ref sig .tc := ⟨.hbm, 843, rfl⟩
abbrev main_v468 : Ref sig .tc := ⟨.hbm, 844, rfl⟩
abbrev main_cst_41 : Ref sig .tc := ⟨.hbm, 845, rfl⟩
abbrev main_v469 : Ref sig .tc := ⟨.hbm, 846, rfl⟩
abbrev main_v470 : Ref sig .tc := ⟨.hbm, 847, rfl⟩
abbrev main_v471 : Ref sig .tc := ⟨.hbm, 848, rfl⟩
abbrev main_v472 : Ref sig .tc := ⟨.hbm, 849, rfl⟩
abbrev main_v473 : Ref sig .tc := ⟨.hbm, 850, rfl⟩
abbrev main_v474 : Ref sig .tc := ⟨.hbm, 851, rfl⟩
abbrev main_cst_42 : Ref sig .tc := ⟨.hbm, 852, rfl⟩
abbrev main_v475 : Ref sig .tc := ⟨.hbm, 853, rfl⟩
abbrev main_v476 : Ref sig .tc := ⟨.hbm, 854, rfl⟩
abbrev main_v477 : Ref sig .tc := ⟨.hbm, 855, rfl⟩
abbrev main_v478 : Ref sig .tc := ⟨.hbm, 856, rfl⟩
abbrev main_v479 : Ref sig .tc := ⟨.hbm, 857, rfl⟩
abbrev main_v480 : Ref sig .tc := ⟨.hbm, 858, rfl⟩
abbrev main_v481 : Ref sig .tc := ⟨.hbm, 859, rfl⟩
abbrev main_v482 : Ref sig .tc := ⟨.hbm, 860, rfl⟩
abbrev main_v483 : Ref sig .tc := ⟨.hbm, 861, rfl⟩
abbrev main_v484 : Ref sig .tc := ⟨.hbm, 862, rfl⟩
abbrev main_v485 : Ref sig .tc := ⟨.hbm, 863, rfl⟩
abbrev main_v486 : Ref sig .tc := ⟨.hbm, 864, rfl⟩
abbrev main_v487 : Ref sig .tc := ⟨.hbm, 865, rfl⟩
abbrev main_v488 : Ref sig .tc := ⟨.hbm, 866, rfl⟩
abbrev main_call31_cst : Ref sig .tc := ⟨.hbm, 867, rfl⟩
abbrev main_call31_v0 : Ref sig .tc := ⟨.hbm, 868, rfl⟩
abbrev main_call31_v1 : Ref sig .tc := ⟨.hbm, 869, rfl⟩
abbrev main_call31_v2 : Ref sig .tc := ⟨.hbm, 870, rfl⟩
abbrev main_call31_v3 : Ref sig .tc := ⟨.hbm, 871, rfl⟩
abbrev main_call31_v4 : Ref sig .tc := ⟨.hbm, 872, rfl⟩
abbrev main_call31_v5 : Ref sig .tc := ⟨.hbm, 873, rfl⟩
abbrev main_call31_v6 : Ref sig .tc := ⟨.hbm, 874, rfl⟩
abbrev main_call31_v7 : Ref sig .tc := ⟨.hbm, 875, rfl⟩
abbrev main_call31_v8 : Ref sig .tc := ⟨.hbm, 876, rfl⟩
abbrev main_call31_v9 : Ref sig .tc := ⟨.hbm, 877, rfl⟩
abbrev main_call31_v10 : Ref sig .tc := ⟨.hbm, 878, rfl⟩
abbrev main_call31_v11 : Ref sig .tc := ⟨.hbm, 879, rfl⟩
abbrev main_v489 : Ref sig .tc := ⟨.hbm, 880, rfl⟩
abbrev main_v490 : Ref sig .tc := ⟨.hbm, 881, rfl⟩
abbrev main_v491 : Ref sig .tc := ⟨.hbm, 882, rfl⟩
abbrev main_v492 : Ref sig .tc := ⟨.hbm, 883, rfl⟩
abbrev main_v493 : Ref sig .tc := ⟨.hbm, 884, rfl⟩
abbrev main_call32_cst : Ref sig .tc := ⟨.hbm, 885, rfl⟩
abbrev main_call32_v0 : Ref sig .tc := ⟨.hbm, 886, rfl⟩
abbrev main_call32_v1 : Ref sig .tc := ⟨.hbm, 887, rfl⟩
abbrev main_call32_v2 : Ref sig .tc := ⟨.hbm, 888, rfl⟩
abbrev main_call32_v3 : Ref sig .tc := ⟨.hbm, 889, rfl⟩
abbrev main_call32_v4 : Ref sig .tc := ⟨.hbm, 890, rfl⟩
abbrev main_call32_v5 : Ref sig .tc := ⟨.hbm, 891, rfl⟩
abbrev main_call32_v6 : Ref sig .tc := ⟨.hbm, 892, rfl⟩
abbrev main_call32_v7 : Ref sig .tc := ⟨.hbm, 893, rfl⟩
abbrev main_call32_v8 : Ref sig .tc := ⟨.hbm, 894, rfl⟩
abbrev main_call32_v9 : Ref sig .tc := ⟨.hbm, 895, rfl⟩
abbrev main_call32_v10 : Ref sig .tc := ⟨.hbm, 896, rfl⟩
abbrev main_call32_v11 : Ref sig .tc := ⟨.hbm, 897, rfl⟩
abbrev main_v494 : Ref sig .tc := ⟨.hbm, 898, rfl⟩
abbrev main_v495 : Ref sig .tc := ⟨.hbm, 899, rfl⟩
abbrev main_v496 : Ref sig .tc := ⟨.hbm, 900, rfl⟩
abbrev main_v497 : Ref sig .tc := ⟨.hbm, 901, rfl⟩
abbrev main_v498 : Ref sig .tc := ⟨.hbm, 902, rfl⟩
abbrev main_v499 : Ref sig .tc := ⟨.hbm, 903, rfl⟩
abbrev main_v500 : Ref sig .tc := ⟨.hbm, 904, rfl⟩
abbrev main_v501 : Ref sig .tc := ⟨.hbm, 905, rfl⟩
abbrev main_call33_v0 : Ref sig .tc := ⟨.hbm, 906, rfl⟩
abbrev main_call33_cst : Ref sig .tc := ⟨.hbm, 907, rfl⟩
abbrev main_call33_v1 : Ref sig .tc := ⟨.hbm, 908, rfl⟩
abbrev main_call33_v2 : Ref sig .tc := ⟨.hbm, 909, rfl⟩
abbrev main_v502 : Ref sig .tc := ⟨.hbm, 910, rfl⟩
abbrev main_cst_43 : Ref sig .tc := ⟨.hbm, 911, rfl⟩
abbrev main_v503 : Ref sig .tc := ⟨.hbm, 912, rfl⟩
abbrev main_v504 : Ref sig .tc := ⟨.hbm, 913, rfl⟩
abbrev main_v505 : Ref sig .tc := ⟨.hbm, 914, rfl⟩
abbrev main_v506 : Ref sig .tc := ⟨.hbm, 915, rfl⟩
abbrev main_cst_44 : Ref sig .tc := ⟨.hbm, 916, rfl⟩
abbrev main_v507 : Ref sig .tc := ⟨.hbm, 917, rfl⟩
abbrev main_v508 : Ref sig .tc := ⟨.hbm, 918, rfl⟩
abbrev main_v509 : Ref sig .tc := ⟨.hbm, 919, rfl⟩
abbrev main_v510 : Ref sig .tc := ⟨.hbm, 920, rfl⟩
abbrev main_v511 : Ref sig .tc := ⟨.hbm, 921, rfl⟩
abbrev main_v512 : Ref sig .tc := ⟨.hbm, 922, rfl⟩
abbrev main_v513 : Ref sig .tc := ⟨.hbm, 923, rfl⟩
abbrev main_v514 : Ref sig .tc := ⟨.hbm, 924, rfl⟩
abbrev main_v515 : Ref sig .tc := ⟨.hbm, 925, rfl⟩
abbrev main_v516 : Ref sig .tc := ⟨.hbm, 926, rfl⟩
abbrev main_cst_45 : Ref sig .tc := ⟨.hbm, 927, rfl⟩
abbrev main_v517 : Ref sig .tc := ⟨.hbm, 928, rfl⟩
abbrev main_v518 : Ref sig .tc := ⟨.hbm, 929, rfl⟩
abbrev main_v519 : Ref sig .tc := ⟨.hbm, 930, rfl⟩
abbrev main_v520 : Ref sig .tc := ⟨.hbm, 931, rfl⟩
abbrev main_v521 : Ref sig .tc := ⟨.hbm, 932, rfl⟩
abbrev main_v522 : Ref sig .tc := ⟨.hbm, 933, rfl⟩
abbrev main_cst_46 : Ref sig .tc := ⟨.hbm, 934, rfl⟩
abbrev main_v523 : Ref sig .tc := ⟨.hbm, 935, rfl⟩
abbrev main_v524 : Ref sig .tc := ⟨.hbm, 936, rfl⟩
abbrev main_v525 : Ref sig .tc := ⟨.hbm, 937, rfl⟩
abbrev main_v526 : Ref sig .tc := ⟨.hbm, 938, rfl⟩
abbrev main_v527 : Ref sig .tc := ⟨.hbm, 939, rfl⟩
abbrev main_v528 : Ref sig .tc := ⟨.hbm, 940, rfl⟩
abbrev main_v529 : Ref sig .tc := ⟨.hbm, 941, rfl⟩
abbrev main_v530 : Ref sig .tc := ⟨.hbm, 942, rfl⟩
abbrev main_v531 : Ref sig .tc := ⟨.hbm, 943, rfl⟩
abbrev main_v532 : Ref sig .tc := ⟨.hbm, 944, rfl⟩
abbrev main_v533 : Ref sig .tc := ⟨.hbm, 945, rfl⟩
abbrev main_v534 : Ref sig .tc := ⟨.hbm, 946, rfl⟩
abbrev main_v535 : Ref sig .tc := ⟨.hbm, 947, rfl⟩
abbrev main_cst_47 : Ref sig .tc := ⟨.hbm, 948, rfl⟩
abbrev main_v536 : Ref sig .tc := ⟨.hbm, 949, rfl⟩
abbrev main_v537 : Ref sig .tc := ⟨.hbm, 950, rfl⟩
abbrev main_cst_48 : Ref sig .tc := ⟨.hbm, 951, rfl⟩
abbrev main_v538 : Ref sig .tc := ⟨.hbm, 952, rfl⟩
abbrev main_v539 : Ref sig .tc := ⟨.hbm, 953, rfl⟩
abbrev main_cst_49 : Ref sig .tc := ⟨.hbm, 954, rfl⟩
abbrev main_v540 : Ref sig .tc := ⟨.hbm, 955, rfl⟩
abbrev main_v541 : Ref sig .tc := ⟨.hbm, 956, rfl⟩
abbrev main_v542 : Ref sig .tc := ⟨.hbm, 957, rfl⟩
abbrev main_v543 : Ref sig .tc := ⟨.hbm, 958, rfl⟩
abbrev main_v544 : Ref sig .tc := ⟨.hbm, 959, rfl⟩
abbrev main_v545 : Ref sig .tc := ⟨.hbm, 960, rfl⟩
abbrev main_v546 : Ref sig .tc := ⟨.hbm, 961, rfl⟩
abbrev main_v547 : Ref sig .tc := ⟨.hbm, 962, rfl⟩
abbrev main_v548 : Ref sig .tc := ⟨.hbm, 963, rfl⟩
abbrev main_cst_50 : Ref sig .tc := ⟨.hbm, 964, rfl⟩
abbrev main_v549 : Ref sig .tc := ⟨.hbm, 965, rfl⟩
abbrev main_cst_51 : Ref sig .tc := ⟨.hbm, 966, rfl⟩
abbrev main_v550 : Ref sig .tc := ⟨.hbm, 967, rfl⟩
abbrev main_v551 : Ref sig .tc := ⟨.hbm, 968, rfl⟩
abbrev main_v552 : Ref sig .tc := ⟨.hbm, 969, rfl⟩
abbrev main_v553 : Ref sig .tc := ⟨.hbm, 970, rfl⟩
abbrev main_v554 : Ref sig .tc := ⟨.hbm, 971, rfl⟩
abbrev main_cst_52 : Ref sig .tc := ⟨.hbm, 972, rfl⟩
abbrev main_v555 : Ref sig .tc := ⟨.hbm, 973, rfl⟩
abbrev main_v556 : Ref sig .tc := ⟨.hbm, 974, rfl⟩
abbrev main_cst_53 : Ref sig .tc := ⟨.hbm, 975, rfl⟩
abbrev main_cst_54 : Ref sig .tc := ⟨.hbm, 976, rfl⟩
abbrev main_call34_v0 : Ref sig .tc := ⟨.hbm, 977, rfl⟩
abbrev main_call34_v1 : Ref sig .tc := ⟨.hbm, 978, rfl⟩
abbrev main_call34_v2 : Ref sig .tc := ⟨.hbm, 979, rfl⟩
abbrev main_call34_v3 : Ref sig .tc := ⟨.hbm, 980, rfl⟩
abbrev main_call34_v4 : Ref sig .tc := ⟨.hbm, 981, rfl⟩
abbrev main_v557 : Ref sig .tc := ⟨.hbm, 982, rfl⟩
abbrev main_v558 : Ref sig .tc := ⟨.hbm, 983, rfl⟩
abbrev main_v559 : Ref sig .tc := ⟨.hbm, 984, rfl⟩
abbrev main_v560 : Ref sig .tc := ⟨.hbm, 985, rfl⟩
abbrev main_v561 : Ref sig .tc := ⟨.hbm, 986, rfl⟩
abbrev main_v562 : Ref sig .tc := ⟨.hbm, 987, rfl⟩
abbrev main_v563 : Ref sig .tc := ⟨.hbm, 988, rfl⟩
abbrev main_v564 : Ref sig .tc := ⟨.hbm, 989, rfl⟩
abbrev main_v565 : Ref sig .tc := ⟨.hbm, 990, rfl⟩
abbrev main_cst_55 : Ref sig .tc := ⟨.hbm, 991, rfl⟩
abbrev main_v566 : Ref sig .tc := ⟨.hbm, 992, rfl⟩
abbrev main_cst_56 : Ref sig .tc := ⟨.hbm, 993, rfl⟩
abbrev main_v567 : Ref sig .tc := ⟨.hbm, 994, rfl⟩
abbrev main_v568 : Ref sig .tc := ⟨.hbm, 995, rfl⟩
abbrev main_v569 : Ref sig .tc := ⟨.hbm, 996, rfl⟩
abbrev main_cst_57 : Ref sig .tc := ⟨.hbm, 997, rfl⟩
abbrev main_v570 : Ref sig .tc := ⟨.hbm, 998, rfl⟩
abbrev main_v571 : Ref sig .tc := ⟨.hbm, 999, rfl⟩
abbrev main_cst_58 : Ref sig .tc := ⟨.hbm, 1000, rfl⟩
abbrev main_v572 : Ref sig .tc := ⟨.hbm, 1001, rfl⟩
abbrev main_v573 : Ref sig .tc := ⟨.hbm, 1002, rfl⟩
abbrev main_cst_59 : Ref sig .tc := ⟨.hbm, 1003, rfl⟩
abbrev main_call35_v0 : Ref sig .tc := ⟨.hbm, 1004, rfl⟩
abbrev main_call35_v1 : Ref sig .tc := ⟨.hbm, 1005, rfl⟩
abbrev main_v574 : Ref sig .tc := ⟨.hbm, 1006, rfl⟩
abbrev main_c_60 : Ref sig .tc := ⟨.hbm, 1007, rfl⟩
abbrev main_v575 : Ref sig .tc := ⟨.hbm, 1008, rfl⟩
abbrev main_v576 : Ref sig .tc := ⟨.hbm, 1009, rfl⟩
abbrev main_c_61 : Ref sig .tc := ⟨.hbm, 1010, rfl⟩
abbrev main_v577 : Ref sig .tc := ⟨.hbm, 1011, rfl⟩
abbrev main_v578 : Ref sig .tc := ⟨.hbm, 1012, rfl⟩
abbrev main_v579 : Ref sig .tc := ⟨.hbm, 1013, rfl⟩
abbrev main_v580 : Ref sig .tc := ⟨.hbm, 1014, rfl⟩
abbrev main_v581 : Ref sig .tc := ⟨.hbm, 1015, rfl⟩
abbrev main_c_62 : Ref sig .tc := ⟨.hbm, 1016, rfl⟩
abbrev main_v582 : Ref sig .tc := ⟨.hbm, 1017, rfl⟩
abbrev main_v583 : Ref sig .tc := ⟨.hbm, 1018, rfl⟩
abbrev main_c_63 : Ref sig .tc := ⟨.hbm, 1019, rfl⟩
abbrev main_v584 : Ref sig .tc := ⟨.hbm, 1020, rfl⟩
abbrev main_v585 : Ref sig .tc := ⟨.hbm, 1021, rfl⟩
abbrev main_v586 : Ref sig .tc := ⟨.hbm, 1022, rfl⟩
abbrev main_v587 : Ref sig .tc := ⟨.hbm, 1023, rfl⟩
abbrev main_v588 : Ref sig .tc := ⟨.hbm, 1024, rfl⟩
abbrev main_v589 : Ref sig .tc := ⟨.hbm, 1025, rfl⟩
abbrev main_v590 : Ref sig .tc := ⟨.hbm, 1026, rfl⟩
abbrev main_c_64 : Ref sig .tc := ⟨.hbm, 1027, rfl⟩
abbrev main_v591 : Ref sig .tc := ⟨.hbm, 1028, rfl⟩
abbrev main_v592 : Ref sig .tc := ⟨.hbm, 1029, rfl⟩
abbrev main_c_65 : Ref sig .tc := ⟨.hbm, 1030, rfl⟩
abbrev main_v593 : Ref sig .tc := ⟨.hbm, 1031, rfl⟩
abbrev main_v594 : Ref sig .tc := ⟨.hbm, 1032, rfl⟩
abbrev main_v595 : Ref sig .tc := ⟨.hbm, 1033, rfl⟩
abbrev main_v596 : Ref sig .tc := ⟨.hbm, 1034, rfl⟩
abbrev main_v597 : Ref sig .tc := ⟨.hbm, 1035, rfl⟩
abbrev main_v598 : Ref sig .tc := ⟨.hbm, 1036, rfl⟩
abbrev main_v599 : Ref sig .tc := ⟨.hbm, 1037, rfl⟩
abbrev main_cst_66 : Ref sig .tc := ⟨.hbm, 1038, rfl⟩
abbrev main_v600 : Ref sig .tc := ⟨.hbm, 1039, rfl⟩
abbrev main_v601 : Ref sig .tc := ⟨.hbm, 1040, rfl⟩
abbrev main_v602 : Ref sig .tc := ⟨.hbm, 1041, rfl⟩
abbrev main_cst_67 : Ref sig .tc := ⟨.hbm, 1042, rfl⟩
abbrev main_v603 : Ref sig .tc := ⟨.hbm, 1043, rfl⟩
abbrev main_v604 : Ref sig .tc := ⟨.hbm, 1044, rfl⟩
abbrev main_cst_68 : Ref sig .tc := ⟨.hbm, 1045, rfl⟩
abbrev main_v605 : Ref sig .tc := ⟨.hbm, 1046, rfl⟩
abbrev main_v606 : Ref sig .tc := ⟨.hbm, 1047, rfl⟩
abbrev main_v607 : Ref sig .tc := ⟨.hbm, 1048, rfl⟩
abbrev main_v608 : Ref sig .tc := ⟨.hbm, 1049, rfl⟩
abbrev main_c_69 : Ref sig .tc := ⟨.hbm, 1050, rfl⟩
abbrev main_v609 : Ref sig .tc := ⟨.hbm, 1051, rfl⟩
abbrev main_v610 : Ref sig .tc := ⟨.hbm, 1052, rfl⟩
abbrev main_c_70 : Ref sig .tc := ⟨.hbm, 1053, rfl⟩
abbrev main_v611 : Ref sig .tc := ⟨.hbm, 1054, rfl⟩
abbrev main_v612 : Ref sig .tc := ⟨.hbm, 1055, rfl⟩
abbrev main_v613 : Ref sig .tc := ⟨.hbm, 1056, rfl⟩
abbrev main_v614 : Ref sig .tc := ⟨.hbm, 1057, rfl⟩
abbrev main_v615 : Ref sig .tc := ⟨.hbm, 1058, rfl⟩
abbrev main_v616 : Ref sig .tc := ⟨.hbm, 1059, rfl⟩
abbrev main_v617 : Ref sig .tc := ⟨.hbm, 1060, rfl⟩
abbrev main_cst_71 : Ref sig .tc := ⟨.hbm, 1061, rfl⟩
abbrev main_v618 : Ref sig .tc := ⟨.hbm, 1062, rfl⟩
abbrev main_v619 : Ref sig .tc := ⟨.hbm, 1063, rfl⟩
abbrev main_v620 : Ref sig .tc := ⟨.hbm, 1064, rfl⟩
abbrev main_cst_72 : Ref sig .tc := ⟨.hbm, 1065, rfl⟩
abbrev main_v621 : Ref sig .tc := ⟨.hbm, 1066, rfl⟩
abbrev main_v622 : Ref sig .tc := ⟨.hbm, 1067, rfl⟩
abbrev main_cst_73 : Ref sig .tc := ⟨.hbm, 1068, rfl⟩
abbrev main_v623 : Ref sig .tc := ⟨.hbm, 1069, rfl⟩
abbrev main_v624 : Ref sig .tc := ⟨.hbm, 1070, rfl⟩
abbrev main_v625 : Ref sig .tc := ⟨.hbm, 1071, rfl⟩
abbrev main_v626 : Ref sig .tc := ⟨.hbm, 1072, rfl⟩
abbrev main_c_74 : Ref sig .tc := ⟨.hbm, 1073, rfl⟩
abbrev main_v627 : Ref sig .tc := ⟨.hbm, 1074, rfl⟩
abbrev main_v628 : Ref sig .tc := ⟨.hbm, 1075, rfl⟩
abbrev main_c_75 : Ref sig .tc := ⟨.hbm, 1076, rfl⟩
abbrev main_v629 : Ref sig .tc := ⟨.hbm, 1077, rfl⟩
abbrev main_v630 : Ref sig .tc := ⟨.hbm, 1078, rfl⟩
abbrev main_v631 : Ref sig .tc := ⟨.hbm, 1079, rfl⟩
abbrev main_v632 : Ref sig .tc := ⟨.hbm, 1080, rfl⟩
abbrev main_v633 : Ref sig .tc := ⟨.hbm, 1081, rfl⟩
abbrev main_v634 : Ref sig .tc := ⟨.hbm, 1082, rfl⟩
abbrev main_v635 : Ref sig .tc := ⟨.hbm, 1083, rfl⟩
abbrev main_cst_76 : Ref sig .tc := ⟨.hbm, 1084, rfl⟩
abbrev main_v636 : Ref sig .tc := ⟨.hbm, 1085, rfl⟩
abbrev main_v637 : Ref sig .tc := ⟨.hbm, 1086, rfl⟩
abbrev main_v638 : Ref sig .tc := ⟨.hbm, 1087, rfl⟩
abbrev main_cst_77 : Ref sig .tc := ⟨.hbm, 1088, rfl⟩
abbrev main_v639 : Ref sig .tc := ⟨.hbm, 1089, rfl⟩
abbrev main_v640 : Ref sig .tc := ⟨.hbm, 1090, rfl⟩
abbrev main_cst_78 : Ref sig .tc := ⟨.hbm, 1091, rfl⟩
abbrev main_v641 : Ref sig .tc := ⟨.hbm, 1092, rfl⟩
abbrev main_v642 : Ref sig .tc := ⟨.hbm, 1093, rfl⟩
abbrev main_v643 : Ref sig .tc := ⟨.hbm, 1094, rfl⟩
abbrev main_v644 : Ref sig .tc := ⟨.hbm, 1095, rfl⟩
abbrev main_c_79 : Ref sig .tc := ⟨.hbm, 1096, rfl⟩
abbrev main_v645 : Ref sig .tc := ⟨.hbm, 1097, rfl⟩
abbrev main_v646 : Ref sig .tc := ⟨.hbm, 1098, rfl⟩
abbrev main_c_80 : Ref sig .tc := ⟨.hbm, 1099, rfl⟩
abbrev main_v647 : Ref sig .tc := ⟨.hbm, 1100, rfl⟩
abbrev main_v648 : Ref sig .tc := ⟨.hbm, 1101, rfl⟩
abbrev main_v649 : Ref sig .tc := ⟨.hbm, 1102, rfl⟩
abbrev main_v650 : Ref sig .tc := ⟨.hbm, 1103, rfl⟩
abbrev main_v651 : Ref sig .tc := ⟨.hbm, 1104, rfl⟩
abbrev main_v652 : Ref sig .tc := ⟨.hbm, 1105, rfl⟩
abbrev main_v653 : Ref sig .tc := ⟨.hbm, 1106, rfl⟩
abbrev main_cst_81 : Ref sig .tc := ⟨.hbm, 1107, rfl⟩
abbrev main_v654 : Ref sig .tc := ⟨.hbm, 1108, rfl⟩
abbrev main_v655 : Ref sig .tc := ⟨.hbm, 1109, rfl⟩
abbrev main_v656 : Ref sig .tc := ⟨.hbm, 1110, rfl⟩
abbrev main_cst_82 : Ref sig .tc := ⟨.hbm, 1111, rfl⟩
abbrev main_v657 : Ref sig .tc := ⟨.hbm, 1112, rfl⟩
abbrev main_v658 : Ref sig .tc := ⟨.hbm, 1113, rfl⟩
abbrev main_cst_83 : Ref sig .tc := ⟨.hbm, 1114, rfl⟩
abbrev main_v659 : Ref sig .tc := ⟨.hbm, 1115, rfl⟩
abbrev main_v660 : Ref sig .tc := ⟨.hbm, 1116, rfl⟩
abbrev main_v661 : Ref sig .tc := ⟨.hbm, 1117, rfl⟩
abbrev main_v662 : Ref sig .tc := ⟨.hbm, 1118, rfl⟩
abbrev main_c_84 : Ref sig .tc := ⟨.hbm, 1119, rfl⟩
abbrev main_v663 : Ref sig .tc := ⟨.hbm, 1120, rfl⟩
abbrev main_v664 : Ref sig .tc := ⟨.hbm, 1121, rfl⟩
abbrev main_c_85 : Ref sig .tc := ⟨.hbm, 1122, rfl⟩
abbrev main_v665 : Ref sig .tc := ⟨.hbm, 1123, rfl⟩
abbrev main_v666 : Ref sig .tc := ⟨.hbm, 1124, rfl⟩
abbrev main_v667 : Ref sig .tc := ⟨.hbm, 1125, rfl⟩
abbrev main_v668 : Ref sig .tc := ⟨.hbm, 1126, rfl⟩
abbrev main_v669 : Ref sig .tc := ⟨.hbm, 1127, rfl⟩
abbrev main_v670 : Ref sig .tc := ⟨.hbm, 1128, rfl⟩
abbrev main_v671 : Ref sig .tc := ⟨.hbm, 1129, rfl⟩
abbrev main_cst_86 : Ref sig .tc := ⟨.hbm, 1130, rfl⟩
abbrev main_v672 : Ref sig .tc := ⟨.hbm, 1131, rfl⟩
abbrev main_v673 : Ref sig .tc := ⟨.hbm, 1132, rfl⟩
abbrev main_v674 : Ref sig .tc := ⟨.hbm, 1133, rfl⟩
abbrev main_cst_87 : Ref sig .tc := ⟨.hbm, 1134, rfl⟩
abbrev main_v675 : Ref sig .tc := ⟨.hbm, 1135, rfl⟩
abbrev main_v676 : Ref sig .tc := ⟨.hbm, 1136, rfl⟩
abbrev main_cst_88 : Ref sig .tc := ⟨.hbm, 1137, rfl⟩
abbrev main_v677 : Ref sig .tc := ⟨.hbm, 1138, rfl⟩
abbrev main_v678 : Ref sig .tc := ⟨.hbm, 1139, rfl⟩
abbrev main_v679 : Ref sig .tc := ⟨.hbm, 1140, rfl⟩
abbrev main_v680 : Ref sig .tc := ⟨.hbm, 1141, rfl⟩
abbrev main_c_89 : Ref sig .tc := ⟨.hbm, 1142, rfl⟩
abbrev main_v681 : Ref sig .tc := ⟨.hbm, 1143, rfl⟩
abbrev main_v682 : Ref sig .tc := ⟨.hbm, 1144, rfl⟩
abbrev main_c_90 : Ref sig .tc := ⟨.hbm, 1145, rfl⟩
abbrev main_v683 : Ref sig .tc := ⟨.hbm, 1146, rfl⟩
abbrev main_v684 : Ref sig .tc := ⟨.hbm, 1147, rfl⟩
abbrev main_v685 : Ref sig .tc := ⟨.hbm, 1148, rfl⟩
abbrev main_v686 : Ref sig .tc := ⟨.hbm, 1149, rfl⟩
abbrev main_v687 : Ref sig .tc := ⟨.hbm, 1150, rfl⟩
abbrev main_v688 : Ref sig .tc := ⟨.hbm, 1151, rfl⟩
abbrev main_v689 : Ref sig .tc := ⟨.hbm, 1152, rfl⟩
abbrev main_cst_91 : Ref sig .tc := ⟨.hbm, 1153, rfl⟩
abbrev main_v690 : Ref sig .tc := ⟨.hbm, 1154, rfl⟩
abbrev main_v691 : Ref sig .tc := ⟨.hbm, 1155, rfl⟩
abbrev main_v692 : Ref sig .tc := ⟨.hbm, 1156, rfl⟩
abbrev main_cst_92 : Ref sig .tc := ⟨.hbm, 1157, rfl⟩
abbrev main_v693 : Ref sig .tc := ⟨.hbm, 1158, rfl⟩
abbrev main_v694 : Ref sig .tc := ⟨.hbm, 1159, rfl⟩
abbrev main_cst_93 : Ref sig .tc := ⟨.hbm, 1160, rfl⟩
abbrev main_v695 : Ref sig .tc := ⟨.hbm, 1161, rfl⟩
abbrev main_v696 : Ref sig .tc := ⟨.hbm, 1162, rfl⟩
abbrev main_v697 : Ref sig .tc := ⟨.hbm, 1163, rfl⟩
abbrev main_v698 : Ref sig .tc := ⟨.hbm, 1164, rfl⟩
abbrev main_c_94 : Ref sig .tc := ⟨.hbm, 1165, rfl⟩
abbrev main_v699 : Ref sig .tc := ⟨.hbm, 1166, rfl⟩
abbrev main_v700 : Ref sig .tc := ⟨.hbm, 1167, rfl⟩
abbrev main_c_95 : Ref sig .tc := ⟨.hbm, 1168, rfl⟩
abbrev main_v701 : Ref sig .tc := ⟨.hbm, 1169, rfl⟩
abbrev main_v702 : Ref sig .tc := ⟨.hbm, 1170, rfl⟩
abbrev main_v703 : Ref sig .tc := ⟨.hbm, 1171, rfl⟩
abbrev main_v704 : Ref sig .tc := ⟨.hbm, 1172, rfl⟩
abbrev main_v705 : Ref sig .tc := ⟨.hbm, 1173, rfl⟩
abbrev main_v706 : Ref sig .tc := ⟨.hbm, 1174, rfl⟩
abbrev main_v707 : Ref sig .tc := ⟨.hbm, 1175, rfl⟩
abbrev main_cst_96 : Ref sig .tc := ⟨.hbm, 1176, rfl⟩
abbrev main_v708 : Ref sig .tc := ⟨.hbm, 1177, rfl⟩
abbrev main_v709 : Ref sig .tc := ⟨.hbm, 1178, rfl⟩
abbrev main_v710 : Ref sig .tc := ⟨.hbm, 1179, rfl⟩
abbrev main_cst_97 : Ref sig .tc := ⟨.hbm, 1180, rfl⟩
abbrev main_v711 : Ref sig .tc := ⟨.hbm, 1181, rfl⟩
abbrev main_v712 : Ref sig .tc := ⟨.hbm, 1182, rfl⟩
abbrev main_cst_98 : Ref sig .tc := ⟨.hbm, 1183, rfl⟩
abbrev main_v713 : Ref sig .tc := ⟨.hbm, 1184, rfl⟩
abbrev main_v714 : Ref sig .tc := ⟨.hbm, 1185, rfl⟩
abbrev main_v715 : Ref sig .tc := ⟨.hbm, 1186, rfl⟩
abbrev main_v716 : Ref sig .tc := ⟨.hbm, 1187, rfl⟩
abbrev main_c_99 : Ref sig .tc := ⟨.hbm, 1188, rfl⟩
abbrev main_v717 : Ref sig .tc := ⟨.hbm, 1189, rfl⟩
abbrev main_v718 : Ref sig .tc := ⟨.hbm, 1190, rfl⟩
abbrev main_c_100 : Ref sig .tc := ⟨.hbm, 1191, rfl⟩
abbrev main_v719 : Ref sig .tc := ⟨.hbm, 1192, rfl⟩
abbrev main_v720 : Ref sig .tc := ⟨.hbm, 1193, rfl⟩
abbrev main_v721 : Ref sig .tc := ⟨.hbm, 1194, rfl⟩
abbrev main_v722 : Ref sig .tc := ⟨.hbm, 1195, rfl⟩
abbrev main_v723 : Ref sig .tc := ⟨.hbm, 1196, rfl⟩
abbrev main_v724 : Ref sig .tc := ⟨.hbm, 1197, rfl⟩
abbrev main_v725 : Ref sig .tc := ⟨.hbm, 1198, rfl⟩
abbrev main_cst_101 : Ref sig .tc := ⟨.hbm, 1199, rfl⟩
abbrev main_v726 : Ref sig .tc := ⟨.hbm, 1200, rfl⟩
abbrev main_v727 : Ref sig .tc := ⟨.hbm, 1201, rfl⟩
abbrev main_v728 : Ref sig .tc := ⟨.hbm, 1202, rfl⟩
abbrev main_cst_102 : Ref sig .tc := ⟨.hbm, 1203, rfl⟩
abbrev main_v729 : Ref sig .tc := ⟨.hbm, 1204, rfl⟩
abbrev main_v730 : Ref sig .tc := ⟨.hbm, 1205, rfl⟩
abbrev main_cst_103 : Ref sig .tc := ⟨.hbm, 1206, rfl⟩
abbrev main_v731 : Ref sig .tc := ⟨.hbm, 1207, rfl⟩
abbrev main_v732 : Ref sig .tc := ⟨.hbm, 1208, rfl⟩
abbrev main_v733 : Ref sig .tc := ⟨.hbm, 1209, rfl⟩
abbrev main_v734 : Ref sig .tc := ⟨.hbm, 1210, rfl⟩
abbrev main_c_104 : Ref sig .tc := ⟨.hbm, 1211, rfl⟩
abbrev main_v735 : Ref sig .tc := ⟨.hbm, 1212, rfl⟩
abbrev main_v736 : Ref sig .tc := ⟨.hbm, 1213, rfl⟩
abbrev main_c_105 : Ref sig .tc := ⟨.hbm, 1214, rfl⟩
abbrev main_v737 : Ref sig .tc := ⟨.hbm, 1215, rfl⟩
abbrev main_v738 : Ref sig .tc := ⟨.hbm, 1216, rfl⟩
abbrev main_v739 : Ref sig .tc := ⟨.hbm, 1217, rfl⟩
abbrev main_v740 : Ref sig .tc := ⟨.hbm, 1218, rfl⟩
abbrev main_v741 : Ref sig .tc := ⟨.hbm, 1219, rfl⟩
abbrev main_v742 : Ref sig .tc := ⟨.hbm, 1220, rfl⟩
abbrev main_v743 : Ref sig .tc := ⟨.hbm, 1221, rfl⟩
abbrev main_cst_106 : Ref sig .tc := ⟨.hbm, 1222, rfl⟩
abbrev main_v744 : Ref sig .tc := ⟨.hbm, 1223, rfl⟩
abbrev main_v745 : Ref sig .tc := ⟨.hbm, 1224, rfl⟩
abbrev main_v746 : Ref sig .tc := ⟨.hbm, 1225, rfl⟩
abbrev main_cst_107 : Ref sig .tc := ⟨.hbm, 1226, rfl⟩
abbrev main_v747 : Ref sig .tc := ⟨.hbm, 1227, rfl⟩
abbrev main_v748 : Ref sig .tc := ⟨.hbm, 1228, rfl⟩
abbrev main_cst_108 : Ref sig .tc := ⟨.hbm, 1229, rfl⟩
abbrev main_v749 : Ref sig .tc := ⟨.hbm, 1230, rfl⟩
abbrev main_v750 : Ref sig .tc := ⟨.hbm, 1231, rfl⟩
abbrev main_v751 : Ref sig .tc := ⟨.hbm, 1232, rfl⟩
abbrev main_v752 : Ref sig .tc := ⟨.hbm, 1233, rfl⟩
abbrev main_c_109 : Ref sig .tc := ⟨.hbm, 1234, rfl⟩
abbrev main_v753 : Ref sig .tc := ⟨.hbm, 1235, rfl⟩
abbrev main_v754 : Ref sig .tc := ⟨.hbm, 1236, rfl⟩
abbrev main_c_110 : Ref sig .tc := ⟨.hbm, 1237, rfl⟩
abbrev main_v755 : Ref sig .tc := ⟨.hbm, 1238, rfl⟩
abbrev main_v756 : Ref sig .tc := ⟨.hbm, 1239, rfl⟩
abbrev main_v757 : Ref sig .tc := ⟨.hbm, 1240, rfl⟩
abbrev main_v758 : Ref sig .tc := ⟨.hbm, 1241, rfl⟩
abbrev main_v759 : Ref sig .tc := ⟨.hbm, 1242, rfl⟩
abbrev main_v760 : Ref sig .tc := ⟨.hbm, 1243, rfl⟩
abbrev main_v761 : Ref sig .tc := ⟨.hbm, 1244, rfl⟩
abbrev main_cst_111 : Ref sig .tc := ⟨.hbm, 1245, rfl⟩
abbrev main_v762 : Ref sig .tc := ⟨.hbm, 1246, rfl⟩
abbrev main_v763 : Ref sig .tc := ⟨.hbm, 1247, rfl⟩
abbrev main_v764 : Ref sig .tc := ⟨.hbm, 1248, rfl⟩
abbrev main_cst_112 : Ref sig .tc := ⟨.hbm, 1249, rfl⟩
abbrev main_v765 : Ref sig .tc := ⟨.hbm, 1250, rfl⟩
abbrev main_v766 : Ref sig .tc := ⟨.hbm, 1251, rfl⟩
abbrev main_cst_113 : Ref sig .tc := ⟨.hbm, 1252, rfl⟩
abbrev main_v767 : Ref sig .tc := ⟨.hbm, 1253, rfl⟩
abbrev main_v768 : Ref sig .tc := ⟨.hbm, 1254, rfl⟩
abbrev main_v769 : Ref sig .tc := ⟨.hbm, 1255, rfl⟩
abbrev main_cst_114 : Ref sig .tc := ⟨.hbm, 1256, rfl⟩
abbrev main_v770 : Ref sig .tc := ⟨.hbm, 1257, rfl⟩
abbrev main_v771 : Ref sig .tc := ⟨.hbm, 1258, rfl⟩
abbrev main_cst_115 : Ref sig .tc := ⟨.hbm, 1259, rfl⟩
abbrev main_v772 : Ref sig .tc := ⟨.hbm, 1260, rfl⟩
abbrev main_v773 : Ref sig .tc := ⟨.hbm, 1261, rfl⟩
abbrev main_cst_116 : Ref sig .tc := ⟨.hbm, 1262, rfl⟩
abbrev main_v774 : Ref sig .tc := ⟨.hbm, 1263, rfl⟩
abbrev main_v775 : Ref sig .tc := ⟨.hbm, 1264, rfl⟩
abbrev main_v776 : Ref sig .tc := ⟨.hbm, 1265, rfl⟩
abbrev main_v777 : Ref sig .tc := ⟨.hbm, 1266, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S100000x16_S100000x1x16_0_2 : S100000x16.BroadcastsInDim S100000x1x16 (![0, 2] : Fin 2 → Fin S100000x1x16.rank)
  bcast_S100000x1x16_S100000x8x16_0_1_2 : S100000x1x16.BroadcastsInDim S100000x8x16 (![0, 1, 2] : Fin 3 → Fin S100000x8x16.rank)
  bcast_S_S100000x8 : S_.BroadcastsInDim S100000x8 (![] : Fin 0 → Fin S100000x8.rank)
  slices_S10x8_S1x8_9_0 : S10x8.Slices ![9, 0] S1x8
  shapeCasts_S1x8_S8 : S1x8.ShapeCasts S8
  bcast_S_S8 : S_.BroadcastsInDim S8 (![] : Fin 0 → Fin S8.rank)
  bcast_S8_S1x8x1_1 : S8.BroadcastsInDim S1x8x1 (![1] : Fin 1 → Fin S1x8x1.rank)
  slices_S10x8x16_S1x8x16_9_0_0 : S10x8x16.Slices ![9, 0, 0] S1x8x16
  shapeCasts_S1x8x16_S8x16 : S1x8x16.ShapeCasts S8x16
  bcast_S8x16_S1x8x16_1_2 : S8x16.BroadcastsInDim S1x8x16 (![1, 2] : Fin 2 → Fin S1x8x16.rank)
  bcast_S1x8x16_S100000x8x16_0_1_2 : S1x8x16.BroadcastsInDim S100000x8x16 (![0, 1, 2] : Fin 3 → Fin S100000x8x16.rank)
  reducesTo_S100000x8x16_S100000x8_d2 : S100000x8x16.ReducesTo [2] S100000x8
  bcast_S100000x8_S100000x8x1_0_1 : S100000x8.BroadcastsInDim S100000x8x1 (![0, 1] : Fin 2 → Fin S100000x8x1.rank)
  bcast_S_S100000x8x1 : S_.BroadcastsInDim S100000x8x1 (![] : Fin 0 → Fin S100000x8x1.rank)
  bcast_S1x8x1_S100000x8x1_0_1_2 : S1x8x1.BroadcastsInDim S100000x8x1 (![0, 1, 2] : Fin 3 → Fin S100000x8x1.rank)
  bcast_S100000x8x1_S100000x8x16_0_1_2 : S100000x8x1.BroadcastsInDim S100000x8x16 (![0, 1, 2] : Fin 3 → Fin S100000x8x16.rank)
  shapeCasts_S100000x8x1_S100000x8 : S100000x8x1.ShapeCasts S100000x8
  slices_S10x8_S1x8_8_0 : S10x8.Slices ![8, 0] S1x8
  slices_S10x8x16_S1x8x16_8_0_0 : S10x8x16.Slices ![8, 0, 0] S1x8x16
  slices_S10x8_S1x8_7_0 : S10x8.Slices ![7, 0] S1x8
  slices_S10x8x16_S1x8x16_7_0_0 : S10x8x16.Slices ![7, 0, 0] S1x8x16
  slices_S10x8_S1x8_6_0 : S10x8.Slices ![6, 0] S1x8
  slices_S10x8x16_S1x8x16_6_0_0 : S10x8x16.Slices ![6, 0, 0] S1x8x16
  slices_S10x8_S1x8_5_0 : S10x8.Slices ![5, 0] S1x8
  slices_S10x8x16_S1x8x16_5_0_0 : S10x8x16.Slices ![5, 0, 0] S1x8x16
  slices_S10x8_S1x8_4_0 : S10x8.Slices ![4, 0] S1x8
  slices_S10x8x16_S1x8x16_4_0_0 : S10x8x16.Slices ![4, 0, 0] S1x8x16
  slices_S10x8_S1x8_3_0 : S10x8.Slices ![3, 0] S1x8
  slices_S10x8x16_S1x8x16_3_0_0 : S10x8x16.Slices ![3, 0, 0] S1x8x16
  slices_S10x8_S1x8_2_0 : S10x8.Slices ![2, 0] S1x8
  slices_S10x8x16_S1x8x16_2_0_0 : S10x8x16.Slices ![2, 0, 0] S1x8x16
  slices_S10x8_S1x8_1_0 : S10x8.Slices ![1, 0] S1x8
  slices_S10x8x16_S1x8x16_1_0_0 : S10x8x16.Slices ![1, 0, 0] S1x8x16
  slices_S10x8_S1x8_0_0 : S10x8.Slices ![0, 0] S1x8
  slices_S10x8x16_S1x8x16_0_0_0 : S10x8x16.Slices ![0, 0, 0] S1x8x16
  reducesTo_S8x16_S8_d1 : S8x16.ReducesTo [1] S8
  bcast_S8_S1x8_1 : S8.BroadcastsInDim S1x8 (![1] : Fin 1 → Fin S1x8.rank)
  bcast_S_S1x8 : S_.BroadcastsInDim S1x8 (![] : Fin 0 → Fin S1x8.rank)
  bcast_S1x8_S100000x8_0_1 : S1x8.BroadcastsInDim S100000x8 (![0, 1] : Fin 2 → Fin S100000x8.rank)
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x8_0_1 : S3300000x1.BroadcastsInDim S3300000x8 (![0, 1] : Fin 2 → Fin S3300000x8.rank)
  reducesTo_S100000x8_S100000_d1 : S100000x8.ReducesTo [1] S100000
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  dot_S100000x256_S256x64_S100000x64_1_0_0_1_n_n_wf : DotDims.WF S100000x256 S256x64 S100000x64 [1] [0] [0] [1] [] []
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.RefOps.W00.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 0 of the reference's @main (statements 1 … 60) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 1 … 4 of @main: 4 operations, in order. -/
abbrev s1_4 : List (HloOp τ sig (Elt F)) :=
  [ StableHlo.binary main_arg0 main_arg2 main_v0 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg3 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)) ]
set_option maxHeartbeats 4000000 in
theorem s1_4_sub : (s1_4 : List (HloOp τ sig (Elt F))).Forall fun op => op.bufs ⊆ tcRefs τ sig :=
  ⟨binary_bufs_sub .., unary_bufs_sub .., unary_bufs_sub .., binary_bufs_sub ..⟩
theorem s1_4_fresh : (s1_4 : List (HloOp τ sig (Elt F))).Forall fun op => op.fresh = ∅ := by
  simp only [List.Forall]; repeat' constructor
set_option maxHeartbeats 4000000 in
/-- None of these operations writes an argument of @main. -/
theorem s1_4_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s1_4 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s1_4, List.Forall, nullary_writes, unary_writes, binary_writes, ternary_writes, quaternary_writes, reshape_writes, Finset.mem_singleton]
    repeat' apply And.intro
    all_goals exact devRef_ne_of_ne (by decide)))

/-- Statements 5 … 11 of @main: 28 operations, in order. -/
abbrev s5_11 : List (HloOp τ sig (Elt F)) :=
  [ StableHlo.nullary main_cst (constant S_ .f32 0x00000000#32),
    StableHlo.binary main_v3 main_cst main_v4 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_0 (constant S_ .f32 0x47C35000#32),
    StableHlo.unary main_cst_0 main_v5 (broadcastInDim S64 ![] bcast_S_S64 : (⟨S_, .f32⟩ : BufTy).Contents (Elt F) → (⟨S64, .f32⟩ : BufTy).Contents (Elt F)),
    StableHlo.binary main_v4 main_v5 main_v6 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v3) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v3) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]
set_option maxHeartbeats 4000000 in
theorem s5_11_sub : (s5_11 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s5_11_fresh : (s5_11 : List (HloOp τ sig (Elt F))).Forall fun op => op.fresh = ∅ := by
  simp only [List.Forall]; repeat' constructor
set_option maxHeartbeats 4000000 in
/-- None of these operations writes an argument of @main. -/
theorem s5_11_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s5_11 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s5_11, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s5_11_carries (V : Valuation τ sig (Elt F)) (r : Ref sig .tc) (hr : r ∈ [main_v3]) :
    after s5_11 V (Proc.devRef .tc r) = V (Proc.devRef .tc r) := by
  simp only [List.mem_cons, List.mem_nil_iff, or_false] at hr
  rcases hr with rfl
  all_goals exact after_of_forall_not_mem _ _ (List.forall_iff_forall_mem.mp (by
    simp only [s5_11, List.Forall, nullary_writes, unary_writes, binary_writes, ternary_writes, quaternary_writes, reshape_writes, Finset.mem_singleton]
    repeat' apply And.intro
    all_goals exact devRef_ne_of_ne (by decide)))

/-- Statements 12 … 32 of @main: 23 operations, in order. -/
abbrev s12_32 : List (HloOp τ sig (Elt F)) :=
  [ StableHlo.unary main_v6 main_v8 (broadcastInDim S1x64 ![1] bcast_S64_S1x64_1 : (⟨S64, .f32⟩ : BufTy).Contents (Elt F) → (⟨S1x64, .f32⟩ : BufTy).Contents (Elt F)),
    StableHlo.unary main_v8 main_v9 (broadcastInDim S100000x64 ![0, 1] bcast_S1x64_S100000x64_0_1 : (⟨S1x64, .f32⟩ : BufTy).Contents (Elt F) → (⟨S100000x64, .f32⟩ : BufTy).Contents (Elt F)),
    StableHlo.binary main_v3 main_v9 main_v10 (subf : (⟨S100000x64, .f32⟩ : BufTy).Contents (Elt F) → (⟨S100000x64, .f32⟩ : BufTy).Contents (Elt F) → (⟨S100000x64, .f32⟩ : BufTy).Contents (Elt F)),
    StableHlo.unary main_arg4 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S100000x64 ![0, 1] bcast_S1x64_S100000x64_0_1 : (⟨S1x64, .f32⟩ : BufTy).Contents (Elt F) → (⟨S100000x64, .f32⟩ : BufTy).Contents (Elt F)),
    StableHlo.binary main_v12 main_v10 main_v13 (mulf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3727C5AC#32),
    StableHlo.unary main_cst_1 main_v14 (broadcastInDim S64 ![] bcast_S_S64 : (⟨S_, .f32⟩ : BufTy).Contents (Elt F) → (⟨S64, .f32⟩ : BufTy).Contents (Elt F)),
    StableHlo.binary main_v7 main_v14 main_v15 (addf : (⟨S64, .f32⟩ : BufTy).Contents (Elt F) → (⟨S64, .f32⟩ : BufTy).Contents (Elt F) → (⟨S64, .f32⟩ : BufTy).Contents (Elt F)),
    StableHlo.unary main_v15 main_v16 (Host.sqrt : (⟨S64, .f32⟩ : BufTy).Contents (Elt F) → (⟨S64, .f32⟩ : BufTy).Contents (Elt F)),
    StableHlo.unary main_v16 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S100000x64 ![0, 1] bcast_S1x64_S100000x64_0_1 : (⟨S1x64, .f32⟩ : BufTy).Contents (Elt F) → (⟨S100000x64, .f32⟩ : BufTy).Contents (Elt F)),
    StableHlo.binary main_v13 main_v18 main_v19 (Host.divf : (⟨S100000x64, .f32⟩ : BufTy).Contents (Elt F) → (⟨S100000x64, .f32⟩ : BufTy).Contents (Elt F) → (⟨S100000x64, .f32⟩ : BufTy).Contents (Elt F)),
    StableHlo.unary main_arg5 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S100000x64 ![0, 1] bcast_S1x64_S100000x64_0_1 : (⟨S1x64, .f32⟩ : BufTy).Contents (Elt F) → (⟨S100000x64, .f32⟩ : BufTy).Contents (Elt F)),
    StableHlo.binary main_v19 main_v21 main_v22 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v22) main_call1.v0 main_call1.v1 maximumf,
    StableHlo.binary main_v23 main_arg6 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v26 main_v27 (addf : (⟨S100000x64, .f32⟩ : BufTy).Contents (Elt F) → (⟨S100000x64, .f32⟩ : BufTy).Contents (Elt F) → (⟨S100000x64, .f32⟩ : BufTy).Contents (Elt F)) ]
set_option maxHeartbeats 4000000 in
theorem s12_32_sub : (s12_32 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem s12_32_fresh : (s12_32 : List (HloOp τ sig (Elt F))).Forall fun op => op.fresh = ∅ := by
  simp only [List.Forall]; repeat' constructor
set_option maxHeartbeats 4000000 in
/-- None of these operations writes an argument of @main. -/
theorem s12_32_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s12_32 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s12_32, List.Forall, nullary_writes, unary_writes, binary_writes, ternary_writes, quaternary_writes, reshape_writes, Finset.mem_singleton]
    repeat' apply And.intro
    all_goals exact devRef_ne_of_ne (by decide)))

/-- Statements 33 … 39 of @main: 28 operations, in order. -/
abbrev s33_39 : List (HloOp τ sig (Elt F)) :=
  [ StableHlo.nullary main_cst_2 (constant S_ .f32 0x00000000#32),
    StableHlo.binary main_v27 main_cst_2 main_v28 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_3 (constant S_ .f32 0x47C35000#32),
    StableHlo.unary main_cst_3 main_v29 (broadcastInDim S64 ![] bcast_S_S64 : (⟨S_, .f32⟩ : BufTy).Contents (Elt F) → (⟨S64, .f32⟩ : BufTy).Contents (Elt F)),
    StableHlo.binary main_v28 main_v29 main_v30 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call2.cst (constant S_ .f32 0x00000000#32),
    StableHlo.TRef.binary (.of main_v27) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v27) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]
set_option maxHeartbeats 4000000 in
theorem s33_39_sub : (s33_39 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem s33_39_fresh : (s33_39 : List (HloOp τ sig (Elt F))).Forall fun op => op.fresh = ∅ := by
  simp only [List.Forall]; repeat' constructor
set_option maxHeartbeats 4000000 in
/-- None of these operations writes an argument of @main. -/
theorem s33_39_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s33_39 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s33_39, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s33_39_carries (V : Valuation τ sig (Elt F)) (r : Ref sig .tc) (hr : r ∈ [main_v27]) :
    after s33_39 V (Proc.devRef .tc r) = V (Proc.devRef .tc r) := by
  simp only [List.mem_cons, List.mem_nil_iff, or_false] at hr
  rcases hr with rfl
  all_goals exact after_of_forall_not_mem _ _ (List.forall_iff_forall_mem.mp (by
    simp only [s33_39, List.Forall, nullary_writes, unary_writes, binary_writes, ternary_writes, quaternary_writes, reshape_writes, Finset.mem_singleton]
    repeat' apply And.intro
    all_goals exact devRef_ne_of_ne (by decide)))

/-- Statements 40 … 60 of @main: 23 operations, in order. -/
abbrev s40_60 : List (HloOp τ sig (Elt F)) :=
  [ StableHlo.unary main_v30 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v33 main_v34 (subf : (⟨S100000x64, .f32⟩ : BufTy).Contents (Elt F) → (⟨S100000x64, .f32⟩ : BufTy).Contents (Elt F) → (⟨S100000x64, .f32⟩ : BufTy).Contents (Elt F)),
    StableHlo.unary main_arg8 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v34 main_v37 (mulf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3727C5AC#32),
    StableHlo.unary main_cst_5 main_v38 (broadcastInDim S64 ![] bcast_S_S64 : (⟨S_, .f32⟩ : BufTy).Contents (Elt F) → (⟨S64, .f32⟩ : BufTy).Contents (Elt F)),
    StableHlo.binary main_v31 main_v38 main_v39 (addf : (⟨S64, .f32⟩ : BufTy).Contents (Elt F) → (⟨S64, .f32⟩ : BufTy).Contents (Elt F) → (⟨S64, .f32⟩ : BufTy).Contents (Elt F)),
    StableHlo.unary main_v39 main_v40 (Host.sqrt : (⟨S64, .f32⟩ : BufTy).Contents (Elt F) → (⟨S64, .f32⟩ : BufTy).Contents (Elt F)),
    StableHlo.unary main_v40 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v37 main_v42 main_v43 (Host.divf : (⟨S100000x64, .f32⟩ : BufTy).Contents (Elt F) → (⟨S100000x64, .f32⟩ : BufTy).Contents (Elt F) → (⟨S100000x64, .f32⟩ : BufTy).Contents (Elt F)),
    StableHlo.unary main_arg9 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v46) main_call3.v0 main_call3.v1 maximumf,
    StableHlo.binary main_v47 main_arg10 main_v48 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    StableHlo.unary main_arg11 main_v49 (broadcastInDim S1x16 ![1] bcast_S16_S1x16_1 : (⟨S16, .f32⟩ : BufTy).Contents (Elt F) → (⟨S1x16, .f32⟩ : BufTy).Contents (Elt F)),
    StableHlo.unary main_v49 main_v50 (broadcastInDim S100000x16 ![0, 1] bcast_S1x16_S100000x16_0_1 : (⟨S1x16, .f32⟩ : BufTy).Contents (Elt F) → (⟨S100000x16, .f32⟩ : BufTy).Contents (Elt F)),
    StableHlo.binary main_v48 main_v50 main_v51 (addf : (⟨S100000x16, .f32⟩ : BufTy).Contents (Elt F) → (⟨S100000x16, .f32⟩ : BufTy).Contents (Elt F) → (⟨S100000x16, .f32⟩ : BufTy).Contents (Elt F)) ]
set_option maxHeartbeats 4000000 in
theorem s40_60_sub : (s40_60 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem s40_60_fresh : (s40_60 : List (HloOp τ sig (Elt F))).Forall fun op => op.fresh = ∅ := by
  simp only [List.Forall]; repeat' constructor
set_option maxHeartbeats 4000000 in
/-- None of these operations writes an argument of @main. -/
theorem s40_60_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s40_60 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s40_60, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 0 of @main is the run of its operations in order. -/
theorem part0_eq (c : Dev nD) : main_part0 (F := F) c = seq (s1_4 ++ s5_11 ++ s12_32 ++ s33_39 ++ s40_60) := by
  simp only [main_part0, fn_var.body, fn_relu.body, fn_where.body, seq, List.cons_append, List.nil_append, bind_assoc, pure_bind]
  try rfl

end Cert.ReferenceIdeal.Ops

end
-- ==== Proof.RefOps.W01.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 1 of the reference's @main (statements 61 … 120) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 61 … 64 of @main: 4 operations, in order. -/
abbrev s61_64 : List (HloOp τ sig (Elt F)) :=
  [ StableHlo.unary main_v51 main_v52 (broadcastInDim S100000x1x16 ![0, 2] bcast_S100000x16_S100000x1x16_0_2 : (⟨S100000x16, .f32⟩ : BufTy).Contents (Elt F) → (⟨S100000x1x16, .f32⟩ : BufTy).Contents (Elt F)),
    StableHlo.unary main_v52 main_v53 (broadcastInDim S100000x8x16 ![0, 1, 2] bcast_S100000x1x16_S100000x8x16_0_1_2 : (⟨S100000x1x16, .f32⟩ : BufTy).Contents (Elt F) → (⟨S100000x8x16, .f32⟩ : BufTy).Contents (Elt F)),
    StableHlo.nullary main_cst_6 (constant S_ .f32 0x00000000#32),
    StableHlo.unary main_cst_6 main_v54 (broadcastInDim S100000x8 ![] bcast_S_S100000x8 : (⟨S_, .f32⟩ : BufTy).Contents (Elt F) → (⟨S100000x8, .f32⟩ : BufTy).Contents (Elt F)) ]
set_option maxHeartbeats 4000000 in
theorem s61_64_sub : (s61_64 : List (HloOp τ sig (Elt F))).Forall fun op => op.bufs ⊆ tcRefs τ sig :=
  ⟨unary_bufs_sub .., unary_bufs_sub .., nullary_bufs_sub .., unary_bufs_sub ..⟩
theorem s61_64_fresh : (s61_64 : List (HloOp τ sig (Elt F))).Forall fun op => op.fresh = ∅ := by
  simp only [List.Forall]; repeat' constructor
set_option maxHeartbeats 4000000 in
/-- None of these operations writes an argument of @main. -/
theorem s61_64_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s61_64 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s61_64, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s61_64_carries (V : Valuation τ sig (Elt F)) (r : Ref sig .tc) (hr : r ∈ [main_v51]) :
    after s61_64 V (Proc.devRef .tc r) = V (Proc.devRef .tc r) := by
  simp only [List.mem_cons, List.mem_nil_iff, or_false] at hr
  rcases hr with rfl
  all_goals exact after_of_forall_not_mem _ _ (List.forall_iff_forall_mem.mp (by
    simp only [s61_64, List.Forall, nullary_writes, unary_writes, binary_writes, ternary_writes, quaternary_writes, reshape_writes, Finset.mem_singleton]
    repeat' apply And.intro
    all_goals exact devRef_ne_of_ne (by decide)))

/-- Statements 65 … 116 of @main: 82 operations, in order. -/
abbrev s65_116 : List (HloOp τ sig (Elt F)) :=
  [ StableHlo.unary main_arg13 main_v55 ((extractStridedSlice S1x8 ![9, 0] · slices_S10x8_S1x8_9_0) : (⟨S10x8, .f32⟩ : BufTy).Contents (Elt F) → (⟨S1x8, .f32⟩ : BufTy).Contents (Elt F)),
    StableHlo.reshape main_v55 main_v56 rfl shapeCasts_S1x8_S8,
    StableHlo.TRef.nullary main_call4.cst (constant S_ .f32 0x00000000#32),
    StableHlo.TRef.unary main_call4.cst main_call4.v0 (broadcastInDim S8 ![] bcast_S_S8),
    StableHlo.TRef.binary (.of main_v56) main_call4.v0 main_call4.v1 maximumf,
    StableHlo.TRef.unary main_call4.cst main_call4.v2 (broadcastInDim S8 ![] bcast_S_S8),
    StableHlo.TRef.binary (.of main_v56) main_call4.v2 main_call4.v3 subf,
    StableHlo.TRef.binary main_call4.v3 main_call4.v3 main_call4.v4 (cmpf .une),
    StableHlo.TRef.unary main_call4.cst main_call4.v5 (broadcastInDim S8 ![] bcast_S_S8),
    StableHlo.TRef.binary (.of main_v56) main_call4.v5 main_call4.v6 addf,
    StableHlo.TRef.unary main_call4.v3 main_call4.v7 Host.absf,
    StableHlo.TRef.unary main_call4.v7 main_call4.v8 Host.negf,
    StableHlo.TRef.unary main_call4.v8 main_call4.v9 Host.exp,
    StableHlo.TRef.unary main_call4.v9 main_call4.v10 Host.log1p,
    StableHlo.TRef.binary main_call4.v1 main_call4.v10 main_call4.v11 addf,
    StableHlo.TRef.ternary main_call4.v4 main_call4.v6 main_call4.v11 main_call4.v12 select,
    StableHlo.unary main_v57 main_v58 (broadcastInDim S1x8x1 ![1] bcast_S8_S1x8x1_1 : (⟨S8, .f32⟩ : BufTy).Contents (Elt F) → (⟨S1x8x1, .f32⟩ : BufTy).Contents (Elt F)),
    StableHlo.unary main_v58 main_v59 (Host.negf : (⟨S1x8x1, .f32⟩ : BufTy).Contents (Elt F) → (⟨S1x8x1, .f32⟩ : BufTy).Contents (Elt F)),
    StableHlo.unary main_arg14 main_v60 ((extractStridedSlice S1x8 ![9, 0] · slices_S10x8_S1x8_9_0) : (⟨S10x8, .f32⟩ : BufTy).Contents (Elt F) → (⟨S1x8, .f32⟩ : BufTy).Contents (Elt F)),
    StableHlo.reshape main_v60 main_v61 rfl shapeCasts_S1x8_S8,
    StableHlo.TRef.nullary main_call5.cst (constant S_ .f32 0x00000000#32),
    StableHlo.TRef.unary main_call5.cst main_call5.v0 (broadcastInDim S8 ![] bcast_S_S8),
    StableHlo.TRef.binary (.of main_v61) main_call5.v0 main_call5.v1 maximumf,
    StableHlo.TRef.unary main_call5.cst main_call5.v2 (broadcastInDim S8 ![] bcast_S_S8),
    StableHlo.TRef.binary (.of main_v61) main_call5.v2 main_call5.v3 subf,
    StableHlo.TRef.binary main_call5.v3 main_call5.v3 main_call5.v4 (cmpf .une),
    StableHlo.TRef.unary main_call5.cst main_call5.v5 (broadcastInDim S8 ![] bcast_S_S8),
    StableHlo.TRef.binary (.of main_v61) main_call5.v5 main_call5.v6 addf,
    StableHlo.TRef.unary main_call5.v3 main_call5.v7 Host.absf,
    StableHlo.TRef.unary main_call5.v7 main_call5.v8 Host.negf,
    StableHlo.TRef.unary main_call5.v8 main_call5.v9 Host.exp,
    StableHlo.TRef.unary main_call5.v9 main_call5.v10 Host.log1p,
    StableHlo.TRef.binary main_call5.v1 main_call5.v10 main_call5.v11 addf,
    StableHlo.TRef.ternary main_call5.v4 main_call5.v6 main_call5.v11 main_call5.v12 select,
    StableHlo.unary main_v62 main_v63 (broadcastInDim S1x8x1 ![1] bcast_S8_S1x8x1_1 : (⟨S8, .f32⟩ : BufTy).Contents (Elt F) → (⟨S1x8x1, .f32⟩ : BufTy).Contents (Elt F)),
    StableHlo.binary main_v59 main_v63 main_v64 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v65 ((extractStridedSlice S1x8x16 ![9, 0, 0] · slices_S10x8x16_S1x8x16_9_0_0) : (⟨S10x8x16, .f32⟩ : BufTy).Contents (Elt F) → (⟨S1x8x16, .f32⟩ : BufTy).Contents (Elt F)),
    StableHlo.reshape main_v65 main_v66 rfl shapeCasts_S1x8x16_S8x16,
    StableHlo.unary main_v66 main_v67 (broadcastInDim S1x8x16 ![1, 2] bcast_S8x16_S1x8x16_1_2 : (⟨S8x16, .f32⟩ : BufTy).Contents (Elt F) → (⟨S1x8x16, .f32⟩ : BufTy).Contents (Elt F)),
    StableHlo.unary main_v67 main_v68 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v53 main_v68 main_v69 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v69) (.of main_v69) main_call6.v0 mulf,
    StableHlo.TRef.nullary main_call6.cst (constant S_ .f32 0x00000000#32),
    StableHlo.TRef.binary main_call6.v0 main_call6.cst main_call6.v1 (fun x v => Host.reduceAdd x v reducesTo_S100000x8x16_S100000x8_d2 h_S_),
    StableHlo.TRef.unary main_call6.v1 main_call6.v2 (broadcastInDim S100000x8x1 ![0, 1] bcast_S100000x8_S100000x8x1_0_1),
    StableHlo.TRef.unary main_call6.v2 main_call6.v3 Host.sqrt,
    StableHlo.nullary main_cst_7 (constant S_ .f32 0x322BCC77#32),
    StableHlo.unary main_cst_7 main_v71 (broadcastInDim S100000x8x1 ![] bcast_S_S100000x8x1 : (⟨S_, .f32⟩ : BufTy).Contents (Elt F) → (⟨S100000x8x1, .f32⟩ : BufTy).Contents (Elt F)),
    StableHlo.binary main_v70 main_v71 main_v72 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v58 main_v73 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v73 main_v72 main_v74 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_8 (constant S_ .f32 0x3F800000#32),
    StableHlo.unary main_cst_8 main_v75 (broadcastInDim S100000x8x1 ![] bcast_S_S100000x8x1 : (⟨S_, .f32⟩ : BufTy).Contents (Elt F) → (⟨S100000x8x1, .f32⟩ : BufTy).Contents (Elt F)),
    StableHlo.binary main_v75 main_v74 main_v76 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v64 main_v77 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v77 main_v76 main_v78 (mulf : (⟨S100000x8x1, .f32⟩ : BufTy).Contents (Elt F) → (⟨S100000x8x1, .f32⟩ : BufTy).Contents (Elt F) → (⟨S100000x8x1, .f32⟩ : BufTy).Contents (Elt F)),
    StableHlo.unary main_v78 main_v79 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v79 main_v69 main_v80 (mulf : (⟨S100000x8x16, .f32⟩ : BufTy).Contents (Elt F) → (⟨S100000x8x16, .f32⟩ : BufTy).Contents (Elt F) → (⟨S100000x8x16, .f32⟩ : BufTy).Contents (Elt F)),
    StableHlo.binary main_v53 main_v80 main_v81 (addf : (⟨S100000x8x16, .f32⟩ : BufTy).Contents (Elt F) → (⟨S100000x8x16, .f32⟩ : BufTy).Contents (Elt F) → (⟨S100000x8x16, .f32⟩ : BufTy).Contents (Elt F)),
    StableHlo.unary main_v58 main_v82 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v82 main_v72 main_v83 (addf : (⟨S100000x8x1, .f32⟩ : BufTy).Contents (Elt F) → (⟨S100000x8x1, .f32⟩ : BufTy).Contents (Elt F) → (⟨S100000x8x1, .f32⟩ : BufTy).Contents (Elt F)),
    StableHlo.binary main_v83 main_v83 main_v84 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_9 (constant S_ .f32 0xBF800000#32),
    StableHlo.unary main_cst_9 main_v85 (broadcastInDim S100000x8x1 ![] bcast_S_S100000x8x1 : (⟨S_, .f32⟩ : BufTy).Contents (Elt F) → (⟨S100000x8x1, .f32⟩ : BufTy).Contents (Elt F)),
    StableHlo.binary main_v85 main_v84 main_v86 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v64 main_v87 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v87 main_v76 main_v88 (mulf : (⟨S100000x8x1, .f32⟩ : BufTy).Contents (Elt F) → (⟨S100000x8x1, .f32⟩ : BufTy).Contents (Elt F) → (⟨S100000x8x1, .f32⟩ : BufTy).Contents (Elt F)),
    StableHlo.unary main_v88 main_v89 (Host.log1p : (⟨S100000x8x1, .f32⟩ : BufTy).Contents (Elt F) → (⟨S100000x8x1, .f32⟩ : BufTy).Contents (Elt F)),
    StableHlo.reshape main_v89 main_v90 rfl shapeCasts_S100000x8x1_S100000x8,
    StableHlo.nullary main_cst_10 (constant S_ .f32 0x41700000#32),
    StableHlo.unary main_cst_10 main_v91 (broadcastInDim S100000x8 ![] bcast_S_S100000x8 : (⟨S_, .f32⟩ : BufTy).Contents (Elt F) → (⟨S100000x8, .f32⟩ : BufTy).Contents (Elt F)),
    StableHlo.binary main_v91 main_v90 main_v92 (mulf : (⟨S100000x8, .f32⟩ : BufTy).Contents (Elt F) → (⟨S100000x8, .f32⟩ : BufTy).Contents (Elt F) → (⟨S100000x8, .f32⟩ : BufTy).Contents (Elt F)),
    StableHlo.binary main_v54 main_v92 main_v93 (addf : (⟨S100000x8, .f32⟩ : BufTy).Contents (Elt F) → (⟨S100000x8, .f32⟩ : BufTy).Contents (Elt F) → (⟨S100000x8, .f32⟩ : BufTy).Contents (Elt F)),
    StableHlo.unary main_v64 main_v94 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v94 main_v76 main_v95 (mulf : (⟨S100000x8x1, .f32⟩ : BufTy).Contents (Elt F) → (⟨S100000x8x1, .f32⟩ : BufTy).Contents (Elt F) → (⟨S100000x8x1, .f32⟩ : BufTy).Contents (Elt F)),
    StableHlo.unary main_v64 main_v96 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v96 main_v86 main_v97 (mulf : (⟨S100000x8x1, .f32⟩ : BufTy).Contents (Elt F) → (⟨S100000x8x1, .f32⟩ : BufTy).Contents (Elt F) → (⟨S100000x8x1, .f32⟩ : BufTy).Contents (Elt F)),
    StableHlo.binary main_v97 main_v72 main_v98 (mulf : (⟨S100000x8x1, .f32⟩ : BufTy).Contents (Elt F) → (⟨S100000x8x1, .f32⟩ : BufTy).Contents (Elt F) → (⟨S100000x8x1, .f32⟩ : BufTy).Contents (Elt F)),
    StableHlo.binary main_v95 main_v98 main_v99 (addf : (⟨S100000x8x1, .f32⟩ : BufTy).Contents (Elt F) → (⟨S100000x8x1, .f32⟩ : BufTy).Contents (Elt F) → (⟨S100000x8x1, .f32⟩ : BufTy).Contents (Elt F)),
    StableHlo.unary main_v99 main_v100 (Host.log1p : (⟨S100000x8x1, .f32⟩ : BufTy).Contents (Elt F) → (⟨S100000x8x1, .f32⟩ : BufTy).Contents (Elt F)),
    StableHlo.reshape main_v100 main_v101 rfl shapeCasts_S100000x8x1_S100000x8,
    StableHlo.binary main_v93 main_v101 main_v102 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s65_116_sub : (s65_116 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., unary_bufs_sub .., binary_bufs_sub .., unary_bufs_sub .., reshape_bufs_sub .., nullary_bufs_sub .., unary_bufs_sub .., binary_bufs_sub .., binary_bufs_sub .., unary_bufs_sub .., binary_bufs_sub .., unary_bufs_sub .., binary_bufs_sub .., binary_bufs_sub .., binary_bufs_sub .., unary_bufs_sub .., reshape_bufs_sub .., binary_bufs_sub ..⟩
theorem s65_116_fresh : (s65_116 : List (HloOp τ sig (Elt F))).Forall fun op => op.fresh = ∅ := by
  simp only [List.Forall]; repeat' constructor
set_option maxHeartbeats 4000000 in
/-- None of these operations writes an argument of @main. -/
theorem s65_116_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s65_116 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s65_116, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s65_116_carries (V : Valuation τ sig (Elt F)) (r : Ref sig .tc) (hr : r ∈ [main_v51]) :
    after s65_116 V (Proc.devRef .tc r) = V (Proc.devRef .tc r) := by
  simp only [List.mem_cons, List.mem_nil_iff, or_false] at hr
  rcases hr with rfl
  all_goals exact after_of_forall_not_mem _ _ (List.forall_iff_forall_mem.mp (by
    simp only [s65_116, List.Forall, nullary_writes, unary_writes, binary_writes, ternary_writes, quaternary_writes, reshape_writes, Finset.mem_singleton]
    repeat' apply And.intro
    all_goals exact devRef_ne_of_ne (by decide)))

/-- Statements 117 … 120 of @main: 17 operations, in order. -/
abbrev s117_120 : List (HloOp τ sig (Elt F)) :=
  [ StableHlo.unary main_arg13 main_v103 ((extractStridedSlice S1x8 ![8, 0] · slices_S10x8_S1x8_8_0) : (⟨S10x8, .f32⟩ : BufTy).Contents (Elt F) → (⟨S1x8, .f32⟩ : BufTy).Contents (Elt F)),
    StableHlo.reshape main_v103 main_v104 rfl shapeCasts_S1x8_S8,
    StableHlo.TRef.nullary main_call7.cst (constant S_ .f32 0x00000000#32),
    StableHlo.TRef.unary main_call7.cst main_call7.v0 (broadcastInDim S8 ![] bcast_S_S8),
    StableHlo.TRef.binary (.of main_v104) main_call7.v0 main_call7.v1 maximumf,
    StableHlo.TRef.unary main_call7.cst main_call7.v2 (broadcastInDim S8 ![] bcast_S_S8),
    StableHlo.TRef.binary (.of main_v104) main_call7.v2 main_call7.v3 subf,
    StableHlo.TRef.binary main_call7.v3 main_call7.v3 main_call7.v4 (cmpf .une),
    StableHlo.TRef.unary main_call7.cst main_call7.v5 (broadcastInDim S8 ![] bcast_S_S8),
    StableHlo.TRef.binary (.of main_v104) main_call7.v5 main_call7.v6 addf,
    StableHlo.TRef.unary main_call7.v3 main_call7.v7 Host.absf,
    StableHlo.TRef.unary main_call7.v7 main_call7.v8 Host.negf,
    StableHlo.TRef.unary main_call7.v8 main_call7.v9 Host.exp,
    StableHlo.TRef.unary main_call7.v9 main_call7.v10 Host.log1p,
    StableHlo.TRef.binary main_call7.v1 main_call7.v10 main_call7.v11 addf,
    StableHlo.TRef.ternary main_call7.v4 main_call7.v6 main_call7.v11 main_call7.v12 select,
    StableHlo.unary main_v105 main_v106 (broadcastInDim S1x8x1 ![1] bcast_S8_S1x8x1_1 : (⟨S8, .f32⟩ : BufTy).Contents (Elt F) → (⟨S1x8x1, .f32⟩ : BufTy).Contents (Elt F)) ]
set_option maxHeartbeats 4000000 in
theorem s117_120_sub : (s117_120 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
theorem s117_120_fresh : (s117_120 : List (HloOp τ sig (Elt F))).Forall fun op => op.fresh = ∅ := by
  simp only [List.Forall]; repeat' constructor
set_option maxHeartbeats 4000000 in
/-- None of these operations writes an argument of @main. -/
theorem s117_120_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s117_120 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s117_120, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s117_120_carries (V : Valuation τ sig (Elt F)) (r : Ref sig .tc) (hr : r ∈ [main_v51]) :
    after s117_120 V (Proc.devRef .tc r) = V (Proc.devRef .tc r) := by
  simp only [List.mem_cons, List.mem_nil_iff, or_false] at hr
  rcases hr with rfl
  all_goals exact after_of_forall_not_mem _ _ (List.forall_iff_forall_mem.mp (by
    simp only [s117_120, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 1 of @main is the run of its operations in order. -/
theorem part1_eq (c : Dev nD) : main_part1 (F := F) c = seq (s61_64 ++ s65_116 ++ s117_120) := by
  simp only [main_part1, fn_softplus.body, fn_norm.body, seq, List.cons_append, List.nil_append, bind_assoc, pure_bind]
  try rfl

end Cert.ReferenceIdeal.Ops

end
-- ==== Proof.RefOps.W02.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 2 of the reference's @main (statements 121 … 180) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 121 … 168 of @main: 65 operations, in order. -/
abbrev s121_168 : List (HloOp τ sig (Elt F)) :=
  [ StableHlo.unary main_v106 main_v107 (Host.negf : (⟨S1x8x1, .f32⟩ : BufTy).Contents (Elt F) → (⟨S1x8x1, .f32⟩ : BufTy).Contents (Elt F)),
    StableHlo.unary main_arg14 main_v108 ((extractStridedSlice S1x8 ![8, 0] · slices_S10x8_S1x8_8_0) : (⟨S10x8, .f32⟩ : BufTy).Contents (Elt F) → (⟨S1x8, .f32⟩ : BufTy).Contents (Elt F)),
    StableHlo.reshape main_v108 main_v109 rfl shapeCasts_S1x8_S8,
    StableHlo.TRef.nullary main_call8.cst (constant S_ .f32 0x00000000#32),
    StableHlo.TRef.unary main_call8.cst main_call8.v0 (broadcastInDim S8 ![] bcast_S_S8),
    StableHlo.TRef.binary (.of main_v109) main_call8.v0 main_call8.v1 maximumf,
    StableHlo.TRef.unary main_call8.cst main_call8.v2 (broadcastInDim S8 ![] bcast_S_S8),
    StableHlo.TRef.binary (.of main_v109) main_call8.v2 main_call8.v3 subf,
    StableHlo.TRef.binary main_call8.v3 main_call8.v3 main_call8.v4 (cmpf .une),
    StableHlo.TRef.unary main_call8.cst main_call8.v5 (broadcastInDim S8 ![] bcast_S_S8),
    StableHlo.TRef.binary (.of main_v109) main_call8.v5 main_call8.v6 addf,
    StableHlo.TRef.unary main_call8.v3 main_call8.v7 Host.absf,
    StableHlo.TRef.unary main_call8.v7 main_call8.v8 Host.negf,
    StableHlo.TRef.unary main_call8.v8 main_call8.v9 Host.exp,
    StableHlo.TRef.unary main_call8.v9 main_call8.v10 Host.log1p,
    StableHlo.TRef.binary main_call8.v1 main_call8.v10 main_call8.v11 addf,
    StableHlo.TRef.ternary main_call8.v4 main_call8.v6 main_call8.v11 main_call8.v12 select,
    StableHlo.unary main_v110 main_v111 (broadcastInDim S1x8x1 ![1] bcast_S8_S1x8x1_1 : (⟨S8, .f32⟩ : BufTy).Contents (Elt F) → (⟨S1x8x1, .f32⟩ : BufTy).Contents (Elt F)),
    StableHlo.binary main_v107 main_v111 main_v112 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v113 ((extractStridedSlice S1x8x16 ![8, 0, 0] · slices_S10x8x16_S1x8x16_8_0_0) : (⟨S10x8x16, .f32⟩ : BufTy).Contents (Elt F) → (⟨S1x8x16, .f32⟩ : BufTy).Contents (Elt F)),
    StableHlo.reshape main_v113 main_v114 rfl shapeCasts_S1x8x16_S8x16,
    StableHlo.unary main_v114 main_v115 (broadcastInDim S1x8x16 ![1, 2] bcast_S8x16_S1x8x16_1_2 : (⟨S8x16, .f32⟩ : BufTy).Contents (Elt F) → (⟨S1x8x16, .f32⟩ : BufTy).Contents (Elt F)),
    StableHlo.unary main_v115 main_v116 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v81 main_v116 main_v117 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v117) (.of main_v117) main_call9.v0 mulf,
    StableHlo.TRef.nullary main_call9.cst (constant S_ .f32 0x00000000#32),
    StableHlo.TRef.binary main_call9.v0 main_call9.cst main_call9.v1 (fun x v => Host.reduceAdd x v reducesTo_S100000x8x16_S100000x8_d2 h_S_),
    StableHlo.TRef.unary main_call9.v1 main_call9.v2 (broadcastInDim S100000x8x1 ![0, 1] bcast_S100000x8_S100000x8x1_0_1),
    StableHlo.TRef.unary main_call9.v2 main_call9.v3 Host.sqrt,
    StableHlo.nullary main_cst_11 (constant S_ .f32 0x322BCC77#32),
    StableHlo.unary main_cst_11 main_v119 (broadcastInDim S100000x8x1 ![] bcast_S_S100000x8x1 : (⟨S_, .f32⟩ : BufTy).Contents (Elt F) → (⟨S100000x8x1, .f32⟩ : BufTy).Contents (Elt F)),
    StableHlo.binary main_v118 main_v119 main_v120 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v106 main_v121 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v121 main_v120 main_v122 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_12 (constant S_ .f32 0x3F800000#32),
    StableHlo.unary main_cst_12 main_v123 (broadcastInDim S100000x8x1 ![] bcast_S_S100000x8x1 : (⟨S_, .f32⟩ : BufTy).Contents (Elt F) → (⟨S100000x8x1, .f32⟩ : BufTy).Contents (Elt F)),
    StableHlo.binary main_v123 main_v122 main_v124 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v112 main_v125 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v125 main_v124 main_v126 (mulf : (⟨S100000x8x1, .f32⟩ : BufTy).Contents (Elt F) → (⟨S100000x8x1, .f32⟩ : BufTy).Contents (Elt F) → (⟨S100000x8x1, .f32⟩ : BufTy).Contents (Elt F)),
    StableHlo.unary main_v126 main_v127 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v127 main_v117 main_v128 (mulf : (⟨S100000x8x16, .f32⟩ : BufTy).Contents (Elt F) → (⟨S100000x8x16, .f32⟩ : BufTy).Contents (Elt F) → (⟨S100000x8x16, .f32⟩ : BufTy).Contents (Elt F)),
    StableHlo.binary main_v81 main_v128 main_v129 (addf : (⟨S100000x8x16, .f32⟩ : BufTy).Contents (Elt F) → (⟨S100000x8x16, .f32⟩ : BufTy).Contents (Elt F) → (⟨S100000x8x16, .f32⟩ : BufTy).Contents (Elt F)),
    StableHlo.unary main_v106 main_v130 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v130 main_v120 main_v131 (addf : (⟨S100000x8x1, .f32⟩ : BufTy).Contents (Elt F) → (⟨S100000x8x1, .f32⟩ : BufTy).Contents (Elt F) → (⟨S100000x8x1, .f32⟩ : BufTy).Contents (Elt F)),
    StableHlo.binary main_v131 main_v131 main_v132 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_13 (constant S_ .f32 0xBF800000#32),
    StableHlo.unary main_cst_13 main_v133 (broadcastInDim S100000x8x1 ![] bcast_S_S100000x8x1 : (⟨S_, .f32⟩ : BufTy).Contents (Elt F) → (⟨S100000x8x1, .f32⟩ : BufTy).Contents (Elt F)),
    StableHlo.binary main_v133 main_v132 main_v134 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v112 main_v135 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v135 main_v124 main_v136 (mulf : (⟨S100000x8x1, .f32⟩ : BufTy).Contents (Elt F) → (⟨S100000x8x1, .f32⟩ : BufTy).Contents (Elt F) → (⟨S100000x8x1, .f32⟩ : BufTy).Contents (Elt F)),
    StableHlo.unary main_v136 main_v137 (Host.log1p : (⟨S100000x8x1, .f32⟩ : BufTy).Contents (Elt F) → (⟨S100000x8x1, .f32⟩ : BufTy).Contents (Elt F)),
    StableHlo.reshape main_v137 main_v138 rfl shapeCasts_S100000x8x1_S100000x8,
    StableHlo.nullary main_cst_14 (constant S_ .f32 0x41700000#32),
    StableHlo.unary main_cst_14 main_v139 (broadcastInDim S100000x8 ![] bcast_S_S100000x8 : (⟨S_, .f32⟩ : BufTy).Contents (Elt F) → (⟨S100000x8, .f32⟩ : BufTy).Contents (Elt F)),
    StableHlo.binary main_v139 main_v138 main_v140 (mulf : (⟨S100000x8, .f32⟩ : BufTy).Contents (Elt F) → (⟨S100000x8, .f32⟩ : BufTy).Contents (Elt F) → (⟨S100000x8, .f32⟩ : BufTy).Contents (Elt F)),
    StableHlo.binary main_v102 main_v140 main_v141 (addf : (⟨S100000x8, .f32⟩ : BufTy).Contents (Elt F) → (⟨S100000x8, .f32⟩ : BufTy).Contents (Elt F) → (⟨S100000x8, .f32⟩ : BufTy).Contents (Elt F)),
    StableHlo.unary main_v112 main_v142 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v142 main_v124 main_v143 (mulf : (⟨S100000x8x1, .f32⟩ : BufTy).Contents (Elt F) → (⟨S100000x8x1, .f32⟩ : BufTy).Contents (Elt F) → (⟨S100000x8x1, .f32⟩ : BufTy).Contents (Elt F)),
    StableHlo.unary main_v112 main_v144 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v144 main_v134 main_v145 (mulf : (⟨S100000x8x1, .f32⟩ : BufTy).Contents (Elt F) → (⟨S100000x8x1, .f32⟩ : BufTy).Contents (Elt F) → (⟨S100000x8x1, .f32⟩ : BufTy).Contents (Elt F)),
    StableHlo.binary main_v145 main_v120 main_v146 (mulf : (⟨S100000x8x1, .f32⟩ : BufTy).Contents (Elt F) → (⟨S100000x8x1, .f32⟩ : BufTy).Contents (Elt F) → (⟨S100000x8x1, .f32⟩ : BufTy).Contents (Elt F)),
    StableHlo.binary main_v143 main_v146 main_v147 (addf : (⟨S100000x8x1, .f32⟩ : BufTy).Contents (Elt F) → (⟨S100000x8x1, .f32⟩ : BufTy).Contents (Elt F) → (⟨S100000x8x1, .f32⟩ : BufTy).Contents (Elt F)),
    StableHlo.unary main_v147 main_v148 (Host.log1p : (⟨S100000x8x1, .f32⟩ : BufTy).Contents (Elt F) → (⟨S100000x8x1, .f32⟩ : BufTy).Contents (Elt F)),
    StableHlo.reshape main_v148 main_v149 rfl shapeCasts_S100000x8x1_S100000x8,
    StableHlo.binary main_v141 main_v149 main_v150 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s121_168_sub : (s121_168 : List (HloOp τ sig (Elt F))).Forall fun op => op.bufs ⊆ tcRefs τ sig :=
  ⟨unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., unary_bufs_sub .., binary_bufs_sub .., unary_bufs_sub .., reshape_bufs_sub .., nullary_bufs_sub .., unary_bufs_sub .., binary_bufs_sub .., binary_bufs_sub .., unary_bufs_sub .., binary_bufs_sub .., unary_bufs_sub .., binary_bufs_sub .., binary_bufs_sub .., binary_bufs_sub .., unary_bufs_sub .., reshape_bufs_sub .., binary_bufs_sub ..⟩
theorem s121_168_fresh : (s121_168 : List (HloOp τ sig (Elt F))).Forall fun op => op.fresh = ∅ := by
  simp only [List.Forall]; repeat' constructor
set_option maxHeartbeats 4000000 in
/-- None of these operations writes an argument of @main. -/
theorem s121_168_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s121_168 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s121_168, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s121_168_carries (V : Valuation τ sig (Elt F)) (r : Ref sig .tc) (hr : r ∈ [main_v51]) :
    after s121_168 V (Proc.devRef .tc r) = V (Proc.devRef .tc r) := by
  simp only [List.mem_cons, List.mem_nil_iff, or_false] at hr
  rcases hr with rfl
  all_goals exact after_of_forall_not_mem _ _ (List.forall_iff_forall_mem.mp (by
    simp only [s121_168, List.Forall, nullary_writes, unary_writes, binary_writes, ternary_writes, quaternary_writes, reshape_writes, Finset.mem_singleton]
    repeat' apply And.intro
    all_goals exact devRef_ne_of_ne (by decide)))

/-- Statements 169 … 180 of @main: 38 operations, in order. -/
abbrev s169_180 : List (HloOp τ sig (Elt F)) :=
  [ StableHlo.unary main_arg13 main_v151 ((extractStridedSlice S1x8 ![7, 0] · slices_S10x8_S1x8_7_0) : (⟨S10x8, .f32⟩ : BufTy).Contents (Elt F) → (⟨S1x8, .f32⟩ : BufTy).Contents (Elt F)),
    StableHlo.reshape main_v151 main_v152 rfl shapeCasts_S1x8_S8,
    StableHlo.TRef.nullary main_call10.cst (constant S_ .f32 0x00000000#32),
    StableHlo.TRef.unary main_call10.cst main_call10.v0 (broadcastInDim S8 ![] bcast_S_S8),
    StableHlo.TRef.binary (.of main_v152) main_call10.v0 main_call10.v1 maximumf,
    StableHlo.TRef.unary main_call10.cst main_call10.v2 (broadcastInDim S8 ![] bcast_S_S8),
    StableHlo.TRef.binary (.of main_v152) main_call10.v2 main_call10.v3 subf,
    StableHlo.TRef.binary main_call10.v3 main_call10.v3 main_call10.v4 (cmpf .une),
    StableHlo.TRef.unary main_call10.cst main_call10.v5 (broadcastInDim S8 ![] bcast_S_S8),
    StableHlo.TRef.binary (.of main_v152) main_call10.v5 main_call10.v6 addf,
    StableHlo.TRef.unary main_call10.v3 main_call10.v7 Host.absf,
    StableHlo.TRef.unary main_call10.v7 main_call10.v8 Host.negf,
    StableHlo.TRef.unary main_call10.v8 main_call10.v9 Host.exp,
    StableHlo.TRef.unary main_call10.v9 main_call10.v10 Host.log1p,
    StableHlo.TRef.binary main_call10.v1 main_call10.v10 main_call10.v11 addf,
    StableHlo.TRef.ternary main_call10.v4 main_call10.v6 main_call10.v11 main_call10.v12 select,
    StableHlo.unary main_v153 main_v154 (broadcastInDim S1x8x1 ![1] bcast_S8_S1x8x1_1 : (⟨S8, .f32⟩ : BufTy).Contents (Elt F) → (⟨S1x8x1, .f32⟩ : BufTy).Contents (Elt F)),
    StableHlo.unary main_v154 main_v155 (Host.negf : (⟨S1x8x1, .f32⟩ : BufTy).Contents (Elt F) → (⟨S1x8x1, .f32⟩ : BufTy).Contents (Elt F)),
    StableHlo.unary main_arg14 main_v156 ((extractStridedSlice S1x8 ![7, 0] · slices_S10x8_S1x8_7_0) : (⟨S10x8, .f32⟩ : BufTy).Contents (Elt F) → (⟨S1x8, .f32⟩ : BufTy).Contents (Elt F)),
    StableHlo.reshape main_v156 main_v157 rfl shapeCasts_S1x8_S8,
    StableHlo.TRef.nullary main_call11.cst (constant S_ .f32 0x00000000#32),
    StableHlo.TRef.unary main_call11.cst main_call11.v0 (broadcastInDim S8 ![] bcast_S_S8),
    StableHlo.TRef.binary (.of main_v157) main_call11.v0 main_call11.v1 maximumf,
    StableHlo.TRef.unary main_call11.cst main_call11.v2 (broadcastInDim S8 ![] bcast_S_S8),
    StableHlo.TRef.binary (.of main_v157) main_call11.v2 main_call11.v3 subf,
    StableHlo.TRef.binary main_call11.v3 main_call11.v3 main_call11.v4 (cmpf .une),
    StableHlo.TRef.unary main_call11.cst main_call11.v5 (broadcastInDim S8 ![] bcast_S_S8),
    StableHlo.TRef.binary (.of main_v157) main_call11.v5 main_call11.v6 addf,
    StableHlo.TRef.unary main_call11.v3 main_call11.v7 Host.absf,
    StableHlo.TRef.unary main_call11.v7 main_call11.v8 Host.negf,
    StableHlo.TRef.unary main_call11.v8 main_call11.v9 Host.exp,
    StableHlo.TRef.unary main_call11.v9 main_call11.v10 Host.log1p,
    StableHlo.TRef.binary main_call11.v1 main_call11.v10 main_call11.v11 addf,
    StableHlo.TRef.ternary main_call11.v4 main_call11.v6 main_call11.v11 main_call11.v12 select,
    StableHlo.unary main_v158 main_v159 (broadcastInDim S1x8x1 ![1] bcast_S8_S1x8x1_1 : (⟨S8, .f32⟩ : BufTy).Contents (Elt F) → (⟨S1x8x1, .f32⟩ : BufTy).Contents (Elt F)),
    StableHlo.binary main_v155 main_v159 main_v160 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v161 ((extractStridedSlice S1x8x16 ![7, 0, 0] · slices_S10x8x16_S1x8x16_7_0_0) : (⟨S10x8x16, .f32⟩ : BufTy).Contents (Elt F) → (⟨S1x8x16, .f32⟩ : BufTy).Contents (Elt F)),
    StableHlo.reshape main_v161 main_v162 rfl shapeCasts_S1x8x16_S8x16 ]
set_option maxHeartbeats 4000000 in
theorem s169_180_sub : (s169_180 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., reshape_bufs_sub ..⟩
theorem s169_180_fresh : (s169_180 : List (HloOp τ sig (Elt F))).Forall fun op => op.fresh = ∅ := by
  simp only [List.Forall]; repeat' constructor
set_option maxHeartbeats 4000000 in
/-- None of these operations writes an argument of @main. -/
theorem s169_180_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s169_180 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s169_180, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s169_180_carries (V : Valuation τ sig (Elt F)) (r : Ref sig .tc) (hr : r ∈ [main_v51]) :
    after s169_180 V (Proc.devRef .tc r) = V (Proc.devRef .tc r) := by
  simp only [List.mem_cons, List.mem_nil_iff, or_false] at hr
  rcases hr with rfl
  all_goals exact after_of_forall_not_mem _ _ (List.forall_iff_forall_mem.mp (by
    simp only [s169_180, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 2 of @main is the run of its operations in order. -/
theorem part2_eq (c : Dev nD) : main_part2 (F := F) c = seq (s121_168 ++ s169_180) := by
  simp only [main_part2, fn_softplus.body, fn_norm.body, seq, List.cons_append, List.nil_append, bind_assoc, pure_bind]
  try rfl

end Cert.ReferenceIdeal.Ops

end
-- ==== Proof.RefOps.W03.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 3 of the reference's @main (statements 181 … 240) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 181 … 220 of @main: 44 operations, in order. -/
abbrev s181_220 : List (HloOp τ sig (Elt F)) :=
  [ StableHlo.unary main_v162 main_v163 (broadcastInDim S1x8x16 ![1, 2] bcast_S8x16_S1x8x16_1_2 : (⟨S8x16, .f32⟩ : BufTy).Contents (Elt F) → (⟨S1x8x16, .f32⟩ : BufTy).Contents (Elt F)),
    StableHlo.unary main_v163 main_v164 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v129 main_v164 main_v165 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v165) (.of main_v165) main_call12.v0 mulf,
    StableHlo.TRef.nullary main_call12.cst (constant S_ .f32 0x00000000#32),
    StableHlo.TRef.binary main_call12.v0 main_call12.cst main_call12.v1 (fun x v => Host.reduceAdd x v reducesTo_S100000x8x16_S100000x8_d2 h_S_),
    StableHlo.TRef.unary main_call12.v1 main_call12.v2 (broadcastInDim S100000x8x1 ![0, 1] bcast_S100000x8_S100000x8x1_0_1),
    StableHlo.TRef.unary main_call12.v2 main_call12.v3 Host.sqrt,
    StableHlo.nullary main_cst_15 (constant S_ .f32 0x322BCC77#32),
    StableHlo.unary main_cst_15 main_v167 (broadcastInDim S100000x8x1 ![] bcast_S_S100000x8x1 : (⟨S_, .f32⟩ : BufTy).Contents (Elt F) → (⟨S100000x8x1, .f32⟩ : BufTy).Contents (Elt F)),
    StableHlo.binary main_v166 main_v167 main_v168 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v154 main_v169 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v169 main_v168 main_v170 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_16 (constant S_ .f32 0x3F800000#32),
    StableHlo.unary main_cst_16 main_v171 (broadcastInDim S100000x8x1 ![] bcast_S_S100000x8x1 : (⟨S_, .f32⟩ : BufTy).Contents (Elt F) → (⟨S100000x8x1, .f32⟩ : BufTy).Contents (Elt F)),
    StableHlo.binary main_v171 main_v170 main_v172 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v160 main_v173 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v173 main_v172 main_v174 (mulf : (⟨S100000x8x1, .f32⟩ : BufTy).Contents (Elt F) → (⟨S100000x8x1, .f32⟩ : BufTy).Contents (Elt F) → (⟨S100000x8x1, .f32⟩ : BufTy).Contents (Elt F)),
    StableHlo.unary main_v174 main_v175 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v175 main_v165 main_v176 (mulf : (⟨S100000x8x16, .f32⟩ : BufTy).Contents (Elt F) → (⟨S100000x8x16, .f32⟩ : BufTy).Contents (Elt F) → (⟨S100000x8x16, .f32⟩ : BufTy).Contents (Elt F)),
    StableHlo.binary main_v129 main_v176 main_v177 (addf : (⟨S100000x8x16, .f32⟩ : BufTy).Contents (Elt F) → (⟨S100000x8x16, .f32⟩ : BufTy).Contents (Elt F) → (⟨S100000x8x16, .f32⟩ : BufTy).Contents (Elt F)),
    StableHlo.unary main_v154 main_v178 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v178 main_v168 main_v179 (addf : (⟨S100000x8x1, .f32⟩ : BufTy).Contents (Elt F) → (⟨S100000x8x1, .f32⟩ : BufTy).Contents (Elt F) → (⟨S100000x8x1, .f32⟩ : BufTy).Contents (Elt F)),
    StableHlo.binary main_v179 main_v179 main_v180 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_17 (constant S_ .f32 0xBF800000#32),
    StableHlo.unary main_cst_17 main_v181 (broadcastInDim S100000x8x1 ![] bcast_S_S100000x8x1 : (⟨S_, .f32⟩ : BufTy).Contents (Elt F) → (⟨S100000x8x1, .f32⟩ : BufTy).Contents (Elt F)),
    StableHlo.binary main_v181 main_v180 main_v182 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v160 main_v183 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v183 main_v172 main_v184 (mulf : (⟨S100000x8x1, .f32⟩ : BufTy).Contents (Elt F) → (⟨S100000x8x1, .f32⟩ : BufTy).Contents (Elt F) → (⟨S100000x8x1, .f32⟩ : BufTy).Contents (Elt F)),
    StableHlo.unary main_v184 main_v185 (Host.log1p : (⟨S100000x8x1, .f32⟩ : BufTy).Contents (Elt F) → (⟨S100000x8x1, .f32⟩ : BufTy).Contents (Elt F)),
    StableHlo.reshape main_v185 main_v186 rfl shapeCasts_S100000x8x1_S100000x8,
    StableHlo.nullary main_cst_18 (constant S_ .f32 0x41700000#32),
    StableHlo.unary main_cst_18 main_v187 (broadcastInDim S100000x8 ![] bcast_S_S100000x8 : (⟨S_, .f32⟩ : BufTy).Contents (Elt F) → (⟨S100000x8, .f32⟩ : BufTy).Contents (Elt F)),
    StableHlo.binary main_v187 main_v186 main_v188 (mulf : (⟨S100000x8, .f32⟩ : BufTy).Contents (Elt F) → (⟨S100000x8, .f32⟩ : BufTy).Contents (Elt F) → (⟨S100000x8, .f32⟩ : BufTy).Contents (Elt F)),
    StableHlo.binary main_v150 main_v188 main_v189 (addf : (⟨S100000x8, .f32⟩ : BufTy).Contents (Elt F) → (⟨S100000x8, .f32⟩ : BufTy).Contents (Elt F) → (⟨S100000x8, .f32⟩ : BufTy).Contents (Elt F)),
    StableHlo.unary main_v160 main_v190 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v190 main_v172 main_v191 (mulf : (⟨S100000x8x1, .f32⟩ : BufTy).Contents (Elt F) → (⟨S100000x8x1, .f32⟩ : BufTy).Contents (Elt F) → (⟨S100000x8x1, .f32⟩ : BufTy).Contents (Elt F)),
    StableHlo.unary main_v160 main_v192 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v192 main_v182 main_v193 (mulf : (⟨S100000x8x1, .f32⟩ : BufTy).Contents (Elt F) → (⟨S100000x8x1, .f32⟩ : BufTy).Contents (Elt F) → (⟨S100000x8x1, .f32⟩ : BufTy).Contents (Elt F)),
    StableHlo.binary main_v193 main_v168 main_v194 (mulf : (⟨S100000x8x1, .f32⟩ : BufTy).Contents (Elt F) → (⟨S100000x8x1, .f32⟩ : BufTy).Contents (Elt F) → (⟨S100000x8x1, .f32⟩ : BufTy).Contents (Elt F)),
    StableHlo.binary main_v191 main_v194 main_v195 (addf : (⟨S100000x8x1, .f32⟩ : BufTy).Contents (Elt F) → (⟨S100000x8x1, .f32⟩ : BufTy).Contents (Elt F) → (⟨S100000x8x1, .f32⟩ : BufTy).Contents (Elt F)),
    StableHlo.unary main_v195 main_v196 (Host.log1p : (⟨S100000x8x1, .f32⟩ : BufTy).Contents (Elt F) → (⟨S100000x8x1, .f32⟩ : BufTy).Contents (Elt F)),
    StableHlo.reshape main_v196 main_v197 rfl shapeCasts_S100000x8x1_S100000x8,
    StableHlo.binary main_v189 main_v197 main_v198 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s181_220_sub : (s181_220 : List (HloOp τ sig (Elt F))).Forall fun op => op.bufs ⊆ tcRefs τ sig :=
  ⟨unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., unary_bufs_sub .., binary_bufs_sub .., unary_bufs_sub .., reshape_bufs_sub .., nullary_bufs_sub .., unary_bufs_sub .., binary_bufs_sub .., binary_bufs_sub .., unary_bufs_sub .., binary_bufs_sub .., unary_bufs_sub .., binary_bufs_sub .., binary_bufs_sub .., binary_bufs_sub .., unary_bufs_sub .., reshape_bufs_sub .., binary_bufs_sub ..⟩
theorem s181_220_fresh : (s181_220 : List (HloOp τ sig (Elt F))).Forall fun op => op.fresh = ∅ := by
  simp only [List.Forall]; repeat' constructor
set_option maxHeartbeats 4000000 in
/-- None of these operations writes an argument of @main. -/
theorem s181_220_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s181_220 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s181_220, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s181_220_carries (V : Valuation τ sig (Elt F)) (r : Ref sig .tc) (hr : r ∈ [main_v51]) :
    after s181_220 V (Proc.devRef .tc r) = V (Proc.devRef .tc r) := by
  simp only [List.mem_cons, List.mem_nil_iff, or_false] at hr
  rcases hr with rfl
  all_goals exact after_of_forall_not_mem _ _ (List.forall_iff_forall_mem.mp (by
    simp only [s181_220, List.Forall, nullary_writes, unary_writes, binary_writes, ternary_writes, quaternary_writes, reshape_writes, Finset.mem_singleton]
    repeat' apply And.intro
    all_goals exact devRef_ne_of_ne (by decide)))

/-- Statements 221 … 240 of @main: 50 operations, in order. -/
abbrev s221_240 : List (HloOp τ sig (Elt F)) :=
  [ StableHlo.unary main_arg13 main_v199 ((extractStridedSlice S1x8 ![6, 0] · slices_S10x8_S1x8_6_0) : (⟨S10x8, .f32⟩ : BufTy).Contents (Elt F) → (⟨S1x8, .f32⟩ : BufTy).Contents (Elt F)),
    StableHlo.reshape main_v199 main_v200 rfl shapeCasts_S1x8_S8,
    StableHlo.TRef.nullary main_call13.cst (constant S_ .f32 0x00000000#32),
    StableHlo.TRef.unary main_call13.cst main_call13.v0 (broadcastInDim S8 ![] bcast_S_S8),
    StableHlo.TRef.binary (.of main_v200) main_call13.v0 main_call13.v1 maximumf,
    StableHlo.TRef.unary main_call13.cst main_call13.v2 (broadcastInDim S8 ![] bcast_S_S8),
    StableHlo.TRef.binary (.of main_v200) main_call13.v2 main_call13.v3 subf,
    StableHlo.TRef.binary main_call13.v3 main_call13.v3 main_call13.v4 (cmpf .une),
    StableHlo.TRef.unary main_call13.cst main_call13.v5 (broadcastInDim S8 ![] bcast_S_S8),
    StableHlo.TRef.binary (.of main_v200) main_call13.v5 main_call13.v6 addf,
    StableHlo.TRef.unary main_call13.v3 main_call13.v7 Host.absf,
    StableHlo.TRef.unary main_call13.v7 main_call13.v8 Host.negf,
    StableHlo.TRef.unary main_call13.v8 main_call13.v9 Host.exp,
    StableHlo.TRef.unary main_call13.v9 main_call13.v10 Host.log1p,
    StableHlo.TRef.binary main_call13.v1 main_call13.v10 main_call13.v11 addf,
    StableHlo.TRef.ternary main_call13.v4 main_call13.v6 main_call13.v11 main_call13.v12 select,
    StableHlo.unary main_v201 main_v202 (broadcastInDim S1x8x1 ![1] bcast_S8_S1x8x1_1 : (⟨S8, .f32⟩ : BufTy).Contents (Elt F) → (⟨S1x8x1, .f32⟩ : BufTy).Contents (Elt F)),
    StableHlo.unary main_v202 main_v203 (Host.negf : (⟨S1x8x1, .f32⟩ : BufTy).Contents (Elt F) → (⟨S1x8x1, .f32⟩ : BufTy).Contents (Elt F)),
    StableHlo.unary main_arg14 main_v204 ((extractStridedSlice S1x8 ![6, 0] · slices_S10x8_S1x8_6_0) : (⟨S10x8, .f32⟩ : BufTy).Contents (Elt F) → (⟨S1x8, .f32⟩ : BufTy).Contents (Elt F)),
    StableHlo.reshape main_v204 main_v205 rfl shapeCasts_S1x8_S8,
    StableHlo.TRef.nullary main_call14.cst (constant S_ .f32 0x00000000#32),
    StableHlo.TRef.unary main_call14.cst main_call14.v0 (broadcastInDim S8 ![] bcast_S_S8),
    StableHlo.TRef.binary (.of main_v205) main_call14.v0 main_call14.v1 maximumf,
    StableHlo.TRef.unary main_call14.cst main_call14.v2 (broadcastInDim S8 ![] bcast_S_S8),
    StableHlo.TRef.binary (.of main_v205) main_call14.v2 main_call14.v3 subf,
    StableHlo.TRef.binary main_call14.v3 main_call14.v3 main_call14.v4 (cmpf .une),
    StableHlo.TRef.unary main_call14.cst main_call14.v5 (broadcastInDim S8 ![] bcast_S_S8),
    StableHlo.TRef.binary (.of main_v205) main_call14.v5 main_call14.v6 addf,
    StableHlo.TRef.unary main_call14.v3 main_call14.v7 Host.absf,
    StableHlo.TRef.unary main_call14.v7 main_call14.v8 Host.negf,
    StableHlo.TRef.unary main_call14.v8 main_call14.v9 Host.exp,
    StableHlo.TRef.unary main_call14.v9 main_call14.v10 Host.log1p,
    StableHlo.TRef.binary main_call14.v1 main_call14.v10 main_call14.v11 addf,
    StableHlo.TRef.ternary main_call14.v4 main_call14.v6 main_call14.v11 main_call14.v12 select,
    StableHlo.unary main_v206 main_v207 (broadcastInDim S1x8x1 ![1] bcast_S8_S1x8x1_1 : (⟨S8, .f32⟩ : BufTy).Contents (Elt F) → (⟨S1x8x1, .f32⟩ : BufTy).Contents (Elt F)),
    StableHlo.binary main_v203 main_v207 main_v208 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v209 ((extractStridedSlice S1x8x16 ![6, 0, 0] · slices_S10x8x16_S1x8x16_6_0_0) : (⟨S10x8x16, .f32⟩ : BufTy).Contents (Elt F) → (⟨S1x8x16, .f32⟩ : BufTy).Contents (Elt F)),
    StableHlo.reshape main_v209 main_v210 rfl shapeCasts_S1x8x16_S8x16,
    StableHlo.unary main_v210 main_v211 (broadcastInDim S1x8x16 ![1, 2] bcast_S8x16_S1x8x16_1_2 : (⟨S8x16, .f32⟩ : BufTy).Contents (Elt F) → (⟨S1x8x16, .f32⟩ : BufTy).Contents (Elt F)),
    StableHlo.unary main_v211 main_v212 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v177 main_v212 main_v213 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v213) (.of main_v213) main_call15.v0 mulf,
    StableHlo.TRef.nullary main_call15.cst (constant S_ .f32 0x00000000#32),
    StableHlo.TRef.binary main_call15.v0 main_call15.cst main_call15.v1 (fun x v => Host.reduceAdd x v reducesTo_S100000x8x16_S100000x8_d2 h_S_),
    StableHlo.TRef.unary main_call15.v1 main_call15.v2 (broadcastInDim S100000x8x1 ![0, 1] bcast_S100000x8_S100000x8x1_0_1),
    StableHlo.TRef.unary main_call15.v2 main_call15.v3 Host.sqrt,
    StableHlo.nullary main_cst_19 (constant S_ .f32 0x322BCC77#32),
    StableHlo.unary main_cst_19 main_v215 (broadcastInDim S100000x8x1 ![] bcast_S_S100000x8x1 : (⟨S_, .f32⟩ : BufTy).Contents (Elt F) → (⟨S100000x8x1, .f32⟩ : BufTy).Contents (Elt F)),
    StableHlo.binary main_v214 main_v215 main_v216 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v202 main_v217 (broadcastInDim S100000x8x1 ![0, 1, 2] bcast_S1x8x1_S100000x8x1_0_1_2 : (⟨S1x8x1, .f32⟩ : BufTy).Contents (Elt F) → (⟨S100000x8x1, .f32⟩ : BufTy).Contents (Elt F)) ]
set_option maxHeartbeats 4000000 in
theorem s221_240_sub : (s221_240 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub ..⟩
theorem s221_240_fresh : (s221_240 : List (HloOp τ sig (Elt F))).Forall fun op => op.fresh = ∅ := by
  simp only [List.Forall]; repeat' constructor
set_option maxHeartbeats 4000000 in
/-- None of these operations writes an argument of @main. -/
theorem s221_240_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s221_240 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s221_240, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s221_240_carries (V : Valuation τ sig (Elt F)) (r : Ref sig .tc) (hr : r ∈ [main_v51]) :
    after s221_240 V (Proc.devRef .tc r) = V (Proc.devRef .tc r) := by
  simp only [List.mem_cons, List.mem_nil_iff, or_false] at hr
  rcases hr with rfl
  all_goals exact after_of_forall_not_mem _ _ (List.forall_iff_forall_mem.mp (by
    simp only [s221_240, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 3 of @main is the run of its operations in order. -/
theorem part3_eq (c : Dev nD) : main_part3 (F := F) c = seq (s181_220 ++ s221_240) := by
  simp only [main_part3, fn_norm.body, fn_softplus.body, seq, List.cons_append, List.nil_append, bind_assoc, pure_bind]
  try rfl

end Cert.ReferenceIdeal.Ops

end
-- ==== Proof.RefOps.W04.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 4 of the reference's @main (statements 241 … 300) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 241 … 272 of @main: 32 operations, in order. -/
abbrev s241_272 : List (HloOp τ sig (Elt F)) :=
  [ StableHlo.binary main_v217 main_v216 main_v218 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_20 (constant S_ .f32 0x3F800000#32),
    StableHlo.unary main_cst_20 main_v219 (broadcastInDim S100000x8x1 ![] bcast_S_S100000x8x1 : (⟨S_, .f32⟩ : BufTy).Contents (Elt F) → (⟨S100000x8x1, .f32⟩ : BufTy).Contents (Elt F)),
    StableHlo.binary main_v219 main_v218 main_v220 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v208 main_v221 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v221 main_v220 main_v222 (mulf : (⟨S100000x8x1, .f32⟩ : BufTy).Contents (Elt F) → (⟨S100000x8x1, .f32⟩ : BufTy).Contents (Elt F) → (⟨S100000x8x1, .f32⟩ : BufTy).Contents (Elt F)),
    StableHlo.unary main_v222 main_v223 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v223 main_v213 main_v224 (mulf : (⟨S100000x8x16, .f32⟩ : BufTy).Contents (Elt F) → (⟨S100000x8x16, .f32⟩ : BufTy).Contents (Elt F) → (⟨S100000x8x16, .f32⟩ : BufTy).Contents (Elt F)),
    StableHlo.binary main_v177 main_v224 main_v225 (addf : (⟨S100000x8x16, .f32⟩ : BufTy).Contents (Elt F) → (⟨S100000x8x16, .f32⟩ : BufTy).Contents (Elt F) → (⟨S100000x8x16, .f32⟩ : BufTy).Contents (Elt F)),
    StableHlo.unary main_v202 main_v226 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v226 main_v216 main_v227 (addf : (⟨S100000x8x1, .f32⟩ : BufTy).Contents (Elt F) → (⟨S100000x8x1, .f32⟩ : BufTy).Contents (Elt F) → (⟨S100000x8x1, .f32⟩ : BufTy).Contents (Elt F)),
    StableHlo.binary main_v227 main_v227 main_v228 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_21 (constant S_ .f32 0xBF800000#32),
    StableHlo.unary main_cst_21 main_v229 (broadcastInDim S100000x8x1 ![] bcast_S_S100000x8x1 : (⟨S_, .f32⟩ : BufTy).Contents (Elt F) → (⟨S100000x8x1, .f32⟩ : BufTy).Contents (Elt F)),
    StableHlo.binary main_v229 main_v228 main_v230 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v208 main_v231 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v231 main_v220 main_v232 (mulf : (⟨S100000x8x1, .f32⟩ : BufTy).Contents (Elt F) → (⟨S100000x8x1, .f32⟩ : BufTy).Contents (Elt F) → (⟨S100000x8x1, .f32⟩ : BufTy).Contents (Elt F)),
    StableHlo.unary main_v232 main_v233 (Host.log1p : (⟨S100000x8x1, .f32⟩ : BufTy).Contents (Elt F) → (⟨S100000x8x1, .f32⟩ : BufTy).Contents (Elt F)),
    StableHlo.reshape main_v233 main_v234 rfl shapeCasts_S100000x8x1_S100000x8,
    StableHlo.nullary main_cst_22 (constant S_ .f32 0x41700000#32),
    StableHlo.unary main_cst_22 main_v235 (broadcastInDim S100000x8 ![] bcast_S_S100000x8 : (⟨S_, .f32⟩ : BufTy).Contents (Elt F) → (⟨S100000x8, .f32⟩ : BufTy).Contents (Elt F)),
    StableHlo.binary main_v235 main_v234 main_v236 (mulf : (⟨S100000x8, .f32⟩ : BufTy).Contents (Elt F) → (⟨S100000x8, .f32⟩ : BufTy).Contents (Elt F) → (⟨S100000x8, .f32⟩ : BufTy).Contents (Elt F)),
    StableHlo.binary main_v198 main_v236 main_v237 (addf : (⟨S100000x8, .f32⟩ : BufTy).Contents (Elt F) → (⟨S100000x8, .f32⟩ : BufTy).Contents (Elt F) → (⟨S100000x8, .f32⟩ : BufTy).Contents (Elt F)),
    StableHlo.unary main_v208 main_v238 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v238 main_v220 main_v239 (mulf : (⟨S100000x8x1, .f32⟩ : BufTy).Contents (Elt F) → (⟨S100000x8x1, .f32⟩ : BufTy).Contents (Elt F) → (⟨S100000x8x1, .f32⟩ : BufTy).Contents (Elt F)),
    StableHlo.unary main_v208 main_v240 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v240 main_v230 main_v241 (mulf : (⟨S100000x8x1, .f32⟩ : BufTy).Contents (Elt F) → (⟨S100000x8x1, .f32⟩ : BufTy).Contents (Elt F) → (⟨S100000x8x1, .f32⟩ : BufTy).Contents (Elt F)),
    StableHlo.binary main_v241 main_v216 main_v242 (mulf : (⟨S100000x8x1, .f32⟩ : BufTy).Contents (Elt F) → (⟨S100000x8x1, .f32⟩ : BufTy).Contents (Elt F) → (⟨S100000x8x1, .f32⟩ : BufTy).Contents (Elt F)),
    StableHlo.binary main_v239 main_v242 main_v243 (addf : (⟨S100000x8x1, .f32⟩ : BufTy).Contents (Elt F) → (⟨S100000x8x1, .f32⟩ : BufTy).Contents (Elt F) → (⟨S100000x8x1, .f32⟩ : BufTy).Contents (Elt F)),
    StableHlo.unary main_v243 main_v244 (Host.log1p : (⟨S100000x8x1, .f32⟩ : BufTy).Contents (Elt F) → (⟨S100000x8x1, .f32⟩ : BufTy).Contents (Elt F)),
    StableHlo.reshape main_v244 main_v245 rfl shapeCasts_S100000x8x1_S100000x8,
    StableHlo.binary main_v237 main_v245 main_v246 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s241_272_sub : (s241_272 : List (HloOp τ sig (Elt F))).Forall fun op => op.bufs ⊆ tcRefs τ sig :=
  ⟨binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., unary_bufs_sub .., binary_bufs_sub .., unary_bufs_sub .., reshape_bufs_sub .., nullary_bufs_sub .., unary_bufs_sub .., binary_bufs_sub .., binary_bufs_sub .., unary_bufs_sub .., binary_bufs_sub .., unary_bufs_sub .., binary_bufs_sub .., binary_bufs_sub .., binary_bufs_sub .., unary_bufs_sub .., reshape_bufs_sub .., binary_bufs_sub ..⟩
theorem s241_272_fresh : (s241_272 : List (HloOp τ sig (Elt F))).Forall fun op => op.fresh = ∅ := by
  simp only [List.Forall]; repeat' constructor
set_option maxHeartbeats 4000000 in
/-- None of these operations writes an argument of @main. -/
theorem s241_272_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s241_272 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s241_272, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s241_272_carries (V : Valuation τ sig (Elt F)) (r : Ref sig .tc) (hr : r ∈ [main_v51]) :
    after s241_272 V (Proc.devRef .tc r) = V (Proc.devRef .tc r) := by
  simp only [List.mem_cons, List.mem_nil_iff, or_false] at hr
  rcases hr with rfl
  all_goals exact after_of_forall_not_mem _ _ (List.forall_iff_forall_mem.mp (by
    simp only [s241_272, List.Forall, nullary_writes, unary_writes, binary_writes, ternary_writes, quaternary_writes, reshape_writes, Finset.mem_singleton]
    repeat' apply And.intro
    all_goals exact devRef_ne_of_ne (by decide)))

/-- Statements 273 … 300 of @main: 58 operations, in order. -/
abbrev s273_300 : List (HloOp τ sig (Elt F)) :=
  [ StableHlo.unary main_arg13 main_v247 ((extractStridedSlice S1x8 ![5, 0] · slices_S10x8_S1x8_5_0) : (⟨S10x8, .f32⟩ : BufTy).Contents (Elt F) → (⟨S1x8, .f32⟩ : BufTy).Contents (Elt F)),
    StableHlo.reshape main_v247 main_v248 rfl shapeCasts_S1x8_S8,
    StableHlo.TRef.nullary main_call16.cst (constant S_ .f32 0x00000000#32),
    StableHlo.TRef.unary main_call16.cst main_call16.v0 (broadcastInDim S8 ![] bcast_S_S8),
    StableHlo.TRef.binary (.of main_v248) main_call16.v0 main_call16.v1 maximumf,
    StableHlo.TRef.unary main_call16.cst main_call16.v2 (broadcastInDim S8 ![] bcast_S_S8),
    StableHlo.TRef.binary (.of main_v248) main_call16.v2 main_call16.v3 subf,
    StableHlo.TRef.binary main_call16.v3 main_call16.v3 main_call16.v4 (cmpf .une),
    StableHlo.TRef.unary main_call16.cst main_call16.v5 (broadcastInDim S8 ![] bcast_S_S8),
    StableHlo.TRef.binary (.of main_v248) main_call16.v5 main_call16.v6 addf,
    StableHlo.TRef.unary main_call16.v3 main_call16.v7 Host.absf,
    StableHlo.TRef.unary main_call16.v7 main_call16.v8 Host.negf,
    StableHlo.TRef.unary main_call16.v8 main_call16.v9 Host.exp,
    StableHlo.TRef.unary main_call16.v9 main_call16.v10 Host.log1p,
    StableHlo.TRef.binary main_call16.v1 main_call16.v10 main_call16.v11 addf,
    StableHlo.TRef.ternary main_call16.v4 main_call16.v6 main_call16.v11 main_call16.v12 select,
    StableHlo.unary main_v249 main_v250 (broadcastInDim S1x8x1 ![1] bcast_S8_S1x8x1_1 : (⟨S8, .f32⟩ : BufTy).Contents (Elt F) → (⟨S1x8x1, .f32⟩ : BufTy).Contents (Elt F)),
    StableHlo.unary main_v250 main_v251 (Host.negf : (⟨S1x8x1, .f32⟩ : BufTy).Contents (Elt F) → (⟨S1x8x1, .f32⟩ : BufTy).Contents (Elt F)),
    StableHlo.unary main_arg14 main_v252 ((extractStridedSlice S1x8 ![5, 0] · slices_S10x8_S1x8_5_0) : (⟨S10x8, .f32⟩ : BufTy).Contents (Elt F) → (⟨S1x8, .f32⟩ : BufTy).Contents (Elt F)),
    StableHlo.reshape main_v252 main_v253 rfl shapeCasts_S1x8_S8,
    StableHlo.TRef.nullary main_call17.cst (constant S_ .f32 0x00000000#32),
    StableHlo.TRef.unary main_call17.cst main_call17.v0 (broadcastInDim S8 ![] bcast_S_S8),
    StableHlo.TRef.binary (.of main_v253) main_call17.v0 main_call17.v1 maximumf,
    StableHlo.TRef.unary main_call17.cst main_call17.v2 (broadcastInDim S8 ![] bcast_S_S8),
    StableHlo.TRef.binary (.of main_v253) main_call17.v2 main_call17.v3 subf,
    StableHlo.TRef.binary main_call17.v3 main_call17.v3 main_call17.v4 (cmpf .une),
    StableHlo.TRef.unary main_call17.cst main_call17.v5 (broadcastInDim S8 ![] bcast_S_S8),
    StableHlo.TRef.binary (.of main_v253) main_call17.v5 main_call17.v6 addf,
    StableHlo.TRef.unary main_call17.v3 main_call17.v7 Host.absf,
    StableHlo.TRef.unary main_call17.v7 main_call17.v8 Host.negf,
    StableHlo.TRef.unary main_call17.v8 main_call17.v9 Host.exp,
    StableHlo.TRef.unary main_call17.v9 main_call17.v10 Host.log1p,
    StableHlo.TRef.binary main_call17.v1 main_call17.v10 main_call17.v11 addf,
    StableHlo.TRef.ternary main_call17.v4 main_call17.v6 main_call17.v11 main_call17.v12 select,
    StableHlo.unary main_v254 main_v255 (broadcastInDim S1x8x1 ![1] bcast_S8_S1x8x1_1 : (⟨S8, .f32⟩ : BufTy).Contents (Elt F) → (⟨S1x8x1, .f32⟩ : BufTy).Contents (Elt F)),
    StableHlo.binary main_v251 main_v255 main_v256 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v257 ((extractStridedSlice S1x8x16 ![5, 0, 0] · slices_S10x8x16_S1x8x16_5_0_0) : (⟨S10x8x16, .f32⟩ : BufTy).Contents (Elt F) → (⟨S1x8x16, .f32⟩ : BufTy).Contents (Elt F)),
    StableHlo.reshape main_v257 main_v258 rfl shapeCasts_S1x8x16_S8x16,
    StableHlo.unary main_v258 main_v259 (broadcastInDim S1x8x16 ![1, 2] bcast_S8x16_S1x8x16_1_2 : (⟨S8x16, .f32⟩ : BufTy).Contents (Elt F) → (⟨S1x8x16, .f32⟩ : BufTy).Contents (Elt F)),
    StableHlo.unary main_v259 main_v260 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v225 main_v260 main_v261 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v261) (.of main_v261) main_call18.v0 mulf,
    StableHlo.TRef.nullary main_call18.cst (constant S_ .f32 0x00000000#32),
    StableHlo.TRef.binary main_call18.v0 main_call18.cst main_call18.v1 (fun x v => Host.reduceAdd x v reducesTo_S100000x8x16_S100000x8_d2 h_S_),
    StableHlo.TRef.unary main_call18.v1 main_call18.v2 (broadcastInDim S100000x8x1 ![0, 1] bcast_S100000x8_S100000x8x1_0_1),
    StableHlo.TRef.unary main_call18.v2 main_call18.v3 Host.sqrt,
    StableHlo.nullary main_cst_23 (constant S_ .f32 0x322BCC77#32),
    StableHlo.unary main_cst_23 main_v263 (broadcastInDim S100000x8x1 ![] bcast_S_S100000x8x1 : (⟨S_, .f32⟩ : BufTy).Contents (Elt F) → (⟨S100000x8x1, .f32⟩ : BufTy).Contents (Elt F)),
    StableHlo.binary main_v262 main_v263 main_v264 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v250 main_v265 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v265 main_v264 main_v266 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_24 (constant S_ .f32 0x3F800000#32),
    StableHlo.unary main_cst_24 main_v267 (broadcastInDim S100000x8x1 ![] bcast_S_S100000x8x1 : (⟨S_, .f32⟩ : BufTy).Contents (Elt F) → (⟨S100000x8x1, .f32⟩ : BufTy).Contents (Elt F)),
    StableHlo.binary main_v267 main_v266 main_v268 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v256 main_v269 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v269 main_v268 main_v270 (mulf : (⟨S100000x8x1, .f32⟩ : BufTy).Contents (Elt F) → (⟨S100000x8x1, .f32⟩ : BufTy).Contents (Elt F) → (⟨S100000x8x1, .f32⟩ : BufTy).Contents (Elt F)),
    StableHlo.unary main_v270 main_v271 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v271 main_v261 main_v272 (mulf : (⟨S100000x8x16, .f32⟩ : BufTy).Contents (Elt F) → (⟨S100000x8x16, .f32⟩ : BufTy).Contents (Elt F) → (⟨S100000x8x16, .f32⟩ : BufTy).Contents (Elt F)) ]
set_option maxHeartbeats 4000000 in
theorem s273_300_sub : (s273_300 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub ..⟩
theorem s273_300_fresh : (s273_300 : List (HloOp τ sig (Elt F))).Forall fun op => op.fresh = ∅ := by
  simp only [List.Forall]; repeat' constructor
set_option maxHeartbeats 4000000 in
/-- None of these operations writes an argument of @main. -/
theorem s273_300_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s273_300 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s273_300, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s273_300_carries (V : Valuation τ sig (Elt F)) (r : Ref sig .tc) (hr : r ∈ [main_v51]) :
    after s273_300 V (Proc.devRef .tc r) = V (Proc.devRef .tc r) := by
  simp only [List.mem_cons, List.mem_nil_iff, or_false] at hr
  rcases hr with rfl
  all_goals exact after_of_forall_not_mem _ _ (List.forall_iff_forall_mem.mp (by
    simp only [s273_300, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 4 of @main is the run of its operations in order. -/
theorem part4_eq (c : Dev nD) : main_part4 (F := F) c = seq (s241_272 ++ s273_300) := by
  simp only [main_part4, fn_softplus.body, fn_norm.body, seq, List.cons_append, List.nil_append, bind_assoc, pure_bind]
  try rfl

end Cert.ReferenceIdeal.Ops

end
-- ==== Proof.RefOps.W05.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 5 of the reference's @main (statements 301 … 360) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 301 … 324 of @main: 24 operations, in order. -/
abbrev s301_324 : List (HloOp τ sig (Elt F)) :=
  [ StableHlo.binary main_v225 main_v272 main_v273 (addf : (⟨S100000x8x16, .f32⟩ : BufTy).Contents (Elt F) → (⟨S100000x8x16, .f32⟩ : BufTy).Contents (Elt F) → (⟨S100000x8x16, .f32⟩ : BufTy).Contents (Elt F)),
    StableHlo.unary main_v250 main_v274 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v274 main_v264 main_v275 (addf : (⟨S100000x8x1, .f32⟩ : BufTy).Contents (Elt F) → (⟨S100000x8x1, .f32⟩ : BufTy).Contents (Elt F) → (⟨S100000x8x1, .f32⟩ : BufTy).Contents (Elt F)),
    StableHlo.binary main_v275 main_v275 main_v276 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_25 (constant S_ .f32 0xBF800000#32),
    StableHlo.unary main_cst_25 main_v277 (broadcastInDim S100000x8x1 ![] bcast_S_S100000x8x1 : (⟨S_, .f32⟩ : BufTy).Contents (Elt F) → (⟨S100000x8x1, .f32⟩ : BufTy).Contents (Elt F)),
    StableHlo.binary main_v277 main_v276 main_v278 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v256 main_v279 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v279 main_v268 main_v280 (mulf : (⟨S100000x8x1, .f32⟩ : BufTy).Contents (Elt F) → (⟨S100000x8x1, .f32⟩ : BufTy).Contents (Elt F) → (⟨S100000x8x1, .f32⟩ : BufTy).Contents (Elt F)),
    StableHlo.unary main_v280 main_v281 (Host.log1p : (⟨S100000x8x1, .f32⟩ : BufTy).Contents (Elt F) → (⟨S100000x8x1, .f32⟩ : BufTy).Contents (Elt F)),
    StableHlo.reshape main_v281 main_v282 rfl shapeCasts_S100000x8x1_S100000x8,
    StableHlo.nullary main_cst_26 (constant S_ .f32 0x41700000#32),
    StableHlo.unary main_cst_26 main_v283 (broadcastInDim S100000x8 ![] bcast_S_S100000x8 : (⟨S_, .f32⟩ : BufTy).Contents (Elt F) → (⟨S100000x8, .f32⟩ : BufTy).Contents (Elt F)),
    StableHlo.binary main_v283 main_v282 main_v284 (mulf : (⟨S100000x8, .f32⟩ : BufTy).Contents (Elt F) → (⟨S100000x8, .f32⟩ : BufTy).Contents (Elt F) → (⟨S100000x8, .f32⟩ : BufTy).Contents (Elt F)),
    StableHlo.binary main_v246 main_v284 main_v285 (addf : (⟨S100000x8, .f32⟩ : BufTy).Contents (Elt F) → (⟨S100000x8, .f32⟩ : BufTy).Contents (Elt F) → (⟨S100000x8, .f32⟩ : BufTy).Contents (Elt F)),
    StableHlo.unary main_v256 main_v286 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v286 main_v268 main_v287 (mulf : (⟨S100000x8x1, .f32⟩ : BufTy).Contents (Elt F) → (⟨S100000x8x1, .f32⟩ : BufTy).Contents (Elt F) → (⟨S100000x8x1, .f32⟩ : BufTy).Contents (Elt F)),
    StableHlo.unary main_v256 main_v288 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v288 main_v278 main_v289 (mulf : (⟨S100000x8x1, .f32⟩ : BufTy).Contents (Elt F) → (⟨S100000x8x1, .f32⟩ : BufTy).Contents (Elt F) → (⟨S100000x8x1, .f32⟩ : BufTy).Contents (Elt F)),
    StableHlo.binary main_v289 main_v264 main_v290 (mulf : (⟨S100000x8x1, .f32⟩ : BufTy).Contents (Elt F) → (⟨S100000x8x1, .f32⟩ : BufTy).Contents (Elt F) → (⟨S100000x8x1, .f32⟩ : BufTy).Contents (Elt F)),
    StableHlo.binary main_v287 main_v290 main_v291 (addf : (⟨S100000x8x1, .f32⟩ : BufTy).Contents (Elt F) → (⟨S100000x8x1, .f32⟩ : BufTy).Contents (Elt F) → (⟨S100000x8x1, .f32⟩ : BufTy).Contents (Elt F)),
    StableHlo.unary main_v291 main_v292 (Host.log1p : (⟨S100000x8x1, .f32⟩ : BufTy).Contents (Elt F) → (⟨S100000x8x1, .f32⟩ : BufTy).Contents (Elt F)),
    StableHlo.reshape main_v292 main_v293 rfl shapeCasts_S100000x8x1_S100000x8,
    StableHlo.binary main_v285 main_v293 main_v294 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s301_324_sub : (s301_324 : List (HloOp τ sig (Elt F))).Forall fun op => op.bufs ⊆ tcRefs τ sig :=
  ⟨binary_bufs_sub .., unary_bufs_sub .., binary_bufs_sub .., binary_bufs_sub .., nullary_bufs_sub .., unary_bufs_sub .., binary_bufs_sub .., unary_bufs_sub .., binary_bufs_sub .., unary_bufs_sub .., reshape_bufs_sub .., nullary_bufs_sub .., unary_bufs_sub .., binary_bufs_sub .., binary_bufs_sub .., unary_bufs_sub .., binary_bufs_sub .., unary_bufs_sub .., binary_bufs_sub .., binary_bufs_sub .., binary_bufs_sub .., unary_bufs_sub .., reshape_bufs_sub .., binary_bufs_sub ..⟩
theorem s301_324_fresh : (s301_324 : List (HloOp τ sig (Elt F))).Forall fun op => op.fresh = ∅ := by
  simp only [List.Forall]; repeat' constructor
set_option maxHeartbeats 4000000 in
/-- None of these operations writes an argument of @main. -/
theorem s301_324_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s301_324 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s301_324, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s301_324_carries (V : Valuation τ sig (Elt F)) (r : Ref sig .tc) (hr : r ∈ [main_v51]) :
    after s301_324 V (Proc.devRef .tc r) = V (Proc.devRef .tc r) := by
  simp only [List.mem_cons, List.mem_nil_iff, or_false] at hr
  rcases hr with rfl
  all_goals exact after_of_forall_not_mem _ _ (List.forall_iff_forall_mem.mp (by
    simp only [s301_324, List.Forall, nullary_writes, unary_writes, binary_writes, ternary_writes, quaternary_writes, reshape_writes, Finset.mem_singleton]
    repeat' apply And.intro
    all_goals exact devRef_ne_of_ne (by decide)))

/-- Statements 325 … 360 of @main: 66 operations, in order. -/
abbrev s325_360 : List (HloOp τ sig (Elt F)) :=
  [ StableHlo.unary main_arg13 main_v295 ((extractStridedSlice S1x8 ![4, 0] · slices_S10x8_S1x8_4_0) : (⟨S10x8, .f32⟩ : BufTy).Contents (Elt F) → (⟨S1x8, .f32⟩ : BufTy).Contents (Elt F)),
    StableHlo.reshape main_v295 main_v296 rfl shapeCasts_S1x8_S8,
    StableHlo.TRef.nullary main_call19.cst (constant S_ .f32 0x00000000#32),
    StableHlo.TRef.unary main_call19.cst main_call19.v0 (broadcastInDim S8 ![] bcast_S_S8),
    StableHlo.TRef.binary (.of main_v296) main_call19.v0 main_call19.v1 maximumf,
    StableHlo.TRef.unary main_call19.cst main_call19.v2 (broadcastInDim S8 ![] bcast_S_S8),
    StableHlo.TRef.binary (.of main_v296) main_call19.v2 main_call19.v3 subf,
    StableHlo.TRef.binary main_call19.v3 main_call19.v3 main_call19.v4 (cmpf .une),
    StableHlo.TRef.unary main_call19.cst main_call19.v5 (broadcastInDim S8 ![] bcast_S_S8),
    StableHlo.TRef.binary (.of main_v296) main_call19.v5 main_call19.v6 addf,
    StableHlo.TRef.unary main_call19.v3 main_call19.v7 Host.absf,
    StableHlo.TRef.unary main_call19.v7 main_call19.v8 Host.negf,
    StableHlo.TRef.unary main_call19.v8 main_call19.v9 Host.exp,
    StableHlo.TRef.unary main_call19.v9 main_call19.v10 Host.log1p,
    StableHlo.TRef.binary main_call19.v1 main_call19.v10 main_call19.v11 addf,
    StableHlo.TRef.ternary main_call19.v4 main_call19.v6 main_call19.v11 main_call19.v12 select,
    StableHlo.unary main_v297 main_v298 (broadcastInDim S1x8x1 ![1] bcast_S8_S1x8x1_1 : (⟨S8, .f32⟩ : BufTy).Contents (Elt F) → (⟨S1x8x1, .f32⟩ : BufTy).Contents (Elt F)),
    StableHlo.unary main_v298 main_v299 (Host.negf : (⟨S1x8x1, .f32⟩ : BufTy).Contents (Elt F) → (⟨S1x8x1, .f32⟩ : BufTy).Contents (Elt F)),
    StableHlo.unary main_arg14 main_v300 ((extractStridedSlice S1x8 ![4, 0] · slices_S10x8_S1x8_4_0) : (⟨S10x8, .f32⟩ : BufTy).Contents (Elt F) → (⟨S1x8, .f32⟩ : BufTy).Contents (Elt F)),
    StableHlo.reshape main_v300 main_v301 rfl shapeCasts_S1x8_S8,
    StableHlo.TRef.nullary main_call20.cst (constant S_ .f32 0x00000000#32),
    StableHlo.TRef.unary main_call20.cst main_call20.v0 (broadcastInDim S8 ![] bcast_S_S8),
    StableHlo.TRef.binary (.of main_v301) main_call20.v0 main_call20.v1 maximumf,
    StableHlo.TRef.unary main_call20.cst main_call20.v2 (broadcastInDim S8 ![] bcast_S_S8),
    StableHlo.TRef.binary (.of main_v301) main_call20.v2 main_call20.v3 subf,
    StableHlo.TRef.binary main_call20.v3 main_call20.v3 main_call20.v4 (cmpf .une),
    StableHlo.TRef.unary main_call20.cst main_call20.v5 (broadcastInDim S8 ![] bcast_S_S8),
    StableHlo.TRef.binary (.of main_v301) main_call20.v5 main_call20.v6 addf,
    StableHlo.TRef.unary main_call20.v3 main_call20.v7 Host.absf,
    StableHlo.TRef.unary main_call20.v7 main_call20.v8 Host.negf,
    StableHlo.TRef.unary main_call20.v8 main_call20.v9 Host.exp,
    StableHlo.TRef.unary main_call20.v9 main_call20.v10 Host.log1p,
    StableHlo.TRef.binary main_call20.v1 main_call20.v10 main_call20.v11 addf,
    StableHlo.TRef.ternary main_call20.v4 main_call20.v6 main_call20.v11 main_call20.v12 select,
    StableHlo.unary main_v302 main_v303 (broadcastInDim S1x8x1 ![1] bcast_S8_S1x8x1_1 : (⟨S8, .f32⟩ : BufTy).Contents (Elt F) → (⟨S1x8x1, .f32⟩ : BufTy).Contents (Elt F)),
    StableHlo.binary main_v299 main_v303 main_v304 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v305 ((extractStridedSlice S1x8x16 ![4, 0, 0] · slices_S10x8x16_S1x8x16_4_0_0) : (⟨S10x8x16, .f32⟩ : BufTy).Contents (Elt F) → (⟨S1x8x16, .f32⟩ : BufTy).Contents (Elt F)),
    StableHlo.reshape main_v305 main_v306 rfl shapeCasts_S1x8x16_S8x16,
    StableHlo.unary main_v306 main_v307 (broadcastInDim S1x8x16 ![1, 2] bcast_S8x16_S1x8x16_1_2 : (⟨S8x16, .f32⟩ : BufTy).Contents (Elt F) → (⟨S1x8x16, .f32⟩ : BufTy).Contents (Elt F)),
    StableHlo.unary main_v307 main_v308 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v273 main_v308 main_v309 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v309) (.of main_v309) main_call21.v0 mulf,
    StableHlo.TRef.nullary main_call21.cst (constant S_ .f32 0x00000000#32),
    StableHlo.TRef.binary main_call21.v0 main_call21.cst main_call21.v1 (fun x v => Host.reduceAdd x v reducesTo_S100000x8x16_S100000x8_d2 h_S_),
    StableHlo.TRef.unary main_call21.v1 main_call21.v2 (broadcastInDim S100000x8x1 ![0, 1] bcast_S100000x8_S100000x8x1_0_1),
    StableHlo.TRef.unary main_call21.v2 main_call21.v3 Host.sqrt,
    StableHlo.nullary main_cst_27 (constant S_ .f32 0x322BCC77#32),
    StableHlo.unary main_cst_27 main_v311 (broadcastInDim S100000x8x1 ![] bcast_S_S100000x8x1 : (⟨S_, .f32⟩ : BufTy).Contents (Elt F) → (⟨S100000x8x1, .f32⟩ : BufTy).Contents (Elt F)),
    StableHlo.binary main_v310 main_v311 main_v312 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v298 main_v313 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v313 main_v312 main_v314 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_28 (constant S_ .f32 0x3F800000#32),
    StableHlo.unary main_cst_28 main_v315 (broadcastInDim S100000x8x1 ![] bcast_S_S100000x8x1 : (⟨S_, .f32⟩ : BufTy).Contents (Elt F) → (⟨S100000x8x1, .f32⟩ : BufTy).Contents (Elt F)),
    StableHlo.binary main_v315 main_v314 main_v316 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v304 main_v317 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v317 main_v316 main_v318 (mulf : (⟨S100000x8x1, .f32⟩ : BufTy).Contents (Elt F) → (⟨S100000x8x1, .f32⟩ : BufTy).Contents (Elt F) → (⟨S100000x8x1, .f32⟩ : BufTy).Contents (Elt F)),
    StableHlo.unary main_v318 main_v319 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v319 main_v309 main_v320 (mulf : (⟨S100000x8x16, .f32⟩ : BufTy).Contents (Elt F) → (⟨S100000x8x16, .f32⟩ : BufTy).Contents (Elt F) → (⟨S100000x8x16, .f32⟩ : BufTy).Contents (Elt F)),
    StableHlo.binary main_v273 main_v320 main_v321 (addf : (⟨S100000x8x16, .f32⟩ : BufTy).Contents (Elt F) → (⟨S100000x8x16, .f32⟩ : BufTy).Contents (Elt F) → (⟨S100000x8x16, .f32⟩ : BufTy).Contents (Elt F)),
    StableHlo.unary main_v298 main_v322 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v322 main_v312 main_v323 (addf : (⟨S100000x8x1, .f32⟩ : BufTy).Contents (Elt F) → (⟨S100000x8x1, .f32⟩ : BufTy).Contents (Elt F) → (⟨S100000x8x1, .f32⟩ : BufTy).Contents (Elt F)),
    StableHlo.binary main_v323 main_v323 main_v324 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_29 (constant S_ .f32 0xBF800000#32),
    StableHlo.unary main_cst_29 main_v325 (broadcastInDim S100000x8x1 ![] bcast_S_S100000x8x1 : (⟨S_, .f32⟩ : BufTy).Contents (Elt F) → (⟨S100000x8x1, .f32⟩ : BufTy).Contents (Elt F)),
    StableHlo.binary main_v325 main_v324 main_v326 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v304 main_v327 (broadcastInDim S100000x8x1 ![0, 1, 2] bcast_S1x8x1_S100000x8x1_0_1_2 : (⟨S1x8x1, .f32⟩ : BufTy).Contents (Elt F) → (⟨S100000x8x1, .f32⟩ : BufTy).Contents (Elt F)) ]
set_option maxHeartbeats 4000000 in
theorem s325_360_sub : (s325_360 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., unary_bufs_sub ..⟩
theorem s325_360_fresh : (s325_360 : List (HloOp τ sig (Elt F))).Forall fun op => op.fresh = ∅ := by
  simp only [List.Forall]; repeat' constructor
set_option maxHeartbeats 4000000 in
/-- None of these operations writes an argument of @main. -/
theorem s325_360_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s325_360 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s325_360, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s325_360_carries (V : Valuation τ sig (Elt F)) (r : Ref sig .tc) (hr : r ∈ [main_v51]) :
    after s325_360 V (Proc.devRef .tc r) = V (Proc.devRef .tc r) := by
  simp only [List.mem_cons, List.mem_nil_iff, or_false] at hr
  rcases hr with rfl
  all_goals exact after_of_forall_not_mem _ _ (List.forall_iff_forall_mem.mp (by
    simp only [s325_360, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 5 of @main is the run of its operations in order. -/
theorem part5_eq (c : Dev nD) : main_part5 (F := F) c = seq (s301_324 ++ s325_360) := by
  simp only [main_part5, fn_softplus.body, fn_norm.body, seq, List.cons_append, List.nil_append, bind_assoc, pure_bind]
  try rfl

end Cert.ReferenceIdeal.Ops

end
-- ==== Proof.RefOps.W06.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 6 of the reference's @main (statements 361 … 420) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 361 … 376 of @main: 16 operations, in order. -/
abbrev s361_376 : List (HloOp τ sig (Elt F)) :=
  [ StableHlo.binary main_v327 main_v316 main_v328 (mulf : (⟨S100000x8x1, .f32⟩ : BufTy).Contents (Elt F) → (⟨S100000x8x1, .f32⟩ : BufTy).Contents (Elt F) → (⟨S100000x8x1, .f32⟩ : BufTy).Contents (Elt F)),
    StableHlo.unary main_v328 main_v329 (Host.log1p : (⟨S100000x8x1, .f32⟩ : BufTy).Contents (Elt F) → (⟨S100000x8x1, .f32⟩ : BufTy).Contents (Elt F)),
    StableHlo.reshape main_v329 main_v330 rfl shapeCasts_S100000x8x1_S100000x8,
    StableHlo.nullary main_cst_30 (constant S_ .f32 0x41700000#32),
    StableHlo.unary main_cst_30 main_v331 (broadcastInDim S100000x8 ![] bcast_S_S100000x8 : (⟨S_, .f32⟩ : BufTy).Contents (Elt F) → (⟨S100000x8, .f32⟩ : BufTy).Contents (Elt F)),
    StableHlo.binary main_v331 main_v330 main_v332 (mulf : (⟨S100000x8, .f32⟩ : BufTy).Contents (Elt F) → (⟨S100000x8, .f32⟩ : BufTy).Contents (Elt F) → (⟨S100000x8, .f32⟩ : BufTy).Contents (Elt F)),
    StableHlo.binary main_v294 main_v332 main_v333 (addf : (⟨S100000x8, .f32⟩ : BufTy).Contents (Elt F) → (⟨S100000x8, .f32⟩ : BufTy).Contents (Elt F) → (⟨S100000x8, .f32⟩ : BufTy).Contents (Elt F)),
    StableHlo.unary main_v304 main_v334 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v334 main_v316 main_v335 (mulf : (⟨S100000x8x1, .f32⟩ : BufTy).Contents (Elt F) → (⟨S100000x8x1, .f32⟩ : BufTy).Contents (Elt F) → (⟨S100000x8x1, .f32⟩ : BufTy).Contents (Elt F)),
    StableHlo.unary main_v304 main_v336 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v336 main_v326 main_v337 (mulf : (⟨S100000x8x1, .f32⟩ : BufTy).Contents (Elt F) → (⟨S100000x8x1, .f32⟩ : BufTy).Contents (Elt F) → (⟨S100000x8x1, .f32⟩ : BufTy).Contents (Elt F)),
    StableHlo.binary main_v337 main_v312 main_v338 (mulf : (⟨S100000x8x1, .f32⟩ : BufTy).Contents (Elt F) → (⟨S100000x8x1, .f32⟩ : BufTy).Contents (Elt F) → (⟨S100000x8x1, .f32⟩ : BufTy).Contents (Elt F)),
    StableHlo.binary main_v335 main_v338 main_v339 (addf : (⟨S100000x8x1, .f32⟩ : BufTy).Contents (Elt F) → (⟨S100000x8x1, .f32⟩ : BufTy).Contents (Elt F) → (⟨S100000x8x1, .f32⟩ : BufTy).Contents (Elt F)),
    StableHlo.unary main_v339 main_v340 (Host.log1p : (⟨S100000x8x1, .f32⟩ : BufTy).Contents (Elt F) → (⟨S100000x8x1, .f32⟩ : BufTy).Contents (Elt F)),
    StableHlo.reshape main_v340 main_v341 rfl shapeCasts_S100000x8x1_S100000x8,
    StableHlo.binary main_v333 main_v341 main_v342 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s361_376_sub : (s361_376 : List (HloOp τ sig (Elt F))).Forall fun op => op.bufs ⊆ tcRefs τ sig :=
  ⟨binary_bufs_sub .., unary_bufs_sub .., reshape_bufs_sub .., nullary_bufs_sub .., unary_bufs_sub .., binary_bufs_sub .., binary_bufs_sub .., unary_bufs_sub .., binary_bufs_sub .., unary_bufs_sub .., binary_bufs_sub .., binary_bufs_sub .., binary_bufs_sub .., unary_bufs_sub .., reshape_bufs_sub .., binary_bufs_sub ..⟩
theorem s361_376_fresh : (s361_376 : List (HloOp τ sig (Elt F))).Forall fun op => op.fresh = ∅ := by
  simp only [List.Forall]; repeat' constructor
set_option maxHeartbeats 4000000 in
/-- None of these operations writes an argument of @main. -/
theorem s361_376_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s361_376 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s361_376, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s361_376_carries (V : Valuation τ sig (Elt F)) (r : Ref sig .tc) (hr : r ∈ [main_v51]) :
    after s361_376 V (Proc.devRef .tc r) = V (Proc.devRef .tc r) := by
  simp only [List.mem_cons, List.mem_nil_iff, or_false] at hr
  rcases hr with rfl
  all_goals exact after_of_forall_not_mem _ _ (List.forall_iff_forall_mem.mp (by
    simp only [s361_376, List.Forall, nullary_writes, unary_writes, binary_writes, ternary_writes, quaternary_writes, reshape_writes, Finset.mem_singleton]
    repeat' apply And.intro
    all_goals exact devRef_ne_of_ne (by decide)))

/-- Statements 377 … 420 of @main: 74 operations, in order. -/
abbrev s377_420 : List (HloOp τ sig (Elt F)) :=
  [ StableHlo.unary main_arg13 main_v343 ((extractStridedSlice S1x8 ![3, 0] · slices_S10x8_S1x8_3_0) : (⟨S10x8, .f32⟩ : BufTy).Contents (Elt F) → (⟨S1x8, .f32⟩ : BufTy).Contents (Elt F)),
    StableHlo.reshape main_v343 main_v344 rfl shapeCasts_S1x8_S8,
    StableHlo.TRef.nullary main_call22.cst (constant S_ .f32 0x00000000#32),
    StableHlo.TRef.unary main_call22.cst main_call22.v0 (broadcastInDim S8 ![] bcast_S_S8),
    StableHlo.TRef.binary (.of main_v344) main_call22.v0 main_call22.v1 maximumf,
    StableHlo.TRef.unary main_call22.cst main_call22.v2 (broadcastInDim S8 ![] bcast_S_S8),
    StableHlo.TRef.binary (.of main_v344) main_call22.v2 main_call22.v3 subf,
    StableHlo.TRef.binary main_call22.v3 main_call22.v3 main_call22.v4 (cmpf .une),
    StableHlo.TRef.unary main_call22.cst main_call22.v5 (broadcastInDim S8 ![] bcast_S_S8),
    StableHlo.TRef.binary (.of main_v344) main_call22.v5 main_call22.v6 addf,
    StableHlo.TRef.unary main_call22.v3 main_call22.v7 Host.absf,
    StableHlo.TRef.unary main_call22.v7 main_call22.v8 Host.negf,
    StableHlo.TRef.unary main_call22.v8 main_call22.v9 Host.exp,
    StableHlo.TRef.unary main_call22.v9 main_call22.v10 Host.log1p,
    StableHlo.TRef.binary main_call22.v1 main_call22.v10 main_call22.v11 addf,
    StableHlo.TRef.ternary main_call22.v4 main_call22.v6 main_call22.v11 main_call22.v12 select,
    StableHlo.unary main_v345 main_v346 (broadcastInDim S1x8x1 ![1] bcast_S8_S1x8x1_1 : (⟨S8, .f32⟩ : BufTy).Contents (Elt F) → (⟨S1x8x1, .f32⟩ : BufTy).Contents (Elt F)),
    StableHlo.unary main_v346 main_v347 (Host.negf : (⟨S1x8x1, .f32⟩ : BufTy).Contents (Elt F) → (⟨S1x8x1, .f32⟩ : BufTy).Contents (Elt F)),
    StableHlo.unary main_arg14 main_v348 ((extractStridedSlice S1x8 ![3, 0] · slices_S10x8_S1x8_3_0) : (⟨S10x8, .f32⟩ : BufTy).Contents (Elt F) → (⟨S1x8, .f32⟩ : BufTy).Contents (Elt F)),
    StableHlo.reshape main_v348 main_v349 rfl shapeCasts_S1x8_S8,
    StableHlo.TRef.nullary main_call23.cst (constant S_ .f32 0x00000000#32),
    StableHlo.TRef.unary main_call23.cst main_call23.v0 (broadcastInDim S8 ![] bcast_S_S8),
    StableHlo.TRef.binary (.of main_v349) main_call23.v0 main_call23.v1 maximumf,
    StableHlo.TRef.unary main_call23.cst main_call23.v2 (broadcastInDim S8 ![] bcast_S_S8),
    StableHlo.TRef.binary (.of main_v349) main_call23.v2 main_call23.v3 subf,
    StableHlo.TRef.binary main_call23.v3 main_call23.v3 main_call23.v4 (cmpf .une),
    StableHlo.TRef.unary main_call23.cst main_call23.v5 (broadcastInDim S8 ![] bcast_S_S8),
    StableHlo.TRef.binary (.of main_v349) main_call23.v5 main_call23.v6 addf,
    StableHlo.TRef.unary main_call23.v3 main_call23.v7 Host.absf,
    StableHlo.TRef.unary main_call23.v7 main_call23.v8 Host.negf,
    StableHlo.TRef.unary main_call23.v8 main_call23.v9 Host.exp,
    StableHlo.TRef.unary main_call23.v9 main_call23.v10 Host.log1p,
    StableHlo.TRef.binary main_call23.v1 main_call23.v10 main_call23.v11 addf,
    StableHlo.TRef.ternary main_call23.v4 main_call23.v6 main_call23.v11 main_call23.v12 select,
    StableHlo.unary main_v350 main_v351 (broadcastInDim S1x8x1 ![1] bcast_S8_S1x8x1_1 : (⟨S8, .f32⟩ : BufTy).Contents (Elt F) → (⟨S1x8x1, .f32⟩ : BufTy).Contents (Elt F)),
    StableHlo.binary main_v347 main_v351 main_v352 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v353 ((extractStridedSlice S1x8x16 ![3, 0, 0] · slices_S10x8x16_S1x8x16_3_0_0) : (⟨S10x8x16, .f32⟩ : BufTy).Contents (Elt F) → (⟨S1x8x16, .f32⟩ : BufTy).Contents (Elt F)),
    StableHlo.reshape main_v353 main_v354 rfl shapeCasts_S1x8x16_S8x16,
    StableHlo.unary main_v354 main_v355 (broadcastInDim S1x8x16 ![1, 2] bcast_S8x16_S1x8x16_1_2 : (⟨S8x16, .f32⟩ : BufTy).Contents (Elt F) → (⟨S1x8x16, .f32⟩ : BufTy).Contents (Elt F)),
    StableHlo.unary main_v355 main_v356 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v321 main_v356 main_v357 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v357) (.of main_v357) main_call24.v0 mulf,
    StableHlo.TRef.nullary main_call24.cst (constant S_ .f32 0x00000000#32),
    StableHlo.TRef.binary main_call24.v0 main_call24.cst main_call24.v1 (fun x v => Host.reduceAdd x v reducesTo_S100000x8x16_S100000x8_d2 h_S_),
    StableHlo.TRef.unary main_call24.v1 main_call24.v2 (broadcastInDim S100000x8x1 ![0, 1] bcast_S100000x8_S100000x8x1_0_1),
    StableHlo.TRef.unary main_call24.v2 main_call24.v3 Host.sqrt,
    StableHlo.nullary main_cst_31 (constant S_ .f32 0x322BCC77#32),
    StableHlo.unary main_cst_31 main_v359 (broadcastInDim S100000x8x1 ![] bcast_S_S100000x8x1 : (⟨S_, .f32⟩ : BufTy).Contents (Elt F) → (⟨S100000x8x1, .f32⟩ : BufTy).Contents (Elt F)),
    StableHlo.binary main_v358 main_v359 main_v360 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v346 main_v361 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v361 main_v360 main_v362 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_32 (constant S_ .f32 0x3F800000#32),
    StableHlo.unary main_cst_32 main_v363 (broadcastInDim S100000x8x1 ![] bcast_S_S100000x8x1 : (⟨S_, .f32⟩ : BufTy).Contents (Elt F) → (⟨S100000x8x1, .f32⟩ : BufTy).Contents (Elt F)),
    StableHlo.binary main_v363 main_v362 main_v364 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v352 main_v365 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v365 main_v364 main_v366 (mulf : (⟨S100000x8x1, .f32⟩ : BufTy).Contents (Elt F) → (⟨S100000x8x1, .f32⟩ : BufTy).Contents (Elt F) → (⟨S100000x8x1, .f32⟩ : BufTy).Contents (Elt F)),
    StableHlo.unary main_v366 main_v367 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v367 main_v357 main_v368 (mulf : (⟨S100000x8x16, .f32⟩ : BufTy).Contents (Elt F) → (⟨S100000x8x16, .f32⟩ : BufTy).Contents (Elt F) → (⟨S100000x8x16, .f32⟩ : BufTy).Contents (Elt F)),
    StableHlo.binary main_v321 main_v368 main_v369 (addf : (⟨S100000x8x16, .f32⟩ : BufTy).Contents (Elt F) → (⟨S100000x8x16, .f32⟩ : BufTy).Contents (Elt F) → (⟨S100000x8x16, .f32⟩ : BufTy).Contents (Elt F)),
    StableHlo.unary main_v346 main_v370 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v370 main_v360 main_v371 (addf : (⟨S100000x8x1, .f32⟩ : BufTy).Contents (Elt F) → (⟨S100000x8x1, .f32⟩ : BufTy).Contents (Elt F) → (⟨S100000x8x1, .f32⟩ : BufTy).Contents (Elt F)),
    StableHlo.binary main_v371 main_v371 main_v372 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_33 (constant S_ .f32 0xBF800000#32),
    StableHlo.unary main_cst_33 main_v373 (broadcastInDim S100000x8x1 ![] bcast_S_S100000x8x1 : (⟨S_, .f32⟩ : BufTy).Contents (Elt F) → (⟨S100000x8x1, .f32⟩ : BufTy).Contents (Elt F)),
    StableHlo.binary main_v373 main_v372 main_v374 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v352 main_v375 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v375 main_v364 main_v376 (mulf : (⟨S100000x8x1, .f32⟩ : BufTy).Contents (Elt F) → (⟨S100000x8x1, .f32⟩ : BufTy).Contents (Elt F) → (⟨S100000x8x1, .f32⟩ : BufTy).Contents (Elt F)),
    StableHlo.unary main_v376 main_v377 (Host.log1p : (⟨S100000x8x1, .f32⟩ : BufTy).Contents (Elt F) → (⟨S100000x8x1, .f32⟩ : BufTy).Contents (Elt F)),
    StableHlo.reshape main_v377 main_v378 rfl shapeCasts_S100000x8x1_S100000x8,
    StableHlo.nullary main_cst_34 (constant S_ .f32 0x41700000#32),
    StableHlo.unary main_cst_34 main_v379 (broadcastInDim S100000x8 ![] bcast_S_S100000x8 : (⟨S_, .f32⟩ : BufTy).Contents (Elt F) → (⟨S100000x8, .f32⟩ : BufTy).Contents (Elt F)),
    StableHlo.binary main_v379 main_v378 main_v380 (mulf : (⟨S100000x8, .f32⟩ : BufTy).Contents (Elt F) → (⟨S100000x8, .f32⟩ : BufTy).Contents (Elt F) → (⟨S100000x8, .f32⟩ : BufTy).Contents (Elt F)),
    StableHlo.binary main_v342 main_v380 main_v381 (addf : (⟨S100000x8, .f32⟩ : BufTy).Contents (Elt F) → (⟨S100000x8, .f32⟩ : BufTy).Contents (Elt F) → (⟨S100000x8, .f32⟩ : BufTy).Contents (Elt F)),
    StableHlo.unary main_v352 main_v382 (broadcastInDim S100000x8x1 ![0, 1, 2] bcast_S1x8x1_S100000x8x1_0_1_2 : (⟨S1x8x1, .f32⟩ : BufTy).Contents (Elt F) → (⟨S100000x8x1, .f32⟩ : BufTy).Contents (Elt F)) ]
set_option maxHeartbeats 4000000 in
theorem s377_420_sub : (s377_420 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., unary_bufs_sub .., binary_bufs_sub .., unary_bufs_sub .., reshape_bufs_sub .., nullary_bufs_sub .., unary_bufs_sub .., binary_bufs_sub .., binary_bufs_sub .., unary_bufs_sub ..⟩
theorem s377_420_fresh : (s377_420 : List (HloOp τ sig (Elt F))).Forall fun op => op.fresh = ∅ := by
  simp only [List.Forall]; repeat' constructor
set_option maxHeartbeats 4000000 in
/-- None of these operations writes an argument of @main. -/
theorem s377_420_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s377_420 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s377_420, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s377_420_carries (V : Valuation τ sig (Elt F)) (r : Ref sig .tc) (hr : r ∈ [main_v51]) :
    after s377_420 V (Proc.devRef .tc r) = V (Proc.devRef .tc r) := by
  simp only [List.mem_cons, List.mem_nil_iff, or_false] at hr
  rcases hr with rfl
  all_goals exact after_of_forall_not_mem _ _ (List.forall_iff_forall_mem.mp (by
    simp only [s377_420, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 6 of @main is the run of its operations in order. -/
theorem part6_eq (c : Dev nD) : main_part6 (F := F) c = seq (s361_376 ++ s377_420) := by
  simp only [main_part6, fn_softplus.body, fn_norm.body, seq, List.cons_append, List.nil_append, bind_assoc, pure_bind]
  try rfl

end Cert.ReferenceIdeal.Ops

end
-- ==== Proof.RefOps.W07.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 7 of the reference's @main (statements 421 … 480) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 421 … 428 of @main: 8 operations, in order. -/
abbrev s421_428 : List (HloOp τ sig (Elt F)) :=
  [ StableHlo.binary main_v382 main_v364 main_v383 (mulf : (⟨S100000x8x1, .f32⟩ : BufTy).Contents (Elt F) → (⟨S100000x8x1, .f32⟩ : BufTy).Contents (Elt F) → (⟨S100000x8x1, .f32⟩ : BufTy).Contents (Elt F)),
    StableHlo.unary main_v352 main_v384 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v384 main_v374 main_v385 (mulf : (⟨S100000x8x1, .f32⟩ : BufTy).Contents (Elt F) → (⟨S100000x8x1, .f32⟩ : BufTy).Contents (Elt F) → (⟨S100000x8x1, .f32⟩ : BufTy).Contents (Elt F)),
    StableHlo.binary main_v385 main_v360 main_v386 (mulf : (⟨S100000x8x1, .f32⟩ : BufTy).Contents (Elt F) → (⟨S100000x8x1, .f32⟩ : BufTy).Contents (Elt F) → (⟨S100000x8x1, .f32⟩ : BufTy).Contents (Elt F)),
    StableHlo.binary main_v383 main_v386 main_v387 (addf : (⟨S100000x8x1, .f32⟩ : BufTy).Contents (Elt F) → (⟨S100000x8x1, .f32⟩ : BufTy).Contents (Elt F) → (⟨S100000x8x1, .f32⟩ : BufTy).Contents (Elt F)),
    StableHlo.unary main_v387 main_v388 (Host.log1p : (⟨S100000x8x1, .f32⟩ : BufTy).Contents (Elt F) → (⟨S100000x8x1, .f32⟩ : BufTy).Contents (Elt F)),
    StableHlo.reshape main_v388 main_v389 rfl shapeCasts_S100000x8x1_S100000x8,
    StableHlo.binary main_v381 main_v389 main_v390 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s421_428_sub : (s421_428 : List (HloOp τ sig (Elt F))).Forall fun op => op.bufs ⊆ tcRefs τ sig :=
  ⟨binary_bufs_sub .., unary_bufs_sub .., binary_bufs_sub .., binary_bufs_sub .., binary_bufs_sub .., unary_bufs_sub .., reshape_bufs_sub .., binary_bufs_sub ..⟩
theorem s421_428_fresh : (s421_428 : List (HloOp τ sig (Elt F))).Forall fun op => op.fresh = ∅ := by
  simp only [List.Forall]; repeat' constructor
set_option maxHeartbeats 4000000 in
/-- None of these operations writes an argument of @main. -/
theorem s421_428_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s421_428 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s421_428, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s421_428_carries (V : Valuation τ sig (Elt F)) (r : Ref sig .tc) (hr : r ∈ [main_v51]) :
    after s421_428 V (Proc.devRef .tc r) = V (Proc.devRef .tc r) := by
  simp only [List.mem_cons, List.mem_nil_iff, or_false] at hr
  rcases hr with rfl
  all_goals exact after_of_forall_not_mem _ _ (List.forall_iff_forall_mem.mp (by
    simp only [s421_428, List.Forall, nullary_writes, unary_writes, binary_writes, ternary_writes, quaternary_writes, reshape_writes, Finset.mem_singleton]
    repeat' apply And.intro
    all_goals exact devRef_ne_of_ne (by decide)))

/-- Statements 429 … 480 of @main: 82 operations, in order. -/
abbrev s429_480 : List (HloOp τ sig (Elt F)) :=
  [ StableHlo.unary main_arg13 main_v391 ((extractStridedSlice S1x8 ![2, 0] · slices_S10x8_S1x8_2_0) : (⟨S10x8, .f32⟩ : BufTy).Contents (Elt F) → (⟨S1x8, .f32⟩ : BufTy).Contents (Elt F)),
    StableHlo.reshape main_v391 main_v392 rfl shapeCasts_S1x8_S8,
    StableHlo.TRef.nullary main_call25.cst (constant S_ .f32 0x00000000#32),
    StableHlo.TRef.unary main_call25.cst main_call25.v0 (broadcastInDim S8 ![] bcast_S_S8),
    StableHlo.TRef.binary (.of main_v392) main_call25.v0 main_call25.v1 maximumf,
    StableHlo.TRef.unary main_call25.cst main_call25.v2 (broadcastInDim S8 ![] bcast_S_S8),
    StableHlo.TRef.binary (.of main_v392) main_call25.v2 main_call25.v3 subf,
    StableHlo.TRef.binary main_call25.v3 main_call25.v3 main_call25.v4 (cmpf .une),
    StableHlo.TRef.unary main_call25.cst main_call25.v5 (broadcastInDim S8 ![] bcast_S_S8),
    StableHlo.TRef.binary (.of main_v392) main_call25.v5 main_call25.v6 addf,
    StableHlo.TRef.unary main_call25.v3 main_call25.v7 Host.absf,
    StableHlo.TRef.unary main_call25.v7 main_call25.v8 Host.negf,
    StableHlo.TRef.unary main_call25.v8 main_call25.v9 Host.exp,
    StableHlo.TRef.unary main_call25.v9 main_call25.v10 Host.log1p,
    StableHlo.TRef.binary main_call25.v1 main_call25.v10 main_call25.v11 addf,
    StableHlo.TRef.ternary main_call25.v4 main_call25.v6 main_call25.v11 main_call25.v12 select,
    StableHlo.unary main_v393 main_v394 (broadcastInDim S1x8x1 ![1] bcast_S8_S1x8x1_1 : (⟨S8, .f32⟩ : BufTy).Contents (Elt F) → (⟨S1x8x1, .f32⟩ : BufTy).Contents (Elt F)),
    StableHlo.unary main_v394 main_v395 (Host.negf : (⟨S1x8x1, .f32⟩ : BufTy).Contents (Elt F) → (⟨S1x8x1, .f32⟩ : BufTy).Contents (Elt F)),
    StableHlo.unary main_arg14 main_v396 ((extractStridedSlice S1x8 ![2, 0] · slices_S10x8_S1x8_2_0) : (⟨S10x8, .f32⟩ : BufTy).Contents (Elt F) → (⟨S1x8, .f32⟩ : BufTy).Contents (Elt F)),
    StableHlo.reshape main_v396 main_v397 rfl shapeCasts_S1x8_S8,
    StableHlo.TRef.nullary main_call26.cst (constant S_ .f32 0x00000000#32),
    StableHlo.TRef.unary main_call26.cst main_call26.v0 (broadcastInDim S8 ![] bcast_S_S8),
    StableHlo.TRef.binary (.of main_v397) main_call26.v0 main_call26.v1 maximumf,
    StableHlo.TRef.unary main_call26.cst main_call26.v2 (broadcastInDim S8 ![] bcast_S_S8),
    StableHlo.TRef.binary (.of main_v397) main_call26.v2 main_call26.v3 subf,
    StableHlo.TRef.binary main_call26.v3 main_call26.v3 main_call26.v4 (cmpf .une),
    StableHlo.TRef.unary main_call26.cst main_call26.v5 (broadcastInDim S8 ![] bcast_S_S8),
    StableHlo.TRef.binary (.of main_v397) main_call26.v5 main_call26.v6 addf,
    StableHlo.TRef.unary main_call26.v3 main_call26.v7 Host.absf,
    StableHlo.TRef.unary main_call26.v7 main_call26.v8 Host.negf,
    StableHlo.TRef.unary main_call26.v8 main_call26.v9 Host.exp,
    StableHlo.TRef.unary main_call26.v9 main_call26.v10 Host.log1p,
    StableHlo.TRef.binary main_call26.v1 main_call26.v10 main_call26.v11 addf,
    StableHlo.TRef.ternary main_call26.v4 main_call26.v6 main_call26.v11 main_call26.v12 select,
    StableHlo.unary main_v398 main_v399 (broadcastInDim S1x8x1 ![1] bcast_S8_S1x8x1_1 : (⟨S8, .f32⟩ : BufTy).Contents (Elt F) → (⟨S1x8x1, .f32⟩ : BufTy).Contents (Elt F)),
    StableHlo.binary main_v395 main_v399 main_v400 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v401 ((extractStridedSlice S1x8x16 ![2, 0, 0] · slices_S10x8x16_S1x8x16_2_0_0) : (⟨S10x8x16, .f32⟩ : BufTy).Contents (Elt F) → (⟨S1x8x16, .f32⟩ : BufTy).Contents (Elt F)),
    StableHlo.reshape main_v401 main_v402 rfl shapeCasts_S1x8x16_S8x16,
    StableHlo.unary main_v402 main_v403 (broadcastInDim S1x8x16 ![1, 2] bcast_S8x16_S1x8x16_1_2 : (⟨S8x16, .f32⟩ : BufTy).Contents (Elt F) → (⟨S1x8x16, .f32⟩ : BufTy).Contents (Elt F)),
    StableHlo.unary main_v403 main_v404 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v369 main_v404 main_v405 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v405) (.of main_v405) main_call27.v0 mulf,
    StableHlo.TRef.nullary main_call27.cst (constant S_ .f32 0x00000000#32),
    StableHlo.TRef.binary main_call27.v0 main_call27.cst main_call27.v1 (fun x v => Host.reduceAdd x v reducesTo_S100000x8x16_S100000x8_d2 h_S_),
    StableHlo.TRef.unary main_call27.v1 main_call27.v2 (broadcastInDim S100000x8x1 ![0, 1] bcast_S100000x8_S100000x8x1_0_1),
    StableHlo.TRef.unary main_call27.v2 main_call27.v3 Host.sqrt,
    StableHlo.nullary main_cst_35 (constant S_ .f32 0x322BCC77#32),
    StableHlo.unary main_cst_35 main_v407 (broadcastInDim S100000x8x1 ![] bcast_S_S100000x8x1 : (⟨S_, .f32⟩ : BufTy).Contents (Elt F) → (⟨S100000x8x1, .f32⟩ : BufTy).Contents (Elt F)),
    StableHlo.binary main_v406 main_v407 main_v408 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v394 main_v409 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v409 main_v408 main_v410 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_36 (constant S_ .f32 0x3F800000#32),
    StableHlo.unary main_cst_36 main_v411 (broadcastInDim S100000x8x1 ![] bcast_S_S100000x8x1 : (⟨S_, .f32⟩ : BufTy).Contents (Elt F) → (⟨S100000x8x1, .f32⟩ : BufTy).Contents (Elt F)),
    StableHlo.binary main_v411 main_v410 main_v412 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v400 main_v413 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v413 main_v412 main_v414 (mulf : (⟨S100000x8x1, .f32⟩ : BufTy).Contents (Elt F) → (⟨S100000x8x1, .f32⟩ : BufTy).Contents (Elt F) → (⟨S100000x8x1, .f32⟩ : BufTy).Contents (Elt F)),
    StableHlo.unary main_v414 main_v415 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v415 main_v405 main_v416 (mulf : (⟨S100000x8x16, .f32⟩ : BufTy).Contents (Elt F) → (⟨S100000x8x16, .f32⟩ : BufTy).Contents (Elt F) → (⟨S100000x8x16, .f32⟩ : BufTy).Contents (Elt F)),
    StableHlo.binary main_v369 main_v416 main_v417 (addf : (⟨S100000x8x16, .f32⟩ : BufTy).Contents (Elt F) → (⟨S100000x8x16, .f32⟩ : BufTy).Contents (Elt F) → (⟨S100000x8x16, .f32⟩ : BufTy).Contents (Elt F)),
    StableHlo.unary main_v394 main_v418 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v418 main_v408 main_v419 (addf : (⟨S100000x8x1, .f32⟩ : BufTy).Contents (Elt F) → (⟨S100000x8x1, .f32⟩ : BufTy).Contents (Elt F) → (⟨S100000x8x1, .f32⟩ : BufTy).Contents (Elt F)),
    StableHlo.binary main_v419 main_v419 main_v420 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_37 (constant S_ .f32 0xBF800000#32),
    StableHlo.unary main_cst_37 main_v421 (broadcastInDim S100000x8x1 ![] bcast_S_S100000x8x1 : (⟨S_, .f32⟩ : BufTy).Contents (Elt F) → (⟨S100000x8x1, .f32⟩ : BufTy).Contents (Elt F)),
    StableHlo.binary main_v421 main_v420 main_v422 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v400 main_v423 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v423 main_v412 main_v424 (mulf : (⟨S100000x8x1, .f32⟩ : BufTy).Contents (Elt F) → (⟨S100000x8x1, .f32⟩ : BufTy).Contents (Elt F) → (⟨S100000x8x1, .f32⟩ : BufTy).Contents (Elt F)),
    StableHlo.unary main_v424 main_v425 (Host.log1p : (⟨S100000x8x1, .f32⟩ : BufTy).Contents (Elt F) → (⟨S100000x8x1, .f32⟩ : BufTy).Contents (Elt F)),
    StableHlo.reshape main_v425 main_v426 rfl shapeCasts_S100000x8x1_S100000x8,
    StableHlo.nullary main_cst_38 (constant S_ .f32 0x41700000#32),
    StableHlo.unary main_cst_38 main_v427 (broadcastInDim S100000x8 ![] bcast_S_S100000x8 : (⟨S_, .f32⟩ : BufTy).Contents (Elt F) → (⟨S100000x8, .f32⟩ : BufTy).Contents (Elt F)),
    StableHlo.binary main_v427 main_v426 main_v428 (mulf : (⟨S100000x8, .f32⟩ : BufTy).Contents (Elt F) → (⟨S100000x8, .f32⟩ : BufTy).Contents (Elt F) → (⟨S100000x8, .f32⟩ : BufTy).Contents (Elt F)),
    StableHlo.binary main_v390 main_v428 main_v429 (addf : (⟨S100000x8, .f32⟩ : BufTy).Contents (Elt F) → (⟨S100000x8, .f32⟩ : BufTy).Contents (Elt F) → (⟨S100000x8, .f32⟩ : BufTy).Contents (Elt F)),
    StableHlo.unary main_v400 main_v430 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v430 main_v412 main_v431 (mulf : (⟨S100000x8x1, .f32⟩ : BufTy).Contents (Elt F) → (⟨S100000x8x1, .f32⟩ : BufTy).Contents (Elt F) → (⟨S100000x8x1, .f32⟩ : BufTy).Contents (Elt F)),
    StableHlo.unary main_v400 main_v432 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v432 main_v422 main_v433 (mulf : (⟨S100000x8x1, .f32⟩ : BufTy).Contents (Elt F) → (⟨S100000x8x1, .f32⟩ : BufTy).Contents (Elt F) → (⟨S100000x8x1, .f32⟩ : BufTy).Contents (Elt F)),
    StableHlo.binary main_v433 main_v408 main_v434 (mulf : (⟨S100000x8x1, .f32⟩ : BufTy).Contents (Elt F) → (⟨S100000x8x1, .f32⟩ : BufTy).Contents (Elt F) → (⟨S100000x8x1, .f32⟩ : BufTy).Contents (Elt F)),
    StableHlo.binary main_v431 main_v434 main_v435 (addf : (⟨S100000x8x1, .f32⟩ : BufTy).Contents (Elt F) → (⟨S100000x8x1, .f32⟩ : BufTy).Contents (Elt F) → (⟨S100000x8x1, .f32⟩ : BufTy).Contents (Elt F)),
    StableHlo.unary main_v435 main_v436 (Host.log1p : (⟨S100000x8x1, .f32⟩ : BufTy).Contents (Elt F) → (⟨S100000x8x1, .f32⟩ : BufTy).Contents (Elt F)),
    StableHlo.reshape main_v436 main_v437 rfl shapeCasts_S100000x8x1_S100000x8,
    StableHlo.binary main_v429 main_v437 main_v438 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s429_480_sub : (s429_480 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., unary_bufs_sub .., binary_bufs_sub .., unary_bufs_sub .., reshape_bufs_sub .., nullary_bufs_sub .., unary_bufs_sub .., binary_bufs_sub .., binary_bufs_sub .., unary_bufs_sub .., binary_bufs_sub .., unary_bufs_sub .., binary_bufs_sub .., binary_bufs_sub .., binary_bufs_sub .., unary_bufs_sub .., reshape_bufs_sub .., binary_bufs_sub ..⟩
theorem s429_480_fresh : (s429_480 : List (HloOp τ sig (Elt F))).Forall fun op => op.fresh = ∅ := by
  simp only [List.Forall]; repeat' constructor
set_option maxHeartbeats 4000000 in
/-- None of these operations writes an argument of @main. -/
theorem s429_480_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s429_480 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s429_480, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s429_480_carries (V : Valuation τ sig (Elt F)) (r : Ref sig .tc) (hr : r ∈ [main_v51]) :
    after s429_480 V (Proc.devRef .tc r) = V (Proc.devRef .tc r) := by
  simp only [List.mem_cons, List.mem_nil_iff, or_false] at hr
  rcases hr with rfl
  all_goals exact after_of_forall_not_mem _ _ (List.forall_iff_forall_mem.mp (by
    simp only [s429_480, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 7 of @main is the run of its operations in order. -/
theorem part7_eq (c : Dev nD) : main_part7 (F := F) c = seq (s421_428 ++ s429_480) := by
  simp only [main_part7, fn_softplus.body, fn_norm.body, seq, List.cons_append, List.nil_append, bind_assoc, pure_bind]
  try rfl

end Cert.ReferenceIdeal.Ops

end
-- ==== Proof.RefOps.W08.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 8 of the reference's @main (statements 481 … 540) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 481 … 532 of @main: 82 operations, in order. -/
abbrev s481_532 : List (HloOp τ sig (Elt F)) :=
  [ StableHlo.unary main_arg13 main_v439 ((extractStridedSlice S1x8 ![1, 0] · slices_S10x8_S1x8_1_0) : (⟨S10x8, .f32⟩ : BufTy).Contents (Elt F) → (⟨S1x8, .f32⟩ : BufTy).Contents (Elt F)),
    StableHlo.reshape main_v439 main_v440 rfl shapeCasts_S1x8_S8,
    StableHlo.TRef.nullary main_call28.cst (constant S_ .f32 0x00000000#32),
    StableHlo.TRef.unary main_call28.cst main_call28.v0 (broadcastInDim S8 ![] bcast_S_S8),
    StableHlo.TRef.binary (.of main_v440) main_call28.v0 main_call28.v1 maximumf,
    StableHlo.TRef.unary main_call28.cst main_call28.v2 (broadcastInDim S8 ![] bcast_S_S8),
    StableHlo.TRef.binary (.of main_v440) main_call28.v2 main_call28.v3 subf,
    StableHlo.TRef.binary main_call28.v3 main_call28.v3 main_call28.v4 (cmpf .une),
    StableHlo.TRef.unary main_call28.cst main_call28.v5 (broadcastInDim S8 ![] bcast_S_S8),
    StableHlo.TRef.binary (.of main_v440) main_call28.v5 main_call28.v6 addf,
    StableHlo.TRef.unary main_call28.v3 main_call28.v7 Host.absf,
    StableHlo.TRef.unary main_call28.v7 main_call28.v8 Host.negf,
    StableHlo.TRef.unary main_call28.v8 main_call28.v9 Host.exp,
    StableHlo.TRef.unary main_call28.v9 main_call28.v10 Host.log1p,
    StableHlo.TRef.binary main_call28.v1 main_call28.v10 main_call28.v11 addf,
    StableHlo.TRef.ternary main_call28.v4 main_call28.v6 main_call28.v11 main_call28.v12 select,
    StableHlo.unary main_v441 main_v442 (broadcastInDim S1x8x1 ![1] bcast_S8_S1x8x1_1 : (⟨S8, .f32⟩ : BufTy).Contents (Elt F) → (⟨S1x8x1, .f32⟩ : BufTy).Contents (Elt F)),
    StableHlo.unary main_v442 main_v443 (Host.negf : (⟨S1x8x1, .f32⟩ : BufTy).Contents (Elt F) → (⟨S1x8x1, .f32⟩ : BufTy).Contents (Elt F)),
    StableHlo.unary main_arg14 main_v444 ((extractStridedSlice S1x8 ![1, 0] · slices_S10x8_S1x8_1_0) : (⟨S10x8, .f32⟩ : BufTy).Contents (Elt F) → (⟨S1x8, .f32⟩ : BufTy).Contents (Elt F)),
    StableHlo.reshape main_v444 main_v445 rfl shapeCasts_S1x8_S8,
    StableHlo.TRef.nullary main_call29.cst (constant S_ .f32 0x00000000#32),
    StableHlo.TRef.unary main_call29.cst main_call29.v0 (broadcastInDim S8 ![] bcast_S_S8),
    StableHlo.TRef.binary (.of main_v445) main_call29.v0 main_call29.v1 maximumf,
    StableHlo.TRef.unary main_call29.cst main_call29.v2 (broadcastInDim S8 ![] bcast_S_S8),
    StableHlo.TRef.binary (.of main_v445) main_call29.v2 main_call29.v3 subf,
    StableHlo.TRef.binary main_call29.v3 main_call29.v3 main_call29.v4 (cmpf .une),
    StableHlo.TRef.unary main_call29.cst main_call29.v5 (broadcastInDim S8 ![] bcast_S_S8),
    StableHlo.TRef.binary (.of main_v445) main_call29.v5 main_call29.v6 addf,
    StableHlo.TRef.unary main_call29.v3 main_call29.v7 Host.absf,
    StableHlo.TRef.unary main_call29.v7 main_call29.v8 Host.negf,
    StableHlo.TRef.unary main_call29.v8 main_call29.v9 Host.exp,
    StableHlo.TRef.unary main_call29.v9 main_call29.v10 Host.log1p,
    StableHlo.TRef.binary main_call29.v1 main_call29.v10 main_call29.v11 addf,
    StableHlo.TRef.ternary main_call29.v4 main_call29.v6 main_call29.v11 main_call29.v12 select,
    StableHlo.unary main_v446 main_v447 (broadcastInDim S1x8x1 ![1] bcast_S8_S1x8x1_1 : (⟨S8, .f32⟩ : BufTy).Contents (Elt F) → (⟨S1x8x1, .f32⟩ : BufTy).Contents (Elt F)),
    StableHlo.binary main_v443 main_v447 main_v448 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v449 ((extractStridedSlice S1x8x16 ![1, 0, 0] · slices_S10x8x16_S1x8x16_1_0_0) : (⟨S10x8x16, .f32⟩ : BufTy).Contents (Elt F) → (⟨S1x8x16, .f32⟩ : BufTy).Contents (Elt F)),
    StableHlo.reshape main_v449 main_v450 rfl shapeCasts_S1x8x16_S8x16,
    StableHlo.unary main_v450 main_v451 (broadcastInDim S1x8x16 ![1, 2] bcast_S8x16_S1x8x16_1_2 : (⟨S8x16, .f32⟩ : BufTy).Contents (Elt F) → (⟨S1x8x16, .f32⟩ : BufTy).Contents (Elt F)),
    StableHlo.unary main_v451 main_v452 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v417 main_v452 main_v453 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v453) (.of main_v453) main_call30.v0 mulf,
    StableHlo.TRef.nullary main_call30.cst (constant S_ .f32 0x00000000#32),
    StableHlo.TRef.binary main_call30.v0 main_call30.cst main_call30.v1 (fun x v => Host.reduceAdd x v reducesTo_S100000x8x16_S100000x8_d2 h_S_),
    StableHlo.TRef.unary main_call30.v1 main_call30.v2 (broadcastInDim S100000x8x1 ![0, 1] bcast_S100000x8_S100000x8x1_0_1),
    StableHlo.TRef.unary main_call30.v2 main_call30.v3 Host.sqrt,
    StableHlo.nullary main_cst_39 (constant S_ .f32 0x322BCC77#32),
    StableHlo.unary main_cst_39 main_v455 (broadcastInDim S100000x8x1 ![] bcast_S_S100000x8x1 : (⟨S_, .f32⟩ : BufTy).Contents (Elt F) → (⟨S100000x8x1, .f32⟩ : BufTy).Contents (Elt F)),
    StableHlo.binary main_v454 main_v455 main_v456 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v442 main_v457 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v457 main_v456 main_v458 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_40 (constant S_ .f32 0x3F800000#32),
    StableHlo.unary main_cst_40 main_v459 (broadcastInDim S100000x8x1 ![] bcast_S_S100000x8x1 : (⟨S_, .f32⟩ : BufTy).Contents (Elt F) → (⟨S100000x8x1, .f32⟩ : BufTy).Contents (Elt F)),
    StableHlo.binary main_v459 main_v458 main_v460 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v448 main_v461 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v461 main_v460 main_v462 (mulf : (⟨S100000x8x1, .f32⟩ : BufTy).Contents (Elt F) → (⟨S100000x8x1, .f32⟩ : BufTy).Contents (Elt F) → (⟨S100000x8x1, .f32⟩ : BufTy).Contents (Elt F)),
    StableHlo.unary main_v462 main_v463 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v463 main_v453 main_v464 (mulf : (⟨S100000x8x16, .f32⟩ : BufTy).Contents (Elt F) → (⟨S100000x8x16, .f32⟩ : BufTy).Contents (Elt F) → (⟨S100000x8x16, .f32⟩ : BufTy).Contents (Elt F)),
    StableHlo.binary main_v417 main_v464 main_v465 (addf : (⟨S100000x8x16, .f32⟩ : BufTy).Contents (Elt F) → (⟨S100000x8x16, .f32⟩ : BufTy).Contents (Elt F) → (⟨S100000x8x16, .f32⟩ : BufTy).Contents (Elt F)),
    StableHlo.unary main_v442 main_v466 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v466 main_v456 main_v467 (addf : (⟨S100000x8x1, .f32⟩ : BufTy).Contents (Elt F) → (⟨S100000x8x1, .f32⟩ : BufTy).Contents (Elt F) → (⟨S100000x8x1, .f32⟩ : BufTy).Contents (Elt F)),
    StableHlo.binary main_v467 main_v467 main_v468 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_41 (constant S_ .f32 0xBF800000#32),
    StableHlo.unary main_cst_41 main_v469 (broadcastInDim S100000x8x1 ![] bcast_S_S100000x8x1 : (⟨S_, .f32⟩ : BufTy).Contents (Elt F) → (⟨S100000x8x1, .f32⟩ : BufTy).Contents (Elt F)),
    StableHlo.binary main_v469 main_v468 main_v470 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v448 main_v471 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v471 main_v460 main_v472 (mulf : (⟨S100000x8x1, .f32⟩ : BufTy).Contents (Elt F) → (⟨S100000x8x1, .f32⟩ : BufTy).Contents (Elt F) → (⟨S100000x8x1, .f32⟩ : BufTy).Contents (Elt F)),
    StableHlo.unary main_v472 main_v473 (Host.log1p : (⟨S100000x8x1, .f32⟩ : BufTy).Contents (Elt F) → (⟨S100000x8x1, .f32⟩ : BufTy).Contents (Elt F)),
    StableHlo.reshape main_v473 main_v474 rfl shapeCasts_S100000x8x1_S100000x8,
    StableHlo.nullary main_cst_42 (constant S_ .f32 0x41700000#32),
    StableHlo.unary main_cst_42 main_v475 (broadcastInDim S100000x8 ![] bcast_S_S100000x8 : (⟨S_, .f32⟩ : BufTy).Contents (Elt F) → (⟨S100000x8, .f32⟩ : BufTy).Contents (Elt F)),
    StableHlo.binary main_v475 main_v474 main_v476 (mulf : (⟨S100000x8, .f32⟩ : BufTy).Contents (Elt F) → (⟨S100000x8, .f32⟩ : BufTy).Contents (Elt F) → (⟨S100000x8, .f32⟩ : BufTy).Contents (Elt F)),
    StableHlo.binary main_v438 main_v476 main_v477 (addf : (⟨S100000x8, .f32⟩ : BufTy).Contents (Elt F) → (⟨S100000x8, .f32⟩ : BufTy).Contents (Elt F) → (⟨S100000x8, .f32⟩ : BufTy).Contents (Elt F)),
    StableHlo.unary main_v448 main_v478 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v478 main_v460 main_v479 (mulf : (⟨S100000x8x1, .f32⟩ : BufTy).Contents (Elt F) → (⟨S100000x8x1, .f32⟩ : BufTy).Contents (Elt F) → (⟨S100000x8x1, .f32⟩ : BufTy).Contents (Elt F)),
    StableHlo.unary main_v448 main_v480 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v480 main_v470 main_v481 (mulf : (⟨S100000x8x1, .f32⟩ : BufTy).Contents (Elt F) → (⟨S100000x8x1, .f32⟩ : BufTy).Contents (Elt F) → (⟨S100000x8x1, .f32⟩ : BufTy).Contents (Elt F)),
    StableHlo.binary main_v481 main_v456 main_v482 (mulf : (⟨S100000x8x1, .f32⟩ : BufTy).Contents (Elt F) → (⟨S100000x8x1, .f32⟩ : BufTy).Contents (Elt F) → (⟨S100000x8x1, .f32⟩ : BufTy).Contents (Elt F)),
    StableHlo.binary main_v479 main_v482 main_v483 (addf : (⟨S100000x8x1, .f32⟩ : BufTy).Contents (Elt F) → (⟨S100000x8x1, .f32⟩ : BufTy).Contents (Elt F) → (⟨S100000x8x1, .f32⟩ : BufTy).Contents (Elt F)),
    StableHlo.unary main_v483 main_v484 (Host.log1p : (⟨S100000x8x1, .f32⟩ : BufTy).Contents (Elt F) → (⟨S100000x8x1, .f32⟩ : BufTy).Contents (Elt F)),
    StableHlo.reshape main_v484 main_v485 rfl shapeCasts_S100000x8x1_S100000x8,
    StableHlo.binary main_v477 main_v485 main_v486 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s481_532_sub : (s481_532 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., unary_bufs_sub .., binary_bufs_sub .., unary_bufs_sub .., reshape_bufs_sub .., nullary_bufs_sub .., unary_bufs_sub .., binary_bufs_sub .., binary_bufs_sub .., unary_bufs_sub .., binary_bufs_sub .., unary_bufs_sub .., binary_bufs_sub .., binary_bufs_sub .., binary_bufs_sub .., unary_bufs_sub .., reshape_bufs_sub .., binary_bufs_sub ..⟩
theorem s481_532_fresh : (s481_532 : List (HloOp τ sig (Elt F))).Forall fun op => op.fresh = ∅ := by
  simp only [List.Forall]; repeat' constructor
set_option maxHeartbeats 4000000 in
/-- None of these operations writes an argument of @main. -/
theorem s481_532_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s481_532 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s481_532, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s481_532_carries (V : Valuation τ sig (Elt F)) (r : Ref sig .tc) (hr : r ∈ [main_v51]) :
    after s481_532 V (Proc.devRef .tc r) = V (Proc.devRef .tc r) := by
  simp only [List.mem_cons, List.mem_nil_iff, or_false] at hr
  rcases hr with rfl
  all_goals exact after_of_forall_not_mem _ _ (List.forall_iff_forall_mem.mp (by
    simp only [s481_532, List.Forall, nullary_writes, unary_writes, binary_writes, ternary_writes, quaternary_writes, reshape_writes, Finset.mem_singleton]
    repeat' apply And.intro
    all_goals exact devRef_ne_of_ne (by decide)))

/-- Statements 533 … 540 of @main: 34 operations, in order. -/
abbrev s533_540 : List (HloOp τ sig (Elt F)) :=
  [ StableHlo.unary main_arg13 main_v487 ((extractStridedSlice S1x8 ![0, 0] · slices_S10x8_S1x8_0_0) : (⟨S10x8, .f32⟩ : BufTy).Contents (Elt F) → (⟨S1x8, .f32⟩ : BufTy).Contents (Elt F)),
    StableHlo.reshape main_v487 main_v488 rfl shapeCasts_S1x8_S8,
    StableHlo.TRef.nullary main_call31.cst (constant S_ .f32 0x00000000#32),
    StableHlo.TRef.unary main_call31.cst main_call31.v0 (broadcastInDim S8 ![] bcast_S_S8),
    StableHlo.TRef.binary (.of main_v488) main_call31.v0 main_call31.v1 maximumf,
    StableHlo.TRef.unary main_call31.cst main_call31.v2 (broadcastInDim S8 ![] bcast_S_S8),
    StableHlo.TRef.binary (.of main_v488) main_call31.v2 main_call31.v3 subf,
    StableHlo.TRef.binary main_call31.v3 main_call31.v3 main_call31.v4 (cmpf .une),
    StableHlo.TRef.unary main_call31.cst main_call31.v5 (broadcastInDim S8 ![] bcast_S_S8),
    StableHlo.TRef.binary (.of main_v488) main_call31.v5 main_call31.v6 addf,
    StableHlo.TRef.unary main_call31.v3 main_call31.v7 Host.absf,
    StableHlo.TRef.unary main_call31.v7 main_call31.v8 Host.negf,
    StableHlo.TRef.unary main_call31.v8 main_call31.v9 Host.exp,
    StableHlo.TRef.unary main_call31.v9 main_call31.v10 Host.log1p,
    StableHlo.TRef.binary main_call31.v1 main_call31.v10 main_call31.v11 addf,
    StableHlo.TRef.ternary main_call31.v4 main_call31.v6 main_call31.v11 main_call31.v12 select,
    StableHlo.unary main_v489 main_v490 (broadcastInDim S1x8x1 ![1] bcast_S8_S1x8x1_1 : (⟨S8, .f32⟩ : BufTy).Contents (Elt F) → (⟨S1x8x1, .f32⟩ : BufTy).Contents (Elt F)),
    StableHlo.unary main_v490 main_v491 (Host.negf : (⟨S1x8x1, .f32⟩ : BufTy).Contents (Elt F) → (⟨S1x8x1, .f32⟩ : BufTy).Contents (Elt F)),
    StableHlo.unary main_arg14 main_v492 ((extractStridedSlice S1x8 ![0, 0] · slices_S10x8_S1x8_0_0) : (⟨S10x8, .f32⟩ : BufTy).Contents (Elt F) → (⟨S1x8, .f32⟩ : BufTy).Contents (Elt F)),
    StableHlo.reshape main_v492 main_v493 rfl shapeCasts_S1x8_S8,
    StableHlo.TRef.nullary main_call32.cst (constant S_ .f32 0x00000000#32),
    StableHlo.TRef.unary main_call32.cst main_call32.v0 (broadcastInDim S8 ![] bcast_S_S8),
    StableHlo.TRef.binary (.of main_v493) main_call32.v0 main_call32.v1 maximumf,
    StableHlo.TRef.unary main_call32.cst main_call32.v2 (broadcastInDim S8 ![] bcast_S_S8),
    StableHlo.TRef.binary (.of main_v493) main_call32.v2 main_call32.v3 subf,
    StableHlo.TRef.binary main_call32.v3 main_call32.v3 main_call32.v4 (cmpf .une),
    StableHlo.TRef.unary main_call32.cst main_call32.v5 (broadcastInDim S8 ![] bcast_S_S8),
    StableHlo.TRef.binary (.of main_v493) main_call32.v5 main_call32.v6 addf,
    StableHlo.TRef.unary main_call32.v3 main_call32.v7 Host.absf,
    StableHlo.TRef.unary main_call32.v7 main_call32.v8 Host.negf,
    StableHlo.TRef.unary main_call32.v8 main_call32.v9 Host.exp,
    StableHlo.TRef.unary main_call32.v9 main_call32.v10 Host.log1p,
    StableHlo.TRef.binary main_call32.v1 main_call32.v10 main_call32.v11 addf,
    StableHlo.TRef.ternary main_call32.v4 main_call32.v6 main_call32.v11 main_call32.v12 select ]
set_option maxHeartbeats 4000000 in
theorem s533_540_sub : (s533_540 : List (HloOp τ sig (Elt F))).Forall fun op => op.bufs ⊆ tcRefs τ sig :=
  ⟨unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem s533_540_fresh : (s533_540 : List (HloOp τ sig (Elt F))).Forall fun op => op.fresh = ∅ := by
  simp only [List.Forall]; repeat' constructor
set_option maxHeartbeats 4000000 in
/-- None of these operations writes an argument of @main. -/
theorem s533_540_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s533_540 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s533_540, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s533_540_carries (V : Valuation τ sig (Elt F)) (r : Ref sig .tc) (hr : r ∈ [main_v51]) :
    after s533_540 V (Proc.devRef .tc r) = V (Proc.devRef .tc r) := by
  simp only [List.mem_cons, List.mem_nil_iff, or_false] at hr
  rcases hr with rfl
  all_goals exact after_of_forall_not_mem _ _ (List.forall_iff_forall_mem.mp (by
    simp only [s533_540, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 8 of @main is the run of its operations in order. -/
theorem part8_eq (c : Dev nD) : main_part8 (F := F) c = seq (s481_532 ++ s533_540) := by
  simp only [main_part8, fn_softplus.body, fn_norm.body, seq, List.cons_append, List.nil_append, bind_assoc, pure_bind]
  try rfl

end Cert.ReferenceIdeal.Ops

end
-- ==== Proof.RefOps.W09.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 9 of the reference's @main (statements 541 … 600) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 541 … 584 of @main: 48 operations, in order. -/
abbrev s541_584 : List (HloOp τ sig (Elt F)) :=
  [ StableHlo.unary main_v494 main_v495 (broadcastInDim S1x8x1 ![1] bcast_S8_S1x8x1_1 : (⟨S8, .f32⟩ : BufTy).Contents (Elt F) → (⟨S1x8x1, .f32⟩ : BufTy).Contents (Elt F)),
    StableHlo.binary main_v491 main_v495 main_v496 (addf : (⟨S1x8x1, .f32⟩ : BufTy).Contents (Elt F) → (⟨S1x8x1, .f32⟩ : BufTy).Contents (Elt F) → (⟨S1x8x1, .f32⟩ : BufTy).Contents (Elt F)),
    StableHlo.unary main_arg12 main_v497 ((extractStridedSlice S1x8x16 ![0, 0, 0] · slices_S10x8x16_S1x8x16_0_0_0) : (⟨S10x8x16, .f32⟩ : BufTy).Contents (Elt F) → (⟨S1x8x16, .f32⟩ : BufTy).Contents (Elt F)),
    StableHlo.reshape main_v497 main_v498 rfl shapeCasts_S1x8x16_S8x16,
    StableHlo.unary main_v498 main_v499 (broadcastInDim S1x8x16 ![1, 2] bcast_S8x16_S1x8x16_1_2 : (⟨S8x16, .f32⟩ : BufTy).Contents (Elt F) → (⟨S1x8x16, .f32⟩ : BufTy).Contents (Elt F)),
    StableHlo.unary main_v499 main_v500 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v465 main_v500 main_v501 (subf : (⟨S100000x8x16, .f32⟩ : BufTy).Contents (Elt F) → (⟨S100000x8x16, .f32⟩ : BufTy).Contents (Elt F) → (⟨S100000x8x16, .f32⟩ : BufTy).Contents (Elt F)),
    StableHlo.TRef.binary (.of main_v501) (.of main_v501) main_call33.v0 mulf,
    StableHlo.TRef.nullary main_call33.cst (constant S_ .f32 0x00000000#32),
    StableHlo.TRef.binary main_call33.v0 main_call33.cst main_call33.v1 (fun x v => Host.reduceAdd x v reducesTo_S100000x8x16_S100000x8_d2 h_S_),
    StableHlo.TRef.unary main_call33.v1 main_call33.v2 (broadcastInDim S100000x8x1 ![0, 1] bcast_S100000x8_S100000x8x1_0_1),
    StableHlo.TRef.unary main_call33.v2 main_call33.v3 Host.sqrt,
    StableHlo.nullary main_cst_43 (constant S_ .f32 0x322BCC77#32),
    StableHlo.unary main_cst_43 main_v503 (broadcastInDim S100000x8x1 ![] bcast_S_S100000x8x1 : (⟨S_, .f32⟩ : BufTy).Contents (Elt F) → (⟨S100000x8x1, .f32⟩ : BufTy).Contents (Elt F)),
    StableHlo.binary main_v502 main_v503 main_v504 (maximumf : (⟨S100000x8x1, .f32⟩ : BufTy).Contents (Elt F) → (⟨S100000x8x1, .f32⟩ : BufTy).Contents (Elt F) → (⟨S100000x8x1, .f32⟩ : BufTy).Contents (Elt F)),
    StableHlo.unary main_v490 main_v505 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v505 main_v504 main_v506 (addf : (⟨S100000x8x1, .f32⟩ : BufTy).Contents (Elt F) → (⟨S100000x8x1, .f32⟩ : BufTy).Contents (Elt F) → (⟨S100000x8x1, .f32⟩ : BufTy).Contents (Elt F)),
    StableHlo.nullary main_cst_44 (constant S_ .f32 0x3F800000#32),
    StableHlo.unary main_cst_44 main_v507 (broadcastInDim S100000x8x1 ![] bcast_S_S100000x8x1 : (⟨S_, .f32⟩ : BufTy).Contents (Elt F) → (⟨S100000x8x1, .f32⟩ : BufTy).Contents (Elt F)),
    StableHlo.binary main_v507 main_v506 main_v508 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v496 main_v509 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v509 main_v508 main_v510 (mulf : (⟨S100000x8x1, .f32⟩ : BufTy).Contents (Elt F) → (⟨S100000x8x1, .f32⟩ : BufTy).Contents (Elt F) → (⟨S100000x8x1, .f32⟩ : BufTy).Contents (Elt F)),
    StableHlo.unary main_v510 main_v511 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    StableHlo.binary main_v511 main_v501 main_v512 (mulf : (⟨S100000x8x16, .f32⟩ : BufTy).Contents (Elt F) → (⟨S100000x8x16, .f32⟩ : BufTy).Contents (Elt F) → (⟨S100000x8x16, .f32⟩ : BufTy).Contents (Elt F)),
    StableHlo.binary main_v465 main_v512 main_v513 (addf : (⟨S100000x8x16, .f32⟩ : BufTy).Contents (Elt F) → (⟨S100000x8x16, .f32⟩ : BufTy).Contents (Elt F) → (⟨S100000x8x16, .f32⟩ : BufTy).Contents (Elt F)),
    StableHlo.unary main_v490 main_v514 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v514 main_v504 main_v515 (addf : (⟨S100000x8x1, .f32⟩ : BufTy).Contents (Elt F) → (⟨S100000x8x1, .f32⟩ : BufTy).Contents (Elt F) → (⟨S100000x8x1, .f32⟩ : BufTy).Contents (Elt F)),
    StableHlo.binary main_v515 main_v515 main_v516 (mulf : (⟨S100000x8x1, .f32⟩ : BufTy).Contents (Elt F) → (⟨S100000x8x1, .f32⟩ : BufTy).Contents (Elt F) → (⟨S100000x8x1, .f32⟩ : BufTy).Contents (Elt F)),
    StableHlo.nullary main_cst_45 (constant S_ .f32 0xBF800000#32),
    StableHlo.unary main_cst_45 main_v517 (broadcastInDim S100000x8x1 ![] bcast_S_S100000x8x1 : (⟨S_, .f32⟩ : BufTy).Contents (Elt F) → (⟨S100000x8x1, .f32⟩ : BufTy).Contents (Elt F)),
    StableHlo.binary main_v517 main_v516 main_v518 (Host.divf : (⟨S100000x8x1, .f32⟩ : BufTy).Contents (Elt F) → (⟨S100000x8x1, .f32⟩ : BufTy).Contents (Elt F) → (⟨S100000x8x1, .f32⟩ : BufTy).Contents (Elt F)),
    StableHlo.unary main_v496 main_v519 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v519 main_v508 main_v520 (mulf : (⟨S100000x8x1, .f32⟩ : BufTy).Contents (Elt F) → (⟨S100000x8x1, .f32⟩ : BufTy).Contents (Elt F) → (⟨S100000x8x1, .f32⟩ : BufTy).Contents (Elt F)),
    StableHlo.unary main_v520 main_v521 (Host.log1p : (⟨S100000x8x1, .f32⟩ : BufTy).Contents (Elt F) → (⟨S100000x8x1, .f32⟩ : BufTy).Contents (Elt F)),
    StableHlo.reshape main_v521 main_v522 rfl shapeCasts_S100000x8x1_S100000x8,
    StableHlo.nullary main_cst_46 (constant S_ .f32 0x41700000#32),
    StableHlo.unary main_cst_46 main_v523 (broadcastInDim S100000x8 ![] bcast_S_S100000x8 : (⟨S_, .f32⟩ : BufTy).Contents (Elt F) → (⟨S100000x8, .f32⟩ : BufTy).Contents (Elt F)),
    StableHlo.binary main_v523 main_v522 main_v524 (mulf : (⟨S100000x8, .f32⟩ : BufTy).Contents (Elt F) → (⟨S100000x8, .f32⟩ : BufTy).Contents (Elt F) → (⟨S100000x8, .f32⟩ : BufTy).Contents (Elt F)),
    StableHlo.binary main_v486 main_v524 main_v525 (addf : (⟨S100000x8, .f32⟩ : BufTy).Contents (Elt F) → (⟨S100000x8, .f32⟩ : BufTy).Contents (Elt F) → (⟨S100000x8, .f32⟩ : BufTy).Contents (Elt F)),
    StableHlo.unary main_v496 main_v526 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v526 main_v508 main_v527 (mulf : (⟨S100000x8x1, .f32⟩ : BufTy).Contents (Elt F) → (⟨S100000x8x1, .f32⟩ : BufTy).Contents (Elt F) → (⟨S100000x8x1, .f32⟩ : BufTy).Contents (Elt F)),
    StableHlo.unary main_v496 main_v528 (broadcastInDim S100000x8x1 ![0, 1, 2] bcast_S1x8x1_S100000x8x1_0_1_2 : (⟨S1x8x1, .f32⟩ : BufTy).Contents (Elt F) → (⟨S100000x8x1, .f32⟩ : BufTy).Contents (Elt F)),
    StableHlo.binary main_v528 main_v518 main_v529 (mulf : (⟨S100000x8x1, .f32⟩ : BufTy).Contents (Elt F) → (⟨S100000x8x1, .f32⟩ : BufTy).Contents (Elt F) → (⟨S100000x8x1, .f32⟩ : BufTy).Contents (Elt F)),
    StableHlo.binary main_v529 main_v504 main_v530 (mulf : (⟨S100000x8x1, .f32⟩ : BufTy).Contents (Elt F) → (⟨S100000x8x1, .f32⟩ : BufTy).Contents (Elt F) → (⟨S100000x8x1, .f32⟩ : BufTy).Contents (Elt F)),
    StableHlo.binary main_v527 main_v530 main_v531 (addf : (⟨S100000x8x1, .f32⟩ : BufTy).Contents (Elt F) → (⟨S100000x8x1, .f32⟩ : BufTy).Contents (Elt F) → (⟨S100000x8x1, .f32⟩ : BufTy).Contents (Elt F)),
    StableHlo.unary main_v531 main_v532 (Host.log1p : (⟨S100000x8x1, .f32⟩ : BufTy).Contents (Elt F) → (⟨S100000x8x1, .f32⟩ : BufTy).Contents (Elt F)),
    StableHlo.reshape main_v532 main_v533 rfl shapeCasts_S100000x8x1_S100000x8,
    StableHlo.binary main_v525 main_v533 main_v534 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s541_584_sub : (s541_584 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., unary_bufs_sub .., binary_bufs_sub .., unary_bufs_sub .., reshape_bufs_sub .., nullary_bufs_sub .., unary_bufs_sub .., binary_bufs_sub .., binary_bufs_sub .., unary_bufs_sub .., binary_bufs_sub .., unary_bufs_sub .., binary_bufs_sub .., binary_bufs_sub .., binary_bufs_sub .., unary_bufs_sub .., reshape_bufs_sub .., binary_bufs_sub ..⟩
theorem s541_584_fresh : (s541_584 : List (HloOp τ sig (Elt F))).Forall fun op => op.fresh = ∅ := by
  simp only [List.Forall]; repeat' constructor
set_option maxHeartbeats 4000000 in
/-- None of these operations writes an argument of @main. -/
theorem s541_584_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s541_584 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s541_584, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s541_584_carries (V : Valuation τ sig (Elt F)) (r : Ref sig .tc) (hr : r ∈ [main_v51]) :
    after s541_584 V (Proc.devRef .tc r) = V (Proc.devRef .tc r) := by
  simp only [List.mem_cons, List.mem_nil_iff, or_false] at hr
  rcases hr with rfl
  all_goals exact after_of_forall_not_mem _ _ (List.forall_iff_forall_mem.mp (by
    simp only [s541_584, List.Forall, nullary_writes, unary_writes, binary_writes, ternary_writes, quaternary_writes, reshape_writes, Finset.mem_singleton]
    repeat' apply And.intro
    all_goals exact devRef_ne_of_ne (by decide)))

/-- Statements 585 … 600 of @main: 16 operations, in order. -/
abbrev s585_600 : List (HloOp τ sig (Elt F)) :=
  [ StableHlo.unary main_arg16 main_v535 (Host.exp : (⟨S8x16, .f32⟩ : BufTy).Contents (Elt F) → (⟨S8x16, .f32⟩ : BufTy).Contents (Elt F)),
    StableHlo.nullary main_cst_47 (constant S_ .f32 0x00000000#32),
    StableHlo.binary main_arg16 main_cst_47 main_v536 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.unary main_v536 main_v537 (broadcastInDim S1x8 ![1] bcast_S8_S1x8_1 : (⟨S8, .f32⟩ : BufTy).Contents (Elt F) → (⟨S1x8, .f32⟩ : BufTy).Contents (Elt F)),
    StableHlo.nullary main_cst_48 (constant S_ .f32 0x3F000000#32),
    StableHlo.unary main_cst_48 main_v538 (broadcastInDim S1x8 ![] bcast_S_S1x8 : (⟨S_, .f32⟩ : BufTy).Contents (Elt F) → (⟨S1x8, .f32⟩ : BufTy).Contents (Elt F)),
    StableHlo.binary main_v538 main_v537 main_v539 (mulf : (⟨S1x8, .f32⟩ : BufTy).Contents (Elt F) → (⟨S1x8, .f32⟩ : BufTy).Contents (Elt F) → (⟨S1x8, .f32⟩ : BufTy).Contents (Elt F)),
    StableHlo.nullary main_cst_49 (constant S_ .f32 0xC16B3F8E#32),
    StableHlo.unary main_cst_49 main_v540 (broadcastInDim S1x8 ![] bcast_S_S1x8 : (⟨S_, .f32⟩ : BufTy).Contents (Elt F) → (⟨S1x8, .f32⟩ : BufTy).Contents (Elt F)),
    StableHlo.binary main_v540 main_v539 main_v541 (subf : (⟨S1x8, .f32⟩ : BufTy).Contents (Elt F) → (⟨S1x8, .f32⟩ : BufTy).Contents (Elt F) → (⟨S1x8, .f32⟩ : BufTy).Contents (Elt F)),
    StableHlo.unary main_arg15 main_v542 (broadcastInDim S1x8x16 ![1, 2] bcast_S8x16_S1x8x16_1_2 : (⟨S8x16, .f32⟩ : BufTy).Contents (Elt F) → (⟨S1x8x16, .f32⟩ : BufTy).Contents (Elt F)),
    StableHlo.unary main_v542 main_v543 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v513 main_v543 main_v544 (subf : (⟨S100000x8x16, .f32⟩ : BufTy).Contents (Elt F) → (⟨S100000x8x16, .f32⟩ : BufTy).Contents (Elt F) → (⟨S100000x8x16, .f32⟩ : BufTy).Contents (Elt F)),
    StableHlo.binary main_v544 main_v544 main_v545 (mulf : (⟨S100000x8x16, .f32⟩ : BufTy).Contents (Elt F) → (⟨S100000x8x16, .f32⟩ : BufTy).Contents (Elt F) → (⟨S100000x8x16, .f32⟩ : BufTy).Contents (Elt F)),
    StableHlo.unary main_v535 main_v546 (broadcastInDim S1x8x16 ![1, 2] bcast_S8x16_S1x8x16_1_2 : (⟨S8x16, .f32⟩ : BufTy).Contents (Elt F) → (⟨S1x8x16, .f32⟩ : BufTy).Contents (Elt F)),
    StableHlo.unary main_v546 main_v547 (broadcastInDim S100000x8x16 ![0, 1, 2] bcast_S1x8x16_S100000x8x16_0_1_2 : (⟨S1x8x16, .f32⟩ : BufTy).Contents (Elt F) → (⟨S100000x8x16, .f32⟩ : BufTy).Contents (Elt F)) ]
set_option maxHeartbeats 4000000 in
theorem s585_600_sub : (s585_600 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub ..⟩
theorem s585_600_fresh : (s585_600 : List (HloOp τ sig (Elt F))).Forall fun op => op.fresh = ∅ := by
  simp only [List.Forall]; repeat' constructor
set_option maxHeartbeats 4000000 in
/-- None of these operations writes an argument of @main. -/
theorem s585_600_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s585_600 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s585_600, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s585_600_carries (V : Valuation τ sig (Elt F)) (r : Ref sig .tc) (hr : r ∈ [main_v51]) :
    after s585_600 V (Proc.devRef .tc r) = V (Proc.devRef .tc r) := by
  simp only [List.mem_cons, List.mem_nil_iff, or_false] at hr
  rcases hr with rfl
  all_goals exact after_of_forall_not_mem _ _ (List.forall_iff_forall_mem.mp (by
    simp only [s585_600, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 9 of @main is the run of its operations in order. -/
theorem part9_eq (c : Dev nD) : main_part9 (F := F) c = seq (s541_584 ++ s585_600) := by
  simp only [main_part9, fn_norm.body, seq, List.cons_append, List.nil_append, bind_assoc, pure_bind]
  try rfl

end Cert.ReferenceIdeal.Ops

end
-- ==== Proof.RefOps.W10.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 10 of the reference's @main (statements 601 … 660) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 601 … 616 of @main: 21 operations, in order. -/
abbrev s601_616 : List (HloOp τ sig (Elt F)) :=
  [ StableHlo.binary main_v545 main_v547 main_v548 (Host.divf : (⟨S100000x8x16, .f32⟩ : BufTy).Contents (Elt F) → (⟨S100000x8x16, .f32⟩ : BufTy).Contents (Elt F) → (⟨S100000x8x16, .f32⟩ : BufTy).Contents (Elt F)),
    StableHlo.nullary main_cst_50 (constant S_ .f32 0x00000000#32),
    StableHlo.binary main_v548 main_cst_50 main_v549 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    StableHlo.nullary main_cst_51 (constant S_ .f32 0x3F000000#32),
    StableHlo.unary main_cst_51 main_v550 (broadcastInDim S100000x8 ![] bcast_S_S100000x8 : (⟨S_, .f32⟩ : BufTy).Contents (Elt F) → (⟨S100000x8, .f32⟩ : BufTy).Contents (Elt F)),
    StableHlo.binary main_v550 main_v549 main_v551 (mulf : (⟨S100000x8, .f32⟩ : BufTy).Contents (Elt F) → (⟨S100000x8, .f32⟩ : BufTy).Contents (Elt F) → (⟨S100000x8, .f32⟩ : BufTy).Contents (Elt F)),
    StableHlo.unary main_v541 main_v552 (broadcastInDim S100000x8 ![0, 1] bcast_S1x8_S100000x8_0_1 : (⟨S1x8, .f32⟩ : BufTy).Contents (Elt F) → (⟨S100000x8, .f32⟩ : BufTy).Contents (Elt F)),
    StableHlo.binary main_v552 main_v551 main_v553 (subf : (⟨S100000x8, .f32⟩ : BufTy).Contents (Elt F) → (⟨S100000x8, .f32⟩ : BufTy).Contents (Elt F) → (⟨S100000x8, .f32⟩ : BufTy).Contents (Elt F)),
    StableHlo.binary main_v553 main_v534 main_v554 (addf : (⟨S100000x8, .f32⟩ : BufTy).Contents (Elt F) → (⟨S100000x8, .f32⟩ : BufTy).Contents (Elt F) → (⟨S100000x8, .f32⟩ : BufTy).Contents (Elt F)),
    StableHlo.nullary main_cst_52 (constant S_ .f32 0x41A1FC4D#32),
    StableHlo.unary main_cst_52 main_v555 (broadcastInDim S100000x8 ![] bcast_S_S100000x8 : (⟨S_, .f32⟩ : BufTy).Contents (Elt F) → (⟨S100000x8, .f32⟩ : BufTy).Contents (Elt F)),
    StableHlo.binary main_v554 main_v555 main_v556 (addf : (⟨S100000x8, .f32⟩ : BufTy).Contents (Elt F) → (⟨S100000x8, .f32⟩ : BufTy).Contents (Elt F) → (⟨S100000x8, .f32⟩ : BufTy).Contents (Elt F)),
    StableHlo.nullary main_cst_53 (constant S_ .f32 0xC1F00000#32),
    StableHlo.nullary main_cst_54 (constant S_ .f32 0x41F00000#32),
    StableHlo.TRef.unary (.of main_cst_53) main_call34.v0 id,
    StableHlo.TRef.unary main_call34.v0 main_call34.v1 (broadcastInDim S100000x8 ![] bcast_S_S100000x8),
    StableHlo.TRef.binary main_call34.v1 (.of main_v556) main_call34.v2 maximumf,
    StableHlo.TRef.unary (.of main_cst_54) main_call34.v3 id,
    StableHlo.TRef.unary main_call34.v3 main_call34.v4 (broadcastInDim S100000x8 ![] bcast_S_S100000x8),
    StableHlo.TRef.binary main_call34.v4 main_call34.v2 main_call34.v5 minimumf,
    StableHlo.unary main_v557 main_v558 (Host.exp : (⟨S100000x8, .f32⟩ : BufTy).Contents (Elt F) → (⟨S100000x8, .f32⟩ : BufTy).Contents (Elt F)) ]
set_option maxHeartbeats 4000000 in
theorem s601_616_sub : (s601_616 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub ..⟩
theorem s601_616_fresh : (s601_616 : List (HloOp τ sig (Elt F))).Forall fun op => op.fresh = ∅ := by
  simp only [List.Forall]; repeat' constructor
set_option maxHeartbeats 4000000 in
/-- None of these operations writes an argument of @main. -/
theorem s601_616_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s601_616 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s601_616, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s601_616_carries (V : Valuation τ sig (Elt F)) (r : Ref sig .tc) (hr : r ∈ [main_v51]) :
    after s601_616 V (Proc.devRef .tc r) = V (Proc.devRef .tc r) := by
  simp only [List.mem_cons, List.mem_nil_iff, or_false] at hr
  rcases hr with rfl
  all_goals exact after_of_forall_not_mem _ _ (List.forall_iff_forall_mem.mp (by
    simp only [s601_616, List.Forall, nullary_writes, unary_writes, binary_writes, ternary_writes, quaternary_writes, reshape_writes, Finset.mem_singleton]
    repeat' apply And.intro
    all_goals exact devRef_ne_of_ne (by decide)))

/-- Statements 617 … 632 of @main: 16 operations, in order. -/
abbrev s617_632 : List (HloOp τ sig (Elt F)) :=
  [ StableHlo.nullary main_v559 (iotaInDim S100000 32 0),
    StableHlo.unary main_arg1 main_v560 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v560 main_v561 rfl shapeCasts_S1x3200000_S3200000,
    StableHlo.binary main_v561 main_v559 main_v562 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v563 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v563 main_v564 rfl shapeCasts_S1x3200000_S3200000,
    StableHlo.binary main_v564 main_v559 main_v565 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst_55 (constant S_ .f32 0x3F800000#32),
    StableHlo.unary main_cst_55 main_v566 (broadcastInDim S3300000 ![] bcast_S_S3300000 : (⟨S_, .f32⟩ : BufTy).Contents (Elt F) → (⟨S3300000, .f32⟩ : BufTy).Contents (Elt F)),
    StableHlo.nullary main_cst_56 (constant S_ .f32 0x00000000#32),
    StableHlo.unary main_cst_56 main_v567 (broadcastInDim S100000 ![] bcast_S_S100000 : (⟨S_, .f32⟩ : BufTy).Contents (Elt F) → (⟨S100000, .f32⟩ : BufTy).Contents (Elt F)),
    StableHlo.unary main_v562 main_v568 (broadcastInDim S3300000x1 ![0] bcast_S3300000_S3300000x1_0 : (⟨S3300000, .i32⟩ : BufTy).Contents (Elt F) → (⟨S3300000x1, .i32⟩ : BufTy).Contents (Elt F)),
    StableHlo.ternary main_v567 main_v568 main_v566 main_v569 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_57 (constant S_ .f32 0x00000000#32),
    StableHlo.unary main_cst_57 main_v570 (broadcastInDim S100000 ![] bcast_S_S100000 : (⟨S_, .f32⟩ : BufTy).Contents (Elt F) → (⟨S100000, .f32⟩ : BufTy).Contents (Elt F)),
    StableHlo.binary main_v569 main_v570 main_v571 (cmpf .ogt : (⟨S100000, .f32⟩ : BufTy).Contents (Elt F) → (⟨S100000, .f32⟩ : BufTy).Contents (Elt F) → (⟨S100000, .i1⟩ : BufTy).Contents (Elt F)) ]
set_option maxHeartbeats 4000000 in
theorem s617_632_sub : (s617_632 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub ..⟩
theorem s617_632_fresh : (s617_632 : List (HloOp τ sig (Elt F))).Forall fun op => op.fresh = ∅ := by
  simp only [List.Forall]; repeat' constructor
set_option maxHeartbeats 4000000 in
/-- None of these operations writes an argument of @main. -/
theorem s617_632_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s617_632 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s617_632, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s617_632_carries (V : Valuation τ sig (Elt F)) (r : Ref sig .tc) (hr : r ∈ [main_v51, main_v554, main_v558]) :
    after s617_632 V (Proc.devRef .tc r) = V (Proc.devRef .tc r) := by
  simp only [List.mem_cons, List.mem_nil_iff, or_false] at hr
  rcases hr with rfl | rfl | rfl
  all_goals exact after_of_forall_not_mem _ _ (List.forall_iff_forall_mem.mp (by
    simp only [s617_632, List.Forall, nullary_writes, unary_writes, binary_writes, ternary_writes, quaternary_writes, reshape_writes, Finset.mem_singleton]
    repeat' apply And.intro
    all_goals exact devRef_ne_of_ne (by decide)))

/-- Statements 633 … 637 of @main: 7 operations, in order. -/
abbrev s633_637 : List (HloOp τ sig (Elt F)) :=
  [ StableHlo.nullary main_cst_58 (constant S_ .f32 0xBF000000#32),
    StableHlo.unary main_cst_58 main_v572 (broadcastInDim S100000 ![] bcast_S_S100000 : (⟨S_, .f32⟩ : BufTy).Contents (Elt F) → (⟨S100000, .f32⟩ : BufTy).Contents (Elt F)),
    StableHlo.binary main_v569 main_v572 main_v573 (Host.powf : (⟨S100000, .f32⟩ : BufTy).Contents (Elt F) → (⟨S100000, .f32⟩ : BufTy).Contents (Elt F) → (⟨S100000, .f32⟩ : BufTy).Contents (Elt F)),
    StableHlo.nullary main_cst_59 (constant S_ .f32 0x00000000#32),
    StableHlo.TRef.unary (.of main_cst_59) main_call35.v0 id,
    StableHlo.TRef.unary main_call35.v0 main_call35.v1 (broadcastInDim S100000 ![] bcast_S_S100000),
    StableHlo.TRef.ternary (.of main_v571) (.of main_v573) main_call35.v1 main_call35.v2 select ]
set_option maxHeartbeats 4000000 in
theorem s633_637_sub : (s633_637 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub ..⟩
theorem s633_637_fresh : (s633_637 : List (HloOp τ sig (Elt F))).Forall fun op => op.fresh = ∅ := by
  simp only [List.Forall]; repeat' constructor
set_option maxHeartbeats 4000000 in
/-- None of these operations writes an argument of @main. -/
theorem s633_637_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s633_637 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s633_637, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s633_637_carries (V : Valuation τ sig (Elt F)) (r : Ref sig .tc) (hr : r ∈ [main_v51, main_v554, main_v558, main_v562, main_v565]) :
    after s633_637 V (Proc.devRef .tc r) = V (Proc.devRef .tc r) := by
  simp only [List.mem_cons, List.mem_nil_iff, or_false] at hr
  rcases hr with rfl | rfl | rfl | rfl | rfl
  all_goals exact after_of_forall_not_mem _ _ (List.forall_iff_forall_mem.mp (by
    simp only [s633_637, List.Forall, nullary_writes, unary_writes, binary_writes, ternary_writes, quaternary_writes, reshape_writes, Finset.mem_singleton]
    repeat' apply And.intro
    all_goals exact devRef_ne_of_ne (by decide)))

/-- Statements 638 … 660 of @main: 23 operations, in order. -/
abbrev s638_660 : List (HloOp τ sig (Elt F)) :=
  [ StableHlo.nullary main_c_60 (constantI S_ 32 0#32),
    StableHlo.unary main_c_60 main_v575 (broadcastInDim S3300000 ![] bcast_S_S3300000 : (⟨S_, .i32⟩ : BufTy).Contents (Elt F) → (⟨S3300000, .i32⟩ : BufTy).Contents (Elt F)),
    StableHlo.binary main_v562 main_v575 main_v576 (cmpi .slt : (⟨S3300000, .i32⟩ : BufTy).Contents (Elt F) → (⟨S3300000, .i32⟩ : BufTy).Contents (Elt F) → (⟨S3300000, .i1⟩ : BufTy).Contents (Elt F)),
    StableHlo.nullary main_c_61 (constantI S_ 32 100000#32),
    StableHlo.unary main_c_61 main_v577 (broadcastInDim S3300000 ![] bcast_S_S3300000 : (⟨S_, .i32⟩ : BufTy).Contents (Elt F) → (⟨S3300000, .i32⟩ : BufTy).Contents (Elt F)),
    StableHlo.binary main_v562 main_v577 main_v578 (addi : (⟨S3300000, .i32⟩ : BufTy).Contents (Elt F) → (⟨S3300000, .i32⟩ : BufTy).Contents (Elt F) → (⟨S3300000, .i32⟩ : BufTy).Contents (Elt F)),
    StableHlo.ternary main_v576 main_v578 main_v562 main_v579 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v579 main_v580 (broadcastInDim S3300000x1 ![0] bcast_S3300000_S3300000x1_0 : (⟨S3300000, .i32⟩ : BufTy).Contents (Elt F) → (⟨S3300000x1, .i32⟩ : BufTy).Contents (Elt F)),
    StableHlo.binary main_v574 main_v580 main_v581 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_62 (constantI S_ 32 0#32),
    StableHlo.unary main_c_62 main_v582 (broadcastInDim S3300000 ![] bcast_S_S3300000 : (⟨S_, .i32⟩ : BufTy).Contents (Elt F) → (⟨S3300000, .i32⟩ : BufTy).Contents (Elt F)),
    StableHlo.binary main_v565 main_v582 main_v583 (cmpi .slt : (⟨S3300000, .i32⟩ : BufTy).Contents (Elt F) → (⟨S3300000, .i32⟩ : BufTy).Contents (Elt F) → (⟨S3300000, .i1⟩ : BufTy).Contents (Elt F)),
    StableHlo.nullary main_c_63 (constantI S_ 32 100000#32),
    StableHlo.unary main_c_63 main_v584 (broadcastInDim S3300000 ![] bcast_S_S3300000 : (⟨S_, .i32⟩ : BufTy).Contents (Elt F) → (⟨S3300000, .i32⟩ : BufTy).Contents (Elt F)),
    StableHlo.binary main_v565 main_v584 main_v585 (addi : (⟨S3300000, .i32⟩ : BufTy).Contents (Elt F) → (⟨S3300000, .i32⟩ : BufTy).Contents (Elt F) → (⟨S3300000, .i32⟩ : BufTy).Contents (Elt F)),
    StableHlo.ternary main_v583 main_v585 main_v565 main_v586 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v586 main_v587 (broadcastInDim S3300000x1 ![0] bcast_S3300000_S3300000x1_0 : (⟨S3300000, .i32⟩ : BufTy).Contents (Elt F) → (⟨S3300000x1, .i32⟩ : BufTy).Contents (Elt F)),
    StableHlo.binary main_v574 main_v587 main_v588 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v581 main_v588 main_v589 (mulf : (⟨S3300000, .f32⟩ : BufTy).Contents (Elt F) → (⟨S3300000, .f32⟩ : BufTy).Contents (Elt F) → (⟨S3300000, .f32⟩ : BufTy).Contents (Elt F)),
    StableHlo.unary main_v589 main_v590 (broadcastInDim S3300000x1 ![0] bcast_S3300000_S3300000x1_0 : (⟨S3300000, .f32⟩ : BufTy).Contents (Elt F) → (⟨S3300000x1, .f32⟩ : BufTy).Contents (Elt F)),
    StableHlo.nullary main_c_64 (constantI S_ 32 0#32),
    StableHlo.unary main_c_64 main_v591 (broadcastInDim S3300000 ![] bcast_S_S3300000 : (⟨S_, .i32⟩ : BufTy).Contents (Elt F) → (⟨S3300000, .i32⟩ : BufTy).Contents (Elt F)),
    StableHlo.binary main_v565 main_v591 main_v592 (cmpi .slt : (⟨S3300000, .i32⟩ : BufTy).Contents (Elt F) → (⟨S3300000, .i32⟩ : BufTy).Contents (Elt F) → (⟨S3300000, .i1⟩ : BufTy).Contents (Elt F)) ]
set_option maxHeartbeats 4000000 in
theorem s638_660_sub : (s638_660 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub ..⟩
theorem s638_660_fresh : (s638_660 : List (HloOp τ sig (Elt F))).Forall fun op => op.fresh = ∅ := by
  simp only [List.Forall]; repeat' constructor
set_option maxHeartbeats 4000000 in
/-- None of these operations writes an argument of @main. -/
theorem s638_660_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s638_660 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s638_660, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s638_660_carries (V : Valuation τ sig (Elt F)) (r : Ref sig .tc) (hr : r ∈ [main_v51, main_v554, main_v558]) :
    after s638_660 V (Proc.devRef .tc r) = V (Proc.devRef .tc r) := by
  simp only [List.mem_cons, List.mem_nil_iff, or_false] at hr
  rcases hr with rfl | rfl | rfl
  all_goals exact after_of_forall_not_mem _ _ (List.forall_iff_forall_mem.mp (by
    simp only [s638_660, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 10 of @main is the run of its operations in order. -/
theorem part10_eq (c : Dev nD) : main_part10 (F := F) c = seq (s601_616 ++ s617_632 ++ s633_637 ++ s638_660) := by
  simp only [main_part10, fn_clip.body, fn_where_0.body, seq, List.cons_append, List.nil_append, bind_assoc, pure_bind]
  try rfl

end Cert.ReferenceIdeal.Ops

end
-- ==== Proof.RefOps.W11.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 11 of the reference's @main (statements 661 … 720) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 661 … 720 of @main: 60 operations, in order. -/
abbrev s661_720 : List (HloOp τ sig (Elt F)) :=
  [ StableHlo.nullary main_c_65 (constantI S_ 32 100000#32),
    StableHlo.unary main_c_65 main_v593 (broadcastInDim S3300000 ![] bcast_S_S3300000 : (⟨S_, .i32⟩ : BufTy).Contents (Elt F) → (⟨S3300000, .i32⟩ : BufTy).Contents (Elt F)),
    StableHlo.binary main_v565 main_v593 main_v594 (addi : (⟨S3300000, .i32⟩ : BufTy).Contents (Elt F) → (⟨S3300000, .i32⟩ : BufTy).Contents (Elt F) → (⟨S3300000, .i32⟩ : BufTy).Contents (Elt F)),
    StableHlo.ternary main_v592 main_v594 main_v565 main_v595 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v595 main_v596 (broadcastInDim S3300000x1 ![0] bcast_S3300000_S3300000x1_0 : (⟨S3300000, .i32⟩ : BufTy).Contents (Elt F) → (⟨S3300000x1, .i32⟩ : BufTy).Contents (Elt F)),
    StableHlo.binary main_v558 main_v596 main_v597 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v590 main_v598 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v598 main_v597 main_v599 (mulf : (⟨S3300000x8, .f32⟩ : BufTy).Contents (Elt F) → (⟨S3300000x8, .f32⟩ : BufTy).Contents (Elt F) → (⟨S3300000x8, .f32⟩ : BufTy).Contents (Elt F)),
    StableHlo.nullary main_cst_66 (constant S_ .f32 0x00000000#32),
    StableHlo.unary main_cst_66 main_v600 (broadcastInDim S100000x8 ![] bcast_S_S100000x8 : (⟨S_, .f32⟩ : BufTy).Contents (Elt F) → (⟨S100000x8, .f32⟩ : BufTy).Contents (Elt F)),
    StableHlo.unary main_v562 main_v601 (broadcastInDim S3300000x1 ![0] bcast_S3300000_S3300000x1_0 : (⟨S3300000, .i32⟩ : BufTy).Contents (Elt F) → (⟨S3300000x1, .i32⟩ : BufTy).Contents (Elt F)),
    StableHlo.ternary main_v600 main_v601 main_v599 main_v602 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_67 (constant S_ .f32 0x3F666666#32),
    StableHlo.unary main_cst_67 main_v603 (broadcastInDim S100000x8 ![] bcast_S_S100000x8 : (⟨S_, .f32⟩ : BufTy).Contents (Elt F) → (⟨S100000x8, .f32⟩ : BufTy).Contents (Elt F)),
    StableHlo.binary main_v603 main_v602 main_v604 (mulf : (⟨S100000x8, .f32⟩ : BufTy).Contents (Elt F) → (⟨S100000x8, .f32⟩ : BufTy).Contents (Elt F) → (⟨S100000x8, .f32⟩ : BufTy).Contents (Elt F)),
    StableHlo.nullary main_cst_68 (constant S_ .f32 0x3DCCCCCD#32),
    StableHlo.unary main_cst_68 main_v605 (broadcastInDim S100000x8 ![] bcast_S_S100000x8 : (⟨S_, .f32⟩ : BufTy).Contents (Elt F) → (⟨S100000x8, .f32⟩ : BufTy).Contents (Elt F)),
    StableHlo.binary main_v605 main_v558 main_v606 (mulf : (⟨S100000x8, .f32⟩ : BufTy).Contents (Elt F) → (⟨S100000x8, .f32⟩ : BufTy).Contents (Elt F) → (⟨S100000x8, .f32⟩ : BufTy).Contents (Elt F)),
    StableHlo.binary main_v604 main_v606 main_v607 (addf : (⟨S100000x8, .f32⟩ : BufTy).Contents (Elt F) → (⟨S100000x8, .f32⟩ : BufTy).Contents (Elt F) → (⟨S100000x8, .f32⟩ : BufTy).Contents (Elt F)),
    StableHlo.unary main_v589 main_v608 (broadcastInDim S3300000x1 ![0] bcast_S3300000_S3300000x1_0 : (⟨S3300000, .f32⟩ : BufTy).Contents (Elt F) → (⟨S3300000x1, .f32⟩ : BufTy).Contents (Elt F)),
    StableHlo.nullary main_c_69 (constantI S_ 32 0#32),
    StableHlo.unary main_c_69 main_v609 (broadcastInDim S3300000 ![] bcast_S_S3300000 : (⟨S_, .i32⟩ : BufTy).Contents (Elt F) → (⟨S3300000, .i32⟩ : BufTy).Contents (Elt F)),
    StableHlo.binary main_v565 main_v609 main_v610 (cmpi .slt : (⟨S3300000, .i32⟩ : BufTy).Contents (Elt F) → (⟨S3300000, .i32⟩ : BufTy).Contents (Elt F) → (⟨S3300000, .i1⟩ : BufTy).Contents (Elt F)),
    StableHlo.nullary main_c_70 (constantI S_ 32 100000#32),
    StableHlo.unary main_c_70 main_v611 (broadcastInDim S3300000 ![] bcast_S_S3300000 : (⟨S_, .i32⟩ : BufTy).Contents (Elt F) → (⟨S3300000, .i32⟩ : BufTy).Contents (Elt F)),
    StableHlo.binary main_v565 main_v611 main_v612 (addi : (⟨S3300000, .i32⟩ : BufTy).Contents (Elt F) → (⟨S3300000, .i32⟩ : BufTy).Contents (Elt F) → (⟨S3300000, .i32⟩ : BufTy).Contents (Elt F)),
    StableHlo.ternary main_v610 main_v612 main_v565 main_v613 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v613 main_v614 (broadcastInDim S3300000x1 ![0] bcast_S3300000_S3300000x1_0 : (⟨S3300000, .i32⟩ : BufTy).Contents (Elt F) → (⟨S3300000x1, .i32⟩ : BufTy).Contents (Elt F)),
    StableHlo.binary main_v607 main_v614 main_v615 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v608 main_v616 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v616 main_v615 main_v617 (mulf : (⟨S3300000x8, .f32⟩ : BufTy).Contents (Elt F) → (⟨S3300000x8, .f32⟩ : BufTy).Contents (Elt F) → (⟨S3300000x8, .f32⟩ : BufTy).Contents (Elt F)),
    StableHlo.nullary main_cst_71 (constant S_ .f32 0x00000000#32),
    StableHlo.unary main_cst_71 main_v618 (broadcastInDim S100000x8 ![] bcast_S_S100000x8 : (⟨S_, .f32⟩ : BufTy).Contents (Elt F) → (⟨S100000x8, .f32⟩ : BufTy).Contents (Elt F)),
    StableHlo.unary main_v562 main_v619 (broadcastInDim S3300000x1 ![0] bcast_S3300000_S3300000x1_0 : (⟨S3300000, .i32⟩ : BufTy).Contents (Elt F) → (⟨S3300000x1, .i32⟩ : BufTy).Contents (Elt F)),
    StableHlo.ternary main_v618 main_v619 main_v617 main_v620 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_72 (constant S_ .f32 0x3F666666#32),
    StableHlo.unary main_cst_72 main_v621 (broadcastInDim S100000x8 ![] bcast_S_S100000x8 : (⟨S_, .f32⟩ : BufTy).Contents (Elt F) → (⟨S100000x8, .f32⟩ : BufTy).Contents (Elt F)),
    StableHlo.binary main_v621 main_v620 main_v622 (mulf : (⟨S100000x8, .f32⟩ : BufTy).Contents (Elt F) → (⟨S100000x8, .f32⟩ : BufTy).Contents (Elt F) → (⟨S100000x8, .f32⟩ : BufTy).Contents (Elt F)),
    StableHlo.nullary main_cst_73 (constant S_ .f32 0x3DCCCCCD#32),
    StableHlo.unary main_cst_73 main_v623 (broadcastInDim S100000x8 ![] bcast_S_S100000x8 : (⟨S_, .f32⟩ : BufTy).Contents (Elt F) → (⟨S100000x8, .f32⟩ : BufTy).Contents (Elt F)),
    StableHlo.binary main_v623 main_v558 main_v624 (mulf : (⟨S100000x8, .f32⟩ : BufTy).Contents (Elt F) → (⟨S100000x8, .f32⟩ : BufTy).Contents (Elt F) → (⟨S100000x8, .f32⟩ : BufTy).Contents (Elt F)),
    StableHlo.binary main_v622 main_v624 main_v625 (addf : (⟨S100000x8, .f32⟩ : BufTy).Contents (Elt F) → (⟨S100000x8, .f32⟩ : BufTy).Contents (Elt F) → (⟨S100000x8, .f32⟩ : BufTy).Contents (Elt F)),
    StableHlo.unary main_v589 main_v626 (broadcastInDim S3300000x1 ![0] bcast_S3300000_S3300000x1_0 : (⟨S3300000, .f32⟩ : BufTy).Contents (Elt F) → (⟨S3300000x1, .f32⟩ : BufTy).Contents (Elt F)),
    StableHlo.nullary main_c_74 (constantI S_ 32 0#32),
    StableHlo.unary main_c_74 main_v627 (broadcastInDim S3300000 ![] bcast_S_S3300000 : (⟨S_, .i32⟩ : BufTy).Contents (Elt F) → (⟨S3300000, .i32⟩ : BufTy).Contents (Elt F)),
    StableHlo.binary main_v565 main_v627 main_v628 (cmpi .slt : (⟨S3300000, .i32⟩ : BufTy).Contents (Elt F) → (⟨S3300000, .i32⟩ : BufTy).Contents (Elt F) → (⟨S3300000, .i1⟩ : BufTy).Contents (Elt F)),
    StableHlo.nullary main_c_75 (constantI S_ 32 100000#32),
    StableHlo.unary main_c_75 main_v629 (broadcastInDim S3300000 ![] bcast_S_S3300000 : (⟨S_, .i32⟩ : BufTy).Contents (Elt F) → (⟨S3300000, .i32⟩ : BufTy).Contents (Elt F)),
    StableHlo.binary main_v565 main_v629 main_v630 (addi : (⟨S3300000, .i32⟩ : BufTy).Contents (Elt F) → (⟨S3300000, .i32⟩ : BufTy).Contents (Elt F) → (⟨S3300000, .i32⟩ : BufTy).Contents (Elt F)),
    StableHlo.ternary main_v628 main_v630 main_v565 main_v631 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v631 main_v632 (broadcastInDim S3300000x1 ![0] bcast_S3300000_S3300000x1_0 : (⟨S3300000, .i32⟩ : BufTy).Contents (Elt F) → (⟨S3300000x1, .i32⟩ : BufTy).Contents (Elt F)),
    StableHlo.binary main_v625 main_v632 main_v633 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v626 main_v634 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v634 main_v633 main_v635 (mulf : (⟨S3300000x8, .f32⟩ : BufTy).Contents (Elt F) → (⟨S3300000x8, .f32⟩ : BufTy).Contents (Elt F) → (⟨S3300000x8, .f32⟩ : BufTy).Contents (Elt F)),
    StableHlo.nullary main_cst_76 (constant S_ .f32 0x00000000#32),
    StableHlo.unary main_cst_76 main_v636 (broadcastInDim S100000x8 ![] bcast_S_S100000x8 : (⟨S_, .f32⟩ : BufTy).Contents (Elt F) → (⟨S100000x8, .f32⟩ : BufTy).Contents (Elt F)),
    StableHlo.unary main_v562 main_v637 (broadcastInDim S3300000x1 ![0] bcast_S3300000_S3300000x1_0 : (⟨S3300000, .i32⟩ : BufTy).Contents (Elt F) → (⟨S3300000x1, .i32⟩ : BufTy).Contents (Elt F)),
    StableHlo.ternary main_v636 main_v637 main_v635 main_v638 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_77 (constant S_ .f32 0x3F666666#32),
    StableHlo.unary main_cst_77 main_v639 (broadcastInDim S100000x8 ![] bcast_S_S100000x8 : (⟨S_, .f32⟩ : BufTy).Contents (Elt F) → (⟨S100000x8, .f32⟩ : BufTy).Contents (Elt F)) ]
set_option maxHeartbeats 4000000 in
theorem s661_720_sub : (s661_720 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub ..⟩
theorem s661_720_fresh : (s661_720 : List (HloOp τ sig (Elt F))).Forall fun op => op.fresh = ∅ := by
  simp only [List.Forall]; repeat' constructor
set_option maxHeartbeats 4000000 in
/-- None of these operations writes an argument of @main. -/
theorem s661_720_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s661_720 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s661_720, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s661_720_carries (V : Valuation τ sig (Elt F)) (r : Ref sig .tc) (hr : r ∈ [main_v51, main_v554, main_v558]) :
    after s661_720 V (Proc.devRef .tc r) = V (Proc.devRef .tc r) := by
  simp only [List.mem_cons, List.mem_nil_iff, or_false] at hr
  rcases hr with rfl | rfl | rfl
  all_goals exact after_of_forall_not_mem _ _ (List.forall_iff_forall_mem.mp (by
    simp only [s661_720, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 11 of @main is the run of its operations in order. -/
theorem part11_eq (c : Dev nD) : main_part11 (F := F) c = seq (s661_720) := by
  simp only [main_part11, seq, List.cons_append, List.nil_append, bind_assoc, pure_bind]
  try rfl

end Cert.ReferenceIdeal.Ops

end
-- ==== Proof.RefOps.W12.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 12 of the reference's @main (statements 721 … 780) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 721 … 780 of @main: 60 operations, in order. -/
abbrev s721_780 : List (HloOp τ sig (Elt F)) :=
  [ StableHlo.binary main_v639 main_v638 main_v640 (mulf : (⟨S100000x8, .f32⟩ : BufTy).Contents (Elt F) → (⟨S100000x8, .f32⟩ : BufTy).Contents (Elt F) → (⟨S100000x8, .f32⟩ : BufTy).Contents (Elt F)),
    StableHlo.nullary main_cst_78 (constant S_ .f32 0x3DCCCCCD#32),
    StableHlo.unary main_cst_78 main_v641 (broadcastInDim S100000x8 ![] bcast_S_S100000x8 : (⟨S_, .f32⟩ : BufTy).Contents (Elt F) → (⟨S100000x8, .f32⟩ : BufTy).Contents (Elt F)),
    StableHlo.binary main_v641 main_v558 main_v642 (mulf : (⟨S100000x8, .f32⟩ : BufTy).Contents (Elt F) → (⟨S100000x8, .f32⟩ : BufTy).Contents (Elt F) → (⟨S100000x8, .f32⟩ : BufTy).Contents (Elt F)),
    StableHlo.binary main_v640 main_v642 main_v643 (addf : (⟨S100000x8, .f32⟩ : BufTy).Contents (Elt F) → (⟨S100000x8, .f32⟩ : BufTy).Contents (Elt F) → (⟨S100000x8, .f32⟩ : BufTy).Contents (Elt F)),
    StableHlo.unary main_v589 main_v644 (broadcastInDim S3300000x1 ![0] bcast_S3300000_S3300000x1_0 : (⟨S3300000, .f32⟩ : BufTy).Contents (Elt F) → (⟨S3300000x1, .f32⟩ : BufTy).Contents (Elt F)),
    StableHlo.nullary main_c_79 (constantI S_ 32 0#32),
    StableHlo.unary main_c_79 main_v645 (broadcastInDim S3300000 ![] bcast_S_S3300000 : (⟨S_, .i32⟩ : BufTy).Contents (Elt F) → (⟨S3300000, .i32⟩ : BufTy).Contents (Elt F)),
    StableHlo.binary main_v565 main_v645 main_v646 (cmpi .slt : (⟨S3300000, .i32⟩ : BufTy).Contents (Elt F) → (⟨S3300000, .i32⟩ : BufTy).Contents (Elt F) → (⟨S3300000, .i1⟩ : BufTy).Contents (Elt F)),
    StableHlo.nullary main_c_80 (constantI S_ 32 100000#32),
    StableHlo.unary main_c_80 main_v647 (broadcastInDim S3300000 ![] bcast_S_S3300000 : (⟨S_, .i32⟩ : BufTy).Contents (Elt F) → (⟨S3300000, .i32⟩ : BufTy).Contents (Elt F)),
    StableHlo.binary main_v565 main_v647 main_v648 (addi : (⟨S3300000, .i32⟩ : BufTy).Contents (Elt F) → (⟨S3300000, .i32⟩ : BufTy).Contents (Elt F) → (⟨S3300000, .i32⟩ : BufTy).Contents (Elt F)),
    StableHlo.ternary main_v646 main_v648 main_v565 main_v649 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v649 main_v650 (broadcastInDim S3300000x1 ![0] bcast_S3300000_S3300000x1_0 : (⟨S3300000, .i32⟩ : BufTy).Contents (Elt F) → (⟨S3300000x1, .i32⟩ : BufTy).Contents (Elt F)),
    StableHlo.binary main_v643 main_v650 main_v651 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v644 main_v652 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v652 main_v651 main_v653 (mulf : (⟨S3300000x8, .f32⟩ : BufTy).Contents (Elt F) → (⟨S3300000x8, .f32⟩ : BufTy).Contents (Elt F) → (⟨S3300000x8, .f32⟩ : BufTy).Contents (Elt F)),
    StableHlo.nullary main_cst_81 (constant S_ .f32 0x00000000#32),
    StableHlo.unary main_cst_81 main_v654 (broadcastInDim S100000x8 ![] bcast_S_S100000x8 : (⟨S_, .f32⟩ : BufTy).Contents (Elt F) → (⟨S100000x8, .f32⟩ : BufTy).Contents (Elt F)),
    StableHlo.unary main_v562 main_v655 (broadcastInDim S3300000x1 ![0] bcast_S3300000_S3300000x1_0 : (⟨S3300000, .i32⟩ : BufTy).Contents (Elt F) → (⟨S3300000x1, .i32⟩ : BufTy).Contents (Elt F)),
    StableHlo.ternary main_v654 main_v655 main_v653 main_v656 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_82 (constant S_ .f32 0x3F666666#32),
    StableHlo.unary main_cst_82 main_v657 (broadcastInDim S100000x8 ![] bcast_S_S100000x8 : (⟨S_, .f32⟩ : BufTy).Contents (Elt F) → (⟨S100000x8, .f32⟩ : BufTy).Contents (Elt F)),
    StableHlo.binary main_v657 main_v656 main_v658 (mulf : (⟨S100000x8, .f32⟩ : BufTy).Contents (Elt F) → (⟨S100000x8, .f32⟩ : BufTy).Contents (Elt F) → (⟨S100000x8, .f32⟩ : BufTy).Contents (Elt F)),
    StableHlo.nullary main_cst_83 (constant S_ .f32 0x3DCCCCCD#32),
    StableHlo.unary main_cst_83 main_v659 (broadcastInDim S100000x8 ![] bcast_S_S100000x8 : (⟨S_, .f32⟩ : BufTy).Contents (Elt F) → (⟨S100000x8, .f32⟩ : BufTy).Contents (Elt F)),
    StableHlo.binary main_v659 main_v558 main_v660 (mulf : (⟨S100000x8, .f32⟩ : BufTy).Contents (Elt F) → (⟨S100000x8, .f32⟩ : BufTy).Contents (Elt F) → (⟨S100000x8, .f32⟩ : BufTy).Contents (Elt F)),
    StableHlo.binary main_v658 main_v660 main_v661 (addf : (⟨S100000x8, .f32⟩ : BufTy).Contents (Elt F) → (⟨S100000x8, .f32⟩ : BufTy).Contents (Elt F) → (⟨S100000x8, .f32⟩ : BufTy).Contents (Elt F)),
    StableHlo.unary main_v589 main_v662 (broadcastInDim S3300000x1 ![0] bcast_S3300000_S3300000x1_0 : (⟨S3300000, .f32⟩ : BufTy).Contents (Elt F) → (⟨S3300000x1, .f32⟩ : BufTy).Contents (Elt F)),
    StableHlo.nullary main_c_84 (constantI S_ 32 0#32),
    StableHlo.unary main_c_84 main_v663 (broadcastInDim S3300000 ![] bcast_S_S3300000 : (⟨S_, .i32⟩ : BufTy).Contents (Elt F) → (⟨S3300000, .i32⟩ : BufTy).Contents (Elt F)),
    StableHlo.binary main_v565 main_v663 main_v664 (cmpi .slt : (⟨S3300000, .i32⟩ : BufTy).Contents (Elt F) → (⟨S3300000, .i32⟩ : BufTy).Contents (Elt F) → (⟨S3300000, .i1⟩ : BufTy).Contents (Elt F)),
    StableHlo.nullary main_c_85 (constantI S_ 32 100000#32),
    StableHlo.unary main_c_85 main_v665 (broadcastInDim S3300000 ![] bcast_S_S3300000 : (⟨S_, .i32⟩ : BufTy).Contents (Elt F) → (⟨S3300000, .i32⟩ : BufTy).Contents (Elt F)),
    StableHlo.binary main_v565 main_v665 main_v666 (addi : (⟨S3300000, .i32⟩ : BufTy).Contents (Elt F) → (⟨S3300000, .i32⟩ : BufTy).Contents (Elt F) → (⟨S3300000, .i32⟩ : BufTy).Contents (Elt F)),
    StableHlo.ternary main_v664 main_v666 main_v565 main_v667 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v667 main_v668 (broadcastInDim S3300000x1 ![0] bcast_S3300000_S3300000x1_0 : (⟨S3300000, .i32⟩ : BufTy).Contents (Elt F) → (⟨S3300000x1, .i32⟩ : BufTy).Contents (Elt F)),
    StableHlo.binary main_v661 main_v668 main_v669 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v662 main_v670 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v670 main_v669 main_v671 (mulf : (⟨S3300000x8, .f32⟩ : BufTy).Contents (Elt F) → (⟨S3300000x8, .f32⟩ : BufTy).Contents (Elt F) → (⟨S3300000x8, .f32⟩ : BufTy).Contents (Elt F)),
    StableHlo.nullary main_cst_86 (constant S_ .f32 0x00000000#32),
    StableHlo.unary main_cst_86 main_v672 (broadcastInDim S100000x8 ![] bcast_S_S100000x8 : (⟨S_, .f32⟩ : BufTy).Contents (Elt F) → (⟨S100000x8, .f32⟩ : BufTy).Contents (Elt F)),
    StableHlo.unary main_v562 main_v673 (broadcastInDim S3300000x1 ![0] bcast_S3300000_S3300000x1_0 : (⟨S3300000, .i32⟩ : BufTy).Contents (Elt F) → (⟨S3300000x1, .i32⟩ : BufTy).Contents (Elt F)),
    StableHlo.ternary main_v672 main_v673 main_v671 main_v674 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_87 (constant S_ .f32 0x3F666666#32),
    StableHlo.unary main_cst_87 main_v675 (broadcastInDim S100000x8 ![] bcast_S_S100000x8 : (⟨S_, .f32⟩ : BufTy).Contents (Elt F) → (⟨S100000x8, .f32⟩ : BufTy).Contents (Elt F)),
    StableHlo.binary main_v675 main_v674 main_v676 (mulf : (⟨S100000x8, .f32⟩ : BufTy).Contents (Elt F) → (⟨S100000x8, .f32⟩ : BufTy).Contents (Elt F) → (⟨S100000x8, .f32⟩ : BufTy).Contents (Elt F)),
    StableHlo.nullary main_cst_88 (constant S_ .f32 0x3DCCCCCD#32),
    StableHlo.unary main_cst_88 main_v677 (broadcastInDim S100000x8 ![] bcast_S_S100000x8 : (⟨S_, .f32⟩ : BufTy).Contents (Elt F) → (⟨S100000x8, .f32⟩ : BufTy).Contents (Elt F)),
    StableHlo.binary main_v677 main_v558 main_v678 (mulf : (⟨S100000x8, .f32⟩ : BufTy).Contents (Elt F) → (⟨S100000x8, .f32⟩ : BufTy).Contents (Elt F) → (⟨S100000x8, .f32⟩ : BufTy).Contents (Elt F)),
    StableHlo.binary main_v676 main_v678 main_v679 (addf : (⟨S100000x8, .f32⟩ : BufTy).Contents (Elt F) → (⟨S100000x8, .f32⟩ : BufTy).Contents (Elt F) → (⟨S100000x8, .f32⟩ : BufTy).Contents (Elt F)),
    StableHlo.unary main_v589 main_v680 (broadcastInDim S3300000x1 ![0] bcast_S3300000_S3300000x1_0 : (⟨S3300000, .f32⟩ : BufTy).Contents (Elt F) → (⟨S3300000x1, .f32⟩ : BufTy).Contents (Elt F)),
    StableHlo.nullary main_c_89 (constantI S_ 32 0#32),
    StableHlo.unary main_c_89 main_v681 (broadcastInDim S3300000 ![] bcast_S_S3300000 : (⟨S_, .i32⟩ : BufTy).Contents (Elt F) → (⟨S3300000, .i32⟩ : BufTy).Contents (Elt F)),
    StableHlo.binary main_v565 main_v681 main_v682 (cmpi .slt : (⟨S3300000, .i32⟩ : BufTy).Contents (Elt F) → (⟨S3300000, .i32⟩ : BufTy).Contents (Elt F) → (⟨S3300000, .i1⟩ : BufTy).Contents (Elt F)),
    StableHlo.nullary main_c_90 (constantI S_ 32 100000#32),
    StableHlo.unary main_c_90 main_v683 (broadcastInDim S3300000 ![] bcast_S_S3300000 : (⟨S_, .i32⟩ : BufTy).Contents (Elt F) → (⟨S3300000, .i32⟩ : BufTy).Contents (Elt F)),
    StableHlo.binary main_v565 main_v683 main_v684 (addi : (⟨S3300000, .i32⟩ : BufTy).Contents (Elt F) → (⟨S3300000, .i32⟩ : BufTy).Contents (Elt F) → (⟨S3300000, .i32⟩ : BufTy).Contents (Elt F)),
    StableHlo.ternary main_v682 main_v684 main_v565 main_v685 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v685 main_v686 (broadcastInDim S3300000x1 ![0] bcast_S3300000_S3300000x1_0 : (⟨S3300000, .i32⟩ : BufTy).Contents (Elt F) → (⟨S3300000x1, .i32⟩ : BufTy).Contents (Elt F)) ]
set_option maxHeartbeats 4000000 in
theorem s721_780_sub : (s721_780 : List (HloOp τ sig (Elt F))).Forall fun op => op.bufs ⊆ tcRefs τ sig :=
  ⟨binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub ..⟩
theorem s721_780_fresh : (s721_780 : List (HloOp τ sig (Elt F))).Forall fun op => op.fresh = ∅ := by
  simp only [List.Forall]; repeat' constructor
set_option maxHeartbeats 4000000 in
/-- None of these operations writes an argument of @main. -/
theorem s721_780_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s721_780 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s721_780, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s721_780_carries (V : Valuation τ sig (Elt F)) (r : Ref sig .tc) (hr : r ∈ [main_v51, main_v554, main_v558]) :
    after s721_780 V (Proc.devRef .tc r) = V (Proc.devRef .tc r) := by
  simp only [List.mem_cons, List.mem_nil_iff, or_false] at hr
  rcases hr with rfl | rfl | rfl
  all_goals exact after_of_forall_not_mem _ _ (List.forall_iff_forall_mem.mp (by
    simp only [s721_780, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 12 of @main is the run of its operations in order. -/
theorem part12_eq (c : Dev nD) : main_part12 (F := F) c = seq (s721_780) := by
  simp only [main_part12, seq, List.cons_append, List.nil_append, bind_assoc, pure_bind]
  try rfl

end Cert.ReferenceIdeal.Ops

end
-- ==== Proof.RefOps.W13.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 13 of the reference's @main (statements 781 … 840) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 781 … 840 of @main: 60 operations, in order. -/
abbrev s781_840 : List (HloOp τ sig (Elt F)) :=
  [ StableHlo.binary main_v679 main_v686 main_v687 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v680 main_v688 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v688 main_v687 main_v689 (mulf : (⟨S3300000x8, .f32⟩ : BufTy).Contents (Elt F) → (⟨S3300000x8, .f32⟩ : BufTy).Contents (Elt F) → (⟨S3300000x8, .f32⟩ : BufTy).Contents (Elt F)),
    StableHlo.nullary main_cst_91 (constant S_ .f32 0x00000000#32),
    StableHlo.unary main_cst_91 main_v690 (broadcastInDim S100000x8 ![] bcast_S_S100000x8 : (⟨S_, .f32⟩ : BufTy).Contents (Elt F) → (⟨S100000x8, .f32⟩ : BufTy).Contents (Elt F)),
    StableHlo.unary main_v562 main_v691 (broadcastInDim S3300000x1 ![0] bcast_S3300000_S3300000x1_0 : (⟨S3300000, .i32⟩ : BufTy).Contents (Elt F) → (⟨S3300000x1, .i32⟩ : BufTy).Contents (Elt F)),
    StableHlo.ternary main_v690 main_v691 main_v689 main_v692 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_92 (constant S_ .f32 0x3F666666#32),
    StableHlo.unary main_cst_92 main_v693 (broadcastInDim S100000x8 ![] bcast_S_S100000x8 : (⟨S_, .f32⟩ : BufTy).Contents (Elt F) → (⟨S100000x8, .f32⟩ : BufTy).Contents (Elt F)),
    StableHlo.binary main_v693 main_v692 main_v694 (mulf : (⟨S100000x8, .f32⟩ : BufTy).Contents (Elt F) → (⟨S100000x8, .f32⟩ : BufTy).Contents (Elt F) → (⟨S100000x8, .f32⟩ : BufTy).Contents (Elt F)),
    StableHlo.nullary main_cst_93 (constant S_ .f32 0x3DCCCCCD#32),
    StableHlo.unary main_cst_93 main_v695 (broadcastInDim S100000x8 ![] bcast_S_S100000x8 : (⟨S_, .f32⟩ : BufTy).Contents (Elt F) → (⟨S100000x8, .f32⟩ : BufTy).Contents (Elt F)),
    StableHlo.binary main_v695 main_v558 main_v696 (mulf : (⟨S100000x8, .f32⟩ : BufTy).Contents (Elt F) → (⟨S100000x8, .f32⟩ : BufTy).Contents (Elt F) → (⟨S100000x8, .f32⟩ : BufTy).Contents (Elt F)),
    StableHlo.binary main_v694 main_v696 main_v697 (addf : (⟨S100000x8, .f32⟩ : BufTy).Contents (Elt F) → (⟨S100000x8, .f32⟩ : BufTy).Contents (Elt F) → (⟨S100000x8, .f32⟩ : BufTy).Contents (Elt F)),
    StableHlo.unary main_v589 main_v698 (broadcastInDim S3300000x1 ![0] bcast_S3300000_S3300000x1_0 : (⟨S3300000, .f32⟩ : BufTy).Contents (Elt F) → (⟨S3300000x1, .f32⟩ : BufTy).Contents (Elt F)),
    StableHlo.nullary main_c_94 (constantI S_ 32 0#32),
    StableHlo.unary main_c_94 main_v699 (broadcastInDim S3300000 ![] bcast_S_S3300000 : (⟨S_, .i32⟩ : BufTy).Contents (Elt F) → (⟨S3300000, .i32⟩ : BufTy).Contents (Elt F)),
    StableHlo.binary main_v565 main_v699 main_v700 (cmpi .slt : (⟨S3300000, .i32⟩ : BufTy).Contents (Elt F) → (⟨S3300000, .i32⟩ : BufTy).Contents (Elt F) → (⟨S3300000, .i1⟩ : BufTy).Contents (Elt F)),
    StableHlo.nullary main_c_95 (constantI S_ 32 100000#32),
    StableHlo.unary main_c_95 main_v701 (broadcastInDim S3300000 ![] bcast_S_S3300000 : (⟨S_, .i32⟩ : BufTy).Contents (Elt F) → (⟨S3300000, .i32⟩ : BufTy).Contents (Elt F)),
    StableHlo.binary main_v565 main_v701 main_v702 (addi : (⟨S3300000, .i32⟩ : BufTy).Contents (Elt F) → (⟨S3300000, .i32⟩ : BufTy).Contents (Elt F) → (⟨S3300000, .i32⟩ : BufTy).Contents (Elt F)),
    StableHlo.ternary main_v700 main_v702 main_v565 main_v703 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v703 main_v704 (broadcastInDim S3300000x1 ![0] bcast_S3300000_S3300000x1_0 : (⟨S3300000, .i32⟩ : BufTy).Contents (Elt F) → (⟨S3300000x1, .i32⟩ : BufTy).Contents (Elt F)),
    StableHlo.binary main_v697 main_v704 main_v705 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v698 main_v706 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v706 main_v705 main_v707 (mulf : (⟨S3300000x8, .f32⟩ : BufTy).Contents (Elt F) → (⟨S3300000x8, .f32⟩ : BufTy).Contents (Elt F) → (⟨S3300000x8, .f32⟩ : BufTy).Contents (Elt F)),
    StableHlo.nullary main_cst_96 (constant S_ .f32 0x00000000#32),
    StableHlo.unary main_cst_96 main_v708 (broadcastInDim S100000x8 ![] bcast_S_S100000x8 : (⟨S_, .f32⟩ : BufTy).Contents (Elt F) → (⟨S100000x8, .f32⟩ : BufTy).Contents (Elt F)),
    StableHlo.unary main_v562 main_v709 (broadcastInDim S3300000x1 ![0] bcast_S3300000_S3300000x1_0 : (⟨S3300000, .i32⟩ : BufTy).Contents (Elt F) → (⟨S3300000x1, .i32⟩ : BufTy).Contents (Elt F)),
    StableHlo.ternary main_v708 main_v709 main_v707 main_v710 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_97 (constant S_ .f32 0x3F666666#32),
    StableHlo.unary main_cst_97 main_v711 (broadcastInDim S100000x8 ![] bcast_S_S100000x8 : (⟨S_, .f32⟩ : BufTy).Contents (Elt F) → (⟨S100000x8, .f32⟩ : BufTy).Contents (Elt F)),
    StableHlo.binary main_v711 main_v710 main_v712 (mulf : (⟨S100000x8, .f32⟩ : BufTy).Contents (Elt F) → (⟨S100000x8, .f32⟩ : BufTy).Contents (Elt F) → (⟨S100000x8, .f32⟩ : BufTy).Contents (Elt F)),
    StableHlo.nullary main_cst_98 (constant S_ .f32 0x3DCCCCCD#32),
    StableHlo.unary main_cst_98 main_v713 (broadcastInDim S100000x8 ![] bcast_S_S100000x8 : (⟨S_, .f32⟩ : BufTy).Contents (Elt F) → (⟨S100000x8, .f32⟩ : BufTy).Contents (Elt F)),
    StableHlo.binary main_v713 main_v558 main_v714 (mulf : (⟨S100000x8, .f32⟩ : BufTy).Contents (Elt F) → (⟨S100000x8, .f32⟩ : BufTy).Contents (Elt F) → (⟨S100000x8, .f32⟩ : BufTy).Contents (Elt F)),
    StableHlo.binary main_v712 main_v714 main_v715 (addf : (⟨S100000x8, .f32⟩ : BufTy).Contents (Elt F) → (⟨S100000x8, .f32⟩ : BufTy).Contents (Elt F) → (⟨S100000x8, .f32⟩ : BufTy).Contents (Elt F)),
    StableHlo.unary main_v589 main_v716 (broadcastInDim S3300000x1 ![0] bcast_S3300000_S3300000x1_0 : (⟨S3300000, .f32⟩ : BufTy).Contents (Elt F) → (⟨S3300000x1, .f32⟩ : BufTy).Contents (Elt F)),
    StableHlo.nullary main_c_99 (constantI S_ 32 0#32),
    StableHlo.unary main_c_99 main_v717 (broadcastInDim S3300000 ![] bcast_S_S3300000 : (⟨S_, .i32⟩ : BufTy).Contents (Elt F) → (⟨S3300000, .i32⟩ : BufTy).Contents (Elt F)),
    StableHlo.binary main_v565 main_v717 main_v718 (cmpi .slt : (⟨S3300000, .i32⟩ : BufTy).Contents (Elt F) → (⟨S3300000, .i32⟩ : BufTy).Contents (Elt F) → (⟨S3300000, .i1⟩ : BufTy).Contents (Elt F)),
    StableHlo.nullary main_c_100 (constantI S_ 32 100000#32),
    StableHlo.unary main_c_100 main_v719 (broadcastInDim S3300000 ![] bcast_S_S3300000 : (⟨S_, .i32⟩ : BufTy).Contents (Elt F) → (⟨S3300000, .i32⟩ : BufTy).Contents (Elt F)),
    StableHlo.binary main_v565 main_v719 main_v720 (addi : (⟨S3300000, .i32⟩ : BufTy).Contents (Elt F) → (⟨S3300000, .i32⟩ : BufTy).Contents (Elt F) → (⟨S3300000, .i32⟩ : BufTy).Contents (Elt F)),
    StableHlo.ternary main_v718 main_v720 main_v565 main_v721 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v721 main_v722 (broadcastInDim S3300000x1 ![0] bcast_S3300000_S3300000x1_0 : (⟨S3300000, .i32⟩ : BufTy).Contents (Elt F) → (⟨S3300000x1, .i32⟩ : BufTy).Contents (Elt F)),
    StableHlo.binary main_v715 main_v722 main_v723 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v716 main_v724 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v724 main_v723 main_v725 (mulf : (⟨S3300000x8, .f32⟩ : BufTy).Contents (Elt F) → (⟨S3300000x8, .f32⟩ : BufTy).Contents (Elt F) → (⟨S3300000x8, .f32⟩ : BufTy).Contents (Elt F)),
    StableHlo.nullary main_cst_101 (constant S_ .f32 0x00000000#32),
    StableHlo.unary main_cst_101 main_v726 (broadcastInDim S100000x8 ![] bcast_S_S100000x8 : (⟨S_, .f32⟩ : BufTy).Contents (Elt F) → (⟨S100000x8, .f32⟩ : BufTy).Contents (Elt F)),
    StableHlo.unary main_v562 main_v727 (broadcastInDim S3300000x1 ![0] bcast_S3300000_S3300000x1_0 : (⟨S3300000, .i32⟩ : BufTy).Contents (Elt F) → (⟨S3300000x1, .i32⟩ : BufTy).Contents (Elt F)),
    StableHlo.ternary main_v726 main_v727 main_v725 main_v728 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_102 (constant S_ .f32 0x3F666666#32),
    StableHlo.unary main_cst_102 main_v729 (broadcastInDim S100000x8 ![] bcast_S_S100000x8 : (⟨S_, .f32⟩ : BufTy).Contents (Elt F) → (⟨S100000x8, .f32⟩ : BufTy).Contents (Elt F)),
    StableHlo.binary main_v729 main_v728 main_v730 (mulf : (⟨S100000x8, .f32⟩ : BufTy).Contents (Elt F) → (⟨S100000x8, .f32⟩ : BufTy).Contents (Elt F) → (⟨S100000x8, .f32⟩ : BufTy).Contents (Elt F)),
    StableHlo.nullary main_cst_103 (constant S_ .f32 0x3DCCCCCD#32),
    StableHlo.unary main_cst_103 main_v731 (broadcastInDim S100000x8 ![] bcast_S_S100000x8 : (⟨S_, .f32⟩ : BufTy).Contents (Elt F) → (⟨S100000x8, .f32⟩ : BufTy).Contents (Elt F)),
    StableHlo.binary main_v731 main_v558 main_v732 (mulf : (⟨S100000x8, .f32⟩ : BufTy).Contents (Elt F) → (⟨S100000x8, .f32⟩ : BufTy).Contents (Elt F) → (⟨S100000x8, .f32⟩ : BufTy).Contents (Elt F)),
    StableHlo.binary main_v730 main_v732 main_v733 (addf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s781_840_sub : (s781_840 : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem s781_840_fresh : (s781_840 : List (HloOp τ sig (Elt F))).Forall fun op => op.fresh = ∅ := by
  simp only [List.Forall]; repeat' constructor
set_option maxHeartbeats 4000000 in
/-- None of these operations writes an argument of @main. -/
theorem s781_840_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s781_840 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s781_840, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s781_840_carries (V : Valuation τ sig (Elt F)) (r : Ref sig .tc) (hr : r ∈ [main_v51, main_v554, main_v558]) :
    after s781_840 V (Proc.devRef .tc r) = V (Proc.devRef .tc r) := by
  simp only [List.mem_cons, List.mem_nil_iff, or_false] at hr
  rcases hr with rfl | rfl | rfl
  all_goals exact after_of_forall_not_mem _ _ (List.forall_iff_forall_mem.mp (by
    simp only [s781_840, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 13 of @main is the run of its operations in order. -/
theorem part13_eq (c : Dev nD) : main_part13 (F := F) c = seq (s781_840) := by
  simp only [main_part13, seq, List.cons_append, List.nil_append, bind_assoc, pure_bind]
  try rfl

end Cert.ReferenceIdeal.Ops

end
-- ==== Proof.RefOps.W14.lean ====
/- GENERATED by a script (bun $KIT/certs/proofs/401025_j37349035606695_2_alg/scripts/gen_refops.mjs $KIT/certs/proofs/401025_j37349035606695_2_alg 401025_j37349035606695_2_alg; cuts after statements 4 11 32 39 60 64 116 168 220 272 324 376 428 480 532 584 616 632 637 897), from proof/ReferenceIdeal.lean:
   window 14 of the reference's @main (statements 841 … 897) as literal lists of its host operations, every call inlined
   at its call site over the call's buffer record, and the window's program as the run of those lists. -/
import proofs.«401025_j37349035606695_2_alg».proof.Proof.Gen.ReferenceIdeal
import Idealize.ShloMosaic.Lib.StableHlo.Run

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Statements 841 … 897 of @main: 57 operations, in order. -/
abbrev s841_897 : List (HloOp τ sig (Elt F)) :=
  [ StableHlo.unary main_v589 main_v734 (broadcastInDim S3300000x1 ![0] bcast_S3300000_S3300000x1_0 : (⟨S3300000, .f32⟩ : BufTy).Contents (Elt F) → (⟨S3300000x1, .f32⟩ : BufTy).Contents (Elt F)),
    StableHlo.nullary main_c_104 (constantI S_ 32 0#32),
    StableHlo.unary main_c_104 main_v735 (broadcastInDim S3300000 ![] bcast_S_S3300000 : (⟨S_, .i32⟩ : BufTy).Contents (Elt F) → (⟨S3300000, .i32⟩ : BufTy).Contents (Elt F)),
    StableHlo.binary main_v565 main_v735 main_v736 (cmpi .slt : (⟨S3300000, .i32⟩ : BufTy).Contents (Elt F) → (⟨S3300000, .i32⟩ : BufTy).Contents (Elt F) → (⟨S3300000, .i1⟩ : BufTy).Contents (Elt F)),
    StableHlo.nullary main_c_105 (constantI S_ 32 100000#32),
    StableHlo.unary main_c_105 main_v737 (broadcastInDim S3300000 ![] bcast_S_S3300000 : (⟨S_, .i32⟩ : BufTy).Contents (Elt F) → (⟨S3300000, .i32⟩ : BufTy).Contents (Elt F)),
    StableHlo.binary main_v565 main_v737 main_v738 (addi : (⟨S3300000, .i32⟩ : BufTy).Contents (Elt F) → (⟨S3300000, .i32⟩ : BufTy).Contents (Elt F) → (⟨S3300000, .i32⟩ : BufTy).Contents (Elt F)),
    StableHlo.ternary main_v736 main_v738 main_v565 main_v739 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v739 main_v740 (broadcastInDim S3300000x1 ![0] bcast_S3300000_S3300000x1_0 : (⟨S3300000, .i32⟩ : BufTy).Contents (Elt F) → (⟨S3300000x1, .i32⟩ : BufTy).Contents (Elt F)),
    StableHlo.binary main_v733 main_v740 main_v741 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v734 main_v742 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v742 main_v741 main_v743 (mulf : (⟨S3300000x8, .f32⟩ : BufTy).Contents (Elt F) → (⟨S3300000x8, .f32⟩ : BufTy).Contents (Elt F) → (⟨S3300000x8, .f32⟩ : BufTy).Contents (Elt F)),
    StableHlo.nullary main_cst_106 (constant S_ .f32 0x00000000#32),
    StableHlo.unary main_cst_106 main_v744 (broadcastInDim S100000x8 ![] bcast_S_S100000x8 : (⟨S_, .f32⟩ : BufTy).Contents (Elt F) → (⟨S100000x8, .f32⟩ : BufTy).Contents (Elt F)),
    StableHlo.unary main_v562 main_v745 (broadcastInDim S3300000x1 ![0] bcast_S3300000_S3300000x1_0 : (⟨S3300000, .i32⟩ : BufTy).Contents (Elt F) → (⟨S3300000x1, .i32⟩ : BufTy).Contents (Elt F)),
    StableHlo.ternary main_v744 main_v745 main_v743 main_v746 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_107 (constant S_ .f32 0x3F666666#32),
    StableHlo.unary main_cst_107 main_v747 (broadcastInDim S100000x8 ![] bcast_S_S100000x8 : (⟨S_, .f32⟩ : BufTy).Contents (Elt F) → (⟨S100000x8, .f32⟩ : BufTy).Contents (Elt F)),
    StableHlo.binary main_v747 main_v746 main_v748 (mulf : (⟨S100000x8, .f32⟩ : BufTy).Contents (Elt F) → (⟨S100000x8, .f32⟩ : BufTy).Contents (Elt F) → (⟨S100000x8, .f32⟩ : BufTy).Contents (Elt F)),
    StableHlo.nullary main_cst_108 (constant S_ .f32 0x3DCCCCCD#32),
    StableHlo.unary main_cst_108 main_v749 (broadcastInDim S100000x8 ![] bcast_S_S100000x8 : (⟨S_, .f32⟩ : BufTy).Contents (Elt F) → (⟨S100000x8, .f32⟩ : BufTy).Contents (Elt F)),
    StableHlo.binary main_v749 main_v558 main_v750 (mulf : (⟨S100000x8, .f32⟩ : BufTy).Contents (Elt F) → (⟨S100000x8, .f32⟩ : BufTy).Contents (Elt F) → (⟨S100000x8, .f32⟩ : BufTy).Contents (Elt F)),
    StableHlo.binary main_v748 main_v750 main_v751 (addf : (⟨S100000x8, .f32⟩ : BufTy).Contents (Elt F) → (⟨S100000x8, .f32⟩ : BufTy).Contents (Elt F) → (⟨S100000x8, .f32⟩ : BufTy).Contents (Elt F)),
    StableHlo.unary main_v589 main_v752 (broadcastInDim S3300000x1 ![0] bcast_S3300000_S3300000x1_0 : (⟨S3300000, .f32⟩ : BufTy).Contents (Elt F) → (⟨S3300000x1, .f32⟩ : BufTy).Contents (Elt F)),
    StableHlo.nullary main_c_109 (constantI S_ 32 0#32),
    StableHlo.unary main_c_109 main_v753 (broadcastInDim S3300000 ![] bcast_S_S3300000 : (⟨S_, .i32⟩ : BufTy).Contents (Elt F) → (⟨S3300000, .i32⟩ : BufTy).Contents (Elt F)),
    StableHlo.binary main_v565 main_v753 main_v754 (cmpi .slt : (⟨S3300000, .i32⟩ : BufTy).Contents (Elt F) → (⟨S3300000, .i32⟩ : BufTy).Contents (Elt F) → (⟨S3300000, .i1⟩ : BufTy).Contents (Elt F)),
    StableHlo.nullary main_c_110 (constantI S_ 32 100000#32),
    StableHlo.unary main_c_110 main_v755 (broadcastInDim S3300000 ![] bcast_S_S3300000 : (⟨S_, .i32⟩ : BufTy).Contents (Elt F) → (⟨S3300000, .i32⟩ : BufTy).Contents (Elt F)),
    StableHlo.binary main_v565 main_v755 main_v756 (addi : (⟨S3300000, .i32⟩ : BufTy).Contents (Elt F) → (⟨S3300000, .i32⟩ : BufTy).Contents (Elt F) → (⟨S3300000, .i32⟩ : BufTy).Contents (Elt F)),
    StableHlo.ternary main_v754 main_v756 main_v565 main_v757 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v757 main_v758 (broadcastInDim S3300000x1 ![0] bcast_S3300000_S3300000x1_0 : (⟨S3300000, .i32⟩ : BufTy).Contents (Elt F) → (⟨S3300000x1, .i32⟩ : BufTy).Contents (Elt F)),
    StableHlo.binary main_v751 main_v758 main_v759 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    StableHlo.unary main_v752 main_v760 (broadcastInDim S3300000x8 ![0, 1] bcast_S3300000x1_S3300000x8_0_1 : (⟨S3300000x1, .f32⟩ : BufTy).Contents (Elt F) → (⟨S3300000x8, .f32⟩ : BufTy).Contents (Elt F)),
    StableHlo.binary main_v760 main_v759 main_v761 (mulf : (⟨S3300000x8, .f32⟩ : BufTy).Contents (Elt F) → (⟨S3300000x8, .f32⟩ : BufTy).Contents (Elt F) → (⟨S3300000x8, .f32⟩ : BufTy).Contents (Elt F)),
    StableHlo.nullary main_cst_111 (constant S_ .f32 0x00000000#32),
    StableHlo.unary main_cst_111 main_v762 (broadcastInDim S100000x8 ![] bcast_S_S100000x8 : (⟨S_, .f32⟩ : BufTy).Contents (Elt F) → (⟨S100000x8, .f32⟩ : BufTy).Contents (Elt F)),
    StableHlo.unary main_v562 main_v763 (broadcastInDim S3300000x1 ![0] bcast_S3300000_S3300000x1_0 : (⟨S3300000, .i32⟩ : BufTy).Contents (Elt F) → (⟨S3300000x1, .i32⟩ : BufTy).Contents (Elt F)),
    StableHlo.ternary main_v762 main_v763 main_v761 main_v764 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    StableHlo.nullary main_cst_112 (constant S_ .f32 0x3F666666#32),
    StableHlo.unary main_cst_112 main_v765 (broadcastInDim S100000x8 ![] bcast_S_S100000x8 : (⟨S_, .f32⟩ : BufTy).Contents (Elt F) → (⟨S100000x8, .f32⟩ : BufTy).Contents (Elt F)),
    StableHlo.binary main_v765 main_v764 main_v766 (mulf : (⟨S100000x8, .f32⟩ : BufTy).Contents (Elt F) → (⟨S100000x8, .f32⟩ : BufTy).Contents (Elt F) → (⟨S100000x8, .f32⟩ : BufTy).Contents (Elt F)),
    StableHlo.nullary main_cst_113 (constant S_ .f32 0x3DCCCCCD#32),
    StableHlo.unary main_cst_113 main_v767 (broadcastInDim S100000x8 ![] bcast_S_S100000x8 : (⟨S_, .f32⟩ : BufTy).Contents (Elt F) → (⟨S100000x8, .f32⟩ : BufTy).Contents (Elt F)),
    StableHlo.binary main_v767 main_v558 main_v768 (mulf : (⟨S100000x8, .f32⟩ : BufTy).Contents (Elt F) → (⟨S100000x8, .f32⟩ : BufTy).Contents (Elt F) → (⟨S100000x8, .f32⟩ : BufTy).Contents (Elt F)),
    StableHlo.binary main_v766 main_v768 main_v769 (addf : (⟨S100000x8, .f32⟩ : BufTy).Contents (Elt F) → (⟨S100000x8, .f32⟩ : BufTy).Contents (Elt F) → (⟨S100000x8, .f32⟩ : BufTy).Contents (Elt F)),
    StableHlo.nullary main_cst_114 (constant S_ .f32 0x00000000#32),
    StableHlo.unary main_cst_114 main_v770 (broadcastInDim S100000x8 ![] bcast_S_S100000x8 : (⟨S_, .f32⟩ : BufTy).Contents (Elt F) → (⟨S100000x8, .f32⟩ : BufTy).Contents (Elt F)),
    StableHlo.binary main_v769 main_v770 main_v771 (maximumf : (⟨S100000x8, .f32⟩ : BufTy).Contents (Elt F) → (⟨S100000x8, .f32⟩ : BufTy).Contents (Elt F) → (⟨S100000x8, .f32⟩ : BufTy).Contents (Elt F)),
    StableHlo.nullary main_cst_115 (constant S_ .f32 0x3A83126F#32),
    StableHlo.unary main_cst_115 main_v772 (broadcastInDim S100000x8 ![] bcast_S_S100000x8 : (⟨S_, .f32⟩ : BufTy).Contents (Elt F) → (⟨S100000x8, .f32⟩ : BufTy).Contents (Elt F)),
    StableHlo.binary main_v772 main_v771 main_v773 (addf : (⟨S100000x8, .f32⟩ : BufTy).Contents (Elt F) → (⟨S100000x8, .f32⟩ : BufTy).Contents (Elt F) → (⟨S100000x8, .f32⟩ : BufTy).Contents (Elt F)),
    StableHlo.nullary main_cst_116 (constant S_ .f32 0x00000000#32),
    StableHlo.binary main_v773 main_cst_116 main_v774 ((fun x v => Host.reduceAdd x v reducesTo_S100000x8_S100000_d1 h_S_) : (⟨S100000x8, .f32⟩ : BufTy).Contents (Elt F) → (⟨S_, .f32⟩ : BufTy).Contents (Elt F) → (⟨S100000, .f32⟩ : BufTy).Contents (Elt F)),
    StableHlo.unary main_v774 main_v775 (broadcastInDim S100000x1 ![0] bcast_S100000_S100000x1_0 : (⟨S100000, .f32⟩ : BufTy).Contents (Elt F) → (⟨S100000x1, .f32⟩ : BufTy).Contents (Elt F)),
    StableHlo.unary main_v775 main_v776 (broadcastInDim S100000x8 ![0, 1] bcast_S100000x1_S100000x8_0_1 : (⟨S100000x1, .f32⟩ : BufTy).Contents (Elt F) → (⟨S100000x8, .f32⟩ : BufTy).Contents (Elt F)),
    StableHlo.binary main_v773 main_v776 main_v777 (Host.divf : (⟨S100000x8, .f32⟩ : BufTy).Contents (Elt F) → (⟨S100000x8, .f32⟩ : BufTy).Contents (Elt F) → (⟨S100000x8, .f32⟩ : BufTy).Contents (Elt F)) ]
set_option maxHeartbeats 4000000 in
theorem s841_897_sub : (s841_897 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub ..⟩
theorem s841_897_fresh : (s841_897 : List (HloOp τ sig (Elt F))).Forall fun op => op.fresh = ∅ := by
  simp only [List.Forall]; repeat' constructor
set_option maxHeartbeats 4000000 in
/-- None of these operations writes an argument of @main. -/
theorem s841_897_keeps (V : Valuation τ sig (Elt F)) (r : Ref sig .tc) (hr : r ∈ [main_arg0, main_arg1, main_arg2, main_arg3, main_arg4, main_arg5, main_arg6, main_arg7, main_arg8, main_arg9, main_arg10, main_arg11, main_arg12, main_arg13, main_arg14, main_arg15, main_arg16]) :
    after s841_897 V (Proc.devRef .tc r) = V (Proc.devRef .tc r) := by
  simp only [List.mem_cons, List.mem_nil_iff, or_false] at hr
  rcases hr with rfl | rfl | rfl | rfl | rfl | rfl | rfl | rfl | rfl | rfl | rfl | rfl | rfl | rfl | rfl | rfl | rfl
  all_goals exact after_of_forall_not_mem _ _ (List.forall_iff_forall_mem.mp (by
    simp only [s841_897, List.Forall, nullary_writes, unary_writes, binary_writes, ternary_writes, quaternary_writes, reshape_writes, Finset.mem_singleton]
    repeat' apply And.intro
    all_goals exact devRef_ne_of_ne (by decide)))
set_option maxHeartbeats 4000000 in
/-- Nor does any write these buffers, computed before and read after. -/
theorem s841_897_carries (V : Valuation τ sig (Elt F)) (r : Ref sig .tc) (hr : r ∈ [main_v51, main_v554, main_v558]) :
    after s841_897 V (Proc.devRef .tc r) = V (Proc.devRef .tc r) := by
  simp only [List.mem_cons, List.mem_nil_iff, or_false] at hr
  rcases hr with rfl | rfl | rfl
  all_goals exact after_of_forall_not_mem _ _ (List.forall_iff_forall_mem.mp (by
    simp only [s841_897, List.Forall, nullary_writes, unary_writes, binary_writes, ternary_writes, quaternary_writes, reshape_writes, Finset.mem_singleton]
    repeat' apply And.intro
    all_goals exact devRef_ne_of_ne (by decide)))

set_option maxRecDepth 16384 in
set_option maxHeartbeats 40000000 in
/-- Window 14 of @main is the run of its operations in order. -/
theorem part14_eq (c : Dev nD) : main_part14 (F := F) c = seq (s841_897) := by
  simp only [main_part14, seq, List.cons_append, List.nil_append, bind_assoc, pure_bind]
  try rfl

end Cert.ReferenceIdeal.Ops

end
-- ==== Proof.RefRun.lean ====
import proofs.«401025_j37349035606695_2_alg».proof.Proof.RefOps.W00
import proofs.«401025_j37349035606695_2_alg».proof.Proof.RefOps.W01
import proofs.«401025_j37349035606695_2_alg».proof.Proof.RefOps.W02
import proofs.«401025_j37349035606695_2_alg».proof.Proof.RefOps.W03
import proofs.«401025_j37349035606695_2_alg».proof.Proof.RefOps.W04
import proofs.«401025_j37349035606695_2_alg».proof.Proof.RefOps.W05
import proofs.«401025_j37349035606695_2_alg».proof.Proof.RefOps.W06
import proofs.«401025_j37349035606695_2_alg».proof.Proof.RefOps.W07
import proofs.«401025_j37349035606695_2_alg».proof.Proof.RefOps.W08
import proofs.«401025_j37349035606695_2_alg».proof.Proof.RefOps.W09
import proofs.«401025_j37349035606695_2_alg».proof.Proof.RefOps.W10
import proofs.«401025_j37349035606695_2_alg».proof.Proof.RefOps.W11
import proofs.«401025_j37349035606695_2_alg».proof.Proof.RefOps.W12
import proofs.«401025_j37349035606695_2_alg».proof.Proof.RefOps.W13
import proofs.«401025_j37349035606695_2_alg».proof.Proof.RefOps.W14

noncomputable section

namespace Cert.ReferenceIdeal.Ops

open Cert.ReferenceIdeal Idealize.ShloMosaic Idealize.ShloMosaic.TcCoe Idealize.SL.Sem Idealize.ShloMosaic.StableHlo

variable {F : FTy → Type} [FloatOps F]

/-- Running `l₁ ++ l₂` is running `l₁`, then `l₂`. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The reference's whole @main as one list. -/
def ops : List (HloOp τ sig (Elt F)) :=
  (s1_4 ++ s5_11 ++ s12_32 ++ s33_39 ++ s40_60) ++
    (s61_64 ++ s65_116 ++ s117_120) ++
    (s121_168 ++ s169_180) ++
    (s181_220 ++ s221_240) ++
    (s241_272 ++ s273_300) ++
    (s301_324 ++ s325_360) ++
    (s361_376 ++ s377_420) ++
    (s421_428 ++ s429_480) ++
    (s481_532 ++ s533_540) ++
    (s541_584 ++ s585_600) ++
    (s601_616 ++ s617_632 ++ s633_637 ++ s638_660) ++
    (s661_720) ++
    (s721_780) ++
    (s781_840) ++
    (s841_897)

theorem main_eq (c : Dev nD) : main (F := F) c = seq ops := by
  unfold main ops
  simp only [part0_eq, part1_eq, part2_eq, part3_eq, part4_eq, part5_eq, part6_eq, part7_eq, part8_eq, part9_eq, part10_eq, part11_eq, part12_eq, part13_eq, part14_eq, seq_append, bind_assoc]

/-- Membership in a list, from the conjunction over it. -/
private theorem fm {α : Type*} {p : α → Prop} {l : List α} (h : l.Forall p) : ∀ x ∈ l, p x := List.forall_iff_forall_mem.mp h

/-- What holds of every member of two lists holds of every member of their concatenation. -/
private theorem app {α : Type*} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

attribute [local irreducible] ops in
theorem ops_sub : (ops : List (HloOp τ sig (Elt F))).Forall fun op => op.bufs ⊆ tcRefs τ sig :=
  List.forall_iff_forall_mem.mpr (by
    unfold ops
    exact (app (app (app (app (app (app (app (app (app (app (app (app (app (app (app (app (app (app (fm s1_4_sub) (fm s5_11_sub)) (fm s12_32_sub)) (fm s33_39_sub)) (fm s40_60_sub)) (app (app (fm s61_64_sub) (fm s65_116_sub)) (fm s117_120_sub))) (app (fm s121_168_sub) (fm s169_180_sub))) (app (fm s181_220_sub) (fm s221_240_sub))) (app (fm s241_272_sub) (fm s273_300_sub))) (app (fm s301_324_sub) (fm s325_360_sub))) (app (fm s361_376_sub) (fm s377_420_sub))) (app (fm s421_428_sub) (fm s429_480_sub))) (app (fm s481_532_sub) (fm s533_540_sub))) (app (fm s541_584_sub) (fm s585_600_sub))) (app (app (app (fm s601_616_sub) (fm s617_632_sub)) (fm s633_637_sub)) (fm s638_660_sub))) (fm s661_720_sub)) (fm s721_780_sub)) (fm s781_840_sub)) (fm s841_897_sub)))

attribute [local irreducible] ops in
theorem ops_fresh : (ops : List (HloOp τ sig (Elt F))).Forall fun op => op.fresh = ∅ :=
  List.forall_iff_forall_mem.mpr (by
    unfold ops
    exact (app (app (app (app (app (app (app (app (app (app (app (app (app (app (app (app (app (app (fm s1_4_fresh) (fm s5_11_fresh)) (fm s12_32_fresh)) (fm s33_39_fresh)) (fm s40_60_fresh)) (app (app (fm s61_64_fresh) (fm s65_116_fresh)) (fm s117_120_fresh))) (app (fm s121_168_fresh) (fm s169_180_fresh))) (app (fm s181_220_fresh) (fm s221_240_fresh))) (app (fm s241_272_fresh) (fm s273_300_fresh))) (app (fm s301_324_fresh) (fm s325_360_fresh))) (app (fm s361_376_fresh) (fm s377_420_fresh))) (app (fm s421_428_fresh) (fm s429_480_fresh))) (app (fm s481_532_fresh) (fm s533_540_fresh))) (app (fm s541_584_fresh) (fm s585_600_fresh))) (app (app (app (fm s601_616_fresh) (fm s617_632_fresh)) (fm s633_637_fresh)) (fm s638_660_fresh))) (fm s661_720_fresh)) (fm s721_780_fresh)) (fm s781_840_fresh)) (fm s841_897_fresh)))

theorem scopedRefs_eq : (Finset.univ.filter fun b : Ref sig .tc => b.isScoped) = ∅ := by decide
theorem scopedSems_eq : (Finset.univ.filter fun sm : SemLoc sig => sm.isScoped .tc) = ∅ := by decide

attribute [local irreducible] ops in
/-- The reference always terminates, and each buffer ends at `after ops` of the contents it was launched with. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => List.forall_iff_forall_mem.mp ops_fresh op h)

end Cert.ReferenceIdeal.Ops

end
-- ==== Proof.Asm.RefChain.lean ====
import proofs.«401025_j37349035606695_2_alg».proof.Proof.RefRun

noncomputable section

namespace Cert.ReferenceIdeal.Ops

open Cert.ReferenceIdeal Idealize.ShloMosaic Idealize.ShloMosaic.TcCoe Idealize.SL.Sem Idealize.ShloMosaic.StableHlo

variable {F : FTy → Type} [FloatOps F] (V : Valuation τ sig (Elt F))

/-- `l` does not change the contents of `r`, whatever it starts from. -/
def Keeps (l : List (HloOp τ sig (Elt F))) (r : Ref sig .tc) : Prop :=
  ∀ V : Valuation τ sig (Elt F), after l V (Proc.devRef .tc r) = V (Proc.devRef .tc r)

theorem Keeps.of {l : List (HloOp τ sig (Elt F))} {L : List (Ref sig .tc)}
    (h : ∀ (V : Valuation τ sig (Elt F)) (r : Ref sig .tc), r ∈ L → after l V (Proc.devRef .tc r) = V (Proc.devRef .tc r))
    {r : Ref sig .tc} (hr : r ∈ L) : Keeps l r := fun V => h V r hr

theorem Keeps.append {l₁ l₂ : List (HloOp τ sig (Elt F))} {r : Ref sig .tc} (h₁ : Keeps l₁ r) (h₂ : Keeps l₂ r) : Keeps (l₁ ++ l₂) r :=
  fun V => by rw [after_append, h₂, h₁]

/-- Lines that each leave `r` alone leave it alone one after the other. -/
theorem Keeps.foldl {r : Ref sig .tc} : ∀ (ls : List (List (HloOp τ sig (Elt F)))), (∀ l ∈ ls, Keeps l r) →
    ∀ V : Valuation τ sig (Elt F), ls.foldl (fun W l => after l W) V (Proc.devRef .tc r) = V (Proc.devRef .tc r)
  | [], _, _ => rfl
  | l :: ls, h, V => (Keeps.foldl ls (fun x hx => h x (List.mem_cons_of_mem _ hx)) (after l V)).trans (h l List.mem_cons_self V)

/-- The five stretches of the encoder: each affine layer, each pair of statistics. -/
def early : List (List (HloOp τ sig (Elt F))) := [s1_4, s5_11, s12_32, s33_39, s40_60]

/-- The ten radial layers (9 first), the log-density with the evidence, the degrees, their inverse square roots, the propagation. -/
def late : List (List (HloOp τ sig (Elt F))) :=
  [s61_64 ++ s65_116, s117_120 ++ s121_168, s169_180 ++ s181_220, s221_240 ++ s241_272, s273_300 ++ s301_324,
   s325_360 ++ s361_376, s377_420 ++ s421_428, s429_480, s481_532, s533_540 ++ s541_584,
   s585_600 ++ s601_616, s617_632, s633_637, s638_660 ++ s661_720 ++ s721_780 ++ s781_840 ++ s841_897]

/-- The contents after the first `k` of the nineteen stretches. -/
def St (k : Nat) : Valuation τ sig (Elt F) := ((early ++ late).take k).foldl (fun W l => after l W) V

theorem after_ops_eq : after (Val := Elt F) ops V = St V 19 := by
  simp only [ops, after_append]
  rfl

/-- The contents after the encoder's stretches and `k` more. -/
theorem St_late (k : Nat) : St V (5 + k) = (late.take k).foldl (fun W l => after l W) (St V 5) := by
  unfold St
  rw [List.take_add, List.foldl_append]
  rfl

abbrev args : List (Ref sig .tc) :=
  [main_arg0, main_arg1, main_arg2, main_arg3, main_arg4, main_arg5, main_arg6, main_arg7, main_arg8, main_arg9, main_arg10,
   main_arg11, main_arg12, main_arg13, main_arg14, main_arg15, main_arg16]

/-- No stretch writes an argument, so every stage finds the arguments as launched. -/
theorem args_kept (r : Ref sig .tc) (hr : r ∈ args) (k : Nat) : St V k (Proc.devRef .tc r) = V (Proc.devRef .tc r) := by
  refine Keeps.foldl _ (fun l hl => ?_) V
  have hl := List.mem_of_mem_take hl
  simp only [early, late, List.cons_append, List.nil_append, List.mem_cons, List.mem_nil_iff, or_false] at hl
  rcases hl with rfl | rfl | rfl | rfl | rfl | rfl | rfl | rfl | rfl | rfl | rfl | rfl | rfl | rfl | rfl | rfl | rfl | rfl | rfl
  exacts [.of s1_4_keeps hr, .of s5_11_keeps hr, .of s12_32_keeps hr, .of s33_39_keeps hr, .of s40_60_keeps hr,
    (Keeps.of s61_64_keeps hr).append (.of s65_116_keeps hr), (Keeps.of s117_120_keeps hr).append (.of s121_168_keeps hr),
    (Keeps.of s169_180_keeps hr).append (.of s181_220_keeps hr), (Keeps.of s221_240_keeps hr).append (.of s241_272_keeps hr),
    (Keeps.of s273_300_keeps hr).append (.of s301_324_keeps hr), (Keeps.of s325_360_keeps hr).append (.of s361_376_keeps hr),
    (Keeps.of s377_420_keeps hr).append (.of s421_428_keeps hr), .of s429_480_keeps hr, .of s481_532_keeps hr,
    (Keeps.of s533_540_keeps hr).append (.of s541_584_keeps hr), (Keeps.of s585_600_keeps hr).append (.of s601_616_keeps hr),
    .of s617_632_keeps hr, .of s633_637_keeps hr,
    ((((Keeps.of s638_660_keeps hr).append (.of s661_720_keeps hr)).append (.of s721_780_keeps hr)).append (.of s781_840_keeps hr)).append (.of s841_897_keeps hr)]

/-- The propagation's five lines leave alone what they only read. -/
theorem tail_keeps {r : Ref sig .tc} (hr : r ∈ [main_v51, main_v554, main_v558]) :
    Keeps (F := F) (s638_660 ++ s661_720 ++ s721_780 ++ s781_840 ++ s841_897) r := by
  have h : ∀ L : List (Ref sig .tc), [main_v51, main_v554, main_v558] ⊆ L → r ∈ L := fun L hL => hL hr
  exact ((((Keeps.of s638_660_carries (h _ (by simp))).append (.of s661_720_carries (h _ (by simp)))).append (.of s721_780_carries (h _ (by simp)))).append
    (.of s781_840_carries (h _ (by simp)))).append (.of s841_897_carries (h _ (by simp)))

/-- Once computed, the latent array reaches the end unchanged. -/
theorem z_kept : St V 19 (Proc.devRef .tc main_v51) = St V 5 (Proc.devRef .tc main_v51) := by
  rw [St_late V 14]
  refine Keeps.foldl _ (fun l hl => ?_) _
  have hl := List.mem_of_mem_take hl
  simp only [late, List.mem_cons, List.mem_nil_iff, or_false] at hl
  rcases hl with rfl | rfl | rfl | rfl | rfl | rfl | rfl | rfl | rfl | rfl | rfl | rfl | rfl | rfl
  exacts [(Keeps.of s61_64_carries (by simp)).append (.of s65_116_carries (by simp)), (Keeps.of s117_120_carries (by simp)).append (.of s121_168_carries (by simp)),
    (Keeps.of s169_180_carries (by simp)).append (.of s181_220_carries (by simp)), (Keeps.of s221_240_carries (by simp)).append (.of s241_272_carries (by simp)),
    (Keeps.of s273_300_carries (by simp)).append (.of s301_324_carries (by simp)), (Keeps.of s325_360_carries (by simp)).append (.of s361_376_carries (by simp)),
    (Keeps.of s377_420_carries (by simp)).append (.of s421_428_carries (by simp)), .of s429_480_carries (by simp), .of s481_532_carries (by simp),
    (Keeps.of s533_540_carries (by simp)).append (.of s541_584_carries (by simp)), (Keeps.of s585_600_carries (by simp)).append (.of s601_616_carries (by simp)),
    .of s617_632_carries (by simp), .of s633_637_carries (by simp), tail_keeps (by simp)]

/-- The log-density and the evidence are not written after they are computed. -/
theorem logq_kept (r : Ref sig .tc) (hr : r ∈ [main_v554, main_v558]) : St V 19 (Proc.devRef .tc r) = St V 16 (Proc.devRef .tc r) := by
  have h : ∀ L : List (Ref sig .tc), [main_v554, main_v558] ⊆ L → r ∈ L := fun L hL => hL hr
  exact (tail_keeps (h _ (by simp)) (St V 18)).trans ((s633_637_carries (St V 17) r (h _ (by simp))).trans (s617_632_carries (St V 16) r (h _ (by simp))))

theorem rows_kept (r : Ref sig .tc) (hr : r ∈ [main_v562, main_v565, main_v558]) : St V 18 (Proc.devRef .tc r) = St V 17 (Proc.devRef .tc r) :=
  s633_637_carries (St V 17) r ((show [main_v562, main_v565, main_v558] ⊆ _ by simp) hr)

theorem evidence_kept7 : St V 17 (Proc.devRef .tc main_v558) = St V 16 (Proc.devRef .tc main_v558) := s617_632_carries (St V 16) main_v558 (by simp)
theorem pre1_kept : St V 2 (Proc.devRef .tc main_v3) = St V 1 (Proc.devRef .tc main_v3) := s5_11_carries (St V 1) main_v3 (by simp)
theorem pre2_kept : St V 4 (Proc.devRef .tc main_v27) = St V 3 (Proc.devRef .tc main_v27) := s33_39_carries (St V 3) main_v27 (by simp)

end Cert.ReferenceIdeal.Ops

end
-- ==== Proof.Asm.KKeeps.lean ====
import proofs.«401025_j37349035606695_2_alg».proof.Proof.Gen.KernelIdeal.Frame

noncomputable section

namespace Cert.KernelIdeal.Gen

open Idealize.ShloMosaic Idealize.ShloMosaic.TcCoe Idealize.SL.Sem

variable {F : FTy → Type} [FloatOps F]

/-- A line each of whose operations writes one reference outside `L` leaves every reference of `L` as it was. -/
theorem keeps {ops : List (HloOp τ sig (Elt F))} {L : List (Ref sig .tc)}
    (h : ops.Forall fun op => ∃ y, y ∉ L ∧ op.writes = {Proc.devRef .tc y}) (V : Valuation τ sig (Elt F)) (r : Ref sig .tc)
    (hr : r ∈ L) : StableHlo.after ops V (Proc.devRef .tc r) = V (Proc.devRef .tc r) :=
  StableHlo.after_of_forall_not_mem ops V fun op hop hb => by
    obtain ⟨y, hy, e⟩ := List.forall_iff_forall_mem.mp h op hop
    rw [e, Finset.mem_singleton] at hb
    exact hy (Proc.devRef_injective _ hb ▸ hr)

theorem hostOps3_keeps (V : Valuation τ sig (Elt F)) (r : Ref sig .tc) (hr : r ∈ [main_v10_0, main_v10_1, main_v10_2]) :
    StableHlo.after hostOps3 V (Proc.devRef .tc r) = V (Proc.devRef .tc r) :=
  keeps (by repeat' apply And.intro
            all_goals exact ⟨_, by decide, rfl⟩) V r hr

theorem hostOps3_1_keeps (V : Valuation τ sig (Elt F)) (r : Ref sig .tc) (hr : r ∈ [main_v10_0, main_v10_1, main_v10_2, main_v14, main_v17]) :
    StableHlo.after hostOps3_1 V (Proc.devRef .tc r) = V (Proc.devRef .tc r) :=
  keeps (by repeat' apply And.intro
            all_goals exact ⟨_, by decide, rfl⟩) V r hr

variable (m : (ℓ : Loc nD τ sig) → Buf (Elt F) ℓ) (ρ : Dev nD → PrngReg)

theorem W3_of_keeps (c : Dev nD) (r : Ref sig .tc) (hr : r ∈ [main_v0, main_arg1, main_arg4, main_arg5, main_arg6, main_arg7, main_arg8, main_arg9, main_arg10, main_arg11, main_arg12, main_arg13, main_arg14, main_arg15, main_arg16]) :
    W3 m ρ c (Proc.devRef .tc r) = W1 m ρ c (Proc.devRef .tc r) :=
  (keeps (by repeat' apply And.intro
             all_goals exact ⟨_, by decide, rfl⟩) _ r hr).trans
    (keeps (by repeat' apply And.intro
               all_goals exact ⟨_, by decide, rfl⟩) _ r hr)

theorem W6_of_keeps (c : Dev nD) (r : Ref sig .tc) (hr : r ∈ [main_v5, main_arg1, main_arg8, main_arg9, main_arg10, main_arg11, main_arg12, main_arg13, main_arg14, main_arg15, main_arg16]) :
    W6 m ρ c (Proc.devRef .tc r) = W4 m ρ c (Proc.devRef .tc r) :=
  (keeps (by repeat' apply And.intro
             all_goals exact ⟨_, by decide, rfl⟩) _ r hr).trans
    (keeps (by repeat' apply And.intro
               all_goals exact ⟨_, by decide, rfl⟩) _ r hr)

theorem W10_of_keeps (c : Dev nD) (r : Ref sig .tc) (hr : r ∈ [main_v10_0, main_v10_1, main_v10_2]) :
    W10 m ρ c (Proc.devRef .tc r) = W7 m ρ c (Proc.devRef .tc r) :=
  (keeps (by repeat' apply And.intro
             all_goals exact ⟨_, by decide, rfl⟩) _ r hr).trans
    ((hostOps3_1_keeps _ r (List.mem_append_left [main_v14, main_v17] hr)).trans (hostOps3_keeps _ r hr))

theorem W3_arg (c : Dev nD) : ∀ r ∈ [main_arg4, main_arg5, main_arg6, main_arg7], W3 m ρ c (Proc.devRef .tc r) = W0 m ρ c (Proc.devRef .tc r) :=
  fun r hr => (W3_of_keeps m ρ c r (by revert r; decide)).trans (W1_of_ne m ρ c r (by revert r; decide))

theorem W6_arg (c : Dev nD) : ∀ r ∈ [main_arg1, main_arg8, main_arg9, main_arg10, main_arg11, main_arg12, main_arg13, main_arg14, main_arg15, main_arg16],
    W6 m ρ c (Proc.devRef .tc r) = W0 m ρ c (Proc.devRef .tc r) :=
  fun r hr => (W6_of_keeps m ρ c r (by revert r; decide)).trans ((W4_of_ne m ρ c r (by revert r; decide)).trans
    ((W3_of_keeps m ρ c r (by revert r; decide)).trans (W1_of_ne m ρ c r (by revert r; decide))))

end Cert.KernelIdeal.Gen

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev A1 (n : Nat) : Type := (⟨1, ![n]⟩ : Shape).Idx → EReal
abbrev A2 (m n : Nat) : Type := (⟨2, ![m, n]⟩ : Shape).Idx → EReal
abbrev A3 (l m n : Nat) : Type := (⟨3, ![l, m, n]⟩ : Shape).Idx → EReal

/-- A binary32 word as an extended real; both programs print the same words, so none is ever evaluated. -/
abbrev w32 (b : BitVec 32) : EReal := Ideal.ofBits .f32 b

/-- A row times a weight column, plus the bias. -/
def dotE {K : Nat} (x w : Fin K → EReal) (b : EReal) : EReal := (∑ k : Fin K, x k * w k) + b

/-- max (g (p - mean) / sqrt (var + 1e-5) + be) 0. -/
def bnreluE (g mean var be p : EReal) : EReal :=
  max (Ideal.div (g * (p - mean)) (Ideal.sqrt (var + w32 0x3727C5AC#32)) + be) (w32 0x00000000#32)

def linear {N K J : Nat} (x : A2 N K) (w : A2 K J) (b : A1 J) : A2 N J :=
  fun i => dotE (fun k => x (ix2 (n0 := N) (n1 := K) (i 0) k)) (fun k => w (ix2 (n0 := K) (n1 := J) k (i 1))) (b (ix1 (n := J) (i 1)))

/-- `bnreluE` on every feature with the batch statistics, then an affine layer. -/
def bnLinear {N K J : Nat} (p : A2 N K) (mean var g be : A1 K) (w : A2 K J) (b : A1 J) : A2 N J :=
  fun i => dotE (fun k => bnreluE (g (ix1 k)) (mean (ix1 k)) (var (ix1 k)) (be (ix1 k)) (p (ix2 (n0 := N) (n1 := K) (i 0) k)))
    (fun k => w (ix2 (n0 := K) (n1 := J) k (i 1))) (b (ix1 (n := J) (i 1)))

/-- log (1 + eˣ) written as max x 0 + log1p (exp (-|x|)). -/
def softplusE (x : EReal) : EReal := max x 0 + Ideal.log1p (Ideal.exp (-(max x (-x))))

def aE (ap : EReal) : EReal := softplusE ap
def bE (ap bp : EReal) : EReal := -(softplusE ap) + softplusE bp

/-- r = max ‖d‖ 1e-8. -/
def rE (d : Fin 16 → EReal) : EReal := max (Ideal.sqrt (∑ k : Fin 16, d k * d k)) (w32 0x322BCC77#32)

/-- h = 1 / (a + r). -/
def hE (a r : EReal) : EReal := Ideal.div (w32 0x3F800000#32) (a + r)

/-- h' = -1 / (a + r)². -/
def hpE (a r : EReal) : EReal := Ideal.div (w32 0xBF800000#32) ((a + r) * (a + r))

/-- A radial map: z ↦ z + b h (z - x0), with r the clamped distance of z from x0. -/
def flowZ (a b : EReal) (x0 z : Fin 16 → EReal) : Fin 16 → EReal :=
  fun k => z k + (b * hE a (rE fun j => z j - x0 j)) * (z k - x0 k)

/-- Its log-determinant in dimension 16, added to `ld`: 15 log (1 + b h) + log (1 + b h + b h' r). -/
def flowLd (a b : EReal) (x0 z : Fin 16 → EReal) (ld : EReal) : EReal :=
  (ld + w32 0x41700000#32 * Ideal.log1p (b * hE a (rE fun j => z j - x0 j)))
    + Ideal.log1p (b * hE a (rE fun j => z j - x0 j) + (b * hpE a (rE fun j => z j - x0 j)) * (rE fun j => z j - x0 j))

/-- Layer `l` of class `c` on a pair (point, log-determinant). -/
def layer (x0 : A3 10 8 16) (ap bp : A2 10 8) (c : Fin 8) (l : Fin 10) (s : (Fin 16 → EReal) × EReal) : (Fin 16 → EReal) × EReal :=
  (flowZ (aE (ap (ix2 l c))) (bE (ap (ix2 l c)) (bp (ix2 l c))) (fun k => x0 (ix3 l c k)) s.1,
   flowLd (aE (ap (ix2 l c))) (bE (ap (ix2 l c)) (bp (ix2 l c))) (fun k => x0 (ix3 l c k)) s.1 s.2)

/-- Layers 9, 8, …, 0 from a point and a zero log-determinant. -/
def flowAll (x0 : A3 10 8 16) (ap bp : A2 10 8) (c : Fin 8) (z : Fin 16 → EReal) : (Fin 16 → EReal) × EReal :=
  layer x0 ap bp c 0 (layer x0 ap bp c 1 (layer x0 ap bp c 2 (layer x0 ap bp c 3 (layer x0 ap bp c 4
    (layer x0 ap bp c 5 (layer x0 ap bp c 6 (layer x0 ap bp c 7 (layer x0 ap bp c 8 (layer x0 ap bp c 9 (z, w32 0x00000000#32))))))))))

/-- A diagonal Gaussian's log-density at the pair's point, plus the pair's log-determinant. -/
def logqE (mu lv : Fin 16 → EReal) (s : (Fin 16 → EReal) × EReal) : EReal :=
  ((w32 0xC16B3F8E#32 - w32 0x3F000000#32 * ∑ k : Fin 16, lv k)
      - w32 0x3F000000#32 * ∑ k : Fin 16, Ideal.div ((s.1 k - mu k) * (s.1 k - mu k)) (Ideal.exp (lv k)))
    + s.2

/-- The shifted log-density clamped to [-30, 30], exponentiated. -/
def bftE (q : EReal) : EReal :=
  Ideal.exp (min (w32 0x41F00000#32) (max (w32 0xC1F00000#32) (q + w32 0x41A1FC4D#32)))

def logq (z : A2 100000 16) (x0 : A3 10 8 16) (ap bp : A2 10 8) (mu lv : A2 8 16) : A2 100000 8 :=
  fun i => logqE (fun k => mu (ix2 (n0 := 8) (n1 := 16) (i 1) k)) (fun k => lv (ix2 (n0 := 8) (n1 := 16) (i 1) k))
    (flowAll x0 ap bp (i 1) fun k => z (ix2 (n0 := 100000) (n1 := 16) (i 0) k))

def bft (q : A2 100000 8) : A2 100000 8 := fun i => bftE (q i)

end Cert.Spec

end
-- ==== Proof.Enc.Common.lean ====
import proofs.«401025_j37349035606695_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Enc

open Cert.Spec Idealize.ShloMosaic Idealize.ShloMosaic.ValueIdx Idealize.SL.Sem
open Idealize.ShloMosaic.Pipeline (Window Grid)

/-- Rows against columns into a zero accumulator: the contraction's one coordinate indexes the sum. -/
theorem matmul_apply {M K N : ℕ} {φ₁ φ₂ : FTy} (D : DotDims ⟨2, ![M, K]⟩ ⟨2, ![K, N]⟩ ⟨2, ![M, N]⟩) (wf)
    (hD : D = ⟨[1], [0], [0], [1], [], [], wf⟩) (A : FVec Ideal ⟨2, ![M, K]⟩ φ₁) (B : FVec Ideal ⟨2, ![K, N]⟩ φ₂)
    (p : Fin M) (q : Fin N) :
    FloatOps.matmul D none A B (constant (F := Ideal) ⟨2, ![M, N]⟩ .f32 0x00000000#32) (ix2 p q)
      = ∑ k : Fin K, A (ix2 p k) * B (ix2 k q) := by
  subst hD
  rw [Ideal.matmul_constant_zero_apply, ← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  exact congrArg₂ (fun i j => A i * B j) (Shape.idx_ext₂ rfl hk) (Shape.idx_ext₂ hk rfl)

/-- A vector laid as one row and repeated down the rows reads its own entry in every row. -/
theorem row_apply {α : Type} {a b : ℕ} (v : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (k : Fin b) :
    broadcastTo ⟨2, ![a, b]⟩ (shapeCast ⟨2, ![1, b]⟩ v h₁) h₂ (ix2 p k) = v (ix1 k) :=
  (broadcastTo_1b_ab_apply _ h₂ p k).trans (shapeCast_a_1a_apply v h₁ 0 k)

/-- An entry of an affine layer depends on its own row of the first operand only. -/
theorem linear_row {N N' K J : ℕ} (x : A2 N K) (x' : A2 N' K) (w : A2 K J) (b : A1 J) (i : Fin N) (i' : Fin N')
    (h : ∀ k, x (ix2 i k) = x' (ix2 i' k)) (j : Fin J) : linear x w b (ix2 i j) = linear x' w b (ix2 i' j) :=
  congrArg (fun f => dotE f (fun k => w (ix2 k j)) (b (ix1 j))) (funext h)

/-- So does an entry of the standardise-then-affine layer. -/
theorem bnLinear_row {N N' K J : ℕ} (x : A2 N K) (x' : A2 N' K) (mean var g be : A1 K) (w : A2 K J) (b : A1 J) (i : Fin N)
    (i' : Fin N') (h : ∀ k, x (ix2 i k) = x' (ix2 i' k)) (j : Fin J) :
    bnLinear x mean var g be w b (ix2 i j) = bnLinear x' mean var g be w b (ix2 i' j) :=
  congrArg (fun f => dotE f (fun k => w (ix2 k j)) (b (ix1 j)))
    (funext fun k => congrArg (bnreluE (g (ix1 k)) (mean (ix1 k)) (var (ix1 k)) (be (ix1 k))) (h k))

theorem z1 : (![0] : Fin 1 → ℕ) = fun _ => 0 := funext fun a => by fin_cases a <;> rfl
theorem z2 : (![0, 0] : Fin 2 → ℕ) = fun _ => 0 := funext fun a => by fin_cases a <;> rfl

/-- Where the block index is zero on every axis, a block's entry sits at its own coordinates in the array. -/
theorem emb_whole {sig : RefSig} {G : Grid} (w : Window sig G) (t : Fin G.N) (h : ∀ a, w.index t a = 0)
    (y : (w.xblock (G.coords t)).Idx) (x : w.shape.Idx) (hx : ∀ a, (x a : ℕ) = y a) : (w.rect t).emb y = x :=
  funext fun a => Fin.ext ((w.rect_emb_val_of_index_zero t a (h a) y).trans (hx a).symm)

/-- Row `n` of an array lies in band `n / B` of its bands of `B` rows. -/
theorem mem_band {N C B : ℕ} (hB : 0 < B) (off : Fin 2 → ℕ) (inb) (i : (⟨2, ![N, C]⟩ : Shape).Idx)
    (h0 : off 0 = (i 0).val / B * B) (h1 : off 1 = 0) :
    i ∈ (Rect.unit (s := ⟨2, ![N, C]⟩) off ![B, C] inb).set :=
  Rect.mem_set_unit.mpr fun a => match a with
    | ⟨0, _⟩ => by
      show off 0 ≤ (i 0).val ∧ (i 0).val < off 0 + B
      rw [h0]; exact ⟨Nat.div_mul_le_self _ _, Nat.lt_div_mul_add hB⟩
    | ⟨1, _⟩ => by
      show off 1 ≤ (i 1).val ∧ (i 1).val < off 1 + C
      rw [h1, Nat.zero_add]; exact ⟨Nat.zero_le _, (i 1).isLt⟩

/-- Each feature standardised, scaled, shifted and clamped, then rows against columns plus the bias, is `bnLinear` entry by entry. -/
theorem bnLinear_apply {a b n : ℕ} (D : DotDims ⟨2, ![a, b]⟩ ⟨2, ![b, n]⟩ ⟨2, ![a, n]⟩) (wf) (hD : D = ⟨[1], [0], [0], [1], [], [], wf⟩)
    (x : Vec Ideal ⟨2, ![a, b]⟩ .f32) (g mean var be : Vec Ideal ⟨1, ![b]⟩ .f32) (W : Vec Ideal ⟨2, ![b, n]⟩ .f32)
    (c : Vec Ideal ⟨1, ![n]⟩ .f32) (hx hv h₁ h₂ h₃ h₄ ht) (p : Fin a) (j : Fin n) :
    addf (F := Ideal) (matmul D none
        (truncf .bf16 (maximumf (addf (divf
            (mulf (broadcastTo ⟨2, ![a, b]⟩ (shapeCast ⟨2, ![1, b]⟩ g h₁) h₂)
              (subf (shapeCast ⟨2, ![a, b]⟩ x hx)
                (broadcastTo ⟨2, ![a, b]⟩ (shapeCast ⟨2, ![1, b]⟩ (shapeCast ⟨1, ![b]⟩ mean hv) h₁) h₂)))
            (broadcastTo ⟨2, ![a, b]⟩ (shapeCast ⟨2, ![1, b]⟩
              (sqrt (addf (shapeCast ⟨1, ![b]⟩ var hv) (broadcast ⟨1, ![b]⟩ (Scalar.ofBits .f32 0x3727C5AC#32)))) h₁) h₂))
            (broadcastTo ⟨2, ![a, b]⟩ (shapeCast ⟨2, ![1, b]⟩ be h₁) h₂))
          (broadcast ⟨2, ![a, b]⟩ (Scalar.ofBits .f32 0x00000000#32))) ht)
        (truncf .bf16 W ht) (constant ⟨2, ![a, n]⟩ .f32 0x00000000#32))
      (broadcastTo ⟨2, ![a, n]⟩ (shapeCast ⟨2, ![1, n]⟩ c h₃) h₄) (ix2 p j)
      = bnLinear x mean var g be W c (ix2 p j) := by
  refine (congrArg₂ (· + ·) (matmul_apply D wf hD _ _ p j) (row_apply c h₃ h₄ p j)).trans ?_
  refine congrArg (· + c (ix1 j)) (Finset.sum_congr rfl fun k _ => congrArg (· * W (ix2 k j)) ?_)
  simp only [truncf_apply, maximumf_apply, addf_apply, divf_apply, mulf_apply, subf_apply, broadcast_apply, row_apply, shapeCast_self]
  rfl

end Cert.KernelIdeal.Gen.Enc

end
-- ==== Proof.Enc.K0.lean ====
import proofs.«401025_j37349035606695_2_alg».proof.Proof.Gen.KernelIdeal.Frame
import proofs.«401025_j37349035606695_2_alg».proof.Proof.Enc.Common

noncomputable section

namespace Cert.KernelIdeal.Gen.Enc

open Cert.KernelIdeal Cert.KernelIdeal.Gen Cert.Spec Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem idx0 : ∀ t : Fin cfg0.N, (win0_0.index t 0 = t.val ∧ win0_0.index t 1 = 0) ∧ (∀ a, win0_1.index t a = 0)
    ∧ (∀ a, win0_2.index t a = 0) ∧ win0_3.index t 0 = t.val ∧ win0_3.index t 1 = 0 :=
  (by decide +kernel : ∀ t : Fin grid0.N, _)

/-- Rows against columns plus the bias row: the affine layer, entry by entry. -/
theorem pay0 (x0 : Vec Ideal S2000x256 .f32) (x1 : Vec Ideal S256x64 .f32) (x2 : Vec Ideal S64 .f32) (p : Fin 2000) (q : Fin 64) :
    k0_pay1 (F := Ideal) x0 x1 x2 (ix2 p q) = linear x0 x1 x2 (ix2 p q) :=
  congrArg₂ (· + ·) (matmul_apply dot_S2000x256_S256x64_S2000x64_1_0_0_1_n_n _ rfl _ _ p q) (row_apply x2 _ _ p q)

/-- Band `t` holds rows `2000 t …` of the layer, an entry depends on its own row only, and the bands tile the array. -/
theorem region0_pre1 (c : Dev nD) :
    (dat0 (F := Ideal) V c).arrAt 3 cfg0.N = linear (V c main_arg0) (V c main_arg2) (V c main_arg3) := by
  refine (dat0 (F := Ideal) V c).arrAt_eq_of_cover 3 _ (fun t _ => ?_) fun i => ?_
  · obtain ⟨⟨a0, a1⟩, b, d, o0, o1⟩ := idx0 t
    have ht : t.val < 50 := t.isLt
    show (cfg0.win 3).cut _ ((dat0 V c).after 3 t) = _
    rw [after0_3, out0_3, View.canon_unit_zero z2, View.ld_unit_zero z2, View.ld_unit_zero z2, View.ld_unit_zero z1]
    funext j
    obtain ⟨p, q, rfl⟩ : ∃ p q, j = ix2 p q := ⟨j 0, j 1, eq_ix2 j⟩
    obtain ⟨n, hn⟩ : ∃ n : Fin 100000, t.val * 2000 + p.val = n.val := ⟨⟨_, by have := p.isLt; omega⟩, rfl⟩
    show k0_pay1 (F := Ideal) _ _ _ (ix2 p q) = linear _ _ _ (((cfg0.win 3).blk t).view.emb (ix2 p q))
    rw [show ((cfg0.win 3).blk t).view.emb (ix2 p q) = ix2 n q from
        Shape.idx_ext₂ ((win0_3.rect_emb_val t (ix2 p q) 0).trans ((congrArg (· * 2000 + p.val) o0).trans hn))
          (win0_3.rect_emb_val_of_index_zero t 1 o1 (ix2 p q)), pay0,
      show iblk0 V c 1 t = V c main_arg2 from funext fun y => congrArg (V c main_arg2) (emb_whole win0_1 t b y y fun _ => rfl),
      show iblk0 V c 2 t = V c main_arg3 from funext fun y => congrArg (V c main_arg3) (emb_whole win0_2 t d y y fun _ => rfl)]
    exact linear_row _ _ _ _ p n (fun k => congrArg (V c main_arg0) (Shape.idx_ext₂
      ((win0_0.rect_emb_val t (ix2 p k) 0).trans ((congrArg (· * 2000 + p.val) a0).trans hn))
      (win0_0.rect_emb_val_of_index_zero t 1 a1 (ix2 p k)))) q
  · have hi : (i 0).val < 100000 := (i 0).isLt
    have ht : (i 0).val / 2000 < cfg0.N := by show _ < 50; omega
    obtain ⟨-, -, -, o0, o1⟩ := idx0 ⟨_, ht⟩
    refine ⟨⟨_, ht⟩, flush0_3 _, ?_⟩
    show i ∈ ((View.whole main_v0).slice (win0_3.rect ⟨_, ht⟩)).set
    rw [View.set_slice_whole]
    exact mem_band (by decide) _ _ i (congrArg (· * 2000) o0) (congrArg (· * 64) o1)

end Cert.KernelIdeal.Gen.Enc

end
-- ==== Proof.Enc.K1.lean ====
import proofs.«401025_j37349035606695_2_alg».proof.Proof.Gen.KernelIdeal.Frame
import proofs.«401025_j37349035606695_2_alg».proof.Proof.Enc.Common

noncomputable section

namespace Cert.KernelIdeal.Gen.Enc

open Cert.KernelIdeal Cert.KernelIdeal.Gen Cert.Spec Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem idx1 : ∀ t : Fin cfg1.N, (win1_0.index t 0 = t.val ∧ win1_0.index t 1 = 0) ∧ (∀ a, win1_1.index t a = 0)
    ∧ (∀ a, win1_2.index t a = 0) ∧ (∀ a, win1_3.index t a = 0) ∧ (∀ a, win1_4.index t a = 0) ∧ (∀ a, win1_5.index t a = 0)
    ∧ (∀ a, win1_6.index t a = 0) ∧ win1_7.index t 0 = t.val ∧ win1_7.index t 1 = 0 :=
  (by decide +kernel : ∀ t : Fin grid1.N, _)

/-- The same argument as for the first layer, with the general block lemma in place of the plain product. -/
theorem region1_pre2 (c : Dev nD) :
    (dat1 (F := Ideal) V c).arrAt 7 cfg1.N
      = bnLinear (V c main_v0) (V c main_v3) (V c main_v4) (V c main_arg4) (V c main_arg5) (V c main_arg6) (V c main_arg7) := by
  refine (dat1 (F := Ideal) V c).arrAt_eq_of_cover 7 _ (fun t _ => ?_) fun i => ?_
  · obtain ⟨⟨a0, a1⟩, e1, e2, e3, e4, e5, e6, o0, o1⟩ := idx1 t
    have ht : t.val < 50 := t.isLt
    show (cfg1.win 7).cut _ ((dat1 V c).after 7 t) = _
    rw [after1_7, out1_7, View.canon_unit_zero z2]
    simp only [View.ld_unit_zero (S := S2000x64) z2, View.ld_unit_zero (S := S64) z1, View.ld_unit_zero (S := S64x64) z2]
    funext j
    obtain ⟨p, q, rfl⟩ : ∃ p q, j = ix2 p q := ⟨j 0, j 1, eq_ix2 j⟩
    obtain ⟨n, hn⟩ : ∃ n : Fin 100000, t.val * 2000 + p.val = n.val := ⟨⟨_, by have := p.isLt; omega⟩, rfl⟩
    show k1_pay1 (F := Ideal) _ _ _ _ _ _ _ (ix2 p q) = bnLinear _ _ _ _ _ _ _ (((cfg1.win 7).blk t).view.emb (ix2 p q))
    rw [show ((cfg1.win 7).blk t).view.emb (ix2 p q) = ix2 n q from
        Shape.idx_ext₂ ((win1_7.rect_emb_val t (ix2 p q) 0).trans ((congrArg (· * 2000 + p.val) o0).trans hn))
          (win1_7.rect_emb_val_of_index_zero t 1 o1 (ix2 p q)),
      show iblk1 V c 1 t = V c main_v3 from funext fun y => congrArg (V c main_v3) (emb_whole win1_1 t e1 y y fun _ => rfl),
      show iblk1 V c 2 t = V c main_v4 from funext fun y => congrArg (V c main_v4) (emb_whole win1_2 t e2 y y fun _ => rfl),
      show iblk1 V c 3 t = V c main_arg4 from funext fun y => congrArg (V c main_arg4) (emb_whole win1_3 t e3 y y fun _ => rfl),
      show iblk1 V c 4 t = V c main_arg5 from funext fun y => congrArg (V c main_arg5) (emb_whole win1_4 t e4 y y fun _ => rfl),
      show iblk1 V c 5 t = V c main_arg6 from funext fun y => congrArg (V c main_arg6) (emb_whole win1_5 t e5 y y fun _ => rfl),
      show iblk1 V c 6 t = V c main_arg7 from funext fun y => congrArg (V c main_arg7) (emb_whole win1_6 t e6 y y fun _ => rfl)]
    exact (bnLinear_apply dot_S2000x64_S64x64_S2000x64_1_0_0_1_n_n _ rfl _ _ _ _ _ _ _ _ _ _ _ _ _ _ p q).trans
      (bnLinear_row _ _ _ _ _ _ _ _ p n (fun k => congrArg (V c main_v0) (Shape.idx_ext₂
        ((win1_0.rect_emb_val t (ix2 p k) 0).trans ((congrArg (· * 2000 + p.val) a0).trans hn))
        (win1_0.rect_emb_val_of_index_zero t 1 a1 (ix2 p k)))) q)
  · have hi : (i 0).val < 100000 := (i 0).isLt
    have ht : (i 0).val / 2000 < cfg1.N := by show _ < 50; omega
    obtain ⟨-, -, -, -, -, -, -, o0, o1⟩ := idx1 ⟨_, ht⟩
    refine ⟨⟨_, ht⟩, flush1_7 _, ?_⟩
    show i ∈ ((View.whole main_v5).slice (win1_7.rect ⟨_, ht⟩)).set
    rw [View.set_slice_whole]
    exact mem_band (by decide) _ _ i (congrArg (· * 2000) o0) (congrArg (· * 64) o1)

end Cert.KernelIdeal.Gen.Enc

end
-- ==== Proof.Flow.Layer.lean ====
import proofs.«401025_j37349035606695_2_alg».proof.Proof.Gen.KernelIdeal.Frame
import proofs.«401025_j37349035606695_2_alg».proof.Proof.Spec
import Idealize.ShloMosaic.Lib.ValueLayout
import Idealize.ShloMosaic.PureOps.Ideal.Laws

noncomputable section

namespace Cert.KernelIdeal.Gen.Flow

open Cert.KernelIdeal Cert.KernelIdeal.Gen Cert.Spec Idealize.ShloMosaic Idealize.ShloMosaic.TcCoe Idealize.ShloMosaic.ValueIdx

namespace Layer

-- The unit-stride rectangle selecting row `l` of a [10,8] array, and slab `l` of a [10,8,16] array.
abbrev row (l : Fin 10) (h : ∀ a, (![l.val, 0] : Fin 2 → Nat) a + S1x8.size a ≤ S10x8.size a) : Rect S10x8 :=
  Rect.unit (s := S10x8) ![l.val, 0] S1x8.size h
abbrev slab (l : Fin 10) (h : ∀ a, (![l.val, 0, 0] : Fin 3 → Nat) a + S1x8x16.size a ≤ S10x8x16.size a) : Rect S10x8x16 :=
  Rect.unit (s := S10x8x16) ![l.val, 0, 0] S1x8x16.size h

theorem ld_row (l : Fin 10) (h) (x : Vec Ideal S10x8 .f32) (c : Fin 8) :
    View.ld x (row l h) (ix2 (0 : Fin 1) c) = x (ix2 l c) := by
  show x ((row l h).idx (ix2 (0 : Fin 1) c)) = _
  refine congrArg x (funext fun a => Fin.ext ?_)
  match a with
  | ⟨0, _⟩ => show l.val + 1 * 0 = l.val; omega
  | ⟨1, _⟩ => show 0 + 1 * c.val = c.val; omega

theorem ld_slab (l : Fin 10) (h) (x : Vec Ideal S10x8x16 .f32) (c : Fin 8) (k : Fin 16) :
    View.ld x (slab l h) (ix3 (0 : Fin 1) c k) = x (ix3 l c k) := by
  show x ((slab l h).idx (ix3 (0 : Fin 1) c k)) = _
  refine congrArg x (funext fun a => Fin.ext ?_)
  match a with
  | ⟨0, _⟩ => show l.val + 1 * 0 = l.val; omega
  | ⟨1, _⟩ => show 0 + 1 * c.val = c.val; omega
  | ⟨2, _⟩ => show 0 + 1 * k.val = k.val; omega

theorem cast_8_181 (x : FVec Ideal S8 .f32) (c : Fin 8) :
    shapeCast S1x8x1 x shapeCasts_S8_S1x8x1 (ix3 (0 : Fin 1) c (0 : Fin 1)) = x (ix1 c) :=
  shapeCast_apply x shapeCasts_S8_S1x8x1 _ _ (by
    rw [Shape.rowMajor_val_three, Shape.rowMajor_val_one]
    show c.val = (0 * 8 + c.val) * 1 + 0
    omega)

theorem bcast_181_rows (x : FVec Ideal S1x8x1 .f32) (r : Fin 400) (c : Fin 8) :
    broadcastTo S400x8x1 x broadcasts_S1x8x1_S400x8x1 (ix3 r c (0 : Fin 1)) = x (ix3 (0 : Fin 1) c (0 : Fin 1)) :=
  broadcastTo_apply x broadcasts_S1x8x1_S400x8x1 _ _ (fun a => by
    match a with
    | ⟨0, _⟩ => rfl
    | ⟨1, _⟩ => rfl
    | ⟨2, _⟩ => rfl)

theorem bcast_lane (x : FVec Ideal S400x8x1 .f32) (r : Fin 400) (c : Fin 8) (k : Fin 16) :
    broadcastTo S400x8x16 x broadcasts_S400x8x1_S400x8x16 (ix3 r c k) = x (ix3 r c (0 : Fin 1)) :=
  broadcastTo_apply x broadcasts_S400x8x1_S400x8x16 _ _ (fun a => by
    match a with
    | ⟨0, _⟩ => rfl
    | ⟨1, _⟩ => rfl
    | ⟨2, _⟩ => rfl)

theorem bcast_centres (x : FVec Ideal S1x8x16 .f32) (r : Fin 400) (c : Fin 8) (k : Fin 16) :
    broadcastTo S400x8x16 x broadcasts_S1x8x16_S400x8x16 (ix3 r c k) = x (ix3 (0 : Fin 1) c k) :=
  broadcastTo_apply x broadcasts_S1x8x16_S400x8x16 _ _ (fun a => by
    match a with
    | ⟨0, _⟩ => rfl
    | ⟨1, _⟩ => rfl
    | ⟨2, _⟩ => rfl)

theorem cast_keep (x : FVec Ideal S400x8 .f32) (r : Fin 400) (c : Fin 8) :
    shapeCast S400x8x1 x shapeCasts_S400x8_S400x8x1 (ix3 r c (0 : Fin 1)) = x (ix2 r c) :=
  shapeCast_apply x shapeCasts_S400x8_S400x8x1 _ _ (by
    rw [Shape.rowMajor_val_three, Shape.rowMajor_val_two]
    show r.val * 8 + c.val = (r.val * 8 + c.val) * 1 + 0
    omega)

theorem cast_drop (x : FVec Ideal S400x8x1 .f32) (r : Fin 400) (c : Fin 8) :
    shapeCast S400x8 x shapeCasts_S400x8x1_S400x8 (ix2 r c) = x (ix3 r c (0 : Fin 1)) :=
  shapeCast_apply x shapeCasts_S400x8x1_S400x8 _ _ (by
    rw [Shape.rowMajor_val_three, Shape.rowMajor_val_two]
    show (r.val * 8 + c.val) * 1 + 0 = r.val * 8 + c.val
    omega)

theorem sum_lane (src : FVec Ideal S400x8x16 .f32) (r : Fin 400) (c : Fin 8) :
    multiReduction .add [2] S400x8 src 0x00000000#32 reduces_S400x8x16_S400x8 (.inl rfl) rfl (ix2 r c)
      = ∑ k : Fin 16, src (ix3 r c k) := by
  refine (Ideal.multiReduction_add_single src 0x00000000#32 reduces_S400x8x16_S400x8 (.inl rfl) rfl (ix2 r c)).trans ?_
  show ∑ k : Fin 16, src (reduces_S400x8x16_S400x8.lift (ix2 r c) k) = _
  refine Finset.sum_congr rfl fun k _ => congrArg src (funext fun a => Fin.ext ?_)
  match a with
  | ⟨0, _⟩ => rfl
  | ⟨1, _⟩ => rfl
  | ⟨2, _⟩ => rfl

-- max x 0 + log1p (exp (-|x|)): a value never differs from itself, so the comparison selects this branch.
theorem softplus_word (x : EReal) :
    Scalar.select (Ideal.cmp .one (x - Ideal.ofBits .f32 0x00000000#32) (x - Ideal.ofBits .f32 0x00000000#32)) (x + Ideal.ofBits .f32 0x00000000#32)
      (max x (Ideal.ofBits .f32 0x00000000#32) + Ideal.log1p (Ideal.exp (Ideal.ofBits .f32 0x00000000#32 - max (x - Ideal.ofBits .f32 0x00000000#32) (-(x - Ideal.ofBits .f32 0x00000000#32)))))
      = softplusE x := by
  rw [Ideal.ofBits_zero_f32, sub_zero, zero_sub]
  have h : Ideal.cmp .one x x = 0#1 := by simp [Ideal.cmp]
  rw [h, select_zero]
  rfl

theorem pay50_apply (v : Vec Ideal S1x8 .f32) (c : Fin 8) :
    k2_pay50 v (ix3 (0 : Fin 1) c (0 : Fin 1)) = softplusE (v (ix2 (0 : Fin 1) c)) := by
  unfold k2_pay50
  refine (cast_8_181 _ c).trans ?_
  rw [← shapeCast_1a_a_apply v shapeCasts_S1x8_S8 c]
  exact softplus_word _

theorem pay51_apply (v w : Vec Ideal S1x8 .f32) (c : Fin 8) :
    k2_pay51 v w (ix3 (0 : Fin 1) c (0 : Fin 1)) = bE (v (ix2 (0 : Fin 1) c)) (w (ix2 (0 : Fin 1) c)) := by
  unfold k2_pay51
  refine (addf_apply _ _ _).trans (congrArg₂ (· + ·) ((subf_apply _ _ _).trans ?_) (pay50_apply w c))
  rw [pay50_apply]
  show Ideal.ofBits .f32 0x00000000#32 - _ = _
  rw [Ideal.ofBits_zero_f32, zero_sub]

theorem pay52_apply (z : FVec Ideal S400x8x16 .f32) (v : Vec Ideal S1x8x16 .f32) (r : Fin 400) (c : Fin 8) (k : Fin 16) :
    k2_pay52 z v (ix3 r c k) = z (ix3 r c k) - v (ix3 (0 : Fin 1) c k) := by
  unfold k2_pay52
  refine (subf_apply _ _ _).trans ?_
  rw [shapeCast_shapeCast, bcast_centres]

theorem pay53_apply (z : FVec Ideal S400x8x16 .f32) (v : Vec Ideal S1x8x16 .f32) (r : Fin 400) (c : Fin 8) :
    k2_pay53 z v (ix3 r c (0 : Fin 1)) = rE (fun j => z (ix3 r c j) - v (ix3 (0 : Fin 1) c j)) := by
  unfold k2_pay53 rE
  refine (maximumf_apply _ _ _).trans ?_
  refine congrArg₂ max (congrArg Ideal.sqrt ?_) rfl
  refine (cast_keep _ r c).trans ?_
  refine (sum_lane _ r c).trans ?_
  refine Finset.sum_congr rfl fun k _ => ?_
  refine (mulf_apply _ _ _).trans ?_
  rw [pay52_apply]

theorem ar_apply (z : FVec Ideal S400x8x16 .f32) (a : FVec Ideal S1x8x1 .f32) (v : Vec Ideal S1x8x16 .f32) (r : Fin 400) (c : Fin 8) :
    addf (broadcastTo S400x8x1 a broadcasts_S1x8x1_S400x8x1) (k2_pay53 z v) (ix3 r c (0 : Fin 1))
      = a (ix3 (0 : Fin 1) c (0 : Fin 1)) + rE fun j => z (ix3 r c j) - v (ix3 (0 : Fin 1) c j) := by
  refine (addf_apply _ _ _).trans ?_
  rw [bcast_181_rows, pay53_apply]

theorem pay54_apply (z : FVec Ideal S400x8x16 .f32) (a : FVec Ideal S1x8x1 .f32) (v : Vec Ideal S1x8x16 .f32) (r : Fin 400) (c : Fin 8) :
    k2_pay54 z a v (ix3 r c (0 : Fin 1))
      = hE (a (ix3 (0 : Fin 1) c (0 : Fin 1))) (rE fun j => z (ix3 r c j) - v (ix3 (0 : Fin 1) c j)) :=
  (divf_apply _ _ _).trans (congrArg₂ Ideal.div rfl (ar_apply z a v r c))

theorem bh_apply (z : FVec Ideal S400x8x16 .f32) (a b : FVec Ideal S1x8x1 .f32) (v : Vec Ideal S1x8x16 .f32) (r : Fin 400) (c : Fin 8) :
    mulf (broadcastTo S400x8x1 b broadcasts_S1x8x1_S400x8x1) (k2_pay54 z a v) (ix3 r c (0 : Fin 1))
      = b (ix3 (0 : Fin 1) c (0 : Fin 1)) * hE (a (ix3 (0 : Fin 1) c (0 : Fin 1))) (rE fun j => z (ix3 r c j) - v (ix3 (0 : Fin 1) c j)) := by
  refine (mulf_apply _ _ _).trans ?_
  rw [bcast_181_rows, pay54_apply]

theorem pay55_apply (z : FVec Ideal S400x8x16 .f32) (a b : FVec Ideal S1x8x1 .f32) (v : Vec Ideal S1x8x16 .f32) (r : Fin 400) (c : Fin 8) (k : Fin 16) :
    k2_pay55 z a b v (ix3 r c k)
      = flowZ (a (ix3 (0 : Fin 1) c (0 : Fin 1))) (b (ix3 (0 : Fin 1) c (0 : Fin 1))) (fun j => v (ix3 (0 : Fin 1) c j)) (fun j => z (ix3 r c j)) k := by
  refine (addf_apply _ _ _).trans (congrArg₂ (· + ·) rfl ((mulf_apply _ _ _).trans ?_))
  rw [bcast_lane, pay52_apply, bh_apply]

theorem pay56_apply (z : FVec Ideal S400x8x16 .f32) (ld : FVec Ideal S400x8 .f32) (a b : FVec Ideal S1x8x1 .f32) (v : Vec Ideal S1x8x16 .f32) (r : Fin 400) (c : Fin 8) :
    k2_pay56 z ld a b v (ix2 r c)
      = flowLd (a (ix3 (0 : Fin 1) c (0 : Fin 1))) (b (ix3 (0 : Fin 1) c (0 : Fin 1))) (fun j => v (ix3 (0 : Fin 1) c j)) (fun j => z (ix3 r c j)) (ld (ix2 r c)) := by
  refine (addf_apply _ _ _).trans (congrArg₂ (· + ·)
    ((addf_apply _ _ _).trans (congrArg₂ (· + ·) rfl ((mulf_apply _ _ _).trans (congrArg₂ (· * ·) rfl
      ((cast_drop _ r c).trans (congrArg Ideal.log1p (bh_apply z a b v r c)))))))
    ((cast_drop _ r c).trans (congrArg Ideal.log1p ((addf_apply _ _ _).trans (congrArg₂ (· + ·) (bh_apply z a b v r c)
      ((mulf_apply _ _ _).trans ?_))))))
  rw [pay53_apply]
  refine congrArg₂ (· * ·) ((mulf_apply _ _ _).trans ?_) rfl
  rw [bcast_181_rows]
  exact congrArg₂ (· * ·) rfl ((divf_apply _ _ _).trans (congrArg₂ Ideal.div rfl
    ((mulf_apply _ _ _).trans (congrArg₂ (· * ·) (ar_apply z a v r c) (ar_apply z a v r c)))))

variable (x7 : Vec Ideal S10x8x16 .f32) (x8 x9 : Vec Ideal S10x8 .f32)

-- One radial layer in pair form: the parameters are row `l` of the two [10,8] arrays and slab `l` of the centres.
theorem step (l : Fin 10) {h2 h3} (zprev : FVec Ideal S400x8x16 .f32) (ldprev : FVec Ideal S400x8 .f32)
    (S : Fin 400 → Fin 8 → (Fin 16 → EReal) × EReal)
    (h : (∀ r c k, zprev (ix3 r c k) = (S r c).1 k) ∧ ∀ r c, ldprev (ix2 r c) = (S r c).2) :
    (∀ r c k, k2_pay55 zprev (k2_pay50 (View.ld x8 (row l h2))) (k2_pay51 (View.ld x8 (row l h2)) (View.ld x9 (row l h2))) (View.ld x7 (slab l h3)) (ix3 r c k)
        = (layer x7 x8 x9 c l (S r c)).1 k)
      ∧ ∀ r c, k2_pay56 zprev ldprev (k2_pay50 (View.ld x8 (row l h2))) (k2_pay51 (View.ld x8 (row l h2)) (View.ld x9 (row l h2))) (View.ld x7 (slab l h3)) (ix2 r c)
        = (layer x7 x8 x9 c l (S r c)).2 := by
  have e7 : ∀ c, (fun j => View.ld x7 (slab l h3) (ix3 (0 : Fin 1) c j)) = fun j => x7 (ix3 l c j) := fun c => funext fun j => ld_slab l h3 x7 c j
  have eZ : ∀ r c, (fun j => zprev (ix3 r c j)) = (S r c).1 := fun r c => funext fun j => h.1 r c j
  refine ⟨fun r c k => ?_, fun r c => ?_⟩
  · rw [pay55_apply, pay50_apply, pay51_apply, ld_row, ld_row, e7, eZ]
    rfl
  · rw [pay56_apply, pay50_apply, pay51_apply, ld_row, ld_row, e7, eZ, h.2]
    rfl

end Layer

end Cert.KernelIdeal.Gen.Flow

end
-- ==== Proof.Flow.KEpi.lean ====
import proofs.«401025_j37349035606695_2_alg».proof.Proof.Gen.KernelIdeal.Frame
import proofs.«401025_j37349035606695_2_alg».proof.Proof.Enc.Common

noncomputable section

namespace Cert.KernelIdeal.Gen.Flow

open Cert.KernelIdeal Cert.KernelIdeal.Gen Cert.Spec Idealize.ShloMosaic Idealize.ShloMosaic.TcCoe Idealize.ShloMosaic.ValueIdx

namespace Epi

/-- A sum over one axis, read at an index of the others, is the sum of the entries along that axis. -/
theorem lane_sum {s t : Shape} {a : Fin s.rank} (p : FVec Ideal s .f32) (h : s.Reduces [a] t) (j : t.Idx)
    (f : Fin (s.size a) → s.Idx) (hf : ∀ k, h.lift j k = f k) :
    multiReduction (F := Ideal) .add [a] t p 0x00000000#32 h (.inl rfl) rfl j = ∑ k, p (f k) :=
  (Ideal.multiReduction_add_single p _ h _ rfl j).trans (Finset.sum_congr rfl fun k _ => congrArg p (hf k))

/-- The sum over the 16 coordinates, read through the cast to one row. -/
theorem pay115_idx (v : Vec Ideal S8x16 .f32) (u : Fin 1) (c : Fin 8) :
    k2_pay115 v (ix2 u c) = w32 0xC16B3F8E#32 - w32 0x3F000000#32 * ∑ k : Fin 16, v (ix2 c k) := by
  exact congrArg (fun s => w32 0xC16B3F8E#32 - w32 0x3F000000#32 * s) ((shapeCast_a_1a_apply _ _ u c).trans
    (lane_sum (a := 1) v _ (ix1 c) (fun k : Fin 16 => ix2 c k) fun k => Shape.idx_ext₂ rfl rfl))

/-- One block with a leading unit axis, repeated over the rows, reads its own entry in every row. -/
theorem bc_block (x : FVec Ideal S1x8x16 .f32) (r : Fin 400) (c : Fin 8) (k : Fin 16) :
    broadcastTo S400x8x16 x broadcasts_S1x8x16_S400x8x16 (ix3 r c k) = x (ix3 (0 : Fin 1) c k) :=
  broadcastTo_apply x _ (ix3 r c k) (ix3 (0 : Fin 1) c k) fun a => by
    match a with
    | ⟨0, _⟩ => rfl
    | ⟨1, _⟩ => rfl
    | ⟨2, _⟩ => rfl

/-- The sum over the last axis term by term; both repeated blocks read the class's own row. -/
theorem pay1_idx (zf : FVec Ideal S400x8x16 .f32) (ldf : FVec Ideal S400x8 .f32) (e : FVec Ideal S8x16 .f32) (cst : FVec Ideal S1x8 .f32)
    (m : Vec Ideal S8x16 .f32) (r : Fin 400) (c : Fin 8) :
    k2_pay1 zf ldf e cst m (ix2 r c)
      = (cst (ix2 (0 : Fin 1) c) - w32 0x3F000000#32
          * ∑ k : Fin 16, Ideal.div ((zf (ix3 r c k) - m (ix2 c k)) * (zf (ix3 r c k) - m (ix2 c k))) (e (ix2 c k)))
        + ldf (ix2 r c) := by
  show (broadcastTo S400x8 cst broadcasts_S1x8_S400x8 (ix2 r c) - w32 0x3F000000#32
      * multiReduction (F := Ideal) .add [2] S400x8 _ 0x00000000#32 reduces_S400x8x16_S400x8 (.inl rfl) rfl (ix2 r c)) + ldf (ix2 r c) = _
  rw [broadcastTo_1b_ab_apply, lane_sum (a := 2) _ _ (ix2 r c) (fun k : Fin 16 => ix3 r c k) fun k => funext fun a => Fin.ext (by
    match a with
    | ⟨0, _⟩ => rfl
    | ⟨1, _⟩ => rfl
    | ⟨2, _⟩ => rfl)]
  refine congrArg (fun s => (cst (ix2 (0 : Fin 1) c) - w32 0x3F000000#32 * s) + ldf (ix2 r c)) (Finset.sum_congr rfl fun (k : Fin 16) _ => ?_)
  simp only [divf_apply, mulf_apply, subf_apply, bc_block, shapeCast_ab_1ab_apply]

end Epi

open Epi

variable (x10 x11 : Vec Ideal S8x16 .f32)

/-- Both parameter blocks are read whole; what is left is the log-density's definition. -/
theorem pay1_apply (zf : FVec Ideal S400x8x16 .f32) (ldf : FVec Ideal S400x8 .f32) (Z : Fin 400 → Fin 8 → Fin 16 → EReal) (LD : Fin 400 → Fin 8 → EReal)
    (hz : ∀ r c k, zf (ix3 r c k) = Z r c k) (hld : ∀ r c, ldf (ix2 r c) = LD r c) (r : Fin 400) (c : Fin 8) :
    (k2_pay1 zf ldf (k2_pay114 (View.ld x11 r2_24)) (k2_pay115 (View.ld x11 r2_24)) (View.ld x10 r2_24)) (ix2 r c)
      = logqE (fun k => x10 (ix2 c k)) (fun k => x11 (ix2 c k)) (Z r c, LD r c) := by
  rw [View.ld_unit_zero (S := S8x16) Enc.z2 _ x11, View.ld_unit_zero (S := S8x16) Enc.z2 _ x10, pay1_idx, pay115_idx]
  simp only [hz, hld]
  rfl

/-- The evidence is a function of the log-density's entry. -/
theorem pay2_apply (zf : FVec Ideal S400x8x16 .f32) (ldf : FVec Ideal S400x8 .f32) (Z : Fin 400 → Fin 8 → Fin 16 → EReal) (LD : Fin 400 → Fin 8 → EReal)
    (hz : ∀ r c k, zf (ix3 r c k) = Z r c k) (hld : ∀ r c, ldf (ix2 r c) = LD r c) (r : Fin 400) (c : Fin 8) :
    (k2_pay2 zf ldf (k2_pay114 (View.ld x11 r2_24)) (k2_pay115 (View.ld x11 r2_24)) (View.ld x10 r2_24)) (ix2 r c)
      = bftE (logqE (fun k => x10 (ix2 c k)) (fun k => x11 (ix2 c k)) (Z r c, LD r c)) :=
  congrArg bftE (pay1_apply x10 x11 zf ldf Z LD hz hld r c)

end Cert.KernelIdeal.Gen.Flow

end
-- ==== Proof.Flow.KAllEnc.lean ====
import proofs.«401025_j37349035606695_2_alg».proof.Proof.Gen.KernelIdeal.Skeleton
import proofs.«401025_j37349035606695_2_alg».proof.Proof.Enc.Common

noncomputable section

namespace Cert.KernelIdeal.Gen.Flow.Latent

open Cert.KernelIdeal Cert.KernelIdeal.Gen Cert.Spec Idealize.ShloMosaic Idealize.ShloMosaic.TcCoe Idealize.ShloMosaic.ValueIdx

/-- The general block lemma at 400 rows, 64 features and 16 outputs. -/
theorem pay3_apply (p : Vec Ideal S400x64 .f32) (g mean var be : Vec Ideal S64 .f32) (w : Vec Ideal S64x16 .f32) (b : Vec Ideal S16 .f32)
    (r : Fin 400) (k : Fin 16) :
    k2_pay3 p g mean var be w b (ix2 r k) = bnLinear (N := 400) p mean var g be w b (ix2 r k) :=
  Enc.bnLinear_apply dot_S400x64_S64x16_S400x16_1_0_0_1_n_n _ rfl p g mean var be w b _ _ _ _ _ _ _ r k

/-- A unit middle axis and the repetition over the classes move neither the row nor the column. -/
theorem pay4_apply (p : Vec Ideal S400x64 .f32) (g mean var be : Vec Ideal S64 .f32) (w : Vec Ideal S64x16 .f32) (b : Vec Ideal S16 .f32)
    (r : Fin 400) (c : Fin 8) (k : Fin 16) :
    k2_pay4 p g mean var be w b (ix3 r c k) = bnLinear (N := 400) p mean var g be w b (ix2 r k) := by
  unfold k2_pay4
  refine (broadcastTo_apply _ _ (ix3 r c k) (ix3 r (0 : Fin 1) k) fun a => ?_).trans ?_
  · match a with
    | ⟨0, _⟩ => rfl
    | ⟨1, _⟩ => rfl
    | ⟨2, _⟩ => rfl
  · rw [shapeCast_self]
    exact (shapeCast_apply _ _ (ix3 r (0 : Fin 1) k) (ix2 r k) (by
      rw [Shape.rowMajor_val_three, Shape.rowMajor_val_two]
      show r.val * 16 + k.val = (r.val * 1 + 0) * 16 + k.val
      omega)).trans (pay3_apply p g mean var be w b r k)

end Cert.KernelIdeal.Gen.Flow.Latent

end
-- ==== Proof.Flow.KAll.lean ====
import proofs.«401025_j37349035606695_2_alg».proof.Proof.Flow.Layer
import proofs.«401025_j37349035606695_2_alg».proof.Proof.Flow.KEpi
import proofs.«401025_j37349035606695_2_alg».proof.Proof.Flow.KAllEnc

noncomputable section

namespace Cert.KernelIdeal.Gen.Flow

open Cert.KernelIdeal Cert.KernelIdeal.Gen Cert.Spec Idealize.ShloMosaic Idealize.ShloMosaic.TcCoe Idealize.ShloMosaic.ValueIdx Idealize.SL.Sem
open Idealize.ShloMosaic.Pipeline (Dat Cfg Window)

namespace Whole

theorem zero2 : (![0, 0] : Fin 2 → Nat) = fun _ => 0 := funext fun a => by fin_cases a <;> rfl
theorem zero1 : (![0] : Fin 1 → Nat) = fun _ => 0 := funext fun a => by fin_cases a <;> rfl

-- Each of the seven loads reads its whole operand.
theorem whole_args {β : Type} (f : Vec Ideal S400x64 .f32 → Vec Ideal S64 .f32 → Vec Ideal S64 .f32 → Vec Ideal S64 .f32 → Vec Ideal S64 .f32 → Vec Ideal S64x16 .f32 → Vec Ideal S16 .f32 → β)
    (x0 : Vec Ideal S400x64 .f32) (x1 x2 x3 x4 : Vec Ideal S64 .f32) (x5 : Vec Ideal S64x16 .f32) (x6 : Vec Ideal S16 .f32) :
    f (View.ld x0 r2_0) (View.ld x3 r2_1) (View.ld x1 r2_1) (View.ld x2 r2_1) (View.ld x4 r2_1) (View.ld x5 r2_2) (View.ld x6 r2_3) = f x0 x3 x1 x2 x4 x5 x6 := by
  have e0 : View.ld x0 r2_0 = x0 := View.ld_unit_zero (S := S400x64) zero2 _ x0
  have e1 : View.ld x1 r2_1 = x1 := View.ld_unit_zero (S := S64) zero1 _ x1
  have e2 : View.ld x2 r2_1 = x2 := View.ld_unit_zero (S := S64) zero1 _ x2
  have e3 : View.ld x3 r2_1 = x3 := View.ld_unit_zero (S := S64) zero1 _ x3
  have e4 : View.ld x4 r2_1 = x4 := View.ld_unit_zero (S := S64) zero1 _ x4
  have e5 : View.ld x5 r2_2 = x5 := View.ld_unit_zero (S := S64x16) zero2 _ x5
  have e6 : View.ld x6 r2_3 = x6 := View.ld_unit_zero (S := S16) zero1 _ x6
  rw [e0, e1, e2, e3, e4, e5, e6]

-- The two class blocks are the last two payloads of one pair (point, log-determinant), which the ten layers, 9 first, make of the latent row.
theorem final_blocks (x0 : Vec Ideal S400x64 .f32) (x1 x2 x3 x4 : Vec Ideal S64 .f32) (x5 : Vec Ideal S64x16 .f32) (x6 : Vec Ideal S16 .f32) (x7 : Vec Ideal S10x8x16 .f32) (x8 x9 : Vec Ideal S10x8 .f32) (x10 x11 : Vec Ideal S8x16 .f32) :
    ∃ (zf : FVec Ideal S400x8x16 .f32) (ldf : FVec Ideal S400x8 .f32),
      out2_13 (F := Ideal) x0 x1 x2 x3 x4 x5 x6 x7 x8 x9 x10 x11 = k2_pay1 zf ldf (k2_pay114 (View.ld x11 r2_24)) (k2_pay115 (View.ld x11 r2_24)) (View.ld x10 r2_24)
      ∧ out2_14 (F := Ideal) x0 x1 x2 x3 x4 x5 x6 x7 x8 x9 x10 x11 = k2_pay2 zf ldf (k2_pay114 (View.ld x11 r2_24)) (k2_pay115 (View.ld x11 r2_24)) (View.ld x10 r2_24)
      ∧ (∀ (r : Fin 400) (c : Fin 8) (k : Fin 16), zf (ix3 r c k) = (flowAll x7 x8 x9 c fun k => bnLinear (N := 400) x0 x1 x2 x3 x4 x5 x6 (ix2 r k)).1 k)
      ∧ (∀ (r : Fin 400) (c : Fin 8), ldf (ix2 r c) = (flowAll x7 x8 x9 c fun k => bnLinear (N := 400) x0 x1 x2 x3 x4 x5 x6 (ix2 r k)).2) := by
  have h4 : ∀ (r : Fin 400) (c : Fin 8) (k : Fin 16), (k2_pay4 (View.ld x0 r2_0) (View.ld x3 r2_1) (View.ld x1 r2_1) (View.ld x2 r2_1) (View.ld x4 r2_1) (View.ld x5 r2_2) (View.ld x6 r2_3)) (ix3 r c k)
      = bnLinear (N := 400) x0 x1 x2 x3 x4 x5 x6 (ix2 r k) := fun r c k =>
    (congrFun (whole_args (k2_pay4 (F := Ideal)) x0 x1 x2 x3 x4 x5 x6) (ix3 r c k)).trans (Latent.pay4_apply x0 x3 x1 x2 x4 x5 x6 r c k)
  refine ⟨_, _, View.canon_unit_zero (S := S400x8) zero2 _ _, View.canon_unit_zero (S := S400x8) zero2 _ _, ?_⟩
  exact Layer.step x7 x8 x9 0 _ _ _ (Layer.step x7 x8 x9 1 _ _ _ (Layer.step x7 x8 x9 2 _ _ _ (Layer.step x7 x8 x9 3 _ _ _ (Layer.step x7 x8 x9 4 _ _ _ (Layer.step x7 x8 x9 5 _ _ _ (Layer.step x7 x8 x9 6 _ _ _ (Layer.step x7 x8 x9 7 _ _ _ (Layer.step x7 x8 x9 8 _ _ _ (Layer.step x7 x8 x9 9 _ _ _ ⟨h4, fun _ _ => rfl⟩)))))))))

end Whole

theorem out2_12_apply (x0 : Vec Ideal S400x64 .f32) (x1 x2 x3 x4 : Vec Ideal S64 .f32) (x5 : Vec Ideal S64x16 .f32) (x6 : Vec Ideal S16 .f32) (x7 : Vec Ideal S10x8x16 .f32) (x8 x9 : Vec Ideal S10x8 .f32) (x10 x11 : Vec Ideal S8x16 .f32) (r : Fin 400) (k : Fin 16) :
    out2_12 (F := Ideal) x0 x1 x2 x3 x4 x5 x6 x7 x8 x9 x10 x11 (ix2 r k) = bnLinear (N := 400) x0 x1 x2 x3 x4 x5 x6 (ix2 r k) := by
  unfold out2_12
  refine (congrFun (View.canon_unit_zero (S := S400x16) Whole.zero2 _ _) (ix2 r k)).trans ?_
  exact (congrFun (Whole.whole_args (k2_pay3 (F := Ideal)) x0 x1 x2 x3 x4 x5 x6) (ix2 r k)).trans (Latent.pay3_apply x0 x3 x1 x2 x4 x5 x6 r k)

theorem out2_13_apply (x0 : Vec Ideal S400x64 .f32) (x1 x2 x3 x4 : Vec Ideal S64 .f32) (x5 : Vec Ideal S64x16 .f32) (x6 : Vec Ideal S16 .f32) (x7 : Vec Ideal S10x8x16 .f32) (x8 x9 : Vec Ideal S10x8 .f32) (x10 x11 : Vec Ideal S8x16 .f32) (r : Fin 400) (c : Fin 8) :
    out2_13 (F := Ideal) x0 x1 x2 x3 x4 x5 x6 x7 x8 x9 x10 x11 (ix2 r c)
      = logqE (fun k => x10 (ix2 c k)) (fun k => x11 (ix2 c k))
          (flowAll x7 x8 x9 c fun k => bnLinear (N := 400) x0 x1 x2 x3 x4 x5 x6 (ix2 r k)) := by
  obtain ⟨zf, ldf, e13, -, hz, hld⟩ := Whole.final_blocks x0 x1 x2 x3 x4 x5 x6 x7 x8 x9 x10 x11
  rw [e13]
  exact pay1_apply x10 x11 zf ldf _ _ hz hld r c

theorem out2_14_apply (x0 : Vec Ideal S400x64 .f32) (x1 x2 x3 x4 : Vec Ideal S64 .f32) (x5 : Vec Ideal S64x16 .f32) (x6 : Vec Ideal S16 .f32) (x7 : Vec Ideal S10x8x16 .f32) (x8 x9 : Vec Ideal S10x8 .f32) (x10 x11 : Vec Ideal S8x16 .f32) (r : Fin 400) (c : Fin 8) :
    out2_14 (F := Ideal) x0 x1 x2 x3 x4 x5 x6 x7 x8 x9 x10 x11 (ix2 r c)
      = bftE (logqE (fun k => x10 (ix2 c k)) (fun k => x11 (ix2 c k))
          (flowAll x7 x8 x9 c fun k => bnLinear (N := 400) x0 x1 x2 x3 x4 x5 x6 (ix2 r k))) := by
  obtain ⟨zf, ldf, -, e14, hz, hld⟩ := Whole.final_blocks x0 x1 x2 x3 x4 x5 x6 x7 x8 x9 x10 x11
  rw [e14]
  exact pay2_apply x10 x11 zf ldf _ _ hz hld r c

end Cert.KernelIdeal.Gen.Flow

end
-- ==== Proof.Enc.K2.lean ====
import proofs.«401025_j37349035606695_2_alg».proof.Proof.Gen.KernelIdeal.Frame
import proofs.«401025_j37349035606695_2_alg».proof.Proof.Enc.Common
import proofs.«401025_j37349035606695_2_alg».proof.Proof.Flow.KAll

noncomputable section

namespace Cert.KernelIdeal.Gen.Enc

open Cert.KernelIdeal Cert.KernelIdeal.Gen Cert.Spec Idealize.ShloMosaic Idealize.ShloMosaic.TcCoe Idealize.ShloMosaic.ValueIdx Idealize.SL.Sem
open Idealize.ShloMosaic.Pipeline (Dat Cfg Window)

open Cert.KernelIdeal.Gen.Flow

variable (V : (c : Dev nD) → (b : Ref sig .tc) → Buf (Elt Ideal) ((c : Thread nD τ).loc b))

theorem idx_rows : ∀ t : Fin cfg2.N, (win2_0.index t 0 = t.val ∧ win2_0.index t 1 = 0)
    ∧ (win2_12.index t 0 = t.val ∧ win2_12.index t 1 = 0) ∧ (win2_13.index t 0 = t.val ∧ win2_13.index t 1 = 0)
    ∧ win2_14.index t 0 = t.val ∧ win2_14.index t 1 = 0 :=
  (by decide +kernel : ∀ t : Fin grid2.N, _)

theorem idx_whole : ∀ t : Fin cfg2.N, (∀ a, win2_1.index t a = 0) ∧ (∀ a, win2_2.index t a = 0) ∧ (∀ a, win2_3.index t a = 0)
    ∧ (∀ a, win2_4.index t a = 0) ∧ (∀ a, win2_5.index t a = 0) ∧ (∀ a, win2_6.index t a = 0) ∧ (∀ a, win2_7.index t a = 0)
    ∧ (∀ a, win2_8.index t a = 0) ∧ (∀ a, win2_9.index t a = 0) ∧ (∀ a, win2_10.index t a = 0) ∧ (∀ a, win2_11.index t a = 0) :=
  (by decide +kernel : ∀ t : Fin grid2.N, _)

abbrev rowOf (t : Fin cfg2.N) (r : Fin 400) : Fin 100000 :=
  ⟨t.val * 400 + r.val, by have := r.isLt; have : t.val < 250 := t.isLt; omega⟩

abbrev zArr (c : Dev nD) : A2 100000 16 :=
  bnLinear (V c main_v5) (V c main_v8) (V c main_v9) (V c main_arg8) (V c main_arg9) (V c main_arg10) (V c main_arg11)

abbrev qArr (c : Dev nD) : A2 100000 8 :=
  logq (zArr V c) (V c main_arg12) (V c main_arg13) (V c main_arg14) (V c main_arg15) (V c main_arg16)

/-- Their block index is zero on every axis at every point. -/
theorem whole2 (c : Dev nD) (t : Fin cfg2.N) : iblk2 V c 1 t = V c main_v8 ∧ iblk2 V c 2 t = V c main_v9 ∧ iblk2 V c 3 t = V c main_arg8
    ∧ iblk2 V c 4 t = V c main_arg9 ∧ iblk2 V c 5 t = V c main_arg10 ∧ iblk2 V c 6 t = V c main_arg11 ∧ iblk2 V c 7 t = V c main_arg12
    ∧ iblk2 V c 8 t = V c main_arg13 ∧ iblk2 V c 9 t = V c main_arg14 ∧ iblk2 V c 10 t = V c main_arg15 ∧ iblk2 V c 11 t = V c main_arg16 := by
  obtain ⟨e1, e2, e3, e4, e5, e6, e7, e8, e9, e10, e11⟩ := idx_whole t
  exact ⟨funext fun y => congrArg (V c main_v8) (emb_whole win2_1 t e1 y y fun _ => rfl),
    funext fun y => congrArg (V c main_v9) (emb_whole win2_2 t e2 y y fun _ => rfl),
    funext fun y => congrArg (V c main_arg8) (emb_whole win2_3 t e3 y y fun _ => rfl),
    funext fun y => congrArg (V c main_arg9) (emb_whole win2_4 t e4 y y fun _ => rfl),
    funext fun y => congrArg (V c main_arg10) (emb_whole win2_5 t e5 y y fun _ => rfl),
    funext fun y => congrArg (V c main_arg11) (emb_whole win2_6 t e6 y y fun _ => rfl),
    funext fun y => congrArg (V c main_arg12) (emb_whole win2_7 t e7 y y fun _ => rfl),
    funext fun y => congrArg (V c main_arg13) (emb_whole win2_8 t e8 y y fun _ => rfl),
    funext fun y => congrArg (V c main_arg14) (emb_whole win2_9 t e9 y y fun _ => rfl),
    funext fun y => congrArg (V c main_arg15) (emb_whole win2_10 t e10 y y fun _ => rfl),
    funext fun y => congrArg (V c main_arg16) (emb_whole win2_11 t e11 y y fun _ => rfl)⟩

/-- Band `t` starts at row `400 t`, and an entry of the layer depends on its own row only. -/
theorem latent_row (c : Dev nD) (t : Fin cfg2.N) (r : Fin 400) (k : Fin 16) :
    bnLinear (N := 400) (iblk2 V c 0 t) (iblk2 V c 1 t) (iblk2 V c 2 t) (iblk2 V c 3 t) (iblk2 V c 4 t) (iblk2 V c 5 t) (iblk2 V c 6 t) (ix2 r k)
      = zArr V c (ix2 (rowOf t r) k) := by
  obtain ⟨w1, w2, w3, w4, w5, w6, -⟩ := whole2 V c t
  obtain ⟨⟨a0, a1⟩, -⟩ := idx_rows t
  rw [w1, w2, w3, w4, w5, w6]
  exact bnLinear_row _ _ _ _ _ _ _ _ r (rowOf t r) (fun j => congrArg (V c main_v5) (Shape.idx_ext₂ (y := ix2 (rowOf t r) j)
    ((win2_0.rect_emb_val t (ix2 r j) 0).trans (congrArg (· * 400 + r.val) a0)) (win2_0.rect_emb_val_of_index_zero t 1 a1 (ix2 r j)))) k

/-- A row's class log-densities depend on that row's latent point only. -/
theorem logq_row (c : Dev nD) (t : Fin cfg2.N) (r : Fin 400) (cl : Fin 8) :
    logqE (fun k => (iblk2 V c 10 t : Vec Ideal S8x16 .f32) (ix2 cl k)) (fun k => (iblk2 V c 11 t : Vec Ideal S8x16 .f32) (ix2 cl k))
        (flowAll (iblk2 V c 7 t) (iblk2 V c 8 t) (iblk2 V c 9 t) cl fun k =>
          bnLinear (N := 400) (iblk2 V c 0 t) (iblk2 V c 1 t) (iblk2 V c 2 t) (iblk2 V c 3 t) (iblk2 V c 4 t) (iblk2 V c 5 t) (iblk2 V c 6 t) (ix2 r k))
      = qArr V c (ix2 (rowOf t r) cl) := by
  obtain ⟨-, -, -, -, -, -, w7, w8, w9, w10, w11⟩ := whole2 V c t
  rw [w7, w8, w9, w10, w11]
  simp only [latent_row V c t r]
  rfl

theorem region2_z (c : Dev nD) :
    (dat2 (F := Ideal) V c).arrAt 12 cfg2.N = (bnLinear (V c main_v5) (V c main_v8) (V c main_v9) (V c main_arg8) (V c main_arg9) (V c main_arg10) (V c main_arg11)) := by
  refine (dat2 (F := Ideal) V c).arrAt_eq_of_cover 12 (zArr V c) (fun t _ => ?_) fun i => ?_
  · obtain ⟨-, ⟨o0, o1⟩, -⟩ := idx_rows t
    show (cfg2.win 12).cut _ ((dat2 V c).after 12 t) = _
    rw [after2_12]
    funext j
    obtain ⟨r, k, rfl⟩ : ∃ r k, j = ix2 r k := ⟨j 0, j 1, eq_ix2 j⟩
    show out2_12 (F := Ideal) _ _ _ _ _ _ _ _ _ _ _ _ (ix2 r k) = zArr V c (((cfg2.win 12).blk t).view.emb (ix2 r k))
    rw [show ((cfg2.win 12).blk t).view.emb (ix2 r k) = ix2 (rowOf t r) k from Shape.idx_ext₂
      ((win2_12.rect_emb_val t (ix2 r k) 0).trans (congrArg (· * 400 + r.val) o0)) (win2_12.rect_emb_val_of_index_zero t 1 o1 (ix2 r k)),
      out2_12_apply]
    exact latent_row V c t r k
  · have hi : (i 0).val < 100000 := (i 0).isLt
    have ht : (i 0).val / 400 < cfg2.N := by show _ < 250; omega
    obtain ⟨-, ⟨o0, o1⟩, -⟩ := idx_rows ⟨_, ht⟩
    refine ⟨⟨_, ht⟩, flush2_12 _, ?_⟩
    show i ∈ ((View.whole main_v10_0).slice (win2_12.rect ⟨_, ht⟩)).set
    rw [View.set_slice_whole]
    exact mem_band (by decide) _ _ i (congrArg (· * 400) o0) (congrArg (· * 16) o1)

theorem region2_logq (c : Dev nD) :
    (dat2 (F := Ideal) V c).arrAt 13 cfg2.N
      = logq (bnLinear (V c main_v5) (V c main_v8) (V c main_v9) (V c main_arg8) (V c main_arg9) (V c main_arg10) (V c main_arg11)) (V c main_arg12) (V c main_arg13) (V c main_arg14) (V c main_arg15) (V c main_arg16) := by
  refine (dat2 (F := Ideal) V c).arrAt_eq_of_cover 13 (qArr V c) (fun t _ => ?_) fun i => ?_
  · obtain ⟨-, -, ⟨o0, o1⟩, -⟩ := idx_rows t
    show (cfg2.win 13).cut _ ((dat2 V c).after 13 t) = _
    rw [after2_13]
    funext j
    obtain ⟨r, cl, rfl⟩ : ∃ r cl, j = ix2 r cl := ⟨j 0, j 1, eq_ix2 j⟩
    show out2_13 (F := Ideal) _ _ _ _ _ _ _ _ _ _ _ _ (ix2 r cl) = qArr V c (((cfg2.win 13).blk t).view.emb (ix2 r cl))
    rw [show ((cfg2.win 13).blk t).view.emb (ix2 r cl) = ix2 (rowOf t r) cl from Shape.idx_ext₂
      ((win2_13.rect_emb_val t (ix2 r cl) 0).trans (congrArg (· * 400 + r.val) o0)) (win2_13.rect_emb_val_of_index_zero t 1 o1 (ix2 r cl)),
      out2_13_apply]
    exact logq_row V c t r cl
  · have hi : (i 0).val < 100000 := (i 0).isLt
    have ht : (i 0).val / 400 < cfg2.N := by show _ < 250; omega
    obtain ⟨-, -, ⟨o0, o1⟩, -⟩ := idx_rows ⟨_, ht⟩
    refine ⟨⟨_, ht⟩, flush2_13 _, ?_⟩
    show i ∈ ((View.whole main_v10_1).slice (win2_13.rect ⟨_, ht⟩)).set
    rw [View.set_slice_whole]
    exact mem_band (by decide) _ _ i (congrArg (· * 400) o0) (congrArg (· * 8) o1)

theorem region2_bft (c : Dev nD) :
    (dat2 (F := Ideal) V c).arrAt 14 cfg2.N
      = bft (logq (bnLinear (V c main_v5) (V c main_v8) (V c main_v9) (V c main_arg8) (V c main_arg9) (V c main_arg10) (V c main_arg11)) (V c main_arg12) (V c main_arg13) (V c main_arg14) (V c main_arg15) (V c main_arg16)) := by
  refine (dat2 (F := Ideal) V c).arrAt_eq_of_cover 14 (bft (qArr V c)) (fun t _ => ?_) fun i => ?_
  · obtain ⟨-, -, -, o0, o1⟩ := idx_rows t
    show (cfg2.win 14).cut _ ((dat2 V c).after 14 t) = _
    rw [after2_14]
    funext j
    obtain ⟨r, cl, rfl⟩ : ∃ r cl, j = ix2 r cl := ⟨j 0, j 1, eq_ix2 j⟩
    show out2_14 (F := Ideal) _ _ _ _ _ _ _ _ _ _ _ _ (ix2 r cl) = bft (qArr V c) (((cfg2.win 14).blk t).view.emb (ix2 r cl))
    rw [show ((cfg2.win 14).blk t).view.emb (ix2 r cl) = ix2 (rowOf t r) cl from Shape.idx_ext₂
      ((win2_14.rect_emb_val t (ix2 r cl) 0).trans (congrArg (· * 400 + r.val) o0)) (win2_14.rect_emb_val_of_index_zero t 1 o1 (ix2 r cl)),
      out2_14_apply]
    exact congrArg bftE (logq_row V c t r cl)
  · have hi : (i 0).val < 100000 := (i 0).isLt
    have ht : (i 0).val / 400 < cfg2.N := by show _ < 250; omega
    obtain ⟨-, -, -, o0, o1⟩ := idx_rows ⟨_, ht⟩
    refine ⟨⟨_, ht⟩, flush2_14 _, ?_⟩
    show i ∈ ((View.whole main_v10_2).slice (win2_14.rect ⟨_, ht⟩)).set
    rw [View.set_slice_whole]
    exact mem_band (by decide) _ _ i (congrArg (· * 400) o0) (congrArg (· * 8) o1)

end Cert.KernelIdeal.Gen.Enc

end
-- ==== Proof.Ref.Enc.lean ====
import proofs.«401025_j37349035606695_2_alg».proof.Proof.RefRun
import proofs.«401025_j37349035606695_2_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.Val

open Cert.ReferenceIdeal Cert.ReferenceIdeal.Ops Cert.Spec Idealize.ShloMosaic Idealize.ShloMosaic.TcCoe Idealize.ShloMosaic.ValueIdx Idealize.SL.Sem Idealize.ShloMosaic.StableHlo
open Cert.ReferenceIdeal.Facts₀ Cert.ReferenceIdeal.Facts

namespace Enc

/-- The unit axis is read at 0 and the column at itself, whether or not `n = 1`. -/
theorem rowBias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (t : Fin n) :
    broadcastInDim ⟨2, ![m, n]⟩ ![0, 1] h2 (broadcastInDim ⟨2, ![1, n]⟩ ![1] h1 b) (ix2 r t) = b (ix1 t) := by
  rw [broadcastInDim_oneRow_apply]
  refine broadcastInDim_apply ![1] h1 b (ix2 (0 : Fin 1) t) (ix1 t) ?_
  intro a
  match a with
  | ⟨0, _⟩ =>
    show t.val = if n = 1 then 0 else t.val
    split_ifs with hn
    · have := t.isLt; omega
    · rfl

/-- The four per-feature vectors are each read at the entry's column. -/
theorem bnrelu_apply {m n : Nat} (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨1, ![n]⟩ ![]) (h00 : (⟨0, ![]⟩ : Shape).BroadcastsInDim ⟨2, ![m, n]⟩ ![])
    (p : FVec Ideal ⟨2, ![m, n]⟩ .f32) (mean var g be : FVec Ideal ⟨1, ![n]⟩ .f32) (r : Fin m) (k : Fin n) :
    maximumf
        (addf
          (Host.divf
            (mulf (broadcastInDim ⟨2, ![m, n]⟩ ![0, 1] h2 (broadcastInDim ⟨2, ![1, n]⟩ ![1] h1 g))
              (subf p (broadcastInDim ⟨2, ![m, n]⟩ ![0, 1] h2 (broadcastInDim ⟨2, ![1, n]⟩ ![1] h1 mean))))
            (broadcastInDim ⟨2, ![m, n]⟩ ![0, 1] h2 (broadcastInDim ⟨2, ![1, n]⟩ ![1] h1
              (Host.sqrt (addf var (broadcastInDim ⟨1, ![n]⟩ ![] h0 (constant (F := Ideal) ⟨0, ![]⟩ .f32 0x3727C5AC#32)))))))
          (broadcastInDim ⟨2, ![m, n]⟩ ![0, 1] h2 (broadcastInDim ⟨2, ![1, n]⟩ ![1] h1 be)))
        (broadcastInDim ⟨2, ![m, n]⟩ ![] h00 (constant (F := Ideal) ⟨0, ![]⟩ .f32 0x00000000#32)) (ix2 r k)
      = bnreluE (g (ix1 k)) (mean (ix1 k)) (var (ix1 k)) (be (ix1 k)) (p (ix2 r k)) := by
  show max (Ideal.div (_ * (_ - _)) _ + _) _ = _
  rw [rowBias_apply h1 h2 g, rowBias_apply h1 h2 mean, rowBias_apply h1 h2 be, rowBias_apply h1 h2 (Host.sqrt _)]
  rfl

end Enc

open Enc

variable (V : Valuation τ sig (Elt Ideal))

/-- The product is the row's sum of products with the weight column; the bias is read at the column. -/
theorem ref_pre1 :
    after (Val := Elt Ideal) s1_4 V (main_v3 : DevRef τ sig) = linear (V (main_arg0 : DevRef τ sig)) (V (main_arg2 : DevRef τ sig)) (V (main_arg3 : DevRef τ sig)) := by
  after_results
  funext i
  obtain ⟨n, j, rfl⟩ : ∃ (n : Fin 100000) (j : Fin 64), i = ix2 n j := ⟨i 0, i 1, eq_ix2 i⟩
  exact congrArg₂ (· + ·)
    (StackMember.dotGeneral_plain_apply (m := 100000) (k := 256) (n := 64) none (V (main_arg0 : DevRef τ sig)) (V (main_arg2 : DevRef τ sig)) n j)
    (rowBias_apply bcast_S64_S1x64_1 bcast_S1x64_S100000x64_0_1 (V (main_arg3 : DevRef τ sig)) n j)

/-- Term by term the left factor is the clamped standardised feature. -/
theorem ref_pre2 :
    after (Val := Elt Ideal) s12_32 V (main_v27 : DevRef τ sig)
      = bnLinear (V (main_v3 : DevRef τ sig)) (V (main_v6 : DevRef τ sig)) (V (main_v7 : DevRef τ sig)) (V (main_arg4 : DevRef τ sig)) (V (main_arg5 : DevRef τ sig)) (V (main_arg6 : DevRef τ sig)) (V (main_arg7 : DevRef τ sig)) := by
  after_results_simp
  funext i
  obtain ⟨n, j, rfl⟩ : ∃ (n : Fin 100000) (j : Fin 64), i = ix2 n j := ⟨i 0, i 1, eq_ix2 i⟩
  refine congrArg₂ (· + ·)
    ((StackMember.dotGeneral_plain_apply (m := 100000) (k := 64) (n := 64) none _ (V (main_arg6 : DevRef τ sig)) n j).trans ?_)
    (rowBias_apply bcast_S64_S1x64_1 bcast_S1x64_S100000x64_0_1 (V (main_arg7 : DevRef τ sig)) n j)
  refine Finset.sum_congr rfl fun k _ => congrArg (· * _) ?_
  exact bnrelu_apply bcast_S64_S1x64_1 bcast_S1x64_S100000x64_0_1 bcast_S_S64 bcast_S_S100000x64 (V (main_v3 : DevRef τ sig))
    (V (main_v6 : DevRef τ sig)) (V (main_v7 : DevRef τ sig)) (V (main_arg4 : DevRef τ sig)) (V (main_arg5 : DevRef τ sig)) n k

theorem ref_z :
    after (Val := Elt Ideal) s40_60 V (main_v51 : DevRef τ sig)
      = bnLinear (V (main_v27 : DevRef τ sig)) (V (main_v30 : DevRef τ sig)) (V (main_v31 : DevRef τ sig)) (V (main_arg8 : DevRef τ sig)) (V (main_arg9 : DevRef τ sig)) (V (main_arg10 : DevRef τ sig)) (V (main_arg11 : DevRef τ sig)) := by
  after_results_simp
  funext i
  obtain ⟨n, j, rfl⟩ : ∃ (n : Fin 100000) (j : Fin 16), i = ix2 n j := ⟨i 0, i 1, eq_ix2 i⟩
  refine congrArg₂ (· + ·)
    ((StackMember.dotGeneral_plain_apply (m := 100000) (k := 64) (n := 16) none _ (V (main_arg10 : DevRef τ sig)) n j).trans ?_)
    (rowBias_apply bcast_S16_S1x16_1 bcast_S1x16_S100000x16_0_1 (V (main_arg11 : DevRef τ sig)) n j)
  refine Finset.sum_congr rfl fun k _ => congrArg (· * _) ?_
  exact bnrelu_apply bcast_S64_S1x64_1 bcast_S1x64_S100000x64_0_1 bcast_S_S64 bcast_S_S100000x64 (V (main_v27 : DevRef τ sig))
    (V (main_v30 : DevRef τ sig)) (V (main_v31 : DevRef τ sig)) (V (main_arg8 : DevRef τ sig)) (V (main_arg9 : DevRef τ sig)) n k

end Cert.ReferenceIdeal.Val

end
-- ==== Proof.Ref.LayerT.lean ====
import proofs.«401025_j37349035606695_2_alg».proof.Proof.Spec
import Idealize.ShloMosaic.Lib.ValueLayout
import Idealize.ShloMosaic.Lib.Pipeline.Value
import Idealize.ShloMosaic.PureOps.Ideal.Laws

noncomputable section

namespace Cert.ReferenceIdeal.Val.LayA

open Cert.Spec Idealize.ShloMosaic Idealize.ShloMosaic.ValueIdx

abbrev Z0 : Shape := ⟨0, ![]⟩
abbrev R8 : Shape := ⟨1, ![8]⟩
abbrev R1x8 : Shape := ⟨2, ![1, 8]⟩
abbrev R10x8 : Shape := ⟨2, ![10, 8]⟩
abbrev R8x16 : Shape := ⟨2, ![8, 16]⟩
abbrev R10x8x16 : Shape := ⟨3, ![10, 8, 16]⟩
abbrev R1x8x1 : Shape := ⟨3, ![1, 8, 1]⟩
abbrev R1x8x16 : Shape := ⟨3, ![1, 8, 16]⟩
abbrev RNx8 : Shape := ⟨2, ![100000, 8]⟩
abbrev RNx16 : Shape := ⟨2, ![100000, 16]⟩
abbrev RNx1x16 : Shape := ⟨3, ![100000, 1, 16]⟩
abbrev RNx8x1 : Shape := ⟨3, ![100000, 8, 1]⟩
abbrev RNx8x16 : Shape := ⟨3, ![100000, 8, 16]⟩

/-- A binary32 word at every entry of an array. -/
abbrev cst (t : Shape) (b : BitVec 32) (h : Z0.BroadcastsInDim t ![] := by decide) : FVec Ideal t .f32 :=
  broadcastInDim (s := Z0) t ![] h (constant (F := Ideal) Z0 .f32 b)

/-- `log (1 + eˣ)` of a row of eight, in the guarded form `max x 0 + log1p (exp (-|x|))`. -/
def softplusT (x : FVec Ideal R8 .f32) : FVec Ideal R8 .f32 :=
  select (cmpf .une (subf x (cst R8 0x00000000#32)) (subf x (cst R8 0x00000000#32))) (addf x (cst R8 0x00000000#32))
    (addf (maximumf x (cst R8 0x00000000#32)) (Host.log1p (Host.exp (Host.negf (Host.absf (subf x (cst R8 0x00000000#32)))))))

/-- The layer's `a` and `b = -a + softplus b'`, one per class, as [1, 8, 1] arrays. -/
def aRow (ap : FVec Ideal R8 .f32) : FVec Ideal R1x8x1 .f32 :=
  broadcastInDim (s := R8) R1x8x1 ![1] (by decide) (softplusT ap)

def bRow (ap bp : FVec Ideal R8 .f32) : FVec Ideal R1x8x1 .f32 :=
  addf (Host.negf (aRow ap)) (broadcastInDim (s := R8) R1x8x1 ![1] (by decide) (softplusT bp))

/-- `d = z - x₀`. -/
def dT (x0 : FVec Ideal R8x16 .f32) (z : FVec Ideal RNx8x16 .f32) : FVec Ideal RNx8x16 .f32 :=
  subf z (broadcastInDim (s := R1x8x16) RNx8x16 ![0, 1, 2] (by decide) (broadcastInDim (s := R8x16) R1x8x16 ![1, 2] (by decide) x0))

/-- `r = max ‖d‖ ε`. -/
def rT (d : FVec Ideal RNx8x16 .f32) : FVec Ideal RNx8x1 .f32 :=
  maximumf
    (Host.sqrt (broadcastInDim (s := RNx8) RNx8x1 ![0, 1] (by decide)
      (Host.reduceAdd (F := Ideal) (axes := [2]) (t := RNx8) (mulf d d) (constant (F := Ideal) Z0 .f32 0x00000000#32) (by decide) (by decide))))
    (cst RNx8x1 0x322BCC77#32)

/-- `a + r`, then `h = 1 / (a + r)` and `h' = -1 / (a + r)²`. -/
def sT (a : FVec Ideal R1x8x1 .f32) (r : FVec Ideal RNx8x1 .f32) : FVec Ideal RNx8x1 .f32 :=
  addf (broadcastInDim (s := R1x8x1) RNx8x1 ![0, 1, 2] (by decide) a) r

def hT (a : FVec Ideal R1x8x1 .f32) (r : FVec Ideal RNx8x1 .f32) : FVec Ideal RNx8x1 .f32 :=
  Host.divf (cst RNx8x1 0x3F800000#32) (sT a r)

def hpT (a : FVec Ideal R1x8x1 .f32) (r : FVec Ideal RNx8x1 .f32) : FVec Ideal RNx8x1 .f32 :=
  Host.divf (cst RNx8x1 0xBF800000#32) (mulf (sT a r) (sT a r))

/-- A per-class row times a per-node-and-class array. -/
def bT (b : FVec Ideal R1x8x1 .f32) (h : FVec Ideal RNx8x1 .f32) : FVec Ideal RNx8x1 .f32 :=
  mulf (broadcastInDim (s := R1x8x1) RNx8x1 ![0, 1, 2] (by decide) b) h

/-- The point after the layer: `z + b·h·d`. -/
def zzT (ap bp : FVec Ideal R8 .f32) (x0 : FVec Ideal R8x16 .f32) (z : FVec Ideal RNx8x16 .f32) : FVec Ideal RNx8x16 .f32 :=
  addf z (mulf (broadcastInDim (s := RNx8x1) RNx8x16 ![0, 1, 2] (by decide)
    (bT (bRow ap bp) (hT (aRow ap) (rT (dT x0 z))))) (dT x0 z))

/-- The log-determinant after the layer: `ld + 15·log1p (b·h) + log1p (b·h + b·h'·r)`. -/
def ldT (ap bp : FVec Ideal R8 .f32) (x0 : FVec Ideal R8x16 .f32) (z : FVec Ideal RNx8x16 .f32) (ld : FVec Ideal RNx8 .f32) :
    FVec Ideal RNx8 .f32 :=
  addf
    (addf ld (mulf (cst RNx8 0x41700000#32)
      (shapeCast (s := RNx8x1) RNx8 (Host.log1p (bT (bRow ap bp) (hT (aRow ap) (rT (dT x0 z))))) (by decide))))
    (shapeCast (s := RNx8x1) RNx8
      (Host.log1p (addf (bT (bRow ap bp) (hT (aRow ap) (rT (dT x0 z))))
        (mulf (bT (bRow ap bp) (hpT (aRow ap) (rT (dT x0 z)))) (rT (dT x0 z))))) (by decide))

section Layout
variable {α : Type}

theorem bc_8_1x8x1 (h : R8.BroadcastsInDim R1x8x1 ![1]) (x : R8.Idx → α) (c : Fin 8) :
    broadcastInDim R1x8x1 ![1] h x (ix3 (0 : Fin 1) c (0 : Fin 1)) = x (ix1 c) :=
  broadcastInDim_apply _ h x _ _ fun a => match a with | ⟨0, _⟩ => rfl

theorem bc_1x8x1_Nx8x1 (h : R1x8x1.BroadcastsInDim RNx8x1 ![0, 1, 2]) (x : R1x8x1.Idx → α) (n : Fin 100000) (c : Fin 8) :
    broadcastInDim RNx8x1 ![0, 1, 2] h x (ix3 n c (0 : Fin 1)) = x (ix3 (0 : Fin 1) c (0 : Fin 1)) :=
  broadcastInDim_apply _ h x _ _ fun a => match a with | ⟨0, _⟩ => rfl | ⟨1, _⟩ => rfl | ⟨2, _⟩ => rfl

theorem bc_8x16_1x8x16 (h : R8x16.BroadcastsInDim R1x8x16 ![1, 2]) (x : R8x16.Idx → α) (c : Fin 8) (k : Fin 16) :
    broadcastInDim R1x8x16 ![1, 2] h x (ix3 (0 : Fin 1) c k) = x (ix2 c k) :=
  broadcastInDim_apply _ h x _ _ fun a => match a with | ⟨0, _⟩ => rfl | ⟨1, _⟩ => rfl

theorem bc_1x8x16_Nx8x16 (h : R1x8x16.BroadcastsInDim RNx8x16 ![0, 1, 2]) (x : R1x8x16.Idx → α) (n : Fin 100000) (c : Fin 8) (k : Fin 16) :
    broadcastInDim RNx8x16 ![0, 1, 2] h x (ix3 n c k) = x (ix3 (0 : Fin 1) c k) :=
  broadcastInDim_apply _ h x _ _ fun a => match a with | ⟨0, _⟩ => rfl | ⟨1, _⟩ => rfl | ⟨2, _⟩ => rfl

theorem bc_Nx8_Nx8x1 (h : RNx8.BroadcastsInDim RNx8x1 ![0, 1]) (x : RNx8.Idx → α) (n : Fin 100000) (c : Fin 8) :
    broadcastInDim RNx8x1 ![0, 1] h x (ix3 n c (0 : Fin 1)) = x (ix2 n c) :=
  broadcastInDim_apply _ h x _ _ fun a => match a with | ⟨0, _⟩ => rfl | ⟨1, _⟩ => rfl

theorem bc_Nx8x1_Nx8x16 (h : RNx8x1.BroadcastsInDim RNx8x16 ![0, 1, 2]) (x : RNx8x1.Idx → α) (n : Fin 100000) (c : Fin 8) (k : Fin 16) :
    broadcastInDim RNx8x16 ![0, 1, 2] h x (ix3 n c k) = x (ix3 n c (0 : Fin 1)) :=
  broadcastInDim_apply _ h x _ _ fun a => match a with | ⟨0, _⟩ => rfl | ⟨1, _⟩ => rfl | ⟨2, _⟩ => rfl

/-- The latent row of a node copied to every class. -/
theorem latent_apply (Y : RNx16.Idx → α) (h1 : RNx16.BroadcastsInDim RNx1x16 ![0, 2]) (h2 : RNx1x16.BroadcastsInDim RNx8x16 ![0, 1, 2])
    (n : Fin 100000) (c : Fin 8) (j : Fin 16) :
    broadcastInDim (s := RNx1x16) RNx8x16 ![0, 1, 2] h2 (broadcastInDim (s := RNx16) RNx1x16 ![0, 2] h1 Y) (ix3 n c j) = Y (ix2 n j) :=
  (broadcastInDim_apply _ h2 _ _ (ix3 n (0 : Fin 1) j) fun a => match a with | ⟨0, _⟩ => rfl | ⟨1, _⟩ => rfl | ⟨2, _⟩ => rfl).trans
    (broadcastInDim_apply _ h1 Y _ _ fun a => match a with | ⟨0, _⟩ => rfl | ⟨1, _⟩ => rfl)

theorem sc_Nx8x1_Nx8 (h : RNx8x1.ShapeCasts RNx8) (x : RNx8x1.Idx → α) (n : Fin 100000) (c : Fin 8) :
    shapeCast RNx8 x h (ix2 n c) = x (ix3 n c (0 : Fin 1)) :=
  shapeCast_apply x h _ _ (by
    rw [Shape.rowMajor_val_three, Shape.rowMajor_val_two]
    exact Nat.mul_one _)

/-- Row `l` of a [10, 8] parameter array, as a row of eight. -/
theorem row_10x8 (l : Fin 10) (X : R10x8.Idx → α) (hs : R10x8.Slices ![l.val, 0] R1x8) (hc : R1x8.ShapeCasts R8) (c : Fin 8) :
    shapeCast R8 (extractStridedSlice R1x8 ![l.val, 0] X hs) hc (ix1 c) = X (ix2 l c) :=
  (shapeCast_1a_a_apply _ hc c).trans (slice2_axis0_apply _ X hs _ c l rfl)

/-- Row `l` of the [10, 8, 16] centres, as an [8, 16] array. -/
theorem row_10x8x16 (l : Fin 10) (X : R10x8x16.Idx → α) (hs : R10x8x16.Slices ![l.val, 0, 0] R1x8x16) (hc : R1x8x16.ShapeCasts R8x16)
    (c : Fin 8) (k : Fin 16) :
    shapeCast R8x16 (extractStridedSlice R1x8x16 ![l.val, 0, 0] X hs) hc (ix2 c k) = X (ix3 l c k) :=
  (shapeCast_1ab_ab_apply _ hc c k).trans (extractStridedSlice_apply _ X hs _ (ix3 l c k) fun a => match a with
    | ⟨0, _⟩ => rfl
    | ⟨1, _⟩ => (Nat.zero_add c.val).symm
    | ⟨2, _⟩ => (Nat.zero_add k.val).symm)

end Layout

/-- A sum over one axis started from the zero word is the sum over that axis's coordinates. -/
theorem reduce0 {s t : Shape} {a : Fin s.rank} (h' : s.ReducesTo [a] t) (h : s.Reduces [a] t) (x : FVec Ideal s .f32) (hu : 0 < Z0.numel)
    (j : t.Idx) :
    Host.reduceAdd (F := Ideal) x (constant (F := Ideal) Z0 .f32 0x00000000#32) h' hu j = ∑ k : Fin (s.size a), x (h.lift j k) := by
  refine (Ideal.hostReduceAdd_single h' h x _ j).trans ?_
  rw [show constant (F := Ideal) Z0 .f32 0x00000000#32 (Shape.Idx.first hu) = (0 : EReal) from Ideal.ofBits_zero_f32, zero_add]

theorem sum16 (x : FVec Ideal RNx8x16 .f32) (h' : RNx8x16.ReducesTo [2] RNx8) (hu : 0 < Z0.numel) (n : Fin 100000) (c : Fin 8) :
    Host.reduceAdd (F := Ideal) x (constant (F := Ideal) Z0 .f32 0x00000000#32) h' hu (ix2 n c) = ∑ k : Fin 16, x (ix3 n c k) :=
  (reduce0 h' (by decide) x hu _).trans (Finset.sum_congr rfl fun k _ => congrArg x (funext fun a => Fin.ext (match a with
    | ⟨0, _⟩ => rfl
    | ⟨1, _⟩ => rfl
    | ⟨2, _⟩ => rfl)))

/-- The guard `x - 0 ≠ x - 0` never fires, so the guarded softplus is `softplusE`. -/
theorem softplusT_apply (x : FVec Ideal R8 .f32) (c : Fin 8) : softplusT x (ix1 c) = softplusE (x (ix1 c)) := by
  show Scalar.select (Ideal.cmp .une (x (ix1 c) - Ideal.ofBits .f32 0x00000000#32) (x (ix1 c) - Ideal.ofBits .f32 0x00000000#32)) _
      (max (x (ix1 c)) (Ideal.ofBits .f32 0x00000000#32)
        + Ideal.log1p (Ideal.exp (-(max (x (ix1 c) - Ideal.ofBits .f32 0x00000000#32) (-(x (ix1 c) - Ideal.ofBits .f32 0x00000000#32)))))) = _
  rw [Ideal.ofBits_zero_f32, sub_zero, show Ideal.cmp .une (x (ix1 c)) (x (ix1 c)) = 0#1 by unfold Ideal.cmp; simp, select_zero]
  rfl

theorem aRow_apply (ap : FVec Ideal R8 .f32) (c : Fin 8) : aRow ap (ix3 (0 : Fin 1) c (0 : Fin 1)) = aE (ap (ix1 c)) :=
  (bc_8_1x8x1 _ _ c).trans (softplusT_apply ap c)

theorem bRow_apply (ap bp : FVec Ideal R8 .f32) (c : Fin 8) :
    bRow ap bp (ix3 (0 : Fin 1) c (0 : Fin 1)) = bE (ap (ix1 c)) (bp (ix1 c)) :=
  congrArg₂ (-· + ·) (aRow_apply ap c) ((bc_8_1x8x1 _ _ c).trans (softplusT_apply bp c))

theorem dT_apply (x0 : FVec Ideal R8x16 .f32) (z : FVec Ideal RNx8x16 .f32) (n : Fin 100000) (c : Fin 8) (k : Fin 16) :
    dT x0 z (ix3 n c k) = z (ix3 n c k) - x0 (ix2 c k) :=
  congrArg (z (ix3 n c k) - ·) ((bc_1x8x16_Nx8x16 _ _ n c k).trans (bc_8x16_1x8x16 _ x0 c k))

theorem bc_const {t : Shape} (h : Z0.BroadcastsInDim t ![]) (b : BitVec 32) (j : t.Idx) : cst t b h j = w32 b := rfl

theorem hostSqrt_apply {s : Shape} (x : FVec Ideal s .f32) (i : s.Idx) : Host.sqrt x i = Ideal.sqrt (x i) := rfl

theorem rT_apply (x0 : FVec Ideal R8x16 .f32) (z : FVec Ideal RNx8x16 .f32) (n : Fin 100000) (c : Fin 8) :
    rT (dT x0 z) (ix3 n c (0 : Fin 1)) = rE fun j => z (ix3 n c j) - x0 (ix2 c j) := by
  unfold rT
  rw [maximumf_apply, bc_const, hostSqrt_apply, bc_Nx8_Nx8x1, sum16]
  simp only [mulf_apply, dT_apply]
  rfl

variable (ap bp : FVec Ideal R8 .f32) (x0 : FVec Ideal R8x16 .f32) (z : FVec Ideal RNx8x16 .f32) (n : Fin 100000) (c : Fin 8)

theorem sT_apply : sT (aRow ap) (rT (dT x0 z)) (ix3 n c (0 : Fin 1)) = aE (ap (ix1 c)) + rE fun j => z (ix3 n c j) - x0 (ix2 c j) :=
  congrArg₂ (· + ·) ((bc_1x8x1_Nx8x1 _ _ n c).trans (aRow_apply ap c)) (rT_apply x0 z n c)

/-- `b·h` and `b·h'` of a layer at an entry. -/
theorem bh_apply : bT (bRow ap bp) (hT (aRow ap) (rT (dT x0 z))) (ix3 n c (0 : Fin 1))
    = bE (ap (ix1 c)) (bp (ix1 c)) * hE (aE (ap (ix1 c))) (rE fun j => z (ix3 n c j) - x0 (ix2 c j)) :=
  congrArg₂ (· * Ideal.div (w32 0x3F800000#32) ·) ((bc_1x8x1_Nx8x1 _ _ n c).trans (bRow_apply ap bp c)) (sT_apply ap x0 z n c)

theorem bhp_apply : bT (bRow ap bp) (hpT (aRow ap) (rT (dT x0 z))) (ix3 n c (0 : Fin 1))
    = bE (ap (ix1 c)) (bp (ix1 c)) * hpE (aE (ap (ix1 c))) (rE fun j => z (ix3 n c j) - x0 (ix2 c j)) :=
  congrArg₂ (fun b s => b * Ideal.div (w32 0xBF800000#32) (s * s)) ((bc_1x8x1_Nx8x1 _ _ n c).trans (bRow_apply ap bp c))
    (sT_apply ap x0 z n c)

variable (l : Fin 10) {A B : FVec Ideal R10x8 .f32} {X : FVec Ideal R10x8x16 .f32} {Z : FVec Ideal RNx8x16 .f32}
  {hs : R10x8.Slices ![l.val, 0] R1x8} {hc : R1x8.ShapeCasts R8}
  {hsX : R10x8x16.Slices ![l.val, 0, 0] R1x8x16} {hcX : R1x8x16.ShapeCasts R8x16} {n : Fin 100000} {c : Fin 8}

/-- The point after layer `l`, whose parameters are row `l` of the three parameter arrays, entry by entry. -/
theorem zz_of_rows {k : Fin 16} :
    zzT (shapeCast R8 (extractStridedSlice R1x8 ![l.val, 0] A hs) hc) (shapeCast R8 (extractStridedSlice R1x8 ![l.val, 0] B hs) hc)
        (shapeCast R8x16 (extractStridedSlice R1x8x16 ![l.val, 0, 0] X hsX) hcX) Z (ix3 n c k)
      = flowZ (aE (A (ix2 l c))) (bE (A (ix2 l c)) (B (ix2 l c))) (fun j => X (ix3 l c j)) (fun j => Z (ix3 n c j)) k := by
  simp only [zzT, addf_apply, mulf_apply]
  rw [bc_Nx8x1_Nx8x16, bh_apply, dT_apply]
  simp only [row_10x8, row_10x8x16]
  rfl

/-- The log-determinant after layer `l`. -/
theorem ld_of_rows {LD : FVec Ideal RNx8 .f32} :
    ldT (shapeCast R8 (extractStridedSlice R1x8 ![l.val, 0] A hs) hc) (shapeCast R8 (extractStridedSlice R1x8 ![l.val, 0] B hs) hc)
        (shapeCast R8x16 (extractStridedSlice R1x8x16 ![l.val, 0, 0] X hsX) hcX) Z LD (ix2 n c)
      = flowLd (aE (A (ix2 l c))) (bE (A (ix2 l c)) (B (ix2 l c))) (fun j => X (ix3 l c j)) (fun j => Z (ix3 n c j)) (LD (ix2 n c)) := by
  simp only [ldT, addf_apply, mulf_apply]
  rw [sc_Nx8x1_Nx8, sc_Nx8x1_Nx8]
  simp only [Host.log1p, addf_apply, mulf_apply]
  rw [bh_apply, bhp_apply, rT_apply]
  simp only [row_10x8, row_10x8x16]
  rfl

end Cert.ReferenceIdeal.Val.LayA

end
-- ==== Proof.Ref.Layers.lean ====
import proofs.«401025_j37349035606695_2_alg».proof.Proof.RefRun
import proofs.«401025_j37349035606695_2_alg».proof.Proof.Ref.LayerT

set_option maxHeartbeats 1000000

noncomputable section

namespace Cert.ReferenceIdeal.Val

open Cert.ReferenceIdeal Cert.ReferenceIdeal.Ops Cert.Spec Idealize.ShloMosaic Idealize.ShloMosaic.TcCoe Idealize.ShloMosaic.ValueIdx Idealize.SL.Sem Idealize.ShloMosaic.StableHlo
open Cert.ReferenceIdeal.Facts₀ Cert.ReferenceIdeal.Facts LayA

variable (V : Valuation τ sig (Elt Ideal))

theorem ref_layer9_zz (n : Fin 100000) (c : Fin 8) (k : Fin 16) :
    after (Val := Elt Ideal) (s61_64 ++ s65_116) V (main_v81 : DevRef τ sig) (ix3 n c k) = flowZ (aE (V (main_arg13 : DevRef τ sig) (ix2 (9 : Fin 10) c))) (bE (V (main_arg13 : DevRef τ sig) (ix2 (9 : Fin 10) c)) (V (main_arg14 : DevRef τ sig) (ix2 (9 : Fin 10) c))) (fun j => V (main_arg12 : DevRef τ sig) (ix3 (9 : Fin 10) c j)) (fun j => V (main_v51 : DevRef τ sig) (ix2 n j)) k := by
  simp only [after_append]; after_results_simp; exact (zz_of_rows 9).trans (congrArg (flowZ _ _ _ · k) (funext fun j => latent_apply _ _ _ n c j))

theorem ref_layer9_ld (n : Fin 100000) (c : Fin 8) :
    after (Val := Elt Ideal) (s61_64 ++ s65_116) V (main_v102 : DevRef τ sig) (ix2 n c) = flowLd (aE (V (main_arg13 : DevRef τ sig) (ix2 (9 : Fin 10) c))) (bE (V (main_arg13 : DevRef τ sig) (ix2 (9 : Fin 10) c)) (V (main_arg14 : DevRef τ sig) (ix2 (9 : Fin 10) c))) (fun j => V (main_arg12 : DevRef τ sig) (ix3 (9 : Fin 10) c j)) (fun j => V (main_v51 : DevRef τ sig) (ix2 n j)) (w32 0x00000000#32) := by
  simp only [after_append]; after_results_simp; exact (ld_of_rows 9).trans (congrArg (flowLd _ _ _ · _) (funext fun j => latent_apply _ _ _ n c j))

theorem ref_layer8_zz (n : Fin 100000) (c : Fin 8) (k : Fin 16) :
    after (Val := Elt Ideal) (s117_120 ++ s121_168) V (main_v129 : DevRef τ sig) (ix3 n c k) = flowZ (aE (V (main_arg13 : DevRef τ sig) (ix2 (8 : Fin 10) c))) (bE (V (main_arg13 : DevRef τ sig) (ix2 (8 : Fin 10) c)) (V (main_arg14 : DevRef τ sig) (ix2 (8 : Fin 10) c))) (fun j => V (main_arg12 : DevRef τ sig) (ix3 (8 : Fin 10) c j)) (fun j => V (main_v81 : DevRef τ sig) (ix3 n c j)) k := by
  simp only [after_append]; after_results_simp; exact zz_of_rows 8

theorem ref_layer8_ld (n : Fin 100000) (c : Fin 8) :
    after (Val := Elt Ideal) (s117_120 ++ s121_168) V (main_v150 : DevRef τ sig) (ix2 n c) = flowLd (aE (V (main_arg13 : DevRef τ sig) (ix2 (8 : Fin 10) c))) (bE (V (main_arg13 : DevRef τ sig) (ix2 (8 : Fin 10) c)) (V (main_arg14 : DevRef τ sig) (ix2 (8 : Fin 10) c))) (fun j => V (main_arg12 : DevRef τ sig) (ix3 (8 : Fin 10) c j)) (fun j => V (main_v81 : DevRef τ sig) (ix3 n c j)) (V (main_v102 : DevRef τ sig) (ix2 n c)) := by
  simp only [after_append]; after_results_simp; exact ld_of_rows 8

theorem ref_layer7_zz (n : Fin 100000) (c : Fin 8) (k : Fin 16) :
    after (Val := Elt Ideal) (s169_180 ++ s181_220) V (main_v177 : DevRef τ sig) (ix3 n c k) = flowZ (aE (V (main_arg13 : DevRef τ sig) (ix2 (7 : Fin 10) c))) (bE (V (main_arg13 : DevRef τ sig) (ix2 (7 : Fin 10) c)) (V (main_arg14 : DevRef τ sig) (ix2 (7 : Fin 10) c))) (fun j => V (main_arg12 : DevRef τ sig) (ix3 (7 : Fin 10) c j)) (fun j => V (main_v129 : DevRef τ sig) (ix3 n c j)) k := by
  simp only [after_append]; after_results_simp; exact zz_of_rows 7

theorem ref_layer7_ld (n : Fin 100000) (c : Fin 8) :
    after (Val := Elt Ideal) (s169_180 ++ s181_220) V (main_v198 : DevRef τ sig) (ix2 n c) = flowLd (aE (V (main_arg13 : DevRef τ sig) (ix2 (7 : Fin 10) c))) (bE (V (main_arg13 : DevRef τ sig) (ix2 (7 : Fin 10) c)) (V (main_arg14 : DevRef τ sig) (ix2 (7 : Fin 10) c))) (fun j => V (main_arg12 : DevRef τ sig) (ix3 (7 : Fin 10) c j)) (fun j => V (main_v129 : DevRef τ sig) (ix3 n c j)) (V (main_v150 : DevRef τ sig) (ix2 n c)) := by
  simp only [after_append]; after_results_simp; exact ld_of_rows 7

theorem ref_layer6_zz (n : Fin 100000) (c : Fin 8) (k : Fin 16) :
    after (Val := Elt Ideal) (s221_240 ++ s241_272) V (main_v225 : DevRef τ sig) (ix3 n c k) = flowZ (aE (V (main_arg13 : DevRef τ sig) (ix2 (6 : Fin 10) c))) (bE (V (main_arg13 : DevRef τ sig) (ix2 (6 : Fin 10) c)) (V (main_arg14 : DevRef τ sig) (ix2 (6 : Fin 10) c))) (fun j => V (main_arg12 : DevRef τ sig) (ix3 (6 : Fin 10) c j)) (fun j => V (main_v177 : DevRef τ sig) (ix3 n c j)) k := by
  simp only [after_append]; after_results_simp; exact zz_of_rows 6

theorem ref_layer6_ld (n : Fin 100000) (c : Fin 8) :
    after (Val := Elt Ideal) (s221_240 ++ s241_272) V (main_v246 : DevRef τ sig) (ix2 n c) = flowLd (aE (V (main_arg13 : DevRef τ sig) (ix2 (6 : Fin 10) c))) (bE (V (main_arg13 : DevRef τ sig) (ix2 (6 : Fin 10) c)) (V (main_arg14 : DevRef τ sig) (ix2 (6 : Fin 10) c))) (fun j => V (main_arg12 : DevRef τ sig) (ix3 (6 : Fin 10) c j)) (fun j => V (main_v177 : DevRef τ sig) (ix3 n c j)) (V (main_v198 : DevRef τ sig) (ix2 n c)) := by
  simp only [after_append]; after_results_simp; exact ld_of_rows 6

theorem ref_layer5_zz (n : Fin 100000) (c : Fin 8) (k : Fin 16) :
    after (Val := Elt Ideal) (s273_300 ++ s301_324) V (main_v273 : DevRef τ sig) (ix3 n c k) = flowZ (aE (V (main_arg13 : DevRef τ sig) (ix2 (5 : Fin 10) c))) (bE (V (main_arg13 : DevRef τ sig) (ix2 (5 : Fin 10) c)) (V (main_arg14 : DevRef τ sig) (ix2 (5 : Fin 10) c))) (fun j => V (main_arg12 : DevRef τ sig) (ix3 (5 : Fin 10) c j)) (fun j => V (main_v225 : DevRef τ sig) (ix3 n c j)) k := by
  simp only [after_append]; after_results_simp; exact zz_of_rows 5

theorem ref_layer5_ld (n : Fin 100000) (c : Fin 8) :
    after (Val := Elt Ideal) (s273_300 ++ s301_324) V (main_v294 : DevRef τ sig) (ix2 n c) = flowLd (aE (V (main_arg13 : DevRef τ sig) (ix2 (5 : Fin 10) c))) (bE (V (main_arg13 : DevRef τ sig) (ix2 (5 : Fin 10) c)) (V (main_arg14 : DevRef τ sig) (ix2 (5 : Fin 10) c))) (fun j => V (main_arg12 : DevRef τ sig) (ix3 (5 : Fin 10) c j)) (fun j => V (main_v225 : DevRef τ sig) (ix3 n c j)) (V (main_v246 : DevRef τ sig) (ix2 n c)) := by
  simp only [after_append]; after_results_simp; exact ld_of_rows 5

theorem ref_layer4_zz (n : Fin 100000) (c : Fin 8) (k : Fin 16) :
    after (Val := Elt Ideal) (s325_360 ++ s361_376) V (main_v321 : DevRef τ sig) (ix3 n c k) = flowZ (aE (V (main_arg13 : DevRef τ sig) (ix2 (4 : Fin 10) c))) (bE (V (main_arg13 : DevRef τ sig) (ix2 (4 : Fin 10) c)) (V (main_arg14 : DevRef τ sig) (ix2 (4 : Fin 10) c))) (fun j => V (main_arg12 : DevRef τ sig) (ix3 (4 : Fin 10) c j)) (fun j => V (main_v273 : DevRef τ sig) (ix3 n c j)) k := by
  simp only [after_append]; after_results_simp; exact zz_of_rows 4

theorem ref_layer4_ld (n : Fin 100000) (c : Fin 8) :
    after (Val := Elt Ideal) (s325_360 ++ s361_376) V (main_v342 : DevRef τ sig) (ix2 n c) = flowLd (aE (V (main_arg13 : DevRef τ sig) (ix2 (4 : Fin 10) c))) (bE (V (main_arg13 : DevRef τ sig) (ix2 (4 : Fin 10) c)) (V (main_arg14 : DevRef τ sig) (ix2 (4 : Fin 10) c))) (fun j => V (main_arg12 : DevRef τ sig) (ix3 (4 : Fin 10) c j)) (fun j => V (main_v273 : DevRef τ sig) (ix3 n c j)) (V (main_v294 : DevRef τ sig) (ix2 n c)) := by
  simp only [after_append]; after_results_simp; exact ld_of_rows 4

theorem ref_layer3_zz (n : Fin 100000) (c : Fin 8) (k : Fin 16) :
    after (Val := Elt Ideal) (s377_420 ++ s421_428) V (main_v369 : DevRef τ sig) (ix3 n c k) = flowZ (aE (V (main_arg13 : DevRef τ sig) (ix2 (3 : Fin 10) c))) (bE (V (main_arg13 : DevRef τ sig) (ix2 (3 : Fin 10) c)) (V (main_arg14 : DevRef τ sig) (ix2 (3 : Fin 10) c))) (fun j => V (main_arg12 : DevRef τ sig) (ix3 (3 : Fin 10) c j)) (fun j => V (main_v321 : DevRef τ sig) (ix3 n c j)) k := by
  simp only [after_append]; after_results_simp; exact zz_of_rows 3

theorem ref_layer3_ld (n : Fin 100000) (c : Fin 8) :
    after (Val := Elt Ideal) (s377_420 ++ s421_428) V (main_v390 : DevRef τ sig) (ix2 n c) = flowLd (aE (V (main_arg13 : DevRef τ sig) (ix2 (3 : Fin 10) c))) (bE (V (main_arg13 : DevRef τ sig) (ix2 (3 : Fin 10) c)) (V (main_arg14 : DevRef τ sig) (ix2 (3 : Fin 10) c))) (fun j => V (main_arg12 : DevRef τ sig) (ix3 (3 : Fin 10) c j)) (fun j => V (main_v321 : DevRef τ sig) (ix3 n c j)) (V (main_v342 : DevRef τ sig) (ix2 n c)) := by
  simp only [after_append]; after_results_simp; exact ld_of_rows 3

theorem ref_layer2_zz (n : Fin 100000) (c : Fin 8) (k : Fin 16) :
    after (Val := Elt Ideal) s429_480 V (main_v417 : DevRef τ sig) (ix3 n c k) = flowZ (aE (V (main_arg13 : DevRef τ sig) (ix2 (2 : Fin 10) c))) (bE (V (main_arg13 : DevRef τ sig) (ix2 (2 : Fin 10) c)) (V (main_arg14 : DevRef τ sig) (ix2 (2 : Fin 10) c))) (fun j => V (main_arg12 : DevRef τ sig) (ix3 (2 : Fin 10) c j)) (fun j => V (main_v369 : DevRef τ sig) (ix3 n c j)) k := by
  after_results_simp; exact zz_of_rows 2

theorem ref_layer2_ld (n : Fin 100000) (c : Fin 8) :
    after (Val := Elt Ideal) s429_480 V (main_v438 : DevRef τ sig) (ix2 n c) = flowLd (aE (V (main_arg13 : DevRef τ sig) (ix2 (2 : Fin 10) c))) (bE (V (main_arg13 : DevRef τ sig) (ix2 (2 : Fin 10) c)) (V (main_arg14 : DevRef τ sig) (ix2 (2 : Fin 10) c))) (fun j => V (main_arg12 : DevRef τ sig) (ix3 (2 : Fin 10) c j)) (fun j => V (main_v369 : DevRef τ sig) (ix3 n c j)) (V (main_v390 : DevRef τ sig) (ix2 n c)) := by
  after_results_simp; exact ld_of_rows 2

theorem ref_layer1_zz (n : Fin 100000) (c : Fin 8) (k : Fin 16) :
    after (Val := Elt Ideal) s481_532 V (main_v465 : DevRef τ sig) (ix3 n c k) = flowZ (aE (V (main_arg13 : DevRef τ sig) (ix2 (1 : Fin 10) c))) (bE (V (main_arg13 : DevRef τ sig) (ix2 (1 : Fin 10) c)) (V (main_arg14 : DevRef τ sig) (ix2 (1 : Fin 10) c))) (fun j => V (main_arg12 : DevRef τ sig) (ix3 (1 : Fin 10) c j)) (fun j => V (main_v417 : DevRef τ sig) (ix3 n c j)) k := by
  after_results_simp; exact zz_of_rows 1

theorem ref_layer1_ld (n : Fin 100000) (c : Fin 8) :
    after (Val := Elt Ideal) s481_532 V (main_v486 : DevRef τ sig) (ix2 n c) = flowLd (aE (V (main_arg13 : DevRef τ sig) (ix2 (1 : Fin 10) c))) (bE (V (main_arg13 : DevRef τ sig) (ix2 (1 : Fin 10) c)) (V (main_arg14 : DevRef τ sig) (ix2 (1 : Fin 10) c))) (fun j => V (main_arg12 : DevRef τ sig) (ix3 (1 : Fin 10) c j)) (fun j => V (main_v417 : DevRef τ sig) (ix3 n c j)) (V (main_v438 : DevRef τ sig) (ix2 n c)) := by
  after_results_simp; exact ld_of_rows 1

theorem ref_layer0_zz (n : Fin 100000) (c : Fin 8) (k : Fin 16) :
    after (Val := Elt Ideal) (s533_540 ++ s541_584) V (main_v513 : DevRef τ sig) (ix3 n c k) = flowZ (aE (V (main_arg13 : DevRef τ sig) (ix2 (0 : Fin 10) c))) (bE (V (main_arg13 : DevRef τ sig) (ix2 (0 : Fin 10) c)) (V (main_arg14 : DevRef τ sig) (ix2 (0 : Fin 10) c))) (fun j => V (main_arg12 : DevRef τ sig) (ix3 (0 : Fin 10) c j)) (fun j => V (main_v465 : DevRef τ sig) (ix3 n c j)) k := by
  simp only [after_append]; after_results_simp; exact zz_of_rows 0

theorem ref_layer0_ld (n : Fin 100000) (c : Fin 8) :
    after (Val := Elt Ideal) (s533_540 ++ s541_584) V (main_v534 : DevRef τ sig) (ix2 n c) = flowLd (aE (V (main_arg13 : DevRef τ sig) (ix2 (0 : Fin 10) c))) (bE (V (main_arg13 : DevRef τ sig) (ix2 (0 : Fin 10) c)) (V (main_arg14 : DevRef τ sig) (ix2 (0 : Fin 10) c))) (fun j => V (main_arg12 : DevRef τ sig) (ix3 (0 : Fin 10) c j)) (fun j => V (main_v465 : DevRef τ sig) (ix3 n c j)) (V (main_v486 : DevRef τ sig) (ix2 n c)) := by
  simp only [after_append]; after_results_simp; exact ld_of_rows 0

end Cert.ReferenceIdeal.Val

end
-- ==== Proof.Ref.Epi.lean ====
import proofs.«401025_j37349035606695_2_alg».proof.Proof.RefRun
import proofs.«401025_j37349035606695_2_alg».proof.Proof.Ref.LayerT
import Idealize.ShloMosaic.Lib.KernelVsHost

noncomputable section

namespace Cert.ReferenceIdeal.Val

open Cert.ReferenceIdeal Cert.ReferenceIdeal.Ops Cert.Spec Idealize.ShloMosaic Idealize.ShloMosaic.TcCoe Idealize.ShloMosaic.ValueIdx Idealize.SL.Sem Idealize.ShloMosaic.StableHlo
open Cert.ReferenceIdeal.Facts₀ Cert.ReferenceIdeal.Facts LayA

section Layout
variable {α : Type}

theorem bcast_scalar_apply {t : Shape} (dims : Fin S_.rank → Fin t.rank) (h : S_.BroadcastsInDim t dims) (x : S_.Idx → α) (j : t.Idx) :
    broadcastInDim t dims h x j = x ix0 :=
  broadcastInDim_apply dims h x j ix0 fun a => a.elim0

theorem bcast_8_1x8_apply (h : S8.BroadcastsInDim S1x8 ![1]) (x : S8.Idx → α) (c : Fin 8) :
    broadcastInDim S1x8 ![1] h x (ix2 (0 : Fin 1) c) = x (ix1 c) :=
  broadcastInDim_apply ![1] h x _ _ fun a => match a with | ⟨0, _⟩ => rfl

end Layout

/-- Started from the zero word, the sum along a row is the sum of its sixteen entries. -/
theorem sum16_row (x : FVec Ideal S8x16 .f32) (h : S8x16.ReducesTo [1] S8) (hu : 0 < S_.numel) (c : Fin 8) :
    Host.reduceAdd (F := Ideal) x (constant (F := Ideal) S_ .f32 0x00000000#32) h hu (ix1 c) = ∑ k : Fin 16, x (ix2 c k) :=
  (reduce0 h (by decide) x hu _).trans (Finset.sum_congr rfl fun k _ => congrArg x (funext fun a => Fin.ext (match a with
    | ⟨0, _⟩ => rfl
    | ⟨1, _⟩ => rfl)))

variable (V : Valuation τ sig (Elt Ideal))

/-- The constant and the quadratic part separately; each repeated block is read at the class's own row. -/
theorem ref_logq (n : Fin 100000) (c : Fin 8) :
    after (Val := Elt Ideal) (s585_600 ++ s601_616) V (main_v554 : DevRef τ sig) (ix2 n c)
      = logqE (fun k => V (main_arg15 : DevRef τ sig) (ix2 c k)) (fun k => V (main_arg16 : DevRef τ sig) (ix2 c k))
          (fun k => V (main_v513 : DevRef τ sig) (ix3 n c k), V (main_v534 : DevRef τ sig) (ix2 n c)) := by
  rw [after_append]
  after_results_simp
  unfold logqE
  refine congrArg₂ (· + ·) (congrArg₂ (· - ·) ?_ (congrArg (_ * ·) ?_)) rfl
  · rw [broadcastInDim_oneRow_apply]
    simp only [subf_apply, mulf_apply, bcast_scalar_apply, constant_apply]
    rw [bcast_8_1x8_apply, sum16_row]
  · rw [sum16]
    refine Finset.sum_congr rfl fun k _ => ?_
    show Ideal.div ((_ - _) * (_ - _)) _ = _
    rw [bc_1x8x16_Nx8x16, bc_8x16_1x8x16, bc_1x8x16_Nx8x16, bc_8x16_1x8x16]
    rfl

/-- What follows the log-density acts entry by entry. -/
theorem ref_bft (n : Fin 100000) (c : Fin 8) :
    after (Val := Elt Ideal) (s585_600 ++ s601_616) V (main_v558 : DevRef τ sig) (ix2 n c)
      = bftE (after (Val := Elt Ideal) (s585_600 ++ s601_616) V (main_v554 : DevRef τ sig) (ix2 n c)) := by
  rw [after_append]
  generalize after s585_600 V = W
  after_results_simp
  rfl

end Cert.ReferenceIdeal.Val

end
-- ==== Proof.Host.Lockstep.lean ====
import proofs.«401025_j37349035606695_2_alg».proof.Proof.Gen.KernelIdeal.Launch
import proofs.«401025_j37349035606695_2_alg».proof.Proof.RefRun
import Idealize.ShloMosaic.PureOps.Ideal

noncomputable section

namespace Cert.Host

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

-- Both sides take the mean and the variance over the rows of the same array by the same operations.
theorem stats1_agree (h : VK (Cert.KernelIdeal.main_v0 : DevRef _ _) = VR (Cert.ReferenceIdeal.main_v3 : DevRef _ _)) :
    after (Val := Elt Ideal) Cert.KernelIdeal.Gen.hostOps1_1 (after Cert.KernelIdeal.Gen.hostOps1 VK) (Cert.KernelIdeal.main_v3 : DevRef _ _)
        = after (Val := Elt Ideal) Cert.ReferenceIdeal.Ops.s5_11 VR (Cert.ReferenceIdeal.main_v6 : DevRef _ _)
    ∧ after (Val := Elt Ideal) Cert.KernelIdeal.Gen.hostOps1_1 (after Cert.KernelIdeal.Gen.hostOps1 VK) (Cert.KernelIdeal.main_v4 : DevRef _ _)
        = after (Val := Elt Ideal) Cert.ReferenceIdeal.Ops.s5_11 VR (Cert.ReferenceIdeal.main_v7 : DevRef _ _) := by
  constructor <;> (after_results_simp; rw [h])

theorem stats2_agree (h : VK (Cert.KernelIdeal.main_v5 : DevRef _ _) = VR (Cert.ReferenceIdeal.main_v27 : DevRef _ _)) :
    after (Val := Elt Ideal) Cert.KernelIdeal.Gen.hostOps2_1 (after Cert.KernelIdeal.Gen.hostOps2 VK) (Cert.KernelIdeal.main_v8 : DevRef _ _)
        = after (Val := Elt Ideal) Cert.ReferenceIdeal.Ops.s33_39 VR (Cert.ReferenceIdeal.main_v30 : DevRef _ _)
    ∧ after (Val := Elt Ideal) Cert.KernelIdeal.Gen.hostOps2_1 (after Cert.KernelIdeal.Gen.hostOps2 VK) (Cert.KernelIdeal.main_v9 : DevRef _ _)
        = after (Val := Elt Ideal) Cert.ReferenceIdeal.Ops.s33_39 VR (Cert.ReferenceIdeal.main_v31 : DevRef _ _) := by
  constructor <;> (after_results_simp; rw [h])

attribute [local irreducible] concatenate extractStridedSlice shapeCast iotaInDim in
set_option maxHeartbeats 2000000 in
-- Rows and columns with the self loops appended are the same operations of the one edge list.
theorem edges_agree (h : VK (Cert.KernelIdeal.main_arg1 : DevRef _ _) = VR (Cert.ReferenceIdeal.main_arg1 : DevRef _ _)) :
    after (Val := Elt Ideal) Cert.KernelIdeal.Gen.hostOps3 VK (Cert.KernelIdeal.main_v14 : DevRef _ _)
        = after (Val := Elt Ideal) Cert.ReferenceIdeal.Ops.s617_632 VR (Cert.ReferenceIdeal.main_v562 : DevRef _ _)
    ∧ after (Val := Elt Ideal) Cert.KernelIdeal.Gen.hostOps3 VK (Cert.KernelIdeal.main_v17 : DevRef _ _)
        = after (Val := Elt Ideal) Cert.ReferenceIdeal.Ops.s617_632 VR (Cert.ReferenceIdeal.main_v565 : DevRef _ _) := by
  constructor <;> (after_results; rw [h]; rfl)

end Cert.Host

end
-- ==== Proof.LibGatherScatter.lean ====
import Idealize.ShloMosaic.PureOps.Ideal
import Idealize.ShloMosaic.Lib.ValueIdx

open scoped BigOperators

namespace Cert.Proof.GS

open Idealize.ShloMosaic Idealize.ShloMosaic.ValueIdx

-- The accumulating scatter of [E] updates into an [N] operand at a column [E, 1] of indices: one inserted, indexed axis and no window.
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

-- An update lands on `r` exactly when, on every axis, its signed start plus its window coordinate is `r`'s coordinate.
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section Scat1
variable {N E w : Nat} (wf : ScatterDims.WF ⟨1, ![N]⟩ ⟨2, ![E, 1]⟩ ⟨1, ![E]⟩ [] [0] [0] 1)
  (idx : IVec ⟨2, ![E, 1]⟩ w) (e : Fin E)

theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

section ScatterAddAt
open Finset

-- At `i` the scatter-add is the operand's entry plus the updates of the edges whose index word, read signed, is `i`.
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.Host.DisLemmas.lean ====
import Idealize.ShloMosaic.Lib.Pipeline.Value
import Idealize.ShloMosaic.Lib.IdealHost
import Idealize.ShloMosaic.Lib.WordArith
import Mathlib.Analysis.SpecialFunctions.Pow.Real

noncomputable section

namespace Cert.Host

open Idealize.ShloMosaic Idealize.ShloMosaic.ValueIdx

theorem ofBits_neg_half_f32 : Ideal.ofBits .f32 0xBF000000#32 = ((-(1 / 2 : ℝ) : ℝ) : EReal) := by
  simp [Ideal.ofBits, Ideal.ieee, -EReal.coe_mul, -EReal.coe_neg]; norm_num

theorem inv_sqrt_eq_rpow {r : ℝ} (hr : 0 ≤ r) : (Real.sqrt r)⁻¹ = Real.rpow r (-(1 / 2 : ℝ)) := by
  show (Real.sqrt r)⁻¹ = r ^ (-(1 / 2 : ℝ))
  rw [Real.rpow_neg hr, Real.sqrt_eq_rpow]

-- For r ≥ 1 the clamp at one does nothing and (√r)⁻¹ = r ^ (-1/2).
theorem rsqrt_max_one_eq_pow {r : ℝ} (hr : 1 ≤ r) :
    Ideal.rsqrt (max (r : EReal) 1) = Ideal.pow (r : EReal) ((-(1 / 2 : ℝ) : ℝ) : EReal) := by
  have h1 : (1 : EReal) ≤ (r : EReal) := by
    rw [show (1 : EReal) = ((1 : ℝ) : EReal) by norm_cast]; exact EReal.coe_le_coe_iff.mpr hr
  have h0 : (0 : ℝ) < r := lt_of_lt_of_le one_pos hr
  rw [max_eq_left h1, Ideal.rsqrt_coe, Ideal.pow_coe_coe, if_neg (not_lt.mpr h0.le), if_neg (ne_of_gt h0),
    inv_sqrt_eq_rpow h0.le]

theorem zero_add_sum_ones {ι : Type} (s : Finset ι) (hs : s.Nonempty) :
    ∃ r : ℝ, 1 ≤ r ∧ (0 : EReal) + ∑ _e ∈ s, (1 : EReal) = (r : EReal) := by
  refine ⟨(s.card : ℝ), ?_, ?_⟩
  · exact_mod_cast Finset.card_pos.mpr hs
  · rw [zero_add, Finset.sum_const, ← EReal.coe_one, ← EReal.coe_nsmul, nsmul_eq_mul, mul_one]

theorem concatenate_tail_apply {α : Type} {n₁ n₂ n : Nat}
    (x₁ : (⟨1, ![n₁]⟩ : Shape).Idx → α) (x₂ : (⟨1, ![n₂]⟩ : Shape).Idx → α)
    (h : Shape.Concatenates [(⟨1, ![n₁]⟩ : Shape), (⟨1, ![n₂]⟩ : Shape)] (⟨1, ![n]⟩ : Shape) 0)
    (i : Fin n₂) (e : Fin n) (he : e.val = n₁ + i.val) :
    concatenate (⟨1, ![n]⟩ : Shape) 0 [⟨(⟨1, ![n₁]⟩ : Shape), x₁⟩, ⟨(⟨1, ![n₂]⟩ : Shape), x₂⟩] h (ix1 e) = x₂ (ix1 i) := by
  refine concatenate_pair_apply_right (0 : Fin 1) x₁ x₂ h (ix1 e) rfl rfl (ix1 i) ?_ ?_
  · intro b hb
    exact absurd (Subsingleton.elim _ _) hb
  · show i.val + n₁ = e.val
    omega

theorem rowWord_tail {n₁ n₂ n : Nat} (a : IVec (⟨1, ![n₁]⟩ : Shape) 32)
    (hc : Shape.Concatenates [(⟨1, ![n₁]⟩ : Shape), (⟨1, ![n₂]⟩ : Shape)] (⟨1, ![n]⟩ : Shape) 0)
    (hb : (⟨1, ![n]⟩ : Shape).BroadcastsInDim (⟨2, ![n, 1]⟩ : Shape) ![0])
    (i : Fin n₂) (e : Fin n) (he : e.val = n₁ + i.val) (hn : n₂ ≤ 2147483648) :
    (broadcastInDim (⟨2, ![n, 1]⟩ : Shape) ![0] hb
        (concatenate (⟨1, ![n]⟩ : Shape) 0
          [⟨(⟨1, ![n₁]⟩ : Shape), a⟩, ⟨(⟨1, ![n₂]⟩ : Shape), iotaInDim (⟨1, ![n₂]⟩ : Shape) 32 0⟩] hc)
        (ix2 e (0 : Fin 1))).toInt = (i.val : Int) := by
  have hk : ∀ b : Fin 1, ((ix1 e) b).val
      = if (⟨1, ![n]⟩ : Shape).size b = 1 then 0 else ((ix2 e (0 : Fin 1)) ((![0] : Fin 1 → Fin 2) b)).val := by
    intro b
    obtain rfl : b = 0 := Subsingleton.elim _ _
    by_cases h1 : (⟨1, ![n]⟩ : Shape).size 0 = 1
    · rw [if_pos h1]
      have hlt : e.val < n := e.isLt
      have h1' : n = 1 := h1
      show e.val = 0
      omega
    · rw [if_neg h1]; rfl
  rw [broadcastInDim_apply ![0] hb _ (ix2 e (0 : Fin 1)) (ix1 e) hk, concatenate_tail_apply _ _ hc i e he, iotaInDim_apply]
  exact WordArith.toInt_ofNat_small _ (by have := i.isLt; show i.val < 2147483648; omega)

-- A node's degree counts entry n₁ + i of the row list, its own loop, so it is a real number at least one.
theorem deg_sum_ge_one {N n₁ n : Nat} (hN : N ≤ 2147483648) (hn : n₁ + N = n)
    (hz : (⟨0, ![]⟩ : Shape).BroadcastsInDim (⟨1, ![N]⟩ : Shape) ![])
    (ho : (⟨0, ![]⟩ : Shape).BroadcastsInDim (⟨1, ![n]⟩ : Shape) ![])
    (hc : Shape.Concatenates [(⟨1, ![n₁]⟩ : Shape), (⟨1, ![N]⟩ : Shape)] (⟨1, ![n]⟩ : Shape) 0)
    (hb : (⟨1, ![n]⟩ : Shape).BroadcastsInDim (⟨2, ![n, 1]⟩ : Shape) ![0])
    (a : IVec (⟨1, ![n₁]⟩ : Shape) 32) (i : Fin N) :
    ∃ r : ℝ, 1 ≤ r ∧
      broadcastInDim (⟨1, ![N]⟩ : Shape) ![] hz (constant (F := Ideal) (⟨0, ![]⟩ : Shape) .f32 0x00000000#32) (ix1 i)
        + ∑ e ∈ Finset.univ.filter (fun e : Fin n =>
            (broadcastInDim (⟨2, ![n, 1]⟩ : Shape) ![0] hb
              (concatenate (⟨1, ![n]⟩ : Shape) 0
                [⟨(⟨1, ![n₁]⟩ : Shape), a⟩, ⟨(⟨1, ![N]⟩ : Shape), iotaInDim (⟨1, ![N]⟩ : Shape) 32 0⟩] hc)
              (ix2 e (0 : Fin 1))).toInt = (i.val : Int)),
          broadcastInDim (⟨1, ![n]⟩ : Shape) ![] ho (constant (F := Ideal) (⟨0, ![]⟩ : Shape) .f32 0x3F800000#32) (ix1 e)
        = (r : EReal) := by
  have hupd : ∀ e : Fin n,
      broadcastInDim (⟨1, ![n]⟩ : Shape) ![] ho (constant (F := Ideal) (⟨0, ![]⟩ : Shape) .f32 0x3F800000#32) (ix1 e) = 1 := by
    intro e
    rw [broadcastInDim_scalar_apply ho, constant_apply, Ideal.ofBits_one_f32]
  rw [broadcastInDim_scalar_apply hz, constant_apply, Ideal.ofBits_zero_f32, Finset.sum_congr rfl (fun e _ => hupd e)]
  exact zero_add_sum_ones _ ⟨⟨n₁ + i.val, by have := i.isLt; omega⟩,
    Finset.mem_filter.mpr ⟨Finset.mem_univ _, rowWord_tail a hc hb i _ rfl hN⟩⟩

-- Where every degree is at least one, the two spellings of its inverse square root are one function.
theorem sel_rsqrt_eq_sel_pow {N : Nat} (hz : (⟨0, ![]⟩ : Shape).BroadcastsInDim (⟨1, ![N]⟩ : Shape) ![])
    (D : FVec Ideal (⟨1, ![N]⟩ : Shape) .f32) (hD : ∀ i : Fin N, ∃ r : ℝ, 1 ≤ r ∧ D (ix1 i) = (r : EReal))
    (c : IVec (⟨1, ![N]⟩ : Shape) 1) (z : FVec Ideal (⟨1, ![N]⟩ : Shape) .f32) :
    select c (Host.rsqrt (maximumf D
        (broadcastInDim (⟨1, ![N]⟩ : Shape) ![] hz (constant (F := Ideal) (⟨0, ![]⟩ : Shape) .f32 0x3F800000#32)))) z
      = select c (Host.powf D
        (broadcastInDim (⟨1, ![N]⟩ : Shape) ![] hz (constant (F := Ideal) (⟨0, ![]⟩ : Shape) .f32 0xBF000000#32))) z := by
  funext j
  obtain ⟨i, rfl⟩ : ∃ i : Fin N, j = ix1 i := ⟨j 0, eq_ix1 j⟩
  obtain ⟨r, hr, hd⟩ := hD i
  rw [select_apply, select_apply]
  refine congrArg (fun t => Scalar.select (c (ix1 i)) t (z (ix1 i))) ?_
  show Ideal.rsqrt (max (D (ix1 i))
        (broadcastInDim (⟨1, ![N]⟩ : Shape) ![] hz (constant (F := Ideal) (⟨0, ![]⟩ : Shape) .f32 0x3F800000#32) (ix1 i)))
     = Ideal.pow (D (ix1 i))
        (broadcastInDim (⟨1, ![N]⟩ : Shape) ![] hz (constant (F := Ideal) (⟨0, ![]⟩ : Shape) .f32 0xBF000000#32) (ix1 i))
  rw [hd, broadcastInDim_scalar_apply hz, broadcastInDim_scalar_apply hz, constant_apply, constant_apply,
    Ideal.ofBits_one_f32, ofBits_neg_half_f32]
  exact rsqrt_max_one_eq_pow hr

end Cert.Host

end
-- ==== Proof.Host.Dis.lean ====
import proofs.«401025_j37349035606695_2_alg».proof.Proof.Gen.KernelIdeal.Launch
import proofs.«401025_j37349035606695_2_alg».proof.Proof.RefRun
import proofs.«401025_j37349035606695_2_alg».proof.Proof.LibGatherScatter
import proofs.«401025_j37349035606695_2_alg».proof.Proof.Host.DisLemmas

noncomputable section

namespace Cert.Host

open Idealize.ShloMosaic Idealize.ShloMosaic.TcCoe Idealize.ShloMosaic.ValueIdx Idealize.SL.Sem Idealize.ShloMosaic.StableHlo

theorem after_append' {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

-- A list of operations cut at any place: the first part, then the rest from what the first part left.
theorem after_cut {τ : Topo} {sig : RefSig} {Val : EltTy → Type} (n : Nat) (l : List (HloOp τ sig Val)) (V : Valuation τ sig Val) :
    after l V = after (l.drop n) (after (l.take n) V) := by
  rw [← after_append', List.take_append_drop]

section Kernel
open Cert.KernelIdeal Cert.KernelIdeal.Gen

variable (VK : Valuation τ sig (Elt Ideal))

theorem k_iota : after (Val := Elt Ideal) ((hostOps3.take 13).take 3) VK (Proc.devRef .tc main_v11)
    = iotaInDim S100000 32 0 := by
  show after (Val := Elt Ideal) [_, _, _] VK _ = _
  after_results

theorem k_sel (V : Valuation τ sig (Elt Ideal)) :
    after (Val := Elt Ideal) hostOps3_1 V (Proc.devRef .tc main_v27)
      = (select (V (Proc.devRef .tc main_v23) : IVec S100000 1)
          (V (Proc.devRef .tc main_v26) : FVec Ideal S100000 .f32)
          (broadcastInDim S100000 ![] bcast_S_S100000
            (V (Proc.devRef .tc main_cst_8) : FVec Ideal S_ .f32))
          : FVec Ideal S100000 .f32) := by
  show after (Val := Elt Ideal) [_, _, _] V _ = _
  after_results_simp
  rfl

theorem k_mask (V : Valuation τ sig (Elt Ideal)) :
    after (Val := Elt Ideal) (hostOps3.drop 13) V (Proc.devRef .tc main_v23)
      = cmpf .ogt (V (Proc.devRef .tc main_v21) : FVec Ideal S100000 .f32)
          (broadcastInDim S100000 ![] bcast_S_S100000
            (constant (F := Ideal) S_ .f32 0x00000000#32)) := by
  show after (Val := Elt Ideal) [_, _, _, _, _, _, _, _] V _ = _
  after_results_simp

theorem k_rsqrt (V : Valuation τ sig (Elt Ideal)) :
    after (Val := Elt Ideal) (hostOps3.drop 13) V (Proc.devRef .tc main_v26)
      = Host.rsqrt (maximumf (V (Proc.devRef .tc main_v21) : FVec Ideal S100000 .f32)
          (broadcastInDim S100000 ![] bcast_S_S100000
            (constant (F := Ideal) S_ .f32 0x3F800000#32))) := by
  show after (Val := Elt Ideal) [_, _, _, _, _, _, _, _] V _ = _
  after_results_simp

theorem k_zero (V : Valuation τ sig (Elt Ideal)) :
    after (Val := Elt Ideal) (hostOps3.drop 13) V (Proc.devRef .tc main_cst_8)
      = constant (F := Ideal) S_ .f32 0x00000000#32 := by
  show after (Val := Elt Ideal) [_, _, _, _, _, _, _, _] V _ = _
  after_results_simp

def kdeg₂ (a : IVec S3200000 32) (io : IVec S100000 32) : FVec Ideal S100000 .f32 :=
  Host.scatterAdd scatter_S100000_S3300000x1_S3300000_n_0_0_1
    (broadcastInDim S100000 ![] bcast_S_S100000 (constant (F := Ideal) S_ .f32 0x00000000#32))
    (broadcastInDim S3300000x1 ![0] bcast_S3300000_S3300000x1_0
      (concatenate S3300000 0 [⟨S3200000, a⟩, ⟨S100000, io⟩] concatenates_S3200000_S100000_S3300000_d0))
    (broadcastInDim S3300000 ![] bcast_S_S3300000 (constant (F := Ideal) S_ .f32 0x3F800000#32))

theorem k_deg (V : Valuation τ sig (Elt Ideal)) :
    after (Val := Elt Ideal) ((hostOps3.take 13).drop 3) V (Proc.devRef .tc main_v21)
      = kdeg₂ (V (Proc.devRef .tc main_v13)) (V (Proc.devRef .tc main_v11)) := by
  show after (Val := Elt Ideal) [_, _, _, _, _, _, _, _, _, _] V _ = _
  after_results_simp
  rfl

def kdeg (a : IVec S3200000 32) : FVec Ideal S100000 .f32 := kdeg₂ a (iotaInDim S100000 32 0)

def krows : IVec S3200000 32 :=
  after (Val := Elt Ideal) ((hostOps3.take 13).take 3) VK (Proc.devRef .tc main_v13)

-- The kernel side as one term: where the degree is positive, the reciprocal square root of the degree clamped below at one.
theorem k_all :
    after (Val := Elt Ideal) hostOps3_1 (after hostOps3 VK) (Proc.devRef .tc main_v27)
      = select
          (cmpf .ogt (kdeg (krows VK))
            (broadcastInDim S100000 ![] bcast_S_S100000
              (constant (F := Ideal) S_ .f32 0x00000000#32)))
          (Host.rsqrt (maximumf (kdeg (krows VK))
            (broadcastInDim S100000 ![] bcast_S_S100000
              (constant (F := Ideal) S_ .f32 0x3F800000#32))))
          (broadcastInDim S100000 ![] bcast_S_S100000
            (constant (F := Ideal) S_ .f32 0x00000000#32)) := by
  rw [k_sel, after_cut 13 hostOps3 VK, k_mask, k_rsqrt, k_zero,
    after_cut 3 (hostOps3.take 13) VK, k_deg, k_iota]
  rfl

end Kernel

section Reference
open Cert.ReferenceIdeal Cert.ReferenceIdeal.Ops Cert.ReferenceIdeal.Facts₀ Cert.ReferenceIdeal.Facts

variable (VR : Valuation Cert.ReferenceIdeal.τ Cert.ReferenceIdeal.sig (Elt Ideal))

theorem r_sel (V : Valuation Cert.ReferenceIdeal.τ Cert.ReferenceIdeal.sig (Elt Ideal)) :
    after (Val := Elt Ideal) s633_637 V (Proc.devRef .tc main_v574)
      = (select (V (Proc.devRef .tc main_v571) : IVec S100000 1)
          (Host.powf (V (Proc.devRef .tc main_v569) : FVec Ideal S100000 .f32)
            (broadcastInDim S100000 ![] bcast_S_S100000 (constant (F := Ideal) S_ .f32 0xBF000000#32)))
          (broadcastInDim S100000 ![] bcast_S_S100000 (constant (F := Ideal) S_ .f32 0x00000000#32))
          : FVec Ideal S100000 .f32) := by
  show after (Val := Elt Ideal) [_, _, _, _, _, _, _] V _ = _
  after_results_simp
  rfl

theorem r_mask (V : Valuation Cert.ReferenceIdeal.τ Cert.ReferenceIdeal.sig (Elt Ideal)) :
    after (Val := Elt Ideal) (s617_632.drop 13) V (Proc.devRef .tc main_v571)
      = cmpf .ogt (V (Proc.devRef .tc main_v569) : FVec Ideal S100000 .f32)
          (broadcastInDim S100000 ![] bcast_S_S100000 (constant (F := Ideal) S_ .f32 0x00000000#32)) := by
  show after (Val := Elt Ideal) [_, _, _] V _ = _
  after_results_simp

theorem r_keep (V : Valuation Cert.ReferenceIdeal.τ Cert.ReferenceIdeal.sig (Elt Ideal)) :
    after (Val := Elt Ideal) (s617_632.drop 13) V (Proc.devRef .tc main_v569) = V (Proc.devRef .tc main_v569) := by
  show after (Val := Elt Ideal) [_, _, _] V _ = _
  after_results_simp

def rdeg₂ (a : IVec S3200000 32) (io : IVec S100000 32) : FVec Ideal S100000 .f32 :=
  Host.scatterAdd scatter_S100000_S3300000x1_S3300000_n_0_0_1
    (broadcastInDim S100000 ![] bcast_S_S100000 (constant (F := Ideal) S_ .f32 0x00000000#32))
    (broadcastInDim S3300000x1 ![0] bcast_S3300000_S3300000x1_0
      (concatenate S3300000 0 [⟨S3200000, a⟩, ⟨S100000, io⟩] concatenates_S3200000_S100000_S3300000_d0))
    (broadcastInDim S3300000 ![] bcast_S_S3300000 (constant (F := Ideal) S_ .f32 0x3F800000#32))

theorem r_deg (V : Valuation Cert.ReferenceIdeal.τ Cert.ReferenceIdeal.sig (Elt Ideal)) :
    after (Val := Elt Ideal) ((s617_632.take 13).drop 3) V (Proc.devRef .tc main_v569)
      = rdeg₂ (V (Proc.devRef .tc main_v561)) (V (Proc.devRef .tc main_v559)) := by
  show after (Val := Elt Ideal) [_, _, _, _, _, _, _, _, _, _] V _ = _
  after_results_simp
  rfl

theorem r_iota : after (Val := Elt Ideal) ((s617_632.take 13).take 3) VR (Proc.devRef .tc main_v559)
    = iotaInDim S100000 32 0 := by
  show after (Val := Elt Ideal) [_, _, _] VR _ = _
  after_results

def rdeg (a : IVec S3200000 32) : FVec Ideal S100000 .f32 := rdeg₂ a (iotaInDim S100000 32 0)

def rrows : IVec S3200000 32 :=
  after (Val := Elt Ideal) ((s617_632.take 13).take 3) VR (Proc.devRef .tc main_v561)

-- The reference side as one term: where the degree is positive, the degree to the power minus one half.
theorem r_all :
    after (Val := Elt Ideal) s633_637 (after s617_632 VR) (Proc.devRef .tc main_v574)
      = select
          (cmpf .ogt (rdeg (rrows VR))
            (broadcastInDim S100000 ![] bcast_S_S100000 (constant (F := Ideal) S_ .f32 0x00000000#32)))
          (Host.powf (rdeg (rrows VR))
            (broadcastInDim S100000 ![] bcast_S_S100000 (constant (F := Ideal) S_ .f32 0xBF000000#32)))
          (broadcastInDim S100000 ![] bcast_S_S100000 (constant (F := Ideal) S_ .f32 0x00000000#32)) := by
  rw [r_sel, after_cut 13 s617_632 VR, r_mask, r_keep, after_cut 3 (s617_632.take 13) VR, r_deg, r_iota]
  rfl

end Reference

open scoped BigOperators

theorem rdeg_eq_kdeg (a : IVec Cert.KernelIdeal.S3200000 32) : rdeg a = kdeg a := rfl

-- Every node's degree counts its own loop.
theorem kdeg_ge_one (a : IVec Cert.KernelIdeal.S3200000 32) (i : Fin 100000) :
    ∃ r : ℝ, 1 ≤ r ∧ kdeg a (ix1 i) = (r : EReal) := by
  unfold kdeg kdeg₂
  rw [show Cert.KernelIdeal.scatter_S100000_S3300000x1_S3300000_n_0_0_1
      = Cert.Proof.GS.scat1 100000 3300000 Cert.KernelIdeal.Facts₀.scatter_S100000_S3300000x1_S3300000_n_0_0_1_wf from rfl,
    Cert.Proof.GS.scatterAdd_scat1_apply]
  exact deg_sum_ge_one (by norm_num) rfl Cert.KernelIdeal.Gen.bcast_S_S100000 Cert.KernelIdeal.Gen.bcast_S_S3300000
    Cert.KernelIdeal.Gen.concatenates_S3200000_S100000_S3300000_d0 Cert.KernelIdeal.Gen.bcast_S3300000_S3300000x1_0 a i

theorem rows_agree (VK : Valuation Cert.KernelIdeal.τ Cert.KernelIdeal.sig (Elt Ideal))
    (VR : Valuation Cert.ReferenceIdeal.τ Cert.ReferenceIdeal.sig (Elt Ideal))
    (h : VK (Cert.KernelIdeal.main_arg1 : DevRef _ _) = VR (Cert.ReferenceIdeal.main_arg1 : DevRef _ _)) :
    krows VK = rrows VR := by
  unfold krows rrows
  show (after (Val := Elt Ideal) [_, _, _] VK (Proc.devRef .tc Cert.KernelIdeal.main_v13) : IVec Cert.KernelIdeal.S3200000 32)
    = (after (Val := Elt Ideal) [_, _, _] VR (Proc.devRef .tc Cert.ReferenceIdeal.main_v561) : IVec Cert.KernelIdeal.S3200000 32)
  after_results_simp
  rw [h]
  rfl

variable (VK : Valuation Cert.KernelIdeal.τ Cert.KernelIdeal.sig (Elt Ideal)) (VR : Valuation Cert.ReferenceIdeal.τ Cert.ReferenceIdeal.sig (Elt Ideal))

theorem dis_agree (h : VK (Cert.KernelIdeal.main_arg1 : DevRef _ _) = VR (Cert.ReferenceIdeal.main_arg1 : DevRef _ _)) :
    after (Val := Elt Ideal) Cert.KernelIdeal.Gen.hostOps3_1 (after Cert.KernelIdeal.Gen.hostOps3 VK) (Cert.KernelIdeal.main_v27 : DevRef _ _)
      = after (Val := Elt Ideal) Cert.ReferenceIdeal.Ops.s633_637 (after Cert.ReferenceIdeal.Ops.s617_632 VR) (Cert.ReferenceIdeal.main_v574 : DevRef _ _) := by
  rw [k_all VK, r_all VR, ← rows_agree VK VR h, rdeg_eq_kdeg]
  exact sel_rsqrt_eq_sel_pow Cert.KernelIdeal.Gen.bcast_S_S100000 (kdeg (krows VK)) (kdeg_ge_one (krows VK)) _ _

end Cert.Host

end
-- ==== Proof.Host.Tail.lean ====
import proofs.«401025_j37349035606695_2_alg».proof.Proof.Gen.KernelIdeal.Launch
import proofs.«401025_j37349035606695_2_alg».proof.Proof.RefRun
import Idealize.ShloMosaic.PureOps.Ideal

noncomputable section

namespace Cert.Host

open Idealize.ShloMosaic Idealize.ShloMosaic.TcCoe Idealize.SL.Sem Idealize.ShloMosaic.StableHlo

variable (VK : Valuation Cert.KernelIdeal.τ Cert.KernelIdeal.sig (Elt Ideal)) (VR : Valuation Cert.ReferenceIdeal.τ Cert.ReferenceIdeal.sig (Elt Ideal))

attribute [local irreducible] Host.scatterAdd Host.gather Host.reduceAdd in
set_option maxHeartbeats 4000000 in
-- Both sides run the same operations, with the same constants in the same order, on four arrays that agree.
theorem tail_agree
    (hd : VK (Cert.KernelIdeal.main_v27 : DevRef _ _) = VR (Cert.ReferenceIdeal.main_v574 : DevRef _ _))
    (hr : VK (Cert.KernelIdeal.main_v14 : DevRef _ _) = VR (Cert.ReferenceIdeal.main_v562 : DevRef _ _))
    (hc : VK (Cert.KernelIdeal.main_v17 : DevRef _ _) = VR (Cert.ReferenceIdeal.main_v565 : DevRef _ _))
    (hb : VK (Cert.KernelIdeal.main_v10_2 : DevRef _ _) = VR (Cert.ReferenceIdeal.main_v558 : DevRef _ _)) :
    after (Val := Elt Ideal) Cert.KernelIdeal.Gen.hostOps3_2 VK (Cert.KernelIdeal.main_v226 : DevRef _ _)
        = after (Val := Elt Ideal) (Cert.ReferenceIdeal.Ops.s638_660 ++ Cert.ReferenceIdeal.Ops.s661_720 ++ Cert.ReferenceIdeal.Ops.s721_780 ++ Cert.ReferenceIdeal.Ops.s781_840 ++ Cert.ReferenceIdeal.Ops.s841_897) VR (Cert.ReferenceIdeal.main_v773 : DevRef _ _)
    ∧ after (Val := Elt Ideal) Cert.KernelIdeal.Gen.hostOps3_2 VK (Cert.KernelIdeal.main_v230 : DevRef _ _)
        = after (Val := Elt Ideal) (Cert.ReferenceIdeal.Ops.s638_660 ++ Cert.ReferenceIdeal.Ops.s661_720 ++ Cert.ReferenceIdeal.Ops.s721_780 ++ Cert.ReferenceIdeal.Ops.s781_840 ++ Cert.ReferenceIdeal.Ops.s841_897) VR (Cert.ReferenceIdeal.main_v777 : DevRef _ _) := by
  rw [Cert.ReferenceIdeal.Ops.after_append, Cert.ReferenceIdeal.Ops.after_append, Cert.ReferenceIdeal.Ops.after_append,
    Cert.ReferenceIdeal.Ops.after_append]
  constructor <;> (after_results_simp; rw [hd, hr, hc, hb]; rfl)

end Cert.Host

end
-- ==== Proof.Asm.Final.lean ====
import proofs.«401025_j37349035606695_2_alg».proof.Proof.KRun
import proofs.«401025_j37349035606695_2_alg».proof.Proof.Asm.KKeeps
import proofs.«401025_j37349035606695_2_alg».proof.Proof.Asm.RefChain
import proofs.«401025_j37349035606695_2_alg».proof.Proof.Enc.K0
import proofs.«401025_j37349035606695_2_alg».proof.Proof.Enc.K1
import proofs.«401025_j37349035606695_2_alg».proof.Proof.Enc.K2
import proofs.«401025_j37349035606695_2_alg».proof.Proof.Ref.Enc
import proofs.«401025_j37349035606695_2_alg».proof.Proof.Ref.Layers
import proofs.«401025_j37349035606695_2_alg».proof.Proof.Ref.Epi
import proofs.«401025_j37349035606695_2_alg».proof.Proof.Host.Lockstep
import proofs.«401025_j37349035606695_2_alg».proof.Proof.Host.Dis
import proofs.«401025_j37349035606695_2_alg».proof.Proof.Host.Tail

noncomputable section

namespace Cert.Asm

open Idealize.ShloMosaic Idealize.ShloMosaic.TcCoe Idealize.SL.Sem Idealize.ShloMosaic.StableHlo Idealize.ShloMosaic.ValueIdx Cert.Spec
open Cert.KernelIdeal.Gen (W0 V0 W1 W3 V3 W4 W6 V6 W7 W8 W9 W10)
open Cert.ReferenceIdeal.Ops (St args_kept)

/-- A stretch that leaves `flowZ` / `flowLd` of the pair it finds, under parameter arrays equal to `x0 ap bp`, leaves `layer` of that pair. -/
theorem pair_eq {x0 x0' : A3 10 8 16} {ap ap' bp bp' : A2 10 8} (h : x0' = x0 ∧ ap' = ap ∧ bp' = bp) (cc : Fin 8) (l : Fin 10)
    {z zo : Fin 16 → EReal} {ld ldo : EReal}
    (hz : ∀ k, zo k = flowZ (aE (ap' (ix2 l cc))) (bE (ap' (ix2 l cc)) (bp' (ix2 l cc))) (fun j => x0' (ix3 l cc j)) z k)
    (hld : ldo = flowLd (aE (ap' (ix2 l cc))) (bE (ap' (ix2 l cc)) (bp' (ix2 l cc))) (fun j => x0' (ix3 l cc j)) z ld) :
    (zo, ldo) = layer x0 ap bp cc l (z, ld) := by
  obtain ⟨rfl, rfl, rfl⟩ := h
  exact Prod.ext (funext hz) hld

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The reference's launch contents on the device. -/
abbrev VR : Valuation Cert.ReferenceIdeal.τ Cert.ReferenceIdeal.sig (Elt Ideal) := launchContents m' c

/-- The reference's ten radial layers, for one node and one class: from the latent row and a zero log-determinant. -/
theorem ref_flow (n : Fin 100000) (cc : Fin 8) :
    ((fun k : Fin 16 => St (VR m' c) 15 (Proc.devRef .tc Cert.ReferenceIdeal.main_v513) (ix3 n cc k)), St (VR m' c) 15 (Proc.devRef .tc Cert.ReferenceIdeal.main_v534) (ix2 n cc))
      = flowAll (VR m' c (Proc.devRef .tc Cert.ReferenceIdeal.main_arg12)) (VR m' c (Proc.devRef .tc Cert.ReferenceIdeal.main_arg13)) (VR m' c (Proc.devRef .tc Cert.ReferenceIdeal.main_arg14)) cc
          (fun k => St (VR m' c) 5 (Proc.devRef .tc Cert.ReferenceIdeal.main_v51) (ix2 n k)) := by
  have A : ∀ k, St (VR m' c) k (Proc.devRef .tc Cert.ReferenceIdeal.main_arg12) = VR m' c (Proc.devRef .tc Cert.ReferenceIdeal.main_arg12)
      ∧ St (VR m' c) k (Proc.devRef .tc Cert.ReferenceIdeal.main_arg13) = VR m' c (Proc.devRef .tc Cert.ReferenceIdeal.main_arg13)
      ∧ St (VR m' c) k (Proc.devRef .tc Cert.ReferenceIdeal.main_arg14) = VR m' c (Proc.devRef .tc Cert.ReferenceIdeal.main_arg14) :=
    fun k => ⟨args_kept _ _ (by simp) k, args_kept _ _ (by simp) k, args_kept _ _ (by simp) k⟩
  unfold flowAll
  exact (pair_eq (A 14) cc 0 (Cert.ReferenceIdeal.Val.ref_layer0_zz (St (VR m' c) 14) n cc) (Cert.ReferenceIdeal.Val.ref_layer0_ld (St (VR m' c) 14) n cc)).trans (congrArg _
    ((pair_eq (A 13) cc 1 (Cert.ReferenceIdeal.Val.ref_layer1_zz (St (VR m' c) 13) n cc) (Cert.ReferenceIdeal.Val.ref_layer1_ld (St (VR m' c) 13) n cc)).trans (congrArg _
    ((pair_eq (A 12) cc 2 (Cert.ReferenceIdeal.Val.ref_layer2_zz (St (VR m' c) 12) n cc) (Cert.ReferenceIdeal.Val.ref_layer2_ld (St (VR m' c) 12) n cc)).trans (congrArg _
    ((pair_eq (A 11) cc 3 (Cert.ReferenceIdeal.Val.ref_layer3_zz (St (VR m' c) 11) n cc) (Cert.ReferenceIdeal.Val.ref_layer3_ld (St (VR m' c) 11) n cc)).trans (congrArg _
    ((pair_eq (A 10) cc 4 (Cert.ReferenceIdeal.Val.ref_layer4_zz (St (VR m' c) 10) n cc) (Cert.ReferenceIdeal.Val.ref_layer4_ld (St (VR m' c) 10) n cc)).trans (congrArg _
    ((pair_eq (A 9) cc 5 (Cert.ReferenceIdeal.Val.ref_layer5_zz (St (VR m' c) 9) n cc) (Cert.ReferenceIdeal.Val.ref_layer5_ld (St (VR m' c) 9) n cc)).trans (congrArg _
    ((pair_eq (A 8) cc 6 (Cert.ReferenceIdeal.Val.ref_layer6_zz (St (VR m' c) 8) n cc) (Cert.ReferenceIdeal.Val.ref_layer6_ld (St (VR m' c) 8) n cc)).trans (congrArg _
    ((pair_eq (A 7) cc 7 (Cert.ReferenceIdeal.Val.ref_layer7_zz (St (VR m' c) 7) n cc) (Cert.ReferenceIdeal.Val.ref_layer7_ld (St (VR m' c) 7) n cc)).trans (congrArg _
    ((pair_eq (A 6) cc 8 (Cert.ReferenceIdeal.Val.ref_layer8_zz (St (VR m' c) 6) n cc) (Cert.ReferenceIdeal.Val.ref_layer8_ld (St (VR m' c) 6) n cc)).trans (congrArg _
    (pair_eq (A 5) cc 9 (Cert.ReferenceIdeal.Val.ref_layer9_zz (St (VR m' c) 5) n cc) (Cert.ReferenceIdeal.Val.ref_layer9_ld (St (VR m' c) 5) n cc)))))))))))))))))))

/-- From launch memories that agree on the seventeen arguments, the five results agree: each kernel region computes the array
    the reference's stretch computes, and the host stretches in between are the same operations. -/
theorem results_agree
    (h : VR m' c (Proc.devRef .tc Cert.ReferenceIdeal.main_arg0) = W0 m ρ c (Proc.devRef .tc Cert.KernelIdeal.main_arg0)
      ∧ VR m' c (Proc.devRef .tc Cert.ReferenceIdeal.main_arg1) = W0 m ρ c (Proc.devRef .tc Cert.KernelIdeal.main_arg1)
      ∧ VR m' c (Proc.devRef .tc Cert.ReferenceIdeal.main_arg2) = W0 m ρ c (Proc.devRef .tc Cert.KernelIdeal.main_arg2)
      ∧ VR m' c (Proc.devRef .tc Cert.ReferenceIdeal.main_arg3) = W0 m ρ c (Proc.devRef .tc Cert.KernelIdeal.main_arg3)
      ∧ VR m' c (Proc.devRef .tc Cert.ReferenceIdeal.main_arg4) = W0 m ρ c (Proc.devRef .tc Cert.KernelIdeal.main_arg4)
      ∧ VR m' c (Proc.devRef .tc Cert.ReferenceIdeal.main_arg5) = W0 m ρ c (Proc.devRef .tc Cert.KernelIdeal.main_arg5)
      ∧ VR m' c (Proc.devRef .tc Cert.ReferenceIdeal.main_arg6) = W0 m ρ c (Proc.devRef .tc Cert.KernelIdeal.main_arg6)
      ∧ VR m' c (Proc.devRef .tc Cert.ReferenceIdeal.main_arg7) = W0 m ρ c (Proc.devRef .tc Cert.KernelIdeal.main_arg7)
      ∧ VR m' c (Proc.devRef .tc Cert.ReferenceIdeal.main_arg8) = W0 m ρ c (Proc.devRef .tc Cert.KernelIdeal.main_arg8)
      ∧ VR m' c (Proc.devRef .tc Cert.ReferenceIdeal.main_arg9) = W0 m ρ c (Proc.devRef .tc Cert.KernelIdeal.main_arg9)
      ∧ VR m' c (Proc.devRef .tc Cert.ReferenceIdeal.main_arg10) = W0 m ρ c (Proc.devRef .tc Cert.KernelIdeal.main_arg10)
      ∧ VR m' c (Proc.devRef .tc Cert.ReferenceIdeal.main_arg11) = W0 m ρ c (Proc.devRef .tc Cert.KernelIdeal.main_arg11)
      ∧ VR m' c (Proc.devRef .tc Cert.ReferenceIdeal.main_arg12) = W0 m ρ c (Proc.devRef .tc Cert.KernelIdeal.main_arg12)
      ∧ VR m' c (Proc.devRef .tc Cert.ReferenceIdeal.main_arg13) = W0 m ρ c (Proc.devRef .tc Cert.KernelIdeal.main_arg13)
      ∧ VR m' c (Proc.devRef .tc Cert.ReferenceIdeal.main_arg14) = W0 m ρ c (Proc.devRef .tc Cert.KernelIdeal.main_arg14)
      ∧ VR m' c (Proc.devRef .tc Cert.ReferenceIdeal.main_arg15) = W0 m ρ c (Proc.devRef .tc Cert.KernelIdeal.main_arg15)
      ∧ VR m' c (Proc.devRef .tc Cert.ReferenceIdeal.main_arg16) = W0 m ρ c (Proc.devRef .tc Cert.KernelIdeal.main_arg16)) :
    W10 m ρ c (Proc.devRef .tc Cert.KernelIdeal.main_v226) = St (VR m' c) 19 (Proc.devRef .tc Cert.ReferenceIdeal.main_v773)
    ∧ W10 m ρ c (Proc.devRef .tc Cert.KernelIdeal.main_v230) = St (VR m' c) 19 (Proc.devRef .tc Cert.ReferenceIdeal.main_v777)
    ∧ W10 m ρ c (Proc.devRef .tc Cert.KernelIdeal.main_v10_0) = St (VR m' c) 19 (Proc.devRef .tc Cert.ReferenceIdeal.main_v51)
    ∧ W10 m ρ c (Proc.devRef .tc Cert.KernelIdeal.main_v10_2) = St (VR m' c) 19 (Proc.devRef .tc Cert.ReferenceIdeal.main_v558)
    ∧ W10 m ρ c (Proc.devRef .tc Cert.KernelIdeal.main_v10_1) = St (VR m' c) 19 (Proc.devRef .tc Cert.ReferenceIdeal.main_v554) := by
  obtain ⟨h0, h1, h2, h3, h4, h5, h6, h7, h8, h9, h10, h11, h12, h13, h14, h15, h16⟩ := h
  have RA := fun r hr k => args_kept (VR m' c) r hr k
  have K3 := Cert.KernelIdeal.Gen.W3_arg m ρ c
  have K6 := Cert.KernelIdeal.Gen.W6_arg m ρ c
  have e0 : W1 m ρ c (Proc.devRef .tc Cert.KernelIdeal.main_v0) = St (VR m' c) 1 (Proc.devRef .tc Cert.ReferenceIdeal.main_v3) := by
    refine ((Cert.KernelIdeal.Gen.W1_arr m ρ c 3).trans (Cert.KernelIdeal.Gen.Enc.region0_pre1 (V0 m ρ) c)).trans ?_
    refine Eq.trans ?_ (Cert.ReferenceIdeal.Val.ref_pre1 (VR m' c)).symm
    rw [h0, h2, h3]
  have e1 := Cert.Host.stats1_agree (W1 m ρ c) (St (VR m' c) 1) e0
  have e2 : W4 m ρ c (Proc.devRef .tc Cert.KernelIdeal.main_v5) = St (VR m' c) 3 (Proc.devRef .tc Cert.ReferenceIdeal.main_v27) := by
    refine ((Cert.KernelIdeal.Gen.W4_arr m ρ c 7).trans (Cert.KernelIdeal.Gen.Enc.region1_pre2 (V3 m ρ) c)).trans ?_
    refine Eq.trans ?_ (Cert.ReferenceIdeal.Val.ref_pre2 (St (VR m' c) 2)).symm
    have a0 : V3 m ρ c Cert.KernelIdeal.main_v0 = St (VR m' c) 2 (Proc.devRef .tc Cert.ReferenceIdeal.main_v3) :=
      ((Cert.KernelIdeal.Gen.W3_of_keeps m ρ c Cert.KernelIdeal.main_v0 (by simp)).trans e0).trans (Cert.ReferenceIdeal.Ops.pre1_kept (VR m' c)).symm
    rw [a0, show V3 m ρ c Cert.KernelIdeal.main_v3 = _ from e1.1, show V3 m ρ c Cert.KernelIdeal.main_v4 = _ from e1.2,
      show V3 m ρ c Cert.KernelIdeal.main_arg4 = _ from K3 _ (by simp), show V3 m ρ c Cert.KernelIdeal.main_arg5 = _ from K3 _ (by simp),
      show V3 m ρ c Cert.KernelIdeal.main_arg6 = _ from K3 _ (by simp), show V3 m ρ c Cert.KernelIdeal.main_arg7 = _ from K3 _ (by simp),
      RA Cert.ReferenceIdeal.main_arg4 (by simp) 2, RA Cert.ReferenceIdeal.main_arg5 (by simp) 2, RA Cert.ReferenceIdeal.main_arg6 (by simp) 2, RA Cert.ReferenceIdeal.main_arg7 (by simp) 2, h4, h5, h6, h7]
    rfl
  have e3 := Cert.Host.stats2_agree (W4 m ρ c) (St (VR m' c) 3) e2
  have a5 : V6 m ρ c Cert.KernelIdeal.main_v5 = St (VR m' c) 4 (Proc.devRef .tc Cert.ReferenceIdeal.main_v27) :=
    ((Cert.KernelIdeal.Gen.W6_of_keeps m ρ c Cert.KernelIdeal.main_v5 (by simp)).trans e2).trans (Cert.ReferenceIdeal.Ops.pre2_kept (VR m' c)).symm
  have zK : bnLinear (V6 m ρ c Cert.KernelIdeal.main_v5) (V6 m ρ c Cert.KernelIdeal.main_v8) (V6 m ρ c Cert.KernelIdeal.main_v9) (V6 m ρ c Cert.KernelIdeal.main_arg8) (V6 m ρ c Cert.KernelIdeal.main_arg9) (V6 m ρ c Cert.KernelIdeal.main_arg10) (V6 m ρ c Cert.KernelIdeal.main_arg11)
      = St (VR m' c) 5 (Proc.devRef .tc Cert.ReferenceIdeal.main_v51) := by
    refine Eq.trans ?_ (Cert.ReferenceIdeal.Val.ref_z (St (VR m' c) 4)).symm
    rw [a5, show V6 m ρ c Cert.KernelIdeal.main_v8 = _ from e3.1, show V6 m ρ c Cert.KernelIdeal.main_v9 = _ from e3.2,
      show V6 m ρ c Cert.KernelIdeal.main_arg8 = _ from K6 _ (by simp), show V6 m ρ c Cert.KernelIdeal.main_arg9 = _ from K6 _ (by simp),
      show V6 m ρ c Cert.KernelIdeal.main_arg10 = _ from K6 _ (by simp), show V6 m ρ c Cert.KernelIdeal.main_arg11 = _ from K6 _ (by simp),
      RA Cert.ReferenceIdeal.main_arg8 (by simp) 4, RA Cert.ReferenceIdeal.main_arg9 (by simp) 4, RA Cert.ReferenceIdeal.main_arg10 (by simp) 4, RA Cert.ReferenceIdeal.main_arg11 (by simp) 4, h8, h9, h10, h11]
    rfl
  have e4z : W7 m ρ c (Proc.devRef .tc Cert.KernelIdeal.main_v10_0) = St (VR m' c) 5 (Proc.devRef .tc Cert.ReferenceIdeal.main_v51) :=
    ((Cert.KernelIdeal.Gen.W7_arr m ρ c 12).trans (Cert.KernelIdeal.Gen.Enc.region2_z (V6 m ρ) c)).trans zK
  have qR : St (VR m' c) 16 (Proc.devRef .tc Cert.ReferenceIdeal.main_v554) = logq (St (VR m' c) 5 (Proc.devRef .tc Cert.ReferenceIdeal.main_v51)) (VR m' c (Proc.devRef .tc Cert.ReferenceIdeal.main_arg12)) (VR m' c (Proc.devRef .tc Cert.ReferenceIdeal.main_arg13)) (VR m' c (Proc.devRef .tc Cert.ReferenceIdeal.main_arg14)) (VR m' c (Proc.devRef .tc Cert.ReferenceIdeal.main_arg15)) (VR m' c (Proc.devRef .tc Cert.ReferenceIdeal.main_arg16)) := by
    funext i
    obtain ⟨n, cc, rfl⟩ : ∃ (n : Fin 100000) (cc : Fin 8), i = ix2 n cc := ⟨i 0, i 1, eq_ix2 i⟩
    refine (Cert.ReferenceIdeal.Val.ref_logq (St (VR m' c) 15) n cc).trans ?_
    rw [ref_flow m' c n cc, RA Cert.ReferenceIdeal.main_arg15 (by simp) 15, RA Cert.ReferenceIdeal.main_arg16 (by simp) 15]
    rfl
  have bR : St (VR m' c) 16 (Proc.devRef .tc Cert.ReferenceIdeal.main_v558) = bft (St (VR m' c) 16 (Proc.devRef .tc Cert.ReferenceIdeal.main_v554)) := by
    funext i
    obtain ⟨n, cc, rfl⟩ : ∃ (n : Fin 100000) (cc : Fin 8), i = ix2 n cc := ⟨i 0, i 1, eq_ix2 i⟩
    exact Cert.ReferenceIdeal.Val.ref_bft (St (VR m' c) 15) n cc
  have qK : logq (bnLinear (V6 m ρ c Cert.KernelIdeal.main_v5) (V6 m ρ c Cert.KernelIdeal.main_v8) (V6 m ρ c Cert.KernelIdeal.main_v9) (V6 m ρ c Cert.KernelIdeal.main_arg8) (V6 m ρ c Cert.KernelIdeal.main_arg9) (V6 m ρ c Cert.KernelIdeal.main_arg10) (V6 m ρ c Cert.KernelIdeal.main_arg11))
        (V6 m ρ c Cert.KernelIdeal.main_arg12) (V6 m ρ c Cert.KernelIdeal.main_arg13) (V6 m ρ c Cert.KernelIdeal.main_arg14) (V6 m ρ c Cert.KernelIdeal.main_arg15) (V6 m ρ c Cert.KernelIdeal.main_arg16)
      = St (VR m' c) 16 (Proc.devRef .tc Cert.ReferenceIdeal.main_v554) := by
    rw [zK, qR, show V6 m ρ c Cert.KernelIdeal.main_arg12 = _ from K6 _ (by simp), show V6 m ρ c Cert.KernelIdeal.main_arg13 = _ from K6 _ (by simp),
      show V6 m ρ c Cert.KernelIdeal.main_arg14 = _ from K6 _ (by simp), show V6 m ρ c Cert.KernelIdeal.main_arg15 = _ from K6 _ (by simp),
      show V6 m ρ c Cert.KernelIdeal.main_arg16 = _ from K6 _ (by simp), h12, h13, h14, h15, h16]
  have e4q : W7 m ρ c (Proc.devRef .tc Cert.KernelIdeal.main_v10_1) = St (VR m' c) 16 (Proc.devRef .tc Cert.ReferenceIdeal.main_v554) :=
    ((Cert.KernelIdeal.Gen.W7_arr m ρ c 13).trans (Cert.KernelIdeal.Gen.Enc.region2_logq (V6 m ρ) c)).trans qK
  have e4b : W7 m ρ c (Proc.devRef .tc Cert.KernelIdeal.main_v10_2) = St (VR m' c) 16 (Proc.devRef .tc Cert.ReferenceIdeal.main_v558) := by
    refine ((Cert.KernelIdeal.Gen.W7_arr m ρ c 14).trans (Cert.KernelIdeal.Gen.Enc.region2_bft (V6 m ρ) c)).trans ?_
    rw [qK, bR]
  have hE : W7 m ρ c (Proc.devRef .tc Cert.KernelIdeal.main_arg1) = St (VR m' c) 16 (Proc.devRef .tc Cert.ReferenceIdeal.main_arg1) :=
    ((Cert.KernelIdeal.Gen.W7_of_ne m ρ c Cert.KernelIdeal.main_arg1 (by decide)).trans (K6 _ (by simp))).trans (h1.symm.trans (RA Cert.ReferenceIdeal.main_arg1 (by simp) 16).symm)
  have e5 := Cert.Host.edges_agree (W7 m ρ c) (St (VR m' c) 16) hE
  have e6 := Cert.Host.dis_agree (W7 m ρ c) (St (VR m' c) 16) hE
  have m31 := Cert.KernelIdeal.Gen.hostOps3_1_keeps (W8 m ρ c)
  have rk := Cert.ReferenceIdeal.Ops.rows_kept (VR m' c)
  have e7 := Cert.Host.tail_agree (W9 m ρ c) (St (VR m' c) 18) e6
    ((m31 _ (by simp)).trans (e5.1.trans (rk Cert.ReferenceIdeal.main_v562 (by simp)).symm))
    ((m31 _ (by simp)).trans (e5.2.trans (rk Cert.ReferenceIdeal.main_v565 (by simp)).symm))
    ((m31 _ (by simp)).trans ((Cert.KernelIdeal.Gen.hostOps3_keeps _ Cert.KernelIdeal.main_v10_2 (by simp)).trans
      (e4b.trans ((Cert.ReferenceIdeal.Ops.evidence_kept7 (VR m' c)).symm.trans (rk Cert.ReferenceIdeal.main_v558 (by simp)).symm))))
  have kw := Cert.KernelIdeal.Gen.W10_of_keeps m ρ c
  exact ⟨e7.1, e7.2, (kw _ (by simp)).trans (e4z.trans (Cert.ReferenceIdeal.Ops.z_kept (VR m' c)).symm),
    (kw _ (by simp)).trans (e4b.trans (Cert.ReferenceIdeal.Ops.logq_kept (VR m' c) _ (by simp)).symm),
    (kw _ (by simp)).trans (e4q.trans (Cert.ReferenceIdeal.Ops.logq_kept (VR m' c) _ (by simp)).symm)⟩

end Cert.Asm

end
-- ==== Proof.lean ====
import proofs.«401025_j37349035606695_2_alg».proof.Defs
import proofs.«401025_j37349035606695_2_alg».proof.Proof.Gen.Kernel
import proofs.«401025_j37349035606695_2_alg».proof.Proof.Gen.Kernel.Frame
import proofs.«401025_j37349035606695_2_alg».proof.Proof.Gen.KernelIdeal
import proofs.«401025_j37349035606695_2_alg».proof.Proof.Gen.KernelIdeal.Frame
import proofs.«401025_j37349035606695_2_alg».proof.Proof.Gen.ReferenceIdeal
import proofs.«401025_j37349035606695_2_alg».proof.Proof.Gen.Pre_finite_inputs
import proofs.«401025_j37349035606695_2_alg».proof.Proof.KRun
import proofs.«401025_j37349035606695_2_alg».proof.Proof.RefRun
import proofs.«401025_j37349035606695_2_alg».proof.Proof.Asm.RefChain
import proofs.«401025_j37349035606695_2_alg».proof.Proof.Asm.Final
import Idealize.ShloMosaic.Adequacy
import Idealize.ShloMosaic.Init

noncomputable section

namespace Cert.Proof

open Idealize.ShloMosaic Idealize.ShloMosaic.TcCoe Idealize.SL.Sem Idealize.ShloMosaic.StableHlo
open Cert.ReferenceIdeal.Ops (St args args_kept after_ops_eq run_main)

theorem frame_k : Cert.frame_Kernel := fun m ρ _ => Cert.Kernel.Gen.frame m ρ

theorem frame_ki : Cert.frame_KernelIdeal := fun m ρ _ => Cert.KernelIdeal.Gen.frame m ρ

/-- The reference terminates without a fault, every buffer at the contents its last stretch leaves, every argument as launched. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      (∀ b : Ref Cert.ReferenceIdeal.sig .tc, r.2.mem ((c.tc : Thread Cert.ReferenceIdeal.nD Cert.ReferenceIdeal.τ).loc b) = St (launchContents m c) 19 (Proc.devRef .tc b))
      ∧ ∀ b ∈ args, r.2.mem ((c.tc : Thread Cert.ReferenceIdeal.nD Cert.ReferenceIdeal.τ).loc b) = m ((c.tc : Thread Cert.ReferenceIdeal.nD Cert.ReferenceIdeal.τ).loc b) :=
  (θ_run Cert.ReferenceIdeal.defs _ _).mono (fun r h c =>
    ⟨fun b => (h c b).trans (congrFun (after_ops_eq _) _),
     fun b hb => (h c b).trans ((congrFun (after_ops_eq _) _).trans (args_kept _ b hb 19))⟩) (run_main (F := Ideal) m ρ)

theorem frame_ri : Cert.frame_ReferenceIdeal := fun m ρ _ =>
  (θ_run Cert.ReferenceIdeal.defs _ _).mono (fun r h c => by
    simpa only [args, List.forall_mem_cons, List.not_mem_nil, false_imp_iff, implies_true, and_true] using (h c).2) (ref_run m ρ)

/-- Both programs run; the five results agree, the arguments are as launched. -/
theorem algebraic : Cert.algebraic_KernelIdeal_ReferenceIdeal := by
  intro m ρ m' ρ' _ hag
  have H := fun c => Cert.Asm.results_agree m ρ m' c (hag c)
  refine ⟨fun c => Cert.KernelIdeal.Gen.W10 m ρ c (Proc.devRef .tc Cert.KernelIdeal.main_v226),
    fun c => Cert.KernelIdeal.Gen.W10 m ρ c (Proc.devRef .tc Cert.KernelIdeal.main_v230),
    fun c => Cert.KernelIdeal.Gen.W10 m ρ c (Proc.devRef .tc Cert.KernelIdeal.main_v10_0),
    fun c => Cert.KernelIdeal.Gen.W10 m ρ c (Proc.devRef .tc Cert.KernelIdeal.main_v10_2),
    fun c => Cert.KernelIdeal.Gen.W10 m ρ c (Proc.devRef .tc Cert.KernelIdeal.main_v10_1),
    Cert.KernelIdeal.Gen.run_results m ρ, ?_⟩
  refine (θ_run Cert.ReferenceIdeal.defs _ _).mono (fun r h c => ?_) (ref_run m' ρ')
  exact ⟨((h c).1 _).trans (H c).1.symm, ((h c).1 _).trans (H c).2.1.symm, ((h c).1 _).trans (H c).2.2.1.symm,
    ((h c).1 _).trans (H c).2.2.2.1.symm, ((h c).1 _).trans (H c).2.2.2.2.symm,
    by simpa only [args, List.forall_mem_cons, List.not_mem_nil, false_imp_iff, implies_true, and_true] using (h c).2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
